-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S896x128 : Shape := ⟨2, ![896, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S896x128 : S_.BroadcastsInDim S896x128 (![] : Fin 0 → Fin S896x128.rank)
  reducesTo_S896x128_S_d0_1 : S896x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S896x128 .f32) (main_arg10 : FVec F S128 .f32) (main_arg11 : FVec F S128x128 .f32) (main_arg12 : FVec F S128 .f32) (main_v33 : IVec S_ 1) : IVec S_ 1 :=
  let main_v34 : FVec F S896x128 .f32 := Host.absf main_arg9
  let main_cst_12 : FVec F S_ .f32 := constant S_ .f32 0x7F800000#32
  let main_v35 : FVec F S896x128 .f32 := broadcastInDim S896x128 ![] bcast_S_S896x128 main_cst_12
  let main_v36 : IVec S896x128 1 := cmpf .olt main_v34 main_v35
  let main_c_13 : IVec S_ 1 := constantI S_ 1 1#1
  let main_v37 : IVec S_ 1 := (fun x v => Host.reduce IntOp.andi x v reducesTo_S896x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S6x128 .f32) (main_arg7 : FVec F S6x128x128 .f32) (main_arg8 : FVec F S6x128 .f32) (main_arg9 : FVec F S896x128 .f32) (main_arg10 : FVec F S128 .f32) (main_arg11 : FVec F S128x128 .f32) (main_arg12 : FVec F S128 .f32) (main_v13 : IVec S_ 1) (main_v16 : IVec S6x128x128 1) : IVec S_ 1 :=
  let main_c_5 : IVec S_ 1 := constantI S_ 1 1#1
  let main_v17 : IVec S_ 1 := (fun x v => Host.reduce IntOp.andi x v reducesTo_S6x128x128_S_d0_1_2 h_S_) main_v16 main_c_5
  let main_v18 : IVec S_ 1 := andi main_v13 main_v17
  let main_v19 : FVec F S6x128 .f32 := Host.absf main_arg6
  let main_cst_6 : FVec F S_ .f32 := constant S_ .f32 0x7F800000#32
  let main_v20 : FVec F S6x128 .f32 := broadcastInDim S6x128 ![] bcast_S_S6x128 main_cst_6
  let main_v21 : IVec S6x128 1 := cmpf .olt main_v19 main_v20
  let main_c_7 : IVec S_ 1 := constantI S_ 1 1#1
  let main_v22 : IVec S_ 1 := (fun x v => Host.reduce IntOp.andi x v reducesTo_S6x128_S_d0_1 h_S_) main_v21 main_c_7
  let main_v23 : IVec S_ 1 := andi main_v18 main_v22
  let main_v24 : FVec F S6x128x128 .f32 := Host.absf main_arg7
  let main_cst_8 : FVec F S_ .f32 := constant S_ .f32 0x7F800000#32
  let main_v25 : FVec F S6x128x128 .f32 := broadcastInDim S6x128x128 ![] bcast_S_S6x128x128 main_cst_8
  let main_v26 : IVec S6x128x128 1 := cmpf .olt main_v24 main_v25
  let main_c_9 : IVec S_ 1 := constantI S_ 1 1#1
  let main_v27 : IVec S_ 1 := (fun x v => Host.reduce IntOp.andi x v reducesTo_S6x128x128_S_d0_1_2 h_S_) main_v26 main_c_9
  let main_v28 : IVec S_ 1 := andi main_v23 main_v27
  let main_v29 : FVec F S6x128 .f32 := Host.absf main_arg8
  let main_cst_10 : FVec F S_ .f32 := constant S_ .f32 0x7F800000#32
  let main_v30 : FVec F S6x128 .f32 := broadcastInDim S6x128 ![] bcast_S_S6x128 main_cst_10
  let main_v31 : IVec S6x128 1 := cmpf .olt main_v29 main_v30
  let main_c_11 : IVec S_ 1 := constantI S_ 1 1#1
  let main_v32 : IVec S_ 1 := (fun x v => Host.reduce IntOp.andi x v reducesTo_S6x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S6x128x128 .f32) (main_arg6 : FVec F S6x128 .f32) (main_arg7 : FVec F S6x128x128 .f32) (main_arg8 : FVec F S6x128 .f32) (main_arg9 : FVec F S896x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S6x128x128 .f32 := Host.absf main_arg5
  let main_cst_4 : FVec F S_ .f32 := constant S_ .f32 0x7F800000#32
  let main_v15 : FVec F S6x128x128 .f32 := broadcastInDim S6x128x128 ![] bcast_S_S6x128x128 main_cst_4
  let main_v16 : IVec S6x128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S896x128 : Shape := ⟨2, ![896, 128]⟩
abbrev S1x800000 : Shape := ⟨2, ![1, 800000]⟩
abbrev S800000 : Shape := ⟨1, ![800000]⟩
abbrev S50000x1 : Shape := ⟨2, ![50000, 1]⟩
abbrev S1x128 : Shape := ⟨2, ![1, 128]⟩
abbrev S1000x128 : Shape := ⟨2, ![1000, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1000x1 : Shape := ⟨2, ![1000, 1]⟩
abbrev S128x896 : Shape := ⟨2, ![128, 896]⟩
abbrev S1000x896 : Shape := ⟨2, ![1000, 896]⟩

abbrev nBuf : Space → Nat
  | .hbm => 173
  | .vmem => 112
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S6x128x128, .f32⟩
  | 6 => ⟨S6x128, .f32⟩
  | 7 => ⟨S6x128x128, .f32⟩
  | 8 => ⟨S6x128, .f32⟩
  | 9 => ⟨S896x128, .f32⟩
  | 10 => ⟨S128, .f32⟩
  | 11 => ⟨S128x128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S50000x1, .i32⟩
  | 18 => ⟨S1x128, .f32⟩
  | 19 => ⟨S50000x128, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S1x128x128, .f32⟩
  | 34 => ⟨S128x128, .f32⟩
  | 35 => ⟨S1x128, .f32⟩
  | 36 => ⟨S128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S1x128, .f32⟩
  | 43 => ⟨S50000x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S1x128x128, .f32⟩
  | 59 => ⟨S128x128, .f32⟩
  | 60 => ⟨S1x128, .f32⟩
  | 61 => ⟨S128, .f32⟩
  | 62 => ⟨S1x128x128, .f32⟩
  | 63 => ⟨S128x128, .f32⟩
  | 64 => ⟨S1x128, .f32⟩
  | 65 => ⟨S128, .f32⟩
  | 66 => ⟨S1x128, .f32⟩
  | 67 => ⟨S1x128, .f32⟩
  | 68 => ⟨S50000x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S1x128x128, .f32⟩
  | 84 => ⟨S128x128, .f32⟩
  | 85 => ⟨S1x128, .f32⟩
  | 86 => ⟨S128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S1x128, .f32⟩
  | 93 => ⟨S50000x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S1x128x128, .f32⟩
  | 109 => ⟨S128x128, .f32⟩
  | 110 => ⟨S1x128, .f32⟩
  | 111 => ⟨S128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S1x128, .f32⟩
  | 118 => ⟨S50000x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S1x128x128, .f32⟩
  | 6 => ⟨S128x128, .f32⟩
  | 7 => ⟨S1x128, .f32⟩
  | 8 => ⟨S128, .f32⟩
  | 9 => ⟨S1x128x128, .f32⟩
  | 10 => ⟨S128x128, .f32⟩
  | 11 => ⟨S1x128, .f32⟩
  | 12 => ⟨S128, .f32⟩
  | 13 => ⟨S1x128, .f32⟩
  | 14 => ⟨S1x128, .f32⟩
  | 15 => ⟨S50000x128, .f32⟩
  | 16 => ⟨S50000x128, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S1x128x128, .f32⟩
  | 31 => ⟨S128x128, .f32⟩
  | 32 => ⟨S1x128, .f32⟩
  | 33 => ⟨S128, .f32⟩
  | 34 => ⟨S1x128x128, .f32⟩
  | 35 => ⟨S128x128, .f32⟩
  | 36 => ⟨S1x128, .f32⟩
  | 37 => ⟨S128, .f32⟩
  | 38 => ⟨S1x128, .f32⟩
  | 39 => ⟨S1x128, .f32⟩
  | 40 => ⟨S50000x128, .f32⟩
  | 41 => ⟨S50000x128, .f32⟩
  | 42 => ⟨S1x128, .f32⟩
  | 43 => ⟨S1x128, .f32⟩
  | 44 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S1000x128, .f32⟩
  | .local _ .vmem, ⟨33, _⟩ => ⟨S1000x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S1000x128, .f32⟩
  | .local _ .vmem, ⟨43, _⟩ => ⟨S1000x128, .f32⟩
  | .local _ .vmem, ⟨44, _⟩ => ⟨S1000x128, .f32⟩
  | .local _ .vmem, ⟨45, _⟩ => ⟨S1000x128, .f32⟩
  | .local _ .vmem, ⟨46, _⟩ => ⟨S1000x128, .f32⟩
  | .local _ .vmem, ⟨47, _⟩ => ⟨S1000x128, .f32⟩
  | .local _ .vmem, ⟨48, _⟩ => ⟨S1000x128, .f32⟩
  | .local _ .vmem, ⟨49, _⟩ => ⟨S1000x128, .f32⟩
  | .local _ .vmem, ⟨50, _⟩ => ⟨S1000x128, .f32⟩
  | .local _ .vmem, ⟨51, _⟩ => ⟨S1000x128, .f32⟩
  | .local _ .vmem, ⟨52, _⟩ => ⟨S128x128, .f32⟩
  | .local _ .vmem, ⟨53, _⟩ => ⟨S1x128, .f32⟩
  | .local _ .vmem, ⟨54, _⟩ => ⟨S128x128, .f32⟩
  | .local _ .vmem, ⟨55, _⟩ => ⟨S1x128, .f32⟩
  | .local _ .vmem, ⟨56, _⟩ => ⟨S1000x128, .f32⟩
  | .local _ .vmem, ⟨57, _⟩ => ⟨S1000x128, .f32⟩
  | .local _ .vmem, ⟨58, _⟩ => ⟨S1000x128, .f32⟩
  | .local _ .vmem, ⟨59, _⟩ => ⟨S1000x128, .f32⟩
  | .local _ .vmem, ⟨60, _⟩ => ⟨S1000x128, .f32⟩
  | .local _ .vmem, ⟨61, _⟩ => ⟨S1000x128, .f32⟩
  | .local _ .vmem, ⟨62, _⟩ => ⟨S1000x128, .f32⟩
  | .local _ .vmem, ⟨63, _⟩ => ⟨S1000x128, .f32⟩
  | .local _ .vmem, ⟨64, _⟩ => ⟨S1000x128, .f32⟩
  | .local _ .vmem, ⟨65, _⟩ => ⟨S1000x128, .f32⟩
  | .local _ .vmem, ⟨66, _⟩ => ⟨S128x128, .f32⟩
  | .local _ .vmem, ⟨67, _⟩ => ⟨S1x128, .f32⟩
  | .local _ .vmem, ⟨68, _⟩ => ⟨S128x128, .f32⟩
  | .local _ .vmem, ⟨69, _⟩ => ⟨S1x128, .f32⟩
  | .local _ .vmem, ⟨70, _⟩ => ⟨S1000x128, .f32⟩
  | .local _ .vmem, ⟨71, _⟩ => ⟨S1000x128, .f32⟩
  | .local _ .vmem, ⟨72, _⟩ => ⟨S1000x128, .f32⟩
  | .local _ .vmem, ⟨73, _⟩ => ⟨S1000x128, .f32⟩
  | .local _ .vmem, ⟨74, _⟩ => ⟨S1000x128, .f32⟩
  | .local _ .vmem, ⟨75, _⟩ => ⟨S1000x128, .f32⟩
  | .local _ .vmem, ⟨76, _⟩ => ⟨S1000x128, .f32⟩
  | .local _ .vmem, ⟨77, _⟩ => ⟨S1000x128, .f32⟩
  | .local _ .vmem, ⟨78, _⟩ => ⟨S1000x128, .f32⟩
  | .local _ .vmem, ⟨79, _⟩ => ⟨S1000x128, .f32⟩
  | .local _ .vmem, ⟨80, _⟩ => ⟨S128x128, .f32⟩
  | .local _ .vmem, ⟨81, _⟩ => ⟨S1x128, .f32⟩
  | .local _ .vmem, ⟨82, _⟩ => ⟨S128x128, .f32⟩
  | .local _ .vmem, ⟨83, _⟩ => ⟨S1x128, .f32⟩
  | .local _ .vmem, ⟨84, _⟩ => ⟨S1000x128, .f32⟩
  | .local _ .vmem, ⟨85, _⟩ => ⟨S1000x128, .f32⟩
  | .local _ .vmem, ⟨86, _⟩ => ⟨S1000x128, .f32⟩
  | .local _ .vmem, ⟨87, _⟩ => ⟨S1000x128, .f32⟩
  | .local _ .vmem, ⟨88, _⟩ => ⟨S1000x128, .f32⟩
  | .local _ .vmem, ⟨89, _⟩ => ⟨S1000x128, .f32⟩
  | .local _ .vmem, ⟨90, _⟩ => ⟨S1000x128, .f32⟩
  | .local _ .vmem, ⟨91, _⟩ => ⟨S1000x128, .f32⟩
  | .local _ .vmem, ⟨92, _⟩ => ⟨S1000x128, .f32⟩
  | .local _ .vmem, ⟨93, _⟩ => ⟨S1000x128, .f32⟩
  | .local _ .vmem, ⟨94, _⟩ => ⟨S1000x128, .f32⟩
  | .local _ .vmem, ⟨95, _⟩ => ⟨S1000x128, .f32⟩
  | .local _ .vmem, ⟨96, _⟩ => ⟨S1000x128, .f32⟩
  | .local _ .vmem, ⟨97, _⟩ => ⟨S1000x128, .f32⟩
  | .local _ .vmem, ⟨98, _⟩ => ⟨S1000x128, .f32⟩
  | .local _ .vmem, ⟨99, _⟩ => ⟨S1000x128, .f32⟩
  | .local _ .vmem, ⟨100, _⟩ => ⟨S1000x128, .f32⟩
  | .local _ .vmem, ⟨101, _⟩ => ⟨S1000x128, .f32⟩
  | .local _ .vmem, ⟨102, _⟩ => ⟨S1000x128, .f32⟩
  | .local _ .vmem, ⟨103, _⟩ => ⟨S1000x128, .f32⟩
  | .local _ .vmem, ⟨104, _⟩ => ⟨S1000x1, .i32⟩
  | .local _ .vmem, ⟨105, _⟩ => ⟨S1000x1, .i32⟩
  | .local _ .vmem, ⟨106, _⟩ => ⟨S896x128, .f32⟩
  | .local _ .vmem, ⟨107, _⟩ => ⟨S1x128, .f32⟩
  | .local _ .vmem, ⟨108, _⟩ => ⟨S128x128, .f32⟩
  | .local _ .vmem, ⟨109, _⟩ => ⟨S1x128, .f32⟩
  | .local _ .vmem, ⟨110, _⟩ => ⟨S128x128, .f32⟩
  | .local _ .vmem, ⟨111, _⟩ => ⟨S128x896, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | _, _ => false

abbrev semScoped : Fin 0 → Bool
  | ⟨_, h⟩ => absurd h (Nat.not_lt_zero _)

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  ofTc nBuf bufTy 0 111 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_c_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48_0 : Ref sig .tc := ⟨.hbm, 68, rfl⟩
abbrev main_v48_1 : Ref sig .tc := ⟨.hbm, 69, rfl⟩
abbrev main_c_4 : Ref sig .tc := ⟨.hbm, 70, rfl⟩
abbrev main_v49 : Ref sig .tc := ⟨.hbm, 71, rfl⟩
abbrev main_v50 : Ref sig .tc := ⟨.hbm, 72, rfl⟩
abbrev main_c_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_6 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69_0 : Ref sig .tc := ⟨.hbm, 93, rfl⟩
abbrev main_v69_1 : Ref sig .tc := ⟨.hbm, 94, rfl⟩
abbrev main_c_7 : Ref sig .tc := ⟨.hbm, 95, rfl⟩
abbrev main_v70 : Ref sig .tc := ⟨.hbm, 96, rfl⟩
abbrev main_v71 : Ref sig .tc := ⟨.hbm, 97, rfl⟩
abbrev main_c_8 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90_0 : Ref sig .tc := ⟨.hbm, 118, rfl⟩
abbrev main_v90_1 : Ref sig .tc := ⟨.hbm, 119, rfl⟩
abbrev main_c_10 : Ref sig .tc := ⟨.hbm, 120, rfl⟩
abbrev main_v91 : Ref sig .tc := ⟨.hbm, 121, rfl⟩
abbrev main_v92 : Ref sig .tc := ⟨.hbm, 122, rfl⟩
abbrev main_c_11 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_12 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111_0 : Ref sig .tc := ⟨.hbm, 143, rfl⟩
abbrev main_v111_1 : Ref sig .tc := ⟨.hbm, 144, rfl⟩
abbrev main_c_13 : Ref sig .tc := ⟨.hbm, 145, rfl⟩
abbrev main_v112 : Ref sig .tc := ⟨.hbm, 146, rfl⟩
abbrev main_v113 : Ref sig .tc := ⟨.hbm, 147, rfl⟩
abbrev main_c_14 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_15 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132_0 : Ref sig .tc := ⟨.hbm, 168, rfl⟩
abbrev main_v132_1 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc3_stg8_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg6_1 : Ref sig .tc := ⟨.vmem, 57, rfl⟩
abbrev cc4_stg7_0 : Ref sig .tc := ⟨.vmem, 58, rfl⟩
abbrev cc4_stg7_1 : Ref sig .tc := ⟨.vmem, 59, rfl⟩
abbrev cc4_stg8_0 : Ref sig .tc := ⟨.vmem, 60, rfl⟩
abbrev cc4_stg8_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg5_0 : Ref sig .tc := ⟨.vmem, 69, rfl⟩
abbrev cc5_stg6_0 : Ref sig .tc := ⟨.vmem, 70, rfl⟩
abbrev cc5_stg6_1 : Ref sig .tc := ⟨.vmem, 71, rfl⟩
abbrev cc5_stg7_0 : Ref sig .tc := ⟨.vmem, 72, rfl⟩
abbrev cc5_stg7_1 : Ref sig .tc := ⟨.vmem, 73, rfl⟩
abbrev cc5_stg8_0 : Ref sig .tc := ⟨.vmem, 74, rfl⟩
abbrev cc5_stg8_1 : Ref sig .tc := ⟨.vmem, 75, rfl⟩
abbrev cc6_stg0_0 : Ref sig .tc := ⟨.vmem, 76, rfl⟩
abbrev cc6_stg0_1 : Ref sig .tc := ⟨.vmem, 77, rfl⟩
abbrev cc6_stg1_0 : Ref sig .tc := ⟨.vmem, 78, rfl⟩
abbrev cc6_stg1_1 : Ref sig .tc := ⟨.vmem, 79, rfl⟩
abbrev cc6_stg2_0 : Ref sig .tc := ⟨.vmem, 80, rfl⟩
abbrev cc6_stg3_0 : Ref sig .tc := ⟨.vmem, 81, rfl⟩
abbrev cc6_stg4_0 : Ref sig .tc := ⟨.vmem, 82, rfl⟩
abbrev cc6_stg5_0 : Ref sig .tc := ⟨.vmem, 83, rfl⟩
abbrev cc6_stg6_0 : Ref sig .tc := ⟨.vmem, 84, rfl⟩
abbrev cc6_stg6_1 : Ref sig .tc := ⟨.vmem, 85, rfl⟩
abbrev cc6_stg7_0 : Ref sig .tc := ⟨.vmem, 86, rfl⟩
abbrev cc6_stg7_1 : Ref sig .tc := ⟨.vmem, 87, rfl⟩
abbrev cc6_stg8_0 : Ref sig .tc := ⟨.vmem, 88, rfl⟩
abbrev cc6_stg8_1 : Ref sig .tc := ⟨.vmem, 89, rfl⟩
abbrev cc7_stg0_0 : Ref sig .tc := ⟨.vmem, 90, rfl⟩
abbrev cc7_stg0_1 : Ref sig .tc := ⟨.vmem, 91, rfl⟩
abbrev cc7_stg1_0 : Ref sig .tc := ⟨.vmem, 92, rfl⟩
abbrev cc7_stg1_1 : Ref sig .tc := ⟨.vmem, 93, rfl⟩
abbrev cc7_stg2_0 : Ref sig .tc := ⟨.vmem, 94, rfl⟩
abbrev cc7_stg2_1 : Ref sig .tc := ⟨.vmem, 95, rfl⟩
abbrev cc7_stg3_0 : Ref sig .tc := ⟨.vmem, 96, rfl⟩
abbrev cc7_stg3_1 : Ref sig .tc := ⟨.vmem, 97, rfl⟩
abbrev cc7_stg4_0 : Ref sig .tc := ⟨.vmem, 98, rfl⟩
abbrev cc7_stg4_1 : Ref sig .tc := ⟨.vmem, 99, rfl⟩
abbrev cc7_stg5_0 : Ref sig .tc := ⟨.vmem, 100, rfl⟩
abbrev cc7_stg5_1 : Ref sig .tc := ⟨.vmem, 101, rfl⟩
abbrev cc7_stg6_0 : Ref sig .tc := ⟨.vmem, 102, rfl⟩
abbrev cc7_stg6_1 : Ref sig .tc := ⟨.vmem, 103, rfl⟩
abbrev cc7_stg7_0 : Ref sig .tc := ⟨.vmem, 104, rfl⟩
abbrev cc7_stg7_1 : Ref sig .tc := ⟨.vmem, 105, rfl⟩
abbrev cc7_stg8_0 : Ref sig .tc := ⟨.vmem, 106, rfl⟩
abbrev cc7_stg9_0 : Ref sig .tc := ⟨.vmem, 107, rfl⟩
abbrev cc7_stg10_0 : Ref sig .tc := ⟨.vmem, 108, rfl⟩
abbrev cc7_stg11_0 : Ref sig .tc := ⟨.vmem, 109, rfl⟩
abbrev cc7_stg12_0 : Ref sig .tc := ⟨.vmem, 110, rfl⟩
abbrev cc7_scratch0 : Ref sig .tc := ⟨.vmem, 111, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31
abbrev cc2_sem8_0 : DmaSem sig := 32
abbrev cc2_sem8_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc3_sem7_0 : DmaSem sig := 44
abbrev cc3_sem7_1 : DmaSem sig := 45
abbrev cc3_sem8_0 : DmaSem sig := 46
abbrev cc3_sem8_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem4_0 : DmaSem sig := 54
abbrev cc4_sem5_0 : DmaSem sig := 55
abbrev cc4_sem6_0 : DmaSem sig := 56
abbrev cc4_sem6_1 : DmaSem sig := 57
abbrev cc4_sem7_0 : DmaSem sig := 58
abbrev cc4_sem7_1 : DmaSem sig := 59
abbrev cc4_sem8_0 : DmaSem sig := 60
abbrev cc4_sem8_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem3_0 : DmaSem sig := 67
abbrev cc5_sem4_0 : DmaSem sig := 68
abbrev cc5_sem5_0 : DmaSem sig := 69
abbrev cc5_sem6_0 : DmaSem sig := 70
abbrev cc5_sem6_1 : DmaSem sig := 71
abbrev cc5_sem7_0 : DmaSem sig := 72
abbrev cc5_sem7_1 : DmaSem sig := 73
abbrev cc5_sem8_0 : DmaSem sig := 74
abbrev cc5_sem8_1 : DmaSem sig := 75
abbrev cc6_sem0_0 : DmaSem sig := 76
abbrev cc6_sem0_1 : DmaSem sig := 77
abbrev cc6_sem1_0 : DmaSem sig := 78
abbrev cc6_sem1_1 : DmaSem sig := 79
abbrev cc6_sem2_0 : DmaSem sig := 80
abbrev cc6_sem3_0 : DmaSem sig := 81
abbrev cc6_sem4_0 : DmaSem sig := 82
abbrev cc6_sem5_0 : DmaSem sig := 83
abbrev cc6_sem6_0 : DmaSem sig := 84
abbrev cc6_sem6_1 : DmaSem sig := 85
abbrev cc6_sem7_0 : DmaSem sig := 86
abbrev cc6_sem7_1 : DmaSem sig := 87
abbrev cc6_sem8_0 : DmaSem sig := 88
abbrev cc6_sem8_1 : DmaSem sig := 89
abbrev cc7_sem0_0 : DmaSem sig := 90
abbrev cc7_sem0_1 : DmaSem sig := 91
abbrev cc7_sem1_0 : DmaSem sig := 92
abbrev cc7_sem1_1 : DmaSem sig := 93
abbrev cc7_sem2_0 : DmaSem sig := 94
abbrev cc7_sem2_1 : DmaSem sig := 95
abbrev cc7_sem3_0 : DmaSem sig := 96
abbrev cc7_sem3_1 : DmaSem sig := 97
abbrev cc7_sem4_0 : DmaSem sig := 98
abbrev cc7_sem4_1 : DmaSem sig := 99
abbrev cc7_sem5_0 : DmaSem sig := 100
abbrev cc7_sem5_1 : DmaSem sig := 101
abbrev cc7_sem6_0 : DmaSem sig := 102
abbrev cc7_sem6_1 : DmaSem sig := 103
abbrev cc7_sem7_0 : DmaSem sig := 104
abbrev cc7_sem7_1 : DmaSem sig := 105
abbrev cc7_sem8_0 : DmaSem sig := 106
abbrev cc7_sem9_0 : DmaSem sig := 107
abbrev cc7_sem10_0 : DmaSem sig := 108
abbrev cc7_sem11_0 : DmaSem sig := 109
abbrev cc7_sem12_0 : DmaSem sig := 110

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S1000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S1000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S1000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![50], ![false]⟩

def k7_cond2 (i : grid7.Coords) : BitVec 1 :=
  let arg0 : BitVec 32 := BitVec.ofNat 32 (i 0).val
  let c49_i32 : BitVec 32 := 49#32
  let v33 : BitVec 1 := Scalar.cmpi .eq arg0 c49_i32
  let v34 : BitVec 32 := Scalar.extui v33
  let c0_i32_20 : BitVec 32 := 0#32
  let v35 : BitVec 1 := Scalar.cmpi .ne v34 c0_i32_20
  v35

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S1000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S1000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S1000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S1000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S1000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S1000x1 .i32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S896x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S128x128 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S1x128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S128x128 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  shapeCasts_S1000x128_S1000x128 : S1000x128.ShapeCasts S1000x128
  shapeCasts_S128x128_S128x128 : S128x128.ShapeCasts S128x128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  inb_S128x896_S128x896_0_0 : ∀ a, (![0, 0] : Fin 2 → Nat) a + S128x896.size a ≤ S128x896.size a
  h_S128x896 : 0 < S128x896.numel
  shapeCasts_S128x896_S128x896 : S128x896.ShapeCasts S128x896
  concatenates_S1000x128_S1000x128_S1000x128_S1000x128_S1000x128_S1000x128_S1000x128_S1000x896_d1 : Shape.Concatenates [S1000x128, S1000x128, S1000x128, S1000x128, S1000x128, S1000x128, S1000x128] S1000x896 1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x128_d1_w32 : S1000x128.Iotas .tc 32 [1]
  broadcasts_S1000x1_S1000x128 : S1000x1.Broadcasts S1000x128
  natLt_1_32 : 1 < 32
  inb_S896x128_S896x128_0_0 : ∀ a, (![0, 0] : Fin 2 → Nat) a + S896x128.size a ≤ S896x128.size a
  h_S896x128 : 0 < S896x128.numel
  broadcasts_S1x128_S128x128 : S1x128.Broadcasts S128x128
  dot_S1000x128_S128x128_S1000x128_1_0_0_1_n_n_wf : DotDims.WF S1000x128 S128x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S1000x896_S128x896_0_0_1_1_n_n_wf : DotDims.WF S1000x128 S1000x896 S128x896 [0] [0] [1] [1] [] []
  dot_S128x896_S896x128_S128x128_1_0_0_1_n_n_wf : DotDims.WF S128x896 S896x128 S128x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S50000x128.size a
  hwx1_1 : ∀ i : grid1.Coords, EltTy.bits .f32 = 32 ∨ (Rect.block (s := S50000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S50000x128.size a
  hwx1_6 : ∀ i : grid1.Coords, EltTy.bits .f32 = 32 ∨ (Rect.block (s := S50000x128) S1000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S50000x128.size a
  hwx1_7 : ∀ i : grid1.Coords, EltTy.bits .f32 = 32 ∨ (Rect.block (s := S50000x128) S1000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x128.size a ≤ S50000x128.size a
  hwx1_8 : ∀ i : grid1.Coords, EltTy.bits .f32 = 32 ∨ (Rect.block (s := S50000x128) S1000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x128.size a ≤ S50000x128.size a
  hwx2_6 : ∀ i : grid2.Coords, EltTy.bits .f32 = 32 ∨ (Rect.block (s := S50000x128) S1000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x128.size a ≤ S50000x128.size a
  hwx2_7 : ∀ i : grid2.Coords, EltTy.bits .f32 = 32 ∨ (Rect.block (s := S50000x128) S1000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x128.size a ≤ S50000x128.size a
  hwx2_8 : ∀ i : grid2.Coords, EltTy.bits .f32 = 32 ∨ (Rect.block (s := S50000x128) S1000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S50000x128.size a
  hwx3_6 : ∀ i : grid3.Coords, EltTy.bits .f32 = 32 ∨ (Rect.block (s := S50000x128) S1000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x128.size a ≤ S50000x128.size a
  hwx3_7 : ∀ i : grid3.Coords, EltTy.bits .f32 = 32 ∨ (Rect.block (s := S50000x128) S1000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1000x128.size a ≤ S50000x128.size a
  hwx3_8 : ∀ i : grid3.Coords, EltTy.bits .f32 = 32 ∨ (Rect.block (s := S50000x128) S1000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S50000x128.size a
  hwx4_1 : ∀ i : grid4.Coords, EltTy.bits .f32 = 32 ∨ (Rect.block (s := S50000x128) S1000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x128.size a ≤ S50000x128.size a
  hwx4_6 : ∀ i : grid4.Coords, EltTy.bits .f32 = 32 ∨ (Rect.block (s := S50000x128) S1000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1000x128.size a ≤ S50000x128.size a
  hwx4_7 : ∀ i : grid4.Coords, EltTy.bits .f32 = 32 ∨ (Rect.block (s := S50000x128) S1000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1000x128.size a ≤ S50000x128.size a
  hwx4_8 : ∀ i : grid4.Coords, EltTy.bits .f32 = 32 ∨ (Rect.block (s := S50000x128) S1000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S50000x128.size a
  hwx5_0 : ∀ i : grid5.Coords, EltTy.bits .f32 = 32 ∨ (Rect.block (s := S50000x128) S1000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x128.size a ≤ S50000x128.size a
  hwx5_1 : ∀ i : grid5.Coords, EltTy.bits .f32 = 32 ∨ (Rect.block (s := S50000x128) S1000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x128.size a ≤ S50000x128.size a
  hwx5_6 : ∀ i : grid5.Coords, EltTy.bits .f32 = 32 ∨ (Rect.block (s := S50000x128) S1000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1000x128.size a ≤ S50000x128.size a
  hwx5_7 : ∀ i : grid5.Coords, EltTy.bits .f32 = 32 ∨ (Rect.block (s := S50000x128) S1000x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1000x128.size a ≤ S50000x128.size a
  hwx5_8 : ∀ i : grid5.Coords, EltTy.bits .f32 = 32 ∨ (Rect.block (s := S50000x128) S1000x128.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S50000x128.size a
  hwx6_0 : ∀ i : grid6.Coords, EltTy.bits .f32 = 32 ∨ (Rect.block (s := S50000x128) S1000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x128.size a ≤ S50000x128.size a
  hwx6_1 : ∀ i : grid6.Coords, EltTy.bits .f32 = 32 ∨ (Rect.block (s := S50000x128) S1000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1000x128.size a ≤ S50000x128.size a
  hwx6_6 : ∀ i : grid6.Coords, EltTy.bits .f32 = 32 ∨ (Rect.block (s := S50000x128) S1000x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1000x128.size a ≤ S50000x128.size a
  hwx6_7 : ∀ i : grid6.Coords, EltTy.bits .f32 = 32 ∨ (Rect.block (s := S50000x128) S1000x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S1000x128.size a ≤ S50000x128.size a
  hwx6_8 : ∀ i : grid6.Coords, EltTy.bits .f32 = 32 ∨ (Rect.block (s := S50000x128) S1000x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S50000x128.size a
  hwx7_0 : ∀ i : grid7.Coords, EltTy.bits .f32 = 32 ∨ (Rect.block (s := S50000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x128.size a ≤ S50000x128.size a
  hwx7_1 : ∀ i : grid7.Coords, EltTy.bits .f32 = 32 ∨ (Rect.block (s := S50000x128) S1000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1000x128.size a ≤ S50000x128.size a
  hwx7_2 : ∀ i : grid7.Coords, EltTy.bits .f32 = 32 ∨ (Rect.block (s := S50000x128) S1000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x128.size a ≤ S50000x128.size a
  hwx7_3 : ∀ i : grid7.Coords, EltTy.bits .f32 = 32 ∨ (Rect.block (s := S50000x128) S1000x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1000x128.size a ≤ S50000x128.size a
  hwx7_4 : ∀ i : grid7.Coords, EltTy.bits .f32 = 32 ∨ (Rect.block (s := S50000x128) S1000x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1000x128.size a ≤ S50000x128.size a
  hwx7_5 : ∀ i : grid7.Coords, EltTy.bits .f32 = 32 ∨ (Rect.block (s := S50000x128) S1000x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S1000x128.size a ≤ S50000x128.size a
  hwx7_6 : ∀ i : grid7.Coords, EltTy.bits .f32 = 32 ∨ (Rect.block (s := S50000x128) S1000x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S1000x1.size a ≤ S50000x1.size a
  hwx7_7 : ∀ i : grid7.Coords, EltTy.bits .i32 = 32 ∨ (Rect.block (s := S50000x1) S1000x1.size (cc7_transform_7 i) (hinb7_7 i)).WholeWords (EltTy.packing .i32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S896x128.size a ≤ S896x128.size a
  hwx7_8 : ∀ i : grid7.Coords, EltTy.bits .f32 = 32 ∨ (Rect.block (s := S896x128) S896x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S128x128.size a ≤ S128x128.size a
  hwx7_10 : ∀ i : grid7.Coords, EltTy.bits .f32 = 32 ∨ (Rect.block (s := S128x128) S128x128.size (cc7_transform_10 i) (hinb7_10 i)).WholeWords (EltTy.packing .f32)
  hstage7_11 : ∀ j, (stage7_11 j).IsWhole
  nbuf7_11 : grid7.bufCount reads7_11 true = 1
  hreads7_11 : ∀ i i' : grid7.Coords, (∀ a, reads7_11 a = true → i a = i' a) → cc7_transform_11 i = cc7_transform_11 i'
  hinb7_11 : ∀ (i : grid7.Coords) a, (cc7_transform_11 i a + 1) * S1x128.size a ≤ S1x128.size a
  hwx7_11 : ∀ i : grid7.Coords, EltTy.bits .f32 = 32 ∨ (Rect.block (s := S1x128) S1x128.size (cc7_transform_11 i) (hinb7_11 i)).WholeWords (EltTy.packing .f32)
  hstage7_12 : ∀ j, (stage7_12 j).IsWhole
  nbuf7_12 : grid7.bufCount reads7_12 true = 1
  hreads7_12 : ∀ i i' : grid7.Coords, (∀ a, reads7_12 a = true → i a = i' a) → cc7_transform_12 i = cc7_transform_12 i'
  hinb7_12 : ∀ (i : grid7.Coords) a, (cc7_transform_12 i a + 1) * S128x128.size a ≤ S128x128.size a
  hwx7_12 : ∀ i : grid7.Coords, EltTy.bits .f32 = 32 ∨ (Rect.block (s := S128x128) S128x128.size (cc7_transform_12 i) (hinb7_12 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S1000x896_S128x896_0_0_1_1_n_n : DotDims S1000x128 S1000x896 S128x896 where
  lhsContracting := [0]
  rhsContracting := [0]
  lhsNonContracting := [1]
  rhsNonContracting := [1]
  lhsBatch := []
  rhsBatch := []
  wf := dot_S1000x128_S1000x896_S128x896_0_0_1_1_n_n_wf
def dot_S128x896_S896x128_S128x128_1_0_0_1_n_n : DotDims S128x896 S896x128 S128x128 where
  lhsContracting := [1]
  rhsContracting := [0]
  lhsNonContracting := [0]
  rhsNonContracting := [1]
  lhsBatch := []
  rhsBatch := []
  wf := dot_S128x896_S896x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_0) S1000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v27_1) S1000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v27_0) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27_1) S1000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v48_0) S1000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v48_1) S1000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v48_0) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v48_1) S1000x128.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v69_0) S1000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v69_1) S1000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v69_0) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v79) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v69_1) S1000x128.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v90_0) S1000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v90_1) S1000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v90_0) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v102) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v109) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v110) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v90_1) S1000x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v111_0) S1000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v111_1) S1000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v111_0) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v121) S1000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v123) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v127) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v131) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v111_1) S1000x128.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v132_0) S1000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v132_1) S1000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v6) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v27_0) S1000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v48_0) S1000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v69_0) S1000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v90_0) S1000x128.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v111_0) S1000x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v132_0) S1000x128.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_v4) S1000x1.size cc7_transform_7 reads7_7 false false 2 stage7_7 sem7_7
    hrank7 hreads7_7 hinb7_7 nbuf7_7 (Memref.isWhole_whole _) hwx7_7 hstage7_7

abbrev win7_8 : Pipeline.Window sig grid7 :=
  Pipeline.Window.ofSpec (Memref.whole main_arg9) S896x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v133) S1x128.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_arg11) S128x128.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v134) S1x128.size cc7_transform_11 reads7_11 false true 1 stage7_11 sem7_11
    hrank7 hreads7_11 hinb7_11 nbuf7_11 (Memref.isWhole_whole _) hwx7_11 hstage7_11

abbrev win7_12 : Pipeline.Window sig grid7 :=
  Pipeline.Window.ofSpec (Memref.whole main_v135) S128x128.size cc7_transform_12 reads7_12 true true 1 stage7_12 sem7_12
    hrank7 hreads7_12 hinb7_12 nbuf7_12 (Memref.isWhole_whole _) hwx7_12 hstage7_12

abbrev win7 : Fin 13 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | ⟨_ + 13, h⟩ => absurd h (Nat.not_lt.2 (Nat.le_add_left _ _))
abbrev spec7 : Fin 13 → Pipeline.WinSpec sig grid7.rank := fun w => (win7 w).toWinSpec

abbrev idle7 : Fin 13 → grid7.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k7_cond2 i == 1#1) | ⟨_ + 13, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S896x128 : Shape := ⟨2, ![896, 128]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S50000x896 : Shape := ⟨2, ![50000, 896]⟩
abbrev S128x896 : Shape := ⟨2, ![128, 896]⟩
abbrev S50000x1 : Shape := ⟨2, ![50000, 1]⟩

abbrev nBuf : Space → Nat
  | .hbm => 256
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S6x128x128, .f32⟩
  | 6 => ⟨S6x128, .f32⟩
  | 7 => ⟨S6x128x128, .f32⟩
  | 8 => ⟨S6x128, .f32⟩
  | 9 => ⟨S896x128, .f32⟩
  | 10 => ⟨S128, .f32⟩
  | 11 => ⟨S128x128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S50000x128, .f32⟩
  | 18 => ⟨S1x128, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x128, .f32⟩
  | 71 => ⟨S1x128x128, .f32⟩
  | 72 => ⟨S128x128, .f32⟩
  | 73 => ⟨S50000x128, .f32⟩
  | 74 => ⟨S1x128, .f32⟩
  | 75 => ⟨S128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S_, .f32⟩
  | 104 => ⟨S50000x128, .f32⟩
  | 105 => ⟨S800000x1, .i32⟩
  | 106 => ⟨S50000x128, .f32⟩
  | 107 => ⟨S50000x128, .f32⟩
  | 108 => ⟨S1x128x128, .f32⟩
  | 109 => ⟨S128x128, .f32⟩
  | 110 => ⟨S50000x128, .f32⟩
  | 111 => ⟨S1x128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S1x128x128, .f32⟩
  | 120 => ⟨S128x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S50000x128, .f32⟩
  | 16 => ⟨S1x128x128, .f32⟩
  | 17 => ⟨S128x128, .f32⟩
  | 18 => ⟨S50000x128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S50000x128, .f32⟩
  | 53 => ⟨S1x128x128, .f32⟩
  | 54 => ⟨S128x128, .f32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S1x128x128, .f32⟩
  | 65 => ⟨S128x128, .f32⟩
  | 66 => ⟨S50000x128, .f32⟩
  | 67 => ⟨S1x128, .f32⟩
  | 68 => ⟨S128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S_, .f32⟩
  | 85 => ⟨S50000x128, .f32⟩
  | 86 => ⟨S800000x1, .i32⟩
  | 87 => ⟨S50000x128, .f32⟩
  | 88 => ⟨S50000x128, .f32⟩
  | 89 => ⟨S1x128x128, .f32⟩
  | 90 => ⟨S128x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x128x128, .f32⟩
  | 101 => ⟨S128x128, .f32⟩
  | 102 => ⟨S50000x128, .f32⟩
  | 103 => ⟨S1x128, .f32⟩
  | 104 => ⟨S128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x896, .f32⟩
  | 113 => ⟨S_, .f32⟩
  | 114 => ⟨S128x896, .f32⟩
  | 115 => ⟨S50000x1, .i32⟩
  | 116 => ⟨S128x896, .f32⟩
  | 117 => ⟨S128x128, .f32⟩
  | 118 => ⟨S1x128, .f32⟩
  | 119 => ⟨S128x128, .f32⟩
  | 120 => ⟨S128x128, .f32⟩
  | 121 => ⟨S_, .f32⟩
  | 122 => ⟨S128x128, .f32⟩
  | 123 => ⟨S128x128, .f32⟩
  | 124 => ⟨S128x128, .f32⟩
  | 125 => ⟨S1x128, .f32⟩
  | 126 => ⟨S128x128, .f32⟩
  | 127 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_c_1 : Ref sig .tc := ⟨.hbm, 57, rfl⟩
abbrev main_v37 : Ref sig .tc := ⟨.hbm, 58, rfl⟩
abbrev main_v38 : Ref sig .tc := ⟨.hbm, 59, rfl⟩
abbrev main_c_2 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call2_cst : Ref sig .tc := ⟨.hbm, 79, rfl⟩
abbrev main_call2_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call3_cst : Ref sig .tc := ⟨.hbm, 91, rfl⟩
abbrev main_call3_v0 : Ref sig .tc := ⟨.hbm, 92, rfl⟩
abbrev main_v66 : Ref sig .tc := ⟨.hbm, 93, rfl⟩
abbrev main_c_4 : Ref sig .tc := ⟨.hbm, 94, rfl⟩
abbrev main_v67 : Ref sig .tc := ⟨.hbm, 95, rfl⟩
abbrev main_v68 : Ref sig .tc := ⟨.hbm, 96, rfl⟩
abbrev main_c_5 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_6 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call4_cst : Ref sig .tc := ⟨.hbm, 116, rfl⟩
abbrev main_call4_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_call5_cst : Ref sig .tc := ⟨.hbm, 127, rfl⟩
abbrev main_call5_v0 : Ref sig .tc := ⟨.hbm, 128, rfl⟩
abbrev main_v95 : Ref sig .tc := ⟨.hbm, 129, rfl⟩
abbrev main_c_7 : Ref sig .tc := ⟨.hbm, 130, rfl⟩
abbrev main_v96 : Ref sig .tc := ⟨.hbm, 131, rfl⟩
abbrev main_v97 : Ref sig .tc := ⟨.hbm, 132, rfl⟩
abbrev main_c_8 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_9 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call6_cst : Ref sig .tc := ⟨.hbm, 152, rfl⟩
abbrev main_call6_v0 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_call7_cst : Ref sig .tc := ⟨.hbm, 164, rfl⟩
abbrev main_call7_v0 : Ref sig .tc := ⟨.hbm, 165, rfl⟩
abbrev main_v125 : Ref sig .tc := ⟨.hbm, 166, rfl⟩
abbrev main_c_10 : Ref sig .tc := ⟨.hbm, 167, rfl⟩
abbrev main_v126 : Ref sig .tc := ⟨.hbm, 168, rfl⟩
abbrev main_v127 : Ref sig .tc := ⟨.hbm, 169, rfl⟩
abbrev main_c_11 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_12 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_call8_cst : Ref sig .tc := ⟨.hbm, 189, rfl⟩
abbrev main_call8_v0 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_call9_cst : Ref sig .tc := ⟨.hbm, 200, rfl⟩
abbrev main_call9_v0 : Ref sig .tc := ⟨.hbm, 201, rfl⟩
abbrev main_v154 : Ref sig .tc := ⟨.hbm, 202, rfl⟩
abbrev main_c_13 : Ref sig .tc := ⟨.hbm, 203, rfl⟩
abbrev main_v155 : Ref sig .tc := ⟨.hbm, 204, rfl⟩
abbrev main_v156 : Ref sig .tc := ⟨.hbm, 205, rfl⟩
abbrev main_c_14 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_cst_15 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_call10_cst : Ref sig .tc := ⟨.hbm, 225, rfl⟩
abbrev main_call10_v0 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_call11_cst : Ref sig .tc := ⟨.hbm, 237, rfl⟩
abbrev main_call11_v0 : Ref sig .tc := ⟨.hbm, 238, rfl⟩
abbrev main_v184 : Ref sig .tc := ⟨.hbm, 239, rfl⟩
abbrev main_v185 : Ref sig .tc := ⟨.hbm, 240, rfl⟩
abbrev main_cst_16 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_call12_cst : Ref sig .tc := ⟨.hbm, 249, rfl⟩
abbrev main_call12_v0 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  concatenates_S50000x128_S50000x128_S50000x128_S50000x128_S50000x128_S50000x128_S50000x128_S50000x896_d1 : Shape.Concatenates [S50000x128, S50000x128, S50000x128, S50000x128, S50000x128, S50000x128, S50000x128] S50000x896 1
  bcast_S_S128x896 : S_.BroadcastsInDim S128x896 (![] : Fin 0 → Fin S128x896.rank)
  bcast_S50000_S50000x1_0 : S50000.BroadcastsInDim S50000x1 (![0] : Fin 1 → Fin S50000x1.rank)
  bcast_S1x128_S128x128_0_1 : S1x128.BroadcastsInDim S128x128 (![0, 1] : Fin 2 → Fin S128x128.rank)
  bcast_S_S128x128 : S_.BroadcastsInDim S128x128 (![] : Fin 0 → Fin S128x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128x896_S50000x1_S50000x896_1_0_0_1_wf : ScatterDims.WF S128x896 S50000x1 S50000x896 [1] [0] [0] 1
  dot_S128x896_S896x128_S128x128_1_0_0_1_n_n_wf : DotDims.WF S128x896 S896x128 S128x128 [1] [0] [0] [1] [] []
  dot_S128x128_S128x128_S128x128_1_0_0_1_n_n_wf : DotDims.WF S128x128 S128x128 S128x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128x896_S50000x1_S50000x896_1_0_0_1 : ScatterDims S128x896 S50000x1 S50000x896 where
  updateWindowDims := [1]
  insertedWindowDims := [0]
  scatterDimsToOperandDims := [0]
  indexVectorDim := 1
  wf := scatter_S128x896_S50000x1_S50000x896_1_0_0_1_wf
def dot_S128x896_S896x128_S128x128_1_0_0_1_n_n : DotDims S128x896 S896x128 S128x128 where
  lhsContracting := [1]
  rhsContracting := [0]
  lhsNonContracting := [0]
  rhsNonContracting := [1]
  lhsBatch := []
  rhsBatch := []
  wf := dot_S128x896_S896x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.K.Reg0.lean ====
/-
  Region 0: the first affine map, `X W + b`, on row tiles of 1000 nodes. For any contents `V` of the core's buffers at
  entry: what each window's buffer holds after the body at a point, the body's triple, and the pipeline's body
  obligation at every point.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_out : Rect S1000x128 := Rect.unit (s := S1000x128) ![0, 0] S1000x128.size inb_S1000x128_S1000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

def out0_3 (x0 : Vec F S1000x128 .f32) (x1 : Vec F S128x128 .f32) (x2 : Vec F S1x128 .f32) : Vec F S1000x128 .f32 :=
  View.canon [⟨r0_out, k0_pay1 (View.ld x0 r0_out) (View.ld x1 r0_w) (View.ld x2 r0_b)⟩]

/-- A store through the whole tile covers the buffer. -/
theorem cover0_3 (p0 : Vec F S1000x128 .f32) (y : S1000x128.Idx) :
    ∃ pc ∈ ([⟨r0_out, p0⟩] : List (View.Piece (Elt F) S1000x128 .f32)), y ∈ pc.1.set :=
  View.cover_of_tiled [⟨r0_out, p0⟩] S1000x128.size (by rfl) y

set_option maxHeartbeats 1000000 in
/-- The body's triple: the three inputs are returned as found, the output holds `out0_3` of them. -/
theorem sound_kernel0 (E : Set ℕ) (i : grid0.Coords) {arg1 arg4 : Memref sig .tc .vmem S1000x128 .f32}
    {arg2 : Memref sig .tc .vmem S128x128 .f32} {arg3 : Memref sig .tc .vmem S1x128 .f32}
    {harg1 : arg1.IsWhole} {harg2 : arg2.IsWhole} {harg3 : arg3.IsWhole} {harg4 : arg4.IsWhole}
    (x0 : Vec F S1000x128 .f32) (x1 : Vec F S128x128 .f32) (x2 : Vec F S1x128 .f32) (K : PUnit → sProp 𝕄) :
    iprop(ownsTc c arg1 fullShare x0 ∗ ownsTc c arg2 fullShare x1 ∗ ownsTc c arg3 fullShare x2 ∗ (∃ d, ownsTc c arg4 fullShare d)
        ∗ (iprop(ownsTc c arg1 fullShare x0 ∗ ownsTc c arg2 fullShare x1 ∗ ownsTc c arg3 fullShare x2
            ∗ ownsTc c arg4 fullShare (out0_3 x0 x1 x2)) -∗ K ⟨⟩))
      ⊢ wp frame (wpE (defs₀ (F := F)) Variants.none c none) E (cc0__pre_linear_kernel i arg1 harg1 arg2 harg2 arg3 harg3 arg4 harg4) K := by
  simp only [cc0__pre_linear_kernel_eq_skeleton]; unfold cc0__pre_linear_kernel_skel
  unfold ownsTc owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := by
  dsimp only [dat0]

variable (t : Fin cfg0.N)

theorem after0_3 : (dat0 V c).after 3 t = out0_3 (iblk0 V c 0 t) (iblk0 V c 1 t) (iblk0 V c 2 t) := by dsimp only [dat0]

/-- An input window's contents before the body at a point are its contents after it. -/
theorem before0 : ∀ (w : Fin cfg0.W) (d), (cfg0.win w).isOut = false → (dat0 V c).before w t d = (dat0 V c).after w t
  | ⟨0, _⟩, d, h | ⟨1, _⟩, d, h | ⟨2, _⟩, d, h =>
    ((dat0 V c).before_in_eq_fetched _ h (fun _ => rfl) (fun _ _ _ => rfl) (fun _ => by dsimp only [dat0]; rfl) t d).trans
      (by dsimp only [dat0]; rfl)
  | ⟨3, _⟩, _, h => absurd h (by decide +revert)

/-- The body obligation: each input buffer holds its block, so the triple applies; the invariant and the dues pass through. -/
theorem body_obligation0 : BodyObligation (dat0 (F := F) V c) (defs₀ (F := F)) Variants.none () Set.univ := fun t => by
  rw [bigSep_W0, bigSep_W0]
  show iprop(_ ∗ _ ∗ (∃ d, _) ∗ (∃ d, _) ∗ (∃ d, _) ∗ ∃ d, _)
    ⊢ wp _ _ _ (bodyAt0 t) fun _ => iprop(_ ∗ _ ∗ owns _ _ _ _ ∗ owns _ _ _ _ ∗ owns _ _ _ _ ∗ owns _ _ _ _)
  unfold bodyAt0
  iintro ⟨HΦ, Ho, ⟨%d0, H0⟩, ⟨%d1, H1⟩, ⟨%d2, H2⟩, ⟨%d3, H3⟩⟩
  rw [before0 V c t 0 d0 rfl, before0 V c t 1 d1 rfl, before0 V c t 2 d2 rfl]
  dsimp only [dat0]
  iapply sound_kernel0 c Set.univ _ (iblk0 V c 0 t) (iblk0 V c 1 t) (iblk0 V c 2 t) _
  isplitl [H0]; · iexact H0
  isplitl [H1]; · iexact H1
  isplitl [H2]; · iexact H2
  isplitl [H3]; · iexists _; iexact H3
  iintro H
  isplitl [HΦ]; · iexact HΦ
  isplitl [Ho]; · iexact Ho
  iexact H

end Region0

end Cert.Kernel.Hand

end
-- ==== Proof.K.Reg1.lean ====
/-
  Region 1: a graph layer without residual, on row tiles of 1000 nodes; one array is read through windows 0 and 6, which
  hold it under the two halves of the full share. For any contents `V` of the core's buffers at entry: what each
  window's buffer holds after the body at a point, the body's triple, and the pipeline's body obligation at every point.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_tile : Rect S1000x128 := Rect.unit (s := S1000x128) ![0, 0] S1000x128.size inb_S1000x128_S1000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

def out1_7 (x0 x1 : Vec F S1000x128 .f32) (x2 : Vec F S128x128 .f32) (x3 : Vec F S1x128 .f32)
    (x4 : Vec F S128x128 .f32) (x5 : Vec F S1x128 .f32) : Vec F S1000x128 .f32 :=
  View.canon [⟨r1_tile, k1_pay2 (View.ld x0 r1_tile) (View.ld x1 r1_tile) (View.ld x2 r1_w) (View.ld x3 r1_b)
    (View.ld x4 r1_w) (View.ld x5 r1_b)⟩]

def out1_8 (x6 : Vec F S1000x128 .f32) : Vec F S1000x128 .f32 :=
  View.canon [⟨r1_tile, k1_pay1 (View.ld x6 r1_tile)⟩]

/-- A store through the whole tile covers the buffer. -/
theorem cover1 (p0 : Vec F S1000x128 .f32) (y : S1000x128.Idx) :
    ∃ pc ∈ ([⟨r1_tile, p0⟩] : List (View.Piece (Elt F) S1000x128 .f32)), y ∈ pc.1.set :=
  View.cover_of_tiled [⟨r1_tile, p0⟩] S1000x128.size (by rfl) y

set_option maxHeartbeats 1000000 in
/-- The body's triple: the seven inputs are returned as found, the two outputs hold `out1_7` and `out1_8` of them. -/
theorem sound_kernel1 (E : Set ℕ) (i : grid1.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out1_7 x0 x1 x2 x3 x4 x5) ∗ ownsTc c arg9 fullShare (out1_8 x6)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9) K := by
  simp only [cc1_kernel_eq_skeleton]; unfold cc1_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  iexists _; isplitr
  swap; · iexact H8
  ipureintro
  exact View.read_writes_eq_canon _ _ _ (cover1 _)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 6 t)
  Φ _ := Pipeline.ΦA spec1 c
  q w := if w = 0 then fullShare.left else if w = 6 then fullShare.right else fullShare
  owed _ := 0

theorem A_eq1 (w : Fin cfg1.W) : (dat1 V c).A w = V c (Pipeline.arrRef spec1 w) := by
  dsimp only [dat1]

variable (t : Fin cfg1.N)

theorem after1_7 :
    (dat1 V c).after 7 t = out1_7 (iblk1 V c 0 t) (iblk1 V c 1 t) (iblk1 V c 2 t) (iblk1 V c 3 t) (iblk1 V c 4 t) (iblk1 V c 5 t) := by
  dsimp only [dat1]
theorem after1_8 : (dat1 V c).after 8 t = out1_8 (iblk1 V c 6 t) := by dsimp only [dat1]

/-- An input window's contents before the body at a point are its contents after it. -/
theorem before1 : ∀ (w : Fin cfg1.W) (d), (cfg1.win w).isOut = false → (dat1 V c).before w t d = (dat1 V c).after w t
  | ⟨0, _⟩, d, h | ⟨1, _⟩, d, h | ⟨2, _⟩, d, h | ⟨3, _⟩, d, h | ⟨4, _⟩, d, h | ⟨5, _⟩, d, h | ⟨6, _⟩, d, h =>
    ((dat1 V c).before_in_eq_fetched _ h (fun _ => rfl) (fun _ _ _ => rfl) (fun _ => by dsimp only [dat1]; rfl) t d).trans
      (by dsimp only [dat1]; rfl)
  | ⟨7, _⟩, _, h | ⟨8, _⟩, _, h => absurd h (by decide +revert)

/-- The body obligation: each input buffer holds its block, so the triple applies; the invariant and the dues pass through. -/
theorem body_obligation1 : BodyObligation (dat1 (F := F) V c) (defs₀ (F := F)) Variants.none () Set.univ := fun t => by
  rw [bigSep_W1, bigSep_W1]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt1 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before1 V c t 0 d0 rfl, before1 V c t 1 d1 rfl, before1 V c t 2 d2 rfl, before1 V c t 3 d3 rfl, before1 V c t 4 d4 rfl,
    before1 V c t 5 d5 rfl, before1 V c t 6 d6 rfl]
  dsimp only [dat1]
  iapply sound_kernel1 c Set.univ _ (iblk1 V c 0 t) (iblk1 V c 1 t) (iblk1 V c 2 t) (iblk1 V c 3 t) (iblk1 V c 4 t) (iblk1 V c 5 t)
    (iblk1 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region1

end Cert.Kernel.Hand

end
-- ==== Proof.K.Reg2.lean ====
/-
  Region 2: a graph layer with its residual, on row tiles of 1000 nodes. For any contents `V` of the core's buffers
  at entry: what each window's buffer holds after the body at a point, the body's triple, and the pipeline's body
  obligation at every point.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_tile : Rect S1000x128 := Rect.unit (s := S1000x128) ![0, 0] S1000x128.size inb_S1000x128_S1000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

def out2_7 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r2_tile, k2_pay2 (View.ld x0 r2_tile) (View.ld x1 r2_tile) (View.ld x2 r2_w) (View.ld x3 r2_b) (View.ld x4 r2_w)
    (View.ld x5 r2_b) (View.ld x6 r2_tile)⟩]

def out2_8 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r2_tile, k2_pay1 (View.ld x0 r2_tile) (View.ld x1 r2_tile) (View.ld x2 r2_w) (View.ld x3 r2_b) (View.ld x4 r2_w)
    (View.ld x5 r2_b) (View.ld x6 r2_tile)⟩]

/-- A store through the whole tile covers the buffer. -/
theorem cover2 (p0 : Vec F S1000x128 .f32) (y : S1000x128.Idx) :
    ∃ pc ∈ ([⟨r2_tile, p0⟩] : List (View.Piece (Elt F) S1000x128 .f32)), y ∈ pc.1.set :=
  View.cover_of_tiled [⟨r2_tile, p0⟩] S1000x128.size (by rfl) y

set_option maxHeartbeats 4000000 in
/-- The body's triple: the seven inputs are returned as found, the two outputs hold `out2_7` and `out2_8` of them. -/
theorem sound_kernel2 (E : Set ℕ) (i : grid2.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out2_7 x0 x1 x2 x3 x4 x5 x6) ∗ ownsTc c arg9 fullShare (out2_8 x0 x1 x2 x3 x4 x5 x6)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9) K := by
  simp only [cc2_kernel_eq_skeleton]; unfold cc2_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2 _)
  iexists _; isplitr
  swap; · iexact H8
  ipureintro
  exact View.read_writes_eq_canon _ _ _ (cover2 _)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (w : Fin cfg2.W) : (dat2 V c).A w = V c (Pipeline.arrRef spec2 w) := by
  dsimp only [dat2]

variable (t : Fin cfg2.N)

theorem after2_7 :
    (dat2 V c).after 7 t = out2_7 (iblk2 V c 0 t) (iblk2 V c 1 t) (iblk2 V c 2 t) (iblk2 V c 3 t) (iblk2 V c 4 t) (iblk2 V c 5 t) (iblk2 V c 6 t) := by
  dsimp only [dat2]
theorem after2_8 :
    (dat2 V c).after 8 t = out2_8 (iblk2 V c 0 t) (iblk2 V c 1 t) (iblk2 V c 2 t) (iblk2 V c 3 t) (iblk2 V c 4 t) (iblk2 V c 5 t) (iblk2 V c 6 t) := by
  dsimp only [dat2]

/-- An input window's contents before the body at a point are its contents after it. -/
theorem before2 : ∀ (w : Fin cfg2.W) (d), (cfg2.win w).isOut = false → (dat2 V c).before w t d = (dat2 V c).after w t
  | ⟨0, _⟩, d, h | ⟨1, _⟩, d, h | ⟨2, _⟩, d, h | ⟨3, _⟩, d, h | ⟨4, _⟩, d, h | ⟨5, _⟩, d, h | ⟨6, _⟩, d, h =>
    ((dat2 V c).before_in_eq_fetched _ h (fun _ => rfl) (fun _ _ _ => rfl) (fun _ => by dsimp only [dat2]; rfl) t d).trans
      (by dsimp only [dat2]; rfl)
  | ⟨7, _⟩, _, h | ⟨8, _⟩, _, h => absurd h (by decide +revert)

/-- The body obligation: each input buffer holds its block, so the triple applies; the invariant and the dues pass through. -/
theorem body_obligation2 : BodyObligation (dat2 (F := F) V c) (defs₀ (F := F)) Variants.none () Set.univ := fun t => by
  rw [bigSep_W2, bigSep_W2]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt2 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2 V c t 0 d0 rfl, before2 V c t 1 d1 rfl, before2 V c t 2 d2 rfl, before2 V c t 3 d3 rfl, before2 V c t 4 d4 rfl,
    before2 V c t 5 d5 rfl, before2 V c t 6 d6 rfl]
  dsimp only [dat2]
  iapply sound_kernel2 c Set.univ _ (iblk2 V c 0 t) (iblk2 V c 1 t) (iblk2 V c 2 t) (iblk2 V c 3 t) (iblk2 V c 4 t) (iblk2 V c 5 t)
    (iblk2 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region2

end Cert.Kernel.Hand

end
-- ==== Proof.K.Reg3.lean ====
/-
  Region 3: a graph layer without residual, on row tiles of 1000 nodes. For any contents `V` of the core's buffers
  at entry: what each window's buffer holds after the body at a point, the body's triple, and the pipeline's body
  obligation at every point.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_tile : Rect S1000x128 := Rect.unit (s := S1000x128) ![0, 0] S1000x128.size inb_S1000x128_S1000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0

def out3_7 (x0 x1 : Vec F S1000x128 .f32) (x2 : Vec F S128x128 .f32) (x3 : Vec F S1x128 .f32)
    (x4 : Vec F S128x128 .f32) (x5 : Vec F S1x128 .f32) : Vec F S1000x128 .f32 :=
  View.canon [⟨r3_tile, k3_pay2 (View.ld x0 r3_tile) (View.ld x1 r3_tile) (View.ld x2 r3_w) (View.ld x3 r3_b)
    (View.ld x4 r3_w) (View.ld x5 r3_b)⟩]

def out3_8 (x6 : Vec F S1000x128 .f32) : Vec F S1000x128 .f32 :=
  View.canon [⟨r3_tile, k3_pay1 (View.ld x6 r3_tile)⟩]

/-- A store through the whole tile covers the buffer. -/
theorem cover3 (p0 : Vec F S1000x128 .f32) (y : S1000x128.Idx) :
    ∃ pc ∈ ([⟨r3_tile, p0⟩] : List (View.Piece (Elt F) S1000x128 .f32)), y ∈ pc.1.set :=
  View.cover_of_tiled [⟨r3_tile, p0⟩] S1000x128.size (by rfl) y

set_option maxHeartbeats 1000000 in
/-- The body's triple: the seven inputs are returned as found, the two outputs hold `out3_7` and `out3_8` of them. -/
theorem sound_kernel3 (E : Set ℕ) (i : grid3.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out3_7 x0 x1 x2 x3 x4 x5) ∗ ownsTc c arg9 fullShare (out3_8 x6)) -∗ K ⟨⟩))
      ⊢ wp frame (wpE (defs₀ (F := F)) Variants.none c none) E
          (cc3_kernel i arg1 harg1 arg2 harg2 arg3 harg3 arg4 harg4 arg5 harg5 arg6 harg6 arg7 harg7 arg8 harg8 arg9 harg9) K := by
  simp only [cc3_kernel_eq_skeleton]; unfold cc3_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover3 _)
  iexists _; isplitr
  swap; · iexact H8
  ipureintro
  exact View.read_writes_eq_canon _ _ _ (cover3 _)

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t)
    | ⟨8, _⟩ => out3_8 (iblk3 V c 6 t)
  Φ _ := Pipeline.ΦA spec3 c
  q _ := fullShare
  owed _ := 0

theorem A_eq3 (w : Fin cfg3.W) : (dat3 V c).A w = V c (Pipeline.arrRef spec3 w) := by
  dsimp only [dat3]

variable (t : Fin cfg3.N)

theorem after3_7 :
    (dat3 V c).after 7 t = out3_7 (iblk3 V c 0 t) (iblk3 V c 1 t) (iblk3 V c 2 t) (iblk3 V c 3 t) (iblk3 V c 4 t) (iblk3 V c 5 t) := by
  dsimp only [dat3]
theorem after3_8 : (dat3 V c).after 8 t = out3_8 (iblk3 V c 6 t) := by dsimp only [dat3]

/-- An input window's contents before the body at a point are its contents after it. -/
theorem before3 : ∀ (w : Fin cfg3.W) (d), (cfg3.win w).isOut = false → (dat3 V c).before w t d = (dat3 V c).after w t
  | ⟨0, _⟩, d, h | ⟨1, _⟩, d, h | ⟨2, _⟩, d, h | ⟨3, _⟩, d, h | ⟨4, _⟩, d, h | ⟨5, _⟩, d, h | ⟨6, _⟩, d, h =>
    ((dat3 V c).before_in_eq_fetched _ h (fun _ => rfl) (fun _ _ _ => rfl) (fun _ => by dsimp only [dat3]; rfl) t d).trans
      (by dsimp only [dat3]; rfl)
  | ⟨7, _⟩, _, h | ⟨8, _⟩, _, h => absurd h (by decide +revert)

/-- The body obligation: each input buffer holds its block, so the triple applies; the invariant and the dues pass through. -/
theorem body_obligation3 : BodyObligation (dat3 (F := F) V c) (defs₀ (F := F)) Variants.none () Set.univ := fun t => by
  rw [bigSep_W3, bigSep_W3]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt3 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before3 V c t 0 d0 rfl, before3 V c t 1 d1 rfl, before3 V c t 2 d2 rfl, before3 V c t 3 d3 rfl, before3 V c t 4 d4 rfl,
    before3 V c t 5 d5 rfl, before3 V c t 6 d6 rfl]
  dsimp only [dat3]
  iapply sound_kernel3 c Set.univ _ (iblk3 V c 0 t) (iblk3 V c 1 t) (iblk3 V c 2 t) (iblk3 V c 3 t) (iblk3 V c 4 t) (iblk3 V c 5 t)
    (iblk3 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region3

end Cert.Kernel.Hand

end
-- ==== Proof.K.Reg4.lean ====
/-
  Region 4: a graph layer with its residual, on row tiles of 1000 nodes. For any contents `V` of the core's buffers
  at entry: what each window's buffer holds after the body at a point, the body's triple, and the pipeline's body
  obligation at every point.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_tile : Rect S1000x128 := Rect.unit (s := S1000x128) ![0, 0] S1000x128.size inb_S1000x128_S1000x128_0_0
abbrev r4_w : Rect S128x128 := Rect.unit (s := S128x128) ![0, 0] S128x128.size inb_S128x128_S128x128_0_0
abbrev r4_b : Rect S1x128 := Rect.unit (s := S1x128) ![0, 0] S1x128.size inb_S1x128_S1x128_0_0

def out4_7 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r4_tile, k4_pay2 (View.ld x0 r4_tile) (View.ld x1 r4_tile) (View.ld x2 r4_w) (View.ld x3 r4_b) (View.ld x4 r4_w)
    (View.ld x5 r4_b) (View.ld x6 r4_tile)⟩]

def out4_8 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r4_tile, k4_pay1 (View.ld x0 r4_tile) (View.ld x1 r4_tile) (View.ld x2 r4_w) (View.ld x3 r4_b) (View.ld x4 r4_w)
    (View.ld x5 r4_b) (View.ld x6 r4_tile)⟩]

/-- A store through the whole tile covers the buffer. -/
theorem cover4 (p0 : Vec F S1000x128 .f32) (y : S1000x128.Idx) :
    ∃ pc ∈ ([⟨r4_tile, p0⟩] : List (View.Piece (Elt F) S1000x128 .f32)), y ∈ pc.1.set :=
  View.cover_of_tiled [⟨r4_tile, p0⟩] S1000x128.size (by rfl) y

set_option maxHeartbeats 4000000 in
/-- The body's triple: the seven inputs are returned as found, the two outputs hold `out4_7` and `out4_8` of them. -/
theorem sound_kernel4 (E : Set ℕ) (i : grid4.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out4_7 x0 x1 x2 x3 x4 x5 x6) ∗ ownsTc c arg9 fullShare (out4_8 x0 x1 x2 x3 x4 x5 x6)) -∗ K ⟨⟩))
      ⊢ wp frame (wpE (defs₀ (F := F)) Variants.none c none) E
          (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover4 _)
  iexists _; isplitr
  swap; · iexact H8
  ipureintro
  exact View.read_writes_eq_canon _ _ _ (cover4 _)

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (w : Fin cfg4.W) : (dat4 V c).A w = V c (Pipeline.arrRef spec4 w) := by
  dsimp only [dat4]

variable (t : Fin cfg4.N)

theorem after4_7 :
    (dat4 V c).after 7 t = out4_7 (iblk4 V c 0 t) (iblk4 V c 1 t) (iblk4 V c 2 t) (iblk4 V c 3 t) (iblk4 V c 4 t) (iblk4 V c 5 t) (iblk4 V c 6 t) := by
  dsimp only [dat4]
theorem after4_8 :
    (dat4 V c).after 8 t = out4_8 (iblk4 V c 0 t) (iblk4 V c 1 t) (iblk4 V c 2 t) (iblk4 V c 3 t) (iblk4 V c 4 t) (iblk4 V c 5 t) (iblk4 V c 6 t) := by
  dsimp only [dat4]

/-- An input window's contents before the body at a point are its contents after it. -/
theorem before4 : ∀ (w : Fin cfg4.W) (d), (cfg4.win w).isOut = false → (dat4 V c).before w t d = (dat4 V c).after w t
  | ⟨0, _⟩, d, h | ⟨1, _⟩, d, h | ⟨2, _⟩, d, h | ⟨3, _⟩, d, h | ⟨4, _⟩, d, h | ⟨5, _⟩, d, h | ⟨6, _⟩, d, h =>
    ((dat4 V c).before_in_eq_fetched _ h (fun _ => rfl) (fun _ _ _ => rfl) (fun _ => by dsimp only [dat4]; rfl) t d).trans
      (by dsimp only [dat4]; rfl)
  | ⟨7, _⟩, _, h | ⟨8, _⟩, _, h => absurd h (by decide +revert)

/-- The body obligation: each input buffer holds its block, so the triple applies; the invariant and the dues pass through. -/
theorem body_obligation4 : BodyObligation (dat4 (F := F) V c) (defs₀ (F := F)) Variants.none () Set.univ := fun t => by
  rw [bigSep_W4, bigSep_W4]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt4 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt4
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before4 V c t 0 d0 rfl, before4 V c t 1 d1 rfl, before4 V c t 2 d2 rfl, before4 V c t 3 d3 rfl, before4 V c t 4 d4 rfl,
    before4 V c t 5 d5 rfl, before4 V c t 6 d6 rfl]
  dsimp only [dat4]
  iapply sound_kernel4 c Set.univ _ (iblk4 V c 0 t) (iblk4 V c 1 t) (iblk4 V c 2 t) (iblk4 V c 3 t) (iblk4 V c 4 t) (iblk4 V c 5 t)
    (iblk4 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region4

end Cert.Kernel.Hand

end
-- ==== Proof.K.Reg5.lean ====
/-
  Region 5: a graph layer without residual, on row tiles of 1000 nodes. For any contents `V` of the core's buffers
  at entry: what each window's buffer holds after the body at a point, the body's triple, and the pipeline's body
  obligation at every point.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_tile : Rect S1000x128 := Rect.unit (s := S1000x128) ![0, 0] S1000x128.size inb_S1000x128_S1000x128_0_0
abbrev r5_w : Rect S128x128 := Rect.unit (s := S128x128) ![0, 0] S128x128.size inb_S128x128_S128x128_0_0
abbrev r5_b : Rect S1x128 := Rect.unit (s := S1x128) ![0, 0] S1x128.size inb_S1x128_S1x128_0_0

def out5_7 (x0 x1 : Vec F S1000x128 .f32) (x2 : Vec F S128x128 .f32) (x3 : Vec F S1x128 .f32)
    (x4 : Vec F S128x128 .f32) (x5 : Vec F S1x128 .f32) : Vec F S1000x128 .f32 :=
  View.canon [⟨r5_tile, k5_pay2 (View.ld x0 r5_tile) (View.ld x1 r5_tile) (View.ld x2 r5_w) (View.ld x3 r5_b)
    (View.ld x4 r5_w) (View.ld x5 r5_b)⟩]

def out5_8 (x6 : Vec F S1000x128 .f32) : Vec F S1000x128 .f32 :=
  View.canon [⟨r5_tile, k5_pay1 (View.ld x6 r5_tile)⟩]

/-- A store through the whole tile covers the buffer. -/
theorem cover5 (p0 : Vec F S1000x128 .f32) (y : S1000x128.Idx) :
    ∃ pc ∈ ([⟨r5_tile, p0⟩] : List (View.Piece (Elt F) S1000x128 .f32)), y ∈ pc.1.set :=
  View.cover_of_tiled [⟨r5_tile, p0⟩] S1000x128.size (by rfl) y

set_option maxHeartbeats 1000000 in
/-- The body's triple: the seven inputs are returned as found, the two outputs hold `out5_7` and `out5_8` of them. -/
theorem sound_kernel5 (E : Set ℕ) (i : grid5.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out5_7 x0 x1 x2 x3 x4 x5) ∗ ownsTc c arg9 fullShare (out5_8 x6)) -∗ K ⟨⟩))
      ⊢ wp frame (wpE (defs₀ (F := F)) Variants.none c none) E
          (cc5_kernel i arg1 harg1 arg2 harg2 arg3 harg3 arg4 harg4 arg5 harg5 arg6 harg6 arg7 harg7 arg8 harg8 arg9 harg9) K := by
  simp only [cc5_kernel_eq_skeleton]; unfold cc5_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover5 _)
  iexists _; isplitr
  swap; · iexact H8
  ipureintro
  exact View.read_writes_eq_canon _ _ _ (cover5 _)

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t)
    | ⟨8, _⟩ => out5_8 (iblk5 V c 6 t)
  Φ _ := Pipeline.ΦA spec5 c
  q _ := fullShare
  owed _ := 0

theorem A_eq5 (w : Fin cfg5.W) : (dat5 V c).A w = V c (Pipeline.arrRef spec5 w) := by
  dsimp only [dat5]

variable (t : Fin cfg5.N)

theorem after5_7 :
    (dat5 V c).after 7 t = out5_7 (iblk5 V c 0 t) (iblk5 V c 1 t) (iblk5 V c 2 t) (iblk5 V c 3 t) (iblk5 V c 4 t) (iblk5 V c 5 t) := by
  dsimp only [dat5]
theorem after5_8 : (dat5 V c).after 8 t = out5_8 (iblk5 V c 6 t) := by dsimp only [dat5]

/-- An input window's contents before the body at a point are its contents after it. -/
theorem before5 : ∀ (w : Fin cfg5.W) (d), (cfg5.win w).isOut = false → (dat5 V c).before w t d = (dat5 V c).after w t
  | ⟨0, _⟩, d, h | ⟨1, _⟩, d, h | ⟨2, _⟩, d, h | ⟨3, _⟩, d, h | ⟨4, _⟩, d, h | ⟨5, _⟩, d, h | ⟨6, _⟩, d, h =>
    ((dat5 V c).before_in_eq_fetched _ h (fun _ => rfl) (fun _ _ _ => rfl) (fun _ => by dsimp only [dat5]; rfl) t d).trans
      (by dsimp only [dat5]; rfl)
  | ⟨7, _⟩, _, h | ⟨8, _⟩, _, h => absurd h (by decide +revert)

/-- The body obligation: each input buffer holds its block, so the triple applies; the invariant and the dues pass through. -/
theorem body_obligation5 : BodyObligation (dat5 (F := F) V c) (defs₀ (F := F)) Variants.none () Set.univ := fun t => by
  rw [bigSep_W5, bigSep_W5]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt5 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt5
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before5 V c t 0 d0 rfl, before5 V c t 1 d1 rfl, before5 V c t 2 d2 rfl, before5 V c t 3 d3 rfl, before5 V c t 4 d4 rfl,
    before5 V c t 5 d5 rfl, before5 V c t 6 d6 rfl]
  dsimp only [dat5]
  iapply sound_kernel5 c Set.univ _ (iblk5 V c 0 t) (iblk5 V c 1 t) (iblk5 V c 2 t) (iblk5 V c 3 t) (iblk5 V c 4 t) (iblk5 V c 5 t)
    (iblk5 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region5

end Cert.Kernel.Hand

end
-- ==== Proof.K.Reg6.lean ====
/-
  Region 6: a graph layer with its residual, on row tiles of 1000 nodes. For any contents `V` of the core's buffers
  at entry: what each window's buffer holds after the body at a point, the body's triple, and the pipeline's body
  obligation at every point.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_tile : Rect S1000x128 := Rect.unit (s := S1000x128) ![0, 0] S1000x128.size inb_S1000x128_S1000x128_0_0
abbrev r6_w : Rect S128x128 := Rect.unit (s := S128x128) ![0, 0] S128x128.size inb_S128x128_S128x128_0_0
abbrev r6_b : Rect S1x128 := Rect.unit (s := S1x128) ![0, 0] S1x128.size inb_S1x128_S1x128_0_0

def out6_7 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r6_tile, k6_pay2 (View.ld x0 r6_tile) (View.ld x1 r6_tile) (View.ld x2 r6_w) (View.ld x3 r6_b) (View.ld x4 r6_w)
    (View.ld x5 r6_b) (View.ld x6 r6_tile)⟩]

def out6_8 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r6_tile, k6_pay1 (View.ld x0 r6_tile) (View.ld x1 r6_tile) (View.ld x2 r6_w) (View.ld x3 r6_b) (View.ld x4 r6_w)
    (View.ld x5 r6_b) (View.ld x6 r6_tile)⟩]

/-- A store through the whole tile covers the buffer. -/
theorem cover6 (p0 : Vec F S1000x128 .f32) (y : S1000x128.Idx) :
    ∃ pc ∈ ([⟨r6_tile, p0⟩] : List (View.Piece (Elt F) S1000x128 .f32)), y ∈ pc.1.set :=
  View.cover_of_tiled [⟨r6_tile, p0⟩] S1000x128.size (by rfl) y

set_option maxHeartbeats 4000000 in
/-- The body's triple: the seven inputs are returned as found, the two outputs hold `out6_7` and `out6_8` of them. -/
theorem sound_kernel6 (E : Set ℕ) (i : grid6.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out6_7 x0 x1 x2 x3 x4 x5 x6) ∗ ownsTc c arg9 fullShare (out6_8 x0 x1 x2 x3 x4 x5 x6)) -∗ K ⟨⟩))
      ⊢ wp frame (wpE (defs₀ (F := F)) Variants.none c none) E
          (cc6_kernel i arg1 harg1 arg2 harg2 arg3 harg3 arg4 harg4 arg5 harg5 arg6 harg6 arg7 harg7 arg8 harg8 arg9 harg9) K := by
  simp only [cc6_kernel_eq_skeleton]; unfold cc6_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover6 _)
  iexists _; isplitr
  swap; · iexact H8
  ipureintro
  exact View.read_writes_eq_canon _ _ _ (cover6 _)

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
    | ⟨8, _⟩ => out6_8 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (w : Fin cfg6.W) : (dat6 V c).A w = V c (Pipeline.arrRef spec6 w) := by
  dsimp only [dat6]

variable (t : Fin cfg6.N)

theorem after6_7 :
    (dat6 V c).after 7 t = out6_7 (iblk6 V c 0 t) (iblk6 V c 1 t) (iblk6 V c 2 t) (iblk6 V c 3 t) (iblk6 V c 4 t) (iblk6 V c 5 t) (iblk6 V c 6 t) := by
  dsimp only [dat6]
theorem after6_8 :
    (dat6 V c).after 8 t = out6_8 (iblk6 V c 0 t) (iblk6 V c 1 t) (iblk6 V c 2 t) (iblk6 V c 3 t) (iblk6 V c 4 t) (iblk6 V c 5 t) (iblk6 V c 6 t) := by
  dsimp only [dat6]

/-- An input window's contents before the body at a point are its contents after it. -/
theorem before6 : ∀ (w : Fin cfg6.W) (d), (cfg6.win w).isOut = false → (dat6 V c).before w t d = (dat6 V c).after w t
  | ⟨0, _⟩, d, h | ⟨1, _⟩, d, h | ⟨2, _⟩, d, h | ⟨3, _⟩, d, h | ⟨4, _⟩, d, h | ⟨5, _⟩, d, h | ⟨6, _⟩, d, h =>
    ((dat6 V c).before_in_eq_fetched _ h (fun _ => rfl) (fun _ _ _ => rfl) (fun _ => by dsimp only [dat6]; rfl) t d).trans
      (by dsimp only [dat6]; rfl)
  | ⟨7, _⟩, _, h | ⟨8, _⟩, _, h => absurd h (by decide +revert)

/-- The body obligation: each input buffer holds its block, so the triple applies; the invariant and the dues pass through. -/
theorem body_obligation6 : BodyObligation (dat6 (F := F) V c) (defs₀ (F := F)) Variants.none () Set.univ := fun t => by
  rw [bigSep_W6, bigSep_W6]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt6 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt6
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before6 V c t 0 d0 rfl, before6 V c t 1 d1 rfl, before6 V c t 2 d2 rfl, before6 V c t 3 d3 rfl, before6 V c t 4 d4 rfl,
    before6 V c t 5 d5 rfl, before6 V c t 6 d6 rfl]
  dsimp only [dat6]
  iapply sound_kernel6 c Set.univ _ (iblk6 V c 0 t) (iblk6 V c 1 t) (iblk6 V c 2 t) (iblk6 V c 3 t) (iblk6 V c 4 t) (iblk6 V c 5 t)
    (iblk6 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region6

end Cert.Kernel.Hand

end
-- ==== Proof.K.Reg7.lean ====
/-
  Region 7 of @main: pooling by a one-hot product accumulated over the 50 row tiles and read out through the post-MLP at
  the last tile, at any entry contents `V` and any float type. The accumulator after each point is a recursion over the
  points (`scr7`); the invariant hands it from point to point.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst7 (i : grid7.Coords) : Prop :=
  (Scalar.cmpi .ne (Scalar.extui (Scalar.cmpi .eq (BitVec.ofNat 32 (i 0).val) 0#32)) 0#32) = 1#1
abbrev isLast7 (i : grid7.Coords) : Prop := k7_cond2 i = 1#1

theorem off2_zero : (![0, 0] : Fin 2 → ℕ) = fun _ => 0 := by
  funext a; fin_cases a <;> rfl

/-- After stores the last of which fills the buffer, the buffer reads that store's payload. -/
theorem read_after_fill {κ : Kind} {sp : Space} {S : Shape} {e : EltTy} (v : View sig κ sp S e) (f : v.ty.Contents (Elt F))
    {off : Fin S.rank → ℕ} (hz : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P := by
  rw [View.read_writes_eq_canon _ _ _ (fun y => ⟨_, List.mem_cons_self, View.mem_set_unit_zero hz inb y⟩),
    View.canon_cons_unit_zero hz]

/-- A whole memref owned at `X` is its elements' points-to at the raw contents that read `X`. -/
theorem owns_unread (c : Dev nD) {sp : Space} {sh : Shape} {e : EltTy} {m : Memref sig .tc sp sh e} (h : m.IsWhole)
    (X : sh.Idx → Elt F e) :
    (owns (c : Thread nD τ) m fullShare X : sProp 𝕄) = (m.view.loc (c : Thread nD τ) ↦[m.view.set]{fullShare} h.unread X) := by
  unfold owns
  refine BI.equiv_iff.mp ⟨(?_ : (_ : sProp 𝕄) ⊢ _), (?_ : (_ : sProp 𝕄) ⊢ _)⟩
  · iintro ⟨%f, %hf, H⟩; obtain rfl := h.eq_unread hf; iexact H
  · iintro H; iexists _; isplitr; · ipureintro; exact h.read_unread X
    iexact H
section Body
variable (c : Dev nD) (i : grid7.Coords)
  (a1 : Memref sig .tc .vmem S1000x128 .f32) (h1 : a1.IsWhole) (a2 : Memref sig .tc .vmem S1000x128 .f32) (h2 : a2.IsWhole)
  (a3 : Memref sig .tc .vmem S1000x128 .f32) (h3 : a3.IsWhole) (a4 : Memref sig .tc .vmem S1000x128 .f32) (h4 : a4.IsWhole)
  (a5 : Memref sig .tc .vmem S1000x128 .f32) (h5 : a5.IsWhole) (a6 : Memref sig .tc .vmem S1000x128 .f32) (h6 : a6.IsWhole)
  (a7 : Memref sig .tc .vmem S1000x128 .f32) (h7 : a7.IsWhole) (a8 : Memref sig .tc .vmem S1000x1 .i32) (h8 : a8.IsWhole)
  (a9 : Memref sig .tc .vmem S896x128 .f32) (h9 : a9.IsWhole) (a10 : Memref sig .tc .vmem S1x128 .f32) (h10 : a10.IsWhole)
  (a11 : Memref sig .tc .vmem S128x128 .f32) (h11 : a11.IsWhole) (a12 : Memref sig .tc .vmem S1x128 .f32) (h12 : a12.IsWhole)
  (a13 : Memref sig .tc .vmem S128x128 .f32) (h13 : a13.IsWhole) (a14 : Memref sig .tc .vmem S128x896 .f32) (h14 : a14.IsWhole)
  (x1 x2 x3 x4 x5 x6 x7 : Vec F S1000x128 .f32) (x8 : Vec F S1000x1 .i32) (y9 : Vec F S896x128 .f32) (y10 : Vec F S1x128 .f32)
  (y11 : Vec F S128x128 .f32) (y12 : Vec F S1x128 .f32) (o : Vec F S128x128 .f32) (s : Vec F S128x896 .f32)

set_option maxHeartbeats 1000000 in
/-- The body at a point that is not both first and last: the tile's one-hot product is added to the accumulator (to zeros
    at the first point), the last point stores the post-MLP of the sums in the output buffer, and nothing else changes. -/
theorem run7 (hfl : isFirst7 i → ¬ isLast7 i) (E : Set ℕ) (K : PUnit → sProp 𝕄) :
    iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare y9
        ∗ owns (c : Thread nD τ) a10 fullShare y10
        ∗ owns (c : Thread nD τ) a11 fullShare y11
        ∗ owns (c : Thread nD τ) a12 fullShare y12
        ∗ owns (c : Thread nD τ) a13 fullShare o ∗ owns (c : Thread nD τ) a14 fullShare s
        ∗ (iprop(owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare y9
            ∗ owns (c : Thread nD τ) a10 fullShare y10
            ∗ owns (c : Thread nD τ) a11 fullShare y11
            ∗ owns (c : Thread nD τ) a12 fullShare y12
            ∗ owns (c : Thread nD τ) a13 fullShare (if isLast7 i then k7_pay1 (k7_pay3 x1 x2 x3 x4 x5 x6 x7 x8 (if isFirst7 i then k7_pay2 (F := F) else s)) y9 y10 y11 y12 else o)
            ∗ owns (c : Thread nD τ) a14 fullShare (k7_pay3 x1 x2 x3 x4 x5 x6 x7 x8 (if isFirst7 i then k7_pay2 (F := F) else s))) -∗ K ⟨⟩))
      ⊢ wp frame (wpE (defs₀ (F := F)) Variants.none c none) E
          (cc7__pool_post_kernel i a1 h1 a2 h2 a3 h3 a4 h4 a5 h5 a6 h6 a7 h7 a8 h8 a9 h9 a10 h10 a11 h11 a12 h12 a13 h13 a14 h14) K := by
  by_cases hfirst : isFirst7 i <;> by_cases hlast : isLast7 i
  · exact absurd hlast (hfl hfirst)
  all_goals
    first | rw [if_pos hfirst] | rw [if_neg hfirst]
    first | rw [if_pos hlast] | rw [if_neg hlast]
    rw [owns_unread c h13 o, owns_unread c h14 s]
    simp only [owns_unread c h1, owns_unread c h2, owns_unread c h3, owns_unread c h4, owns_unread c h5, owns_unread c h6, owns_unread c h7, owns_unread c h8, owns_unread c h9, owns_unread c h10, owns_unread c h11, owns_unread c h12]
    simp only [cc7__pool_post_kernel_eq_skeleton]; unfold cc7__pool_post_kernel_skel
    simp only [k7_part1_eq_skeleton]
    iintro ⟨H1, H2, H3, H4, H5, H6, H7, H8, H9, H10, H11, H12, H13, H14, Hk⟩
    sl_exec (disch := first | exact hfirst | exact hlast)
    sl_step
    iapply Hk
    iframe
    unfold owns
    (try isplitl [H13]) <;>
      (iexists _; isplitr; swap; · iassumption
       ipureintro
       sl_unfold_words
       refine (read_after_fill _ _ off2_zero _ _ _).trans ?_
       simp only [View.readAt_eq_ld, Memref.IsWhole.read_unread, View.ld_unit_zero (S := S1000x128) off2_zero, View.ld_unit_zero (S := S1000x1) off2_zero, View.ld_unit_zero (S := S128x896) off2_zero, View.ld_unit_zero (S := S896x128) off2_zero, View.ld_unit_zero (S := S1x128) off2_zero, View.ld_unit_zero (S := S128x128) off2_zero,
        View.readCov_unit_zero (S := S128x896) _ off2_zero])

end Body

theorem hcond7_0 : ∀ t : Fin cfg7.N, isFirst7 (grid7.coords t) ↔ t.val = 0 :=
  (by decide +kernel : ∀ t : Fin grid7.N, isFirst7 (grid7.coords t) ↔ t.val = 0)
theorem hcond7_1 : ∀ t : Fin cfg7.N, isLast7 (grid7.coords t) ↔ t.val = 49 :=
  (by decide +kernel : ∀ t : Fin grid7.N, isLast7 (grid7.coords t) ↔ t.val = 49)

theorem idle7_12 : ∀ t : Fin cfg7.N, ¬ t.val = 49 → cfg7.idle 12 (grid7.coords t) = true :=
  (by decide +kernel : ∀ t : Fin grid7.N, ¬ t.val = 49 → idle7 12 (grid7.coords t) = true)
theorem noflush7_12 : ∀ t : Fin cfg7.N, ¬ t.val = 49 → (cfg7.win 12).flush t = false :=
  (by decide +kernel : ∀ t : Fin grid7.N, ¬ t.val = 49 → win7_12.flush t = false)
theorem live7_12 : ∀ t : Fin cfg7.N, t.val = 49 → cfg7.idle 12 (grid7.coords t) = false :=
  (by decide +kernel : ∀ t : Fin grid7.N, t.val = 49 → idle7 12 (grid7.coords t) = false)

abbrev pLast7 : Fin cfg7.N := ⟨49, by decide⟩

section Region
variable (V : (c : Dev nD) → (b : Ref sig .tc) → Buf (Elt F) ((c : Thread nD τ).loc b)) (c : Dev nD)

/-- Window `w`'s block at point `t`, read off the window's array as the region finds it. -/
def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Point `t`'s tile: its one-hot product added to `s`. -/
abbrev step7 (t : Fin cfg7.N) (s : Vec F S128x896 .f32) : Vec F S128x896 .f32 :=
  k7_pay3 (iblk7 V c 0 t) (iblk7 V c 1 t) (iblk7 V c 2 t) (iblk7 V c 3 t) (iblk7 V c 4 t) (iblk7 V c 5 t) (iblk7 V c 6 t) (iblk7 V c 7 t) s

/-- The accumulator after position `n`: the tiles up to `n` added to zeros. -/
def scr7 : (n : ℕ) → n < cfg7.N → Vec F S128x896 .f32
  | 0, h => step7 V c ⟨0, h⟩ (k7_pay2 (F := F))
  | n + 1, h => step7 V c ⟨n + 1, h⟩ (scr7 n (Nat.lt_of_succ_lt h))

theorem scratch7_zero (h : 0 < cfg7.N) :
    scr7 V c 0 h = k7_pay3 (iblk7 V c 0 ⟨0, h⟩) (iblk7 V c 1 ⟨0, h⟩) (iblk7 V c 2 ⟨0, h⟩) (iblk7 V c 3 ⟨0, h⟩) (iblk7 V c 4 ⟨0, h⟩) (iblk7 V c 5 ⟨0, h⟩) (iblk7 V c 6 ⟨0, h⟩) (iblk7 V c 7 ⟨0, h⟩) (k7_pay2 (F := F)) := rfl

theorem scratch7_succ (n : ℕ) (h : n + 1 < cfg7.N) :
    scr7 V c (n + 1) h = k7_pay3 (iblk7 V c 0 ⟨n + 1, h⟩) (iblk7 V c 1 ⟨n + 1, h⟩) (iblk7 V c 2 ⟨n + 1, h⟩) (iblk7 V c 3 ⟨n + 1, h⟩) (iblk7 V c 4 ⟨n + 1, h⟩) (iblk7 V c 5 ⟨n + 1, h⟩) (iblk7 V c 6 ⟨n + 1, h⟩) (iblk7 V c 7 ⟨n + 1, h⟩) (scr7 V c n (Nat.lt_of_succ_lt h)) := rfl

/-- The accumulator after point `t` from what the point before left (anything, before the first point). -/
theorem scr7_at (t : Fin cfg7.N) (s : Vec F S128x896 .f32)
    (hs : ∀ h : t.val ≠ 0, s = scr7 V c (t.val - 1) (Nat.lt_of_le_of_lt (Nat.sub_le _ _) t.isLt)) :
    scr7 V c t.val t.isLt = step7 V c t (if isFirst7 (grid7.coords t) then k7_pay2 (F := F) else s) := by
  obtain ⟨n, hn⟩ := t
  cases n with
  | zero => rw [if_pos ((hcond7_0 ⟨0, hn⟩).mpr rfl)]; rfl
  | succ n =>
    obtain rfl := hs (Nat.succ_ne_zero n)
    rw [if_neg fun h => Nat.succ_ne_zero n ((hcond7_0 ⟨n + 1, hn⟩).mp h)]; rfl

/-- The read-out: the post-MLP of the accumulator as the last point leaves it. -/
def fin7 : Vec F S128x128 .f32 :=
  k7_pay1 (scr7 V c 49 pLast7.isLt) (iblk7 V c 8 pLast7) (iblk7 V c 9 pLast7) (iblk7 V c 10 pLast7) (iblk7 V c 11 pLast7)

abbrev scM7 : Memref sig .tc .vmem S128x896 .f32 := Memref.whole cc7_scratch0

/-- The invariant before position `n`: the accumulator at what the point before left (at anything before the first point),
    the other scoped buffers no window stages, and the generator register. -/
def inv7 (n : ℕ) (hn : n ≤ cfg7.N) : sProp 𝕄 :=
  iprop((∃ s, ⌜∀ h : n ≠ 0, s = scr7 V c (n - 1) (by omega)⌝ ∗ owns (c : Thread nD τ) scM7 fullShare s)
    ∗ Pipeline.scopedRestBut (Ix := Unit) (Name := ℕ) (U := UR sig nD τ) (Lvl := ℕ) (Val := Elt F) spec7 c [cc7_scratch0] ∗ (∃ r, prngReg c r))

/-- Region 7's proof data: the arrays as the region finds them; after the body each input's buffer at its block, the
    output's at the read-out; nothing owed; full shares. -/
def dat7 : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => fin7 V c
  Φ t := inv7 V c t.val (Nat.le_of_lt_succ t.isLt)
  q _ := fullShare
  owed _ := 0

theorem A_eq7 (w : Fin cfg7.W) : (dat7 V c).A w = V c (Pipeline.arrRef spec7 w) := by
  dsimp only [dat7]

theorem out7_last (t : Fin cfg7.N) :
    (dat7 V c).after 12 t = k7_pay1 (scr7 V c 49 pLast7.isLt) (iblk7 V c 8 pLast7) (iblk7 V c 9 pLast7) (iblk7 V c 10 pLast7) (iblk7 V c 11 pLast7) :=
  (show (dat7 V c).after 12 t = fin7 V c by dsimp only [dat7]).trans rfl

/-- An input window's contents before the body at a point are its block of the array. -/
theorem before7 (w : Fin cfg7.W) (t : Fin cfg7.N) (hw : (cfg7.win w).isOut = false := by rfl)
    (hl : ∀ i, cfg7.idle w i = false := by exact fun _ => rfl)
    (hc : ∀ t t' : Fin cfg7.N, (cfg7.win w).index t = (cfg7.win w).index t' →
      (cfg7.win w).clip (cfg7.grid.coords t) = (cfg7.win w).clip (cfg7.grid.coords t') := by exact fun _ _ _ => rfl)
    (hk : ∀ t, (cfg7.win w).cut (cfg7.grid.coords t) ((dat7 V c).after w t) = (dat7 V c).blockOf w t := by exact fun _ => rfl) :
    ∀ d, (dat7 V c).before w t d = (dat7 V c).fetched w t d :=
  (dat7 V c).before_in_eq_fetched w hw hl hc hk t

/-- A window live at every point is left at what the proof data names. -/
theorem leaves7 (w : Fin cfg7.W) (t : Fin cfg7.N) (hl : ∀ i, cfg7.idle w i = false := by exact fun _ => rfl) :
    (dat7 V c).leavesExact w t = owns (c : Thread nD τ) ((cfg7.win w).stage (cfg7.slots t w)) fullShare ((dat7 V c).after w t) := by
  unfold Dat.leavesExact; rw [hl]

/-- Window `w`'s part of what the body is entered with at point `t`. -/
abbrev hand7 (t : Fin cfg7.N) (w : Fin cfg7.W) : sProp 𝕄 :=
  iprop(∃ d, owns (c : Thread nD τ) ((cfg7.win w).stage (cfg7.slots t w)) fullShare ((dat7 V c).before w t d))

/-- The scoped buffers that belong to no window, the accumulator set apart as a memref owned at some contents. -/
theorem scopedRest7_acc :
    (Pipeline.scopedRest spec7 c : sProp 𝕄)
      = iprop((∃ s, owns (c : Thread nD τ) scM7 fullShare s)
          ∗ Pipeline.scopedRestBut (Ix := Unit) (Name := ℕ) (U := UR sig nD τ) (Lvl := ℕ) (Val := Elt F) spec7 c [cc7_scratch0]) := by
  rw [scopedRest7_split]; simp only [scM7, owns_whole]; try rfl

/-- The output window's buffer after the body: the read-out at the last point, before it what the body found. -/
theorem out7 (t : Fin cfg7.N) (d) (s : Vec F S128x896 .f32)
    (hs : ∀ h : t.val ≠ 0, s = scr7 V c (t.val - 1) (Nat.lt_of_le_of_lt (Nat.sub_le _ _) t.isLt)) :
    owns (c : Thread nD τ) (win7_12.stage (cfg7.slots t 12)) fullShare
        (if isLast7 (grid7.coords t) then k7_pay1 (step7 V c t (if isFirst7 (grid7.coords t) then k7_pay2 (F := F) else s))
          (iblk7 V c 8 t) (iblk7 V c 9 t) (iblk7 V c 10 t) (iblk7 V c 11 t) else (dat7 V c).before 12 t d)
      ⊢ (dat7 V c).leavesExact 12 t := by
  rw [← scr7_at V c t s hs]
  by_cases h : t.val = 49
  · rw [if_pos ((hcond7_1 t).mpr h), show (dat7 V c).leavesExact 12 t
        = owns (c : Thread nD τ) (win7_12.stage (cfg7.slots t 12)) fullShare ((dat7 V c).after 12 t) by
      unfold Dat.leavesExact; rw [live7_12 t h], out7_last]
    obtain rfl : t = pLast7 := Fin.ext h
    iintro H; iexact H
  · rw [if_neg fun h' => h ((hcond7_1 t).mp h'), Dat.leavesExact_idle (dat7 V c) 12 t (idle7_12 t h) (noflush7_12 t h)]
    iintro H; iexists d; iexact H

set_option maxHeartbeats 4000000 in
/-- The body at any point: the input windows' buffers hold their blocks, the invariant hands over the accumulator and takes
    it back at this point's contents, and the output window's buffer comes back as found except at the last point. -/
theorem body7 (t : Fin cfg7.N) :
    iprop((dat7 V c).Φ t.castSucc ∗ (dat7 V c).owesAt () t.castSucc
        ∗ hand7 V c t 0 ∗ hand7 V c t 1 ∗ hand7 V c t 2 ∗ hand7 V c t 3 ∗ hand7 V c t 4 ∗ hand7 V c t 5 ∗ hand7 V c t 6 ∗ hand7 V c t 7 ∗ hand7 V c t 8 ∗ hand7 V c t 9 ∗ hand7 V c t 10 ∗ hand7 V c t 11 ∗ hand7 V c t 12)
      ⊢ wp frame (wpE (defs₀ (F := F)) Variants.none c none) Set.univ (bodyAt7 t) fun _ =>
          iprop((dat7 V c).Φ t.succ ∗ (dat7 V c).owesAt () t.succ
            ∗ (dat7 V c).leavesExact 0 t ∗ (dat7 V c).leavesExact 1 t ∗ (dat7 V c).leavesExact 2 t ∗ (dat7 V c).leavesExact 3 t ∗ (dat7 V c).leavesExact 4 t ∗ (dat7 V c).leavesExact 5 t ∗ (dat7 V c).leavesExact 6 t ∗ (dat7 V c).leavesExact 7 t ∗ (dat7 V c).leavesExact 8 t ∗ (dat7 V c).leavesExact 9 t ∗ (dat7 V c).leavesExact 10 t ∗ (dat7 V c).leavesExact 11 t ∗ (dat7 V c).leavesExact 12 t) := by
  unfold bodyAt7
  simp only [hand7, before7 V c 0 t, before7 V c 1 t, before7 V c 2 t, before7 V c 3 t, before7 V c 4 t, before7 V c 5 t, before7 V c 6 t, before7 V c 7 t, before7 V c 8 t, before7 V c 9 t, before7 V c 10 t, before7 V c 11 t]
  rw [show (dat7 V c).owesAt () t.succ = (dat7 V c).owesAt () t.castSucc from rfl,
    show (dat7 V c).Φ t.succ = inv7 V c (t.val + 1) t.isLt from rfl,
    show (dat7 V c).Φ t.castSucc = inv7 V c t.val (Nat.le_of_lt t.isLt) from rfl,
    leaves7 V c 0 t, leaves7 V c 1 t, leaves7 V c 2 t, leaves7 V c 3 t, leaves7 V c 4 t, leaves7 V c 5 t, leaves7 V c 6 t, leaves7 V c 7 t, leaves7 V c 8 t, leaves7 V c 9 t, leaves7 V c 10 t, leaves7 V c 11 t]
  unfold inv7
  iintro ⟨⟨⟨%s, %hs, HS⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run7 c (grid7.coords t) _ _ _ _ _ _ _ _ _ _ _ _ _ _ _ _ _ _ _ _ _ _ _ _ _ _ _ _
    (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) ((dat7 V c).before 12 t d12) s
    (fun h0 h49 => by have := (hcond7_0 t).mp h0; have := (hcond7_1 t).mp h49; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hrest Hg]
  · isplitl [HS]
    · iexists _; isplitr; swap; · iexact HS
      ipureintro; exact fun _ => (scr7_at V c t s hs).symm
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (out7 V c t d12 s hs); iexact H12

theorem body_obligation7 : BodyObligation (dat7 (F := F) V c) (defs₀ (F := F)) Variants.none () Set.univ := fun t => by
  rw [bigSep_W7, bigSep_W7]
  exact body7 V c t

/-- What the region is entered with is the invariant before the first point. -/
theorem hin7 :
    (iprop((∃ r, prngReg c r) ∗ Pipeline.prefHeld (pcfgs (F := F) 7).pre c (fun _ => fullShare) ((cfgs 7).toPCfg_adm).1
      ∗ Pipeline.scopedRest spec7 c) : sProp 𝕄) ⊢ (dat7 V c).Φ 0 := by
  rw [show (dat7 V c).Φ 0 = inv7 V c 0 (Nat.zero_le _) from rfl, scopedRest7_acc]; unfold inv7
  iintro ⟨Hg, -, ⟨%s, HS⟩, Hr⟩
  isplitl [HS]
  · iexists s; isplitr; · ipureintro; exact fun h => absurd rfl h
    iexact HS
  isplitl [Hr]; · iexact Hr
  iexact Hg

/-- After the last point the invariant gives the register and the scoped buffers back, the accumulator at some contents. -/
theorem hout7 :
    (dat7 V c).Φ (Fin.last cfg7.N) ⊢ (iprop((∃ r, prngReg c r) ∗ Pipeline.ownSems0 (fun k : PEmpty => k.elim) c
      ∗ Pipeline.scopedRest spec7 c) : sProp 𝕄) := by
  rw [Pipeline.ownSems0_none, show (dat7 V c).Φ (Fin.last cfg7.N) = inv7 V c cfg7.N (Nat.le_refl _) from rfl, scopedRest7_acc]
  unfold inv7
  iintro ⟨⟨%s, -, HS⟩, Hrest, Hg⟩
  isplitl [Hg]; · iexact Hg
  isplitr; · iempintro
  isplitl [HS]; · iexists _; iexact HS
  iexact Hrest

end Region

end Cert.Kernel.Hand

end
-- ==== Proof.K.Fold.lean ====
/-
  The contents of a core's buffers after each of the program's sixteen items, from the launch memory: a host stretch
  applies its operations, a kernel region overwrites the arrays of its output windows. The fold agrees with the
  generated one, and each item leaves alone every buffer it does not write.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import proofs.«431182_j60713657696761_1_alg».proof.Proof.Gen.Kernel.Regions
import proofs.«431182_j60713657696761_1_alg».proof.Proof.K.Reg0
import proofs.«431182_j60713657696761_1_alg».proof.Proof.K.Reg1
import proofs.«431182_j60713657696761_1_alg».proof.Proof.K.Reg2
import proofs.«431182_j60713657696761_1_alg».proof.Proof.K.Reg3
import proofs.«431182_j60713657696761_1_alg».proof.Proof.K.Reg4
import proofs.«431182_j60713657696761_1_alg».proof.Proof.K.Reg5
import proofs.«431182_j60713657696761_1_alg».proof.Proof.K.Reg6
import proofs.«431182_j60713657696761_1_alg».proof.Proof.K.Reg7
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe
open Idealize.ShloMosaic.Pipeline (Dat Cfg Window BodyObligation cellOf)

variable {F : FTy → Type} [FloatOps F]

section Fold

variable (m : (ℓ : Loc nD τ sig) → Buf (Elt F) ℓ)

abbrev W0 (c : Dev nD) : Valuation τ sig (Elt F) := fun b => m (c, b)

def W1 (c : Dev nD) : Valuation τ sig (Elt F) := StableHlo.after hostOps0 (W0 m c)

def W2 (c : Dev nD) : Valuation τ sig (Elt F) :=
  Function.update (W1 m c) main_v6 ((dat0 (fun c b => W1 m c b) c).arrAt 3 cfg0.N)

def W3 (c : Dev nD) : Valuation τ sig (Elt F) := StableHlo.after hostOps1 (W2 m c)

def W4 (c : Dev nD) : Valuation τ sig (Elt F) :=
  Function.update (Function.update (W3 m c) main_v27_0 ((dat1 (fun c b => W3 m c b) c).arrAt 7 cfg1.N)) main_v27_1 ((dat1 (fun c b => W3 m c b) c).arrAt 8 cfg1.N)

def W5 (c : Dev nD) : Valuation τ sig (Elt F) := StableHlo.after hostOps2 (W4 m c)

def W6 (c : Dev nD) : Valuation τ sig (Elt F) :=
  Function.update (Function.update (W5 m c) main_v48_0 ((dat2 (fun c b => W5 m c b) c).arrAt 7 cfg2.N)) main_v48_1 ((dat2 (fun c b => W5 m c b) c).arrAt 8 cfg2.N)

def W7 (c : Dev nD) : Valuation τ sig (Elt F) := StableHlo.after hostOps3 (W6 m c)

def W8 (c : Dev nD) : Valuation τ sig (Elt F) :=
  Function.update (Function.update (W7 m c) main_v69_0 ((dat3 (fun c b => W7 m c b) c).arrAt 7 cfg3.N)) main_v69_1 ((dat3 (fun c b => W7 m c b) c).arrAt 8 cfg3.N)

def W9 (c : Dev nD) : Valuation τ sig (Elt F) := StableHlo.after hostOps4 (W8 m c)

def W10 (c : Dev nD) : Valuation τ sig (Elt F) :=
  Function.update (Function.update (W9 m c) main_v90_0 ((dat4 (fun c b => W9 m c b) c).arrAt 7 cfg4.N)) main_v90_1 ((dat4 (fun c b => W9 m c b) c).arrAt 8 cfg4.N)

def W11 (c : Dev nD) : Valuation τ sig (Elt F) := StableHlo.after hostOps5 (W10 m c)

def W12 (c : Dev nD) : Valuation τ sig (Elt F) :=
  Function.update (Function.update (W11 m c) main_v111_0 ((dat5 (fun c b => W11 m c b) c).arrAt 7 cfg5.N)) main_v111_1 ((dat5 (fun c b => W11 m c b) c).arrAt 8 cfg5.N)

def W13 (c : Dev nD) : Valuation τ sig (Elt F) := StableHlo.after hostOps6 (W12 m c)

def W14 (c : Dev nD) : Valuation τ sig (Elt F) :=
  Function.update (Function.update (W13 m c) main_v132_0 ((dat6 (fun c b => W13 m c b) c).arrAt 7 cfg6.N)) main_v132_1 ((dat6 (fun c b => W13 m c b) c).arrAt 8 cfg6.N)

def W15 (c : Dev nD) : Valuation τ sig (Elt F) := StableHlo.after hostOps7 (W14 m c)

def W16 (c : Dev nD) : Valuation τ sig (Elt F) :=
  Function.update (W15 m c) main_v135 ((dat7 (fun c b => W15 m c b) c).arrAt 12 cfg7.N)

def pdats : (p : Fin 8) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
  | ⟨6, _⟩ => fun c => dat6 (fun c b => W13 m c b) c
  | ⟨7, _⟩ => fun c => dat7 (fun c b => W15 m c b) c

def outsH : Gen.Outs (F := F) := fun J r c =>
  (match J with
    | 2 => W2 m c | 4 => W4 m c | 6 => W6 m c | 8 => W8 m c | 10 => W10 m c | 12 => W12 m c | 14 => W14 m c | 16 => W16 m c
    | _ => W0 m c) (Proc.devRef .tc r)

theorem W_out0 (c : Dev nD) : W2 m c (Proc.devRef .tc main_v6) = (dat0 (fun c b => W1 m c b) c).arrAt 3 cfg0.N := by
  unfold W2; exact Function.update_self ..
theorem W_out1_0 (c : Dev nD) : W4 m c (Proc.devRef .tc main_v27_0) = (dat1 (fun c b => W3 m c b) c).arrAt 7 cfg1.N := by
  unfold W4
  rw [Function.update_of_ne (StableHlo.devRef_ne_of_ne (by decide) : (Proc.devRef .tc main_v27_0 : DevRef τ sig) ≠ Proc.devRef .tc main_v27_1)]
  exact Function.update_self ..
theorem W_out1_1 (c : Dev nD) : W4 m c (Proc.devRef .tc main_v27_1) = (dat1 (fun c b => W3 m c b) c).arrAt 8 cfg1.N := by
  unfold W4; exact Function.update_self ..
theorem W_out2_0 (c : Dev nD) : W6 m c (Proc.devRef .tc main_v48_0) = (dat2 (fun c b => W5 m c b) c).arrAt 7 cfg2.N := by
  unfold W6
  rw [Function.update_of_ne (StableHlo.devRef_ne_of_ne (by decide) : (Proc.devRef .tc main_v48_0 : DevRef τ sig) ≠ Proc.devRef .tc main_v48_1)]
  exact Function.update_self ..
theorem W_out2_1 (c : Dev nD) : W6 m c (Proc.devRef .tc main_v48_1) = (dat2 (fun c b => W5 m c b) c).arrAt 8 cfg2.N := by
  unfold W6; exact Function.update_self ..
theorem W_out3_0 (c : Dev nD) : W8 m c (Proc.devRef .tc main_v69_0) = (dat3 (fun c b => W7 m c b) c).arrAt 7 cfg3.N := by
  unfold W8
  rw [Function.update_of_ne (StableHlo.devRef_ne_of_ne (by decide) : (Proc.devRef .tc main_v69_0 : DevRef τ sig) ≠ Proc.devRef .tc main_v69_1)]
  exact Function.update_self ..
theorem W_out3_1 (c : Dev nD) : W8 m c (Proc.devRef .tc main_v69_1) = (dat3 (fun c b => W7 m c b) c).arrAt 8 cfg3.N := by
  unfold W8; exact Function.update_self ..
theorem W_out4_0 (c : Dev nD) : W10 m c (Proc.devRef .tc main_v90_0) = (dat4 (fun c b => W9 m c b) c).arrAt 7 cfg4.N := by
  unfold W10
  rw [Function.update_of_ne (StableHlo.devRef_ne_of_ne (by decide) : (Proc.devRef .tc main_v90_0 : DevRef τ sig) ≠ Proc.devRef .tc main_v90_1)]
  exact Function.update_self ..
theorem W_out4_1 (c : Dev nD) : W10 m c (Proc.devRef .tc main_v90_1) = (dat4 (fun c b => W9 m c b) c).arrAt 8 cfg4.N := by
  unfold W10; exact Function.update_self ..
theorem W_out5_0 (c : Dev nD) : W12 m c (Proc.devRef .tc main_v111_0) = (dat5 (fun c b => W11 m c b) c).arrAt 7 cfg5.N := by
  unfold W12
  rw [Function.update_of_ne (StableHlo.devRef_ne_of_ne (by decide) : (Proc.devRef .tc main_v111_0 : DevRef τ sig) ≠ Proc.devRef .tc main_v111_1)]
  exact Function.update_self ..
theorem W_out5_1 (c : Dev nD) : W12 m c (Proc.devRef .tc main_v111_1) = (dat5 (fun c b => W11 m c b) c).arrAt 8 cfg5.N := by
  unfold W12; exact Function.update_self ..
theorem W_out6_0 (c : Dev nD) : W14 m c (Proc.devRef .tc main_v132_0) = (dat6 (fun c b => W13 m c b) c).arrAt 7 cfg6.N := by
  unfold W14
  rw [Function.update_of_ne (StableHlo.devRef_ne_of_ne (by decide) : (Proc.devRef .tc main_v132_0 : DevRef τ sig) ≠ Proc.devRef .tc main_v132_1)]
  exact Function.update_self ..
theorem W_out6_1 (c : Dev nD) : W14 m c (Proc.devRef .tc main_v132_1) = (dat6 (fun c b => W13 m c b) c).arrAt 8 cfg6.N := by
  unfold W14; exact Function.update_self ..
theorem W_out7 (c : Dev nD) : W16 m c (Proc.devRef .tc main_v135) = (dat7 (fun c b => W15 m c b) c).arrAt 12 cfg7.N := by
  unfold W16; exact Function.update_self ..

theorem V0_eq (c : Dev nD) : Gen.V0 m c = W0 m c := rfl
theorem V1_eq (c : Dev nD) : Gen.V1 m c = W1 m c := by
  show StableHlo.after hostOps0 (Gen.V0 m c) = _
  rw [V0_eq]; rfl
theorem V2_eq (c : Dev nD) : Gen.V2 m (outsH m) c = W2 m c := by
  have h : outsH m 2 main_v6 c = _ := W_out0 m c
  show Function.update (Gen.V1 m c) main_v6 (outsH m 2 main_v6 c) = _
  rw [h, V1_eq]; rfl
theorem V3_eq (c : Dev nD) : Gen.V3 m (outsH m) c = W3 m c := by
  show StableHlo.after hostOps1 (Gen.V2 m (outsH m) c) = _
  rw [V2_eq]; rfl
theorem V4_eq (c : Dev nD) : Gen.V4 m (outsH m) c = W4 m c := by
  have h0 : outsH m 4 main_v27_0 c = _ := W_out1_0 m c
  have h1 : outsH m 4 main_v27_1 c = _ := W_out1_1 m c
  show Function.update (Function.update (Gen.V3 m (outsH m) c) main_v27_0 (outsH m 4 main_v27_0 c)) main_v27_1 (outsH m 4 main_v27_1 c) = _
  rw [h0, h1, V3_eq]; rfl
theorem V5_eq (c : Dev nD) : Gen.V5 m (outsH m) c = W5 m c := by
  show StableHlo.after hostOps2 (Gen.V4 m (outsH m) c) = _
  rw [V4_eq]; rfl
theorem V6_eq (c : Dev nD) : Gen.V6 m (outsH m) c = W6 m c := by
  have h0 : outsH m 6 main_v48_0 c = _ := W_out2_0 m c
  have h1 : outsH m 6 main_v48_1 c = _ := W_out2_1 m c
  show Function.update (Function.update (Gen.V5 m (outsH m) c) main_v48_0 (outsH m 6 main_v48_0 c)) main_v48_1 (outsH m 6 main_v48_1 c) = _
  rw [h0, h1, V5_eq]; rfl
theorem V7_eq (c : Dev nD) : Gen.V7 m (outsH m) c = W7 m c := by
  show StableHlo.after hostOps3 (Gen.V6 m (outsH m) c) = _
  rw [V6_eq]; rfl
theorem V8_eq (c : Dev nD) : Gen.V8 m (outsH m) c = W8 m c := by
  have h0 : outsH m 8 main_v69_0 c = _ := W_out3_0 m c
  have h1 : outsH m 8 main_v69_1 c = _ := W_out3_1 m c
  show Function.update (Function.update (Gen.V7 m (outsH m) c) main_v69_0 (outsH m 8 main_v69_0 c)) main_v69_1 (outsH m 8 main_v69_1 c) = _
  rw [h0, h1, V7_eq]; rfl
theorem V9_eq (c : Dev nD) : Gen.V9 m (outsH m) c = W9 m c := by
  show StableHlo.after hostOps4 (Gen.V8 m (outsH m) c) = _
  rw [V8_eq]; rfl
theorem V10_eq (c : Dev nD) : Gen.V10 m (outsH m) c = W10 m c := by
  have h0 : outsH m 10 main_v90_0 c = _ := W_out4_0 m c
  have h1 : outsH m 10 main_v90_1 c = _ := W_out4_1 m c
  show Function.update (Function.update (Gen.V9 m (outsH m) c) main_v90_0 (outsH m 10 main_v90_0 c)) main_v90_1 (outsH m 10 main_v90_1 c) = _
  rw [h0, h1, V9_eq]; rfl
theorem V11_eq (c : Dev nD) : Gen.V11 m (outsH m) c = W11 m c := by
  show StableHlo.after hostOps5 (Gen.V10 m (outsH m) c) = _
  rw [V10_eq]; rfl
theorem V12_eq (c : Dev nD) : Gen.V12 m (outsH m) c = W12 m c := by
  have h0 : outsH m 12 main_v111_0 c = _ := W_out5_0 m c
  have h1 : outsH m 12 main_v111_1 c = _ := W_out5_1 m c
  show Function.update (Function.update (Gen.V11 m (outsH m) c) main_v111_0 (outsH m 12 main_v111_0 c)) main_v111_1 (outsH m 12 main_v111_1 c) = _
  rw [h0, h1, V11_eq]; rfl
theorem V13_eq (c : Dev nD) : Gen.V13 m (outsH m) c = W13 m c := by
  show StableHlo.after hostOps6 (Gen.V12 m (outsH m) c) = _
  rw [V12_eq]; rfl
theorem V14_eq (c : Dev nD) : Gen.V14 m (outsH m) c = W14 m c := by
  have h0 : outsH m 14 main_v132_0 c = _ := W_out6_0 m c
  have h1 : outsH m 14 main_v132_1 c = _ := W_out6_1 m c
  show Function.update (Function.update (Gen.V13 m (outsH m) c) main_v132_0 (outsH m 14 main_v132_0 c)) main_v132_1 (outsH m 14 main_v132_1 c) = _
  rw [h0, h1, V13_eq]; rfl
theorem V15_eq (c : Dev nD) : Gen.V15 m (outsH m) c = W15 m c := by
  show StableHlo.after hostOps7 (Gen.V14 m (outsH m) c) = _
  rw [V14_eq]; rfl
theorem V16_eq (c : Dev nD) : Gen.V16 m (outsH m) c = W16 m c := by
  have h : outsH m 16 main_v135 c = _ := W_out7 m c
  show Function.update (Gen.V15 m (outsH m) c) main_v135 (outsH m 16 main_v135 c) = _
  rw [h, V15_eq]; rfl

theorem W1_of (c : Dev nD) (r : Ref sig .tc) (h : r ∉ Gen.hostOps0_W) : W1 m c (Proc.devRef .tc r) = W0 m c (Proc.devRef .tc r) := by
  rw [← V1_eq, ← V0_eq]; exact Gen.V1_of m c r h
theorem W2_of (c : Dev nD) (r : Ref sig .tc) (h : r ∉ ([main_v6] : List (Ref sig .tc))) : W2 m c (Proc.devRef .tc r) = W1 m c (Proc.devRef .tc r) := by
  rw [← V2_eq, ← V1_eq]; exact Gen.V2_of m (outsH m) c r h
theorem W3_of (c : Dev nD) (r : Ref sig .tc) (h : r ∉ Gen.hostOps1_W) : W3 m c (Proc.devRef .tc r) = W2 m c (Proc.devRef .tc r) := by
  rw [← V3_eq, ← V2_eq]; exact Gen.V3_of m (outsH m) c r h
theorem W4_of (c : Dev nD) (r : Ref sig .tc) (h : r ∉ ([main_v27_0, main_v27_1] : List (Ref sig .tc))) : W4 m c (Proc.devRef .tc r) = W3 m c (Proc.devRef .tc r) := by
  rw [← V4_eq, ← V3_eq]; exact Gen.V4_of m (outsH m) c r h
theorem W5_of (c : Dev nD) (r : Ref sig .tc) (h : r ∉ Gen.hostOps2_W) : W5 m c (Proc.devRef .tc r) = W4 m c (Proc.devRef .tc r) := by
  rw [← V5_eq, ← V4_eq]; exact Gen.V5_of m (outsH m) c r h
theorem W6_of (c : Dev nD) (r : Ref sig .tc) (h : r ∉ ([main_v48_0, main_v48_1] : List (Ref sig .tc))) : W6 m c (Proc.devRef .tc r) = W5 m c (Proc.devRef .tc r) := by
  rw [← V6_eq, ← V5_eq]; exact Gen.V6_of m (outsH m) c r h
theorem W7_of (c : Dev nD) (r : Ref sig .tc) (h : r ∉ Gen.hostOps3_W) : W7 m c (Proc.devRef .tc r) = W6 m c (Proc.devRef .tc r) := by
  rw [← V7_eq, ← V6_eq]; exact Gen.V7_of m (outsH m) c r h
theorem W8_of (c : Dev nD) (r : Ref sig .tc) (h : r ∉ ([main_v69_0, main_v69_1] : List (Ref sig .tc))) : W8 m c (Proc.devRef .tc r) = W7 m c (Proc.devRef .tc r) := by
  rw [← V8_eq, ← V7_eq]; exact Gen.V8_of m (outsH m) c r h
theorem W9_of (c : Dev nD) (r : Ref sig .tc) (h : r ∉ Gen.hostOps4_W) : W9 m c (Proc.devRef .tc r) = W8 m c (Proc.devRef .tc r) := by
  rw [← V9_eq, ← V8_eq]; exact Gen.V9_of m (outsH m) c r h
theorem W10_of (c : Dev nD) (r : Ref sig .tc) (h : r ∉ ([main_v90_0, main_v90_1] : List (Ref sig .tc))) : W10 m c (Proc.devRef .tc r) = W9 m c (Proc.devRef .tc r) := by
  rw [← V10_eq, ← V9_eq]; exact Gen.V10_of m (outsH m) c r h
theorem W11_of (c : Dev nD) (r : Ref sig .tc) (h : r ∉ Gen.hostOps5_W) : W11 m c (Proc.devRef .tc r) = W10 m c (Proc.devRef .tc r) := by
  rw [← V11_eq, ← V10_eq]; exact Gen.V11_of m (outsH m) c r h
theorem W12_of (c : Dev nD) (r : Ref sig .tc) (h : r ∉ ([main_v111_0, main_v111_1] : List (Ref sig .tc))) : W12 m c (Proc.devRef .tc r) = W11 m c (Proc.devRef .tc r) := by
  rw [← V12_eq, ← V11_eq]; exact Gen.V12_of m (outsH m) c r h
theorem W13_of (c : Dev nD) (r : Ref sig .tc) (h : r ∉ Gen.hostOps6_W) : W13 m c (Proc.devRef .tc r) = W12 m c (Proc.devRef .tc r) := by
  rw [← V13_eq, ← V12_eq]; exact Gen.V13_of m (outsH m) c r h
theorem W14_of (c : Dev nD) (r : Ref sig .tc) (h : r ∉ ([main_v132_0, main_v132_1] : List (Ref sig .tc))) : W14 m c (Proc.devRef .tc r) = W13 m c (Proc.devRef .tc r) := by
  rw [← V14_eq, ← V13_eq]; exact Gen.V14_of m (outsH m) c r h
theorem W15_of (c : Dev nD) (r : Ref sig .tc) (h : r ∉ Gen.hostOps7_W) : W15 m c (Proc.devRef .tc r) = W14 m c (Proc.devRef .tc r) := by
  rw [← V15_eq, ← V14_eq]; exact Gen.V15_of m (outsH m) c r h
theorem W16_of (c : Dev nD) (r : Ref sig .tc) (h : r ∉ ([main_v135] : List (Ref sig .tc))) : W16 m c (Proc.devRef .tc r) = W15 m c (Proc.devRef .tc r) := by
  rw [← V16_eq, ← V15_eq]; exact Gen.V16_of m (outsH m) c r h

/-- A buffer that is no window's array is not among the output arrays, all of which are. -/
theorem not_mem_of_not_arr {gr W : Nat} (spec : Fin W → Pipeline.WinSpec sig gr) {b : Ref sig .tc}
    (hb : b ∉ Finset.univ.image (Pipeline.arrRef spec)) (l : List (Ref sig .tc)) (hl : ∀ r ∈ l, ∃ w, Pipeline.arrRef spec w = r) : b ∉ l :=
  fun h => let ⟨w, e⟩ := hl b h; hb (Finset.mem_image.mpr ⟨w, Finset.mem_univ _, e⟩)

/-- At a region's exit each window's array is what the contents after the region hold there: an input's array is
    unchanged and not overwritten, an output's array is the overwritten entry. -/
theorem hF0 (c : Dev nD) (w : Fin 4) : (dat0 (fun c b => W1 m c b) c).arrAt w cfg0.N = W2 m c (Proc.devRef .tc (Pipeline.arrRef spec0 w)) := by
  fin_cases w
  iterate 3 exact ((dat0 _ c).arrAt_in _ (by rfl) _).trans ((A_eq0 _ c _).trans (W2_of m c _ (by decide)).symm)
  exact (W_out0 m c).symm
theorem hrest0 (c : Dev nD) : ∀ b, b ∉ Finset.univ.image (Pipeline.arrRef spec0) → W2 m c (Proc.devRef .tc b) = W1 m c (Proc.devRef .tc b) :=
  fun b hb => W2_of m c b (not_mem_of_not_arr spec0 hb _ (List.forall_mem_singleton.2 ⟨3, rfl⟩))
theorem hF1 (c : Dev nD) (w : Fin 9) : (dat1 (fun c b => W3 m c b) c).arrAt w cfg1.N = W4 m c (Proc.devRef .tc (Pipeline.arrRef spec1 w)) := by
  fin_cases w
  iterate 7 exact ((dat1 _ c).arrAt_in _ (by rfl) _).trans ((A_eq1 _ c _).trans (W4_of m c _ (by decide)).symm)
  exacts [(W_out1_0 m c).symm, (W_out1_1 m c).symm]
theorem hrest1 (c : Dev nD) : ∀ b, b ∉ Finset.univ.image (Pipeline.arrRef spec1) → W4 m c (Proc.devRef .tc b) = W3 m c (Proc.devRef .tc b) :=
  fun b hb => W4_of m c b (not_mem_of_not_arr spec1 hb _ (List.forall_mem_cons.2 ⟨⟨7, rfl⟩, List.forall_mem_singleton.2 ⟨8, rfl⟩⟩))
theorem hF2 (c : Dev nD) (w : Fin 9) : (dat2 (fun c b => W5 m c b) c).arrAt w cfg2.N = W6 m c (Proc.devRef .tc (Pipeline.arrRef spec2 w)) := by
  fin_cases w
  iterate 7 exact ((dat2 _ c).arrAt_in _ (by rfl) _).trans ((A_eq2 _ c _).trans (W6_of m c _ (by decide)).symm)
  exacts [(W_out2_0 m c).symm, (W_out2_1 m c).symm]
theorem hrest2 (c : Dev nD) : ∀ b, b ∉ Finset.univ.image (Pipeline.arrRef spec2) → W6 m c (Proc.devRef .tc b) = W5 m c (Proc.devRef .tc b) :=
  fun b hb => W6_of m c b (not_mem_of_not_arr spec2 hb _ (List.forall_mem_cons.2 ⟨⟨7, rfl⟩, List.forall_mem_singleton.2 ⟨8, rfl⟩⟩))
theorem hF3 (c : Dev nD) (w : Fin 9) : (dat3 (fun c b => W7 m c b) c).arrAt w cfg3.N = W8 m c (Proc.devRef .tc (Pipeline.arrRef spec3 w)) := by
  fin_cases w
  iterate 7 exact ((dat3 _ c).arrAt_in _ (by rfl) _).trans ((A_eq3 _ c _).trans (W8_of m c _ (by decide)).symm)
  exacts [(W_out3_0 m c).symm, (W_out3_1 m c).symm]
theorem hrest3 (c : Dev nD) : ∀ b, b ∉ Finset.univ.image (Pipeline.arrRef spec3) → W8 m c (Proc.devRef .tc b) = W7 m c (Proc.devRef .tc b) :=
  fun b hb => W8_of m c b (not_mem_of_not_arr spec3 hb _ (List.forall_mem_cons.2 ⟨⟨7, rfl⟩, List.forall_mem_singleton.2 ⟨8, rfl⟩⟩))
theorem hF4 (c : Dev nD) (w : Fin 9) : (dat4 (fun c b => W9 m c b) c).arrAt w cfg4.N = W10 m c (Proc.devRef .tc (Pipeline.arrRef spec4 w)) := by
  fin_cases w
  iterate 7 exact ((dat4 _ c).arrAt_in _ (by rfl) _).trans ((A_eq4 _ c _).trans (W10_of m c _ (by decide)).symm)
  exacts [(W_out4_0 m c).symm, (W_out4_1 m c).symm]
theorem hrest4 (c : Dev nD) : ∀ b, b ∉ Finset.univ.image (Pipeline.arrRef spec4) → W10 m c (Proc.devRef .tc b) = W9 m c (Proc.devRef .tc b) :=
  fun b hb => W10_of m c b (not_mem_of_not_arr spec4 hb _ (List.forall_mem_cons.2 ⟨⟨7, rfl⟩, List.forall_mem_singleton.2 ⟨8, rfl⟩⟩))
theorem hF5 (c : Dev nD) (w : Fin 9) : (dat5 (fun c b => W11 m c b) c).arrAt w cfg5.N = W12 m c (Proc.devRef .tc (Pipeline.arrRef spec5 w)) := by
  fin_cases w
  iterate 7 exact ((dat5 _ c).arrAt_in _ (by rfl) _).trans ((A_eq5 _ c _).trans (W12_of m c _ (by decide)).symm)
  exacts [(W_out5_0 m c).symm, (W_out5_1 m c).symm]
theorem hrest5 (c : Dev nD) : ∀ b, b ∉ Finset.univ.image (Pipeline.arrRef spec5) → W12 m c (Proc.devRef .tc b) = W11 m c (Proc.devRef .tc b) :=
  fun b hb => W12_of m c b (not_mem_of_not_arr spec5 hb _ (List.forall_mem_cons.2 ⟨⟨7, rfl⟩, List.forall_mem_singleton.2 ⟨8, rfl⟩⟩))
theorem hF6 (c : Dev nD) (w : Fin 9) : (dat6 (fun c b => W13 m c b) c).arrAt w cfg6.N = W14 m c (Proc.devRef .tc (Pipeline.arrRef spec6 w)) := by
  fin_cases w
  iterate 7 exact ((dat6 _ c).arrAt_in _ (by rfl) _).trans ((A_eq6 _ c _).trans (W14_of m c _ (by decide)).symm)
  exacts [(W_out6_0 m c).symm, (W_out6_1 m c).symm]
theorem hrest6 (c : Dev nD) : ∀ b, b ∉ Finset.univ.image (Pipeline.arrRef spec6) → W14 m c (Proc.devRef .tc b) = W13 m c (Proc.devRef .tc b) :=
  fun b hb => W14_of m c b (not_mem_of_not_arr spec6 hb _ (List.forall_mem_cons.2 ⟨⟨7, rfl⟩, List.forall_mem_singleton.2 ⟨8, rfl⟩⟩))
theorem hF7 (c : Dev nD) (w : Fin 13) : (dat7 (fun c b => W15 m c b) c).arrAt w cfg7.N = W16 m c (Proc.devRef .tc (Pipeline.arrRef spec7 w)) := by
  fin_cases w
  iterate 12 exact ((dat7 _ c).arrAt_in _ (by rfl) _).trans ((A_eq7 _ c _).trans (W16_of m c _ (by decide)).symm)
  exact (W_out7 m c).symm
theorem hrest7 (c : Dev nD) : ∀ b, b ∉ Finset.univ.image (Pipeline.arrRef spec7) → W16 m c (Proc.devRef .tc b) = W15 m c (Proc.devRef .tc b) :=
  fun b hb => W16_of m c b (not_mem_of_not_arr spec7 hb _ (List.forall_mem_singleton.2 ⟨12, rfl⟩))

end Fold

end Cert.Kernel.Hand

end
-- ==== Proof.K.Run.lean ====
/-
  The run from launch to return. Each kernel region is a segment from every buffer at the contents before it to every
  buffer at the contents after it; the host stretches are the generated segments. Chained, the sixteen give
  termination with every buffer at the last stage of the fold: the arguments unchanged, the result as region 7 leaves it.
-/
import proofs.«431182_j60713657696761_1_alg».proof.Proof.Gen.Kernel.Launch
import proofs.«431182_j60713657696761_1_alg».proof.Proof.Gen.Kernel.Skeleton
import proofs.«431182_j60713657696761_1_alg».proof.Proof.Gen.Kernel.Points
import proofs.«431182_j60713657696761_1_alg».proof.Proof.Gen.Kernel.Regions
import proofs.«431182_j60713657696761_1_alg».proof.Proof.K.Fold
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ)

abbrev noPairs : GSem nD τ sig → Finset Unit := fun _ => ∅
abbrev noLevel : GSem nD τ sig → Unit → ℕ := fun _ _ => 0

abbrev rest (c : Dev nD) : sProp 𝕄 :=
  iprop((∃ r, prngReg c r) ∗ ∃ W, owes (c : Thread nD τ) (0 : CellTallies nD τ sig Unit) W)

abbrev tstate (W : Valuation τ sig (Elt F)) (c : Dev nD) : sProp 𝕄 :=
  iprop(StableHlo.held (c : Thread nD τ) (Pipeline.ucRefs τ sig) W ∗ rest c)

theorem owes_in {cfg : Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  show _ ⊢ Pipeline.owesWithin c (dat.owed t) (dat.bound () t)
  rw [h0]
  iintro ⟨%W, HO⟩
  iexists W
  isplitr
  · ipureintro
    intro x _
    exact Or.inl (hr ▸ Set.mem_univ x)
  iexact HO

theorem owes_out {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  show Pipeline.owesWithin c (dat.owed t) (dat.bound () t) ⊢ _
  rw [h0]
  iintro ⟨%W, -, HO⟩
  iexists W
  iexact HO

theorem no_tables (p : Fin 8) (c : Dev nD) (q) (v) :
    (Pipeline.prefHeld (Ix := Unit) (Name := ℕ) (U := UR sig nD τ) (Lvl := ℕ) (pcfgs (F := F) p).pre c q v : sProp 𝕄) = BI.emp := by
  unfold Pipeline.prefHeld
  exact BI.bigSep_empty

set_option backward.isDefEq.respectTransparency.types false in
/-- Entry of a region that holds every array whole: the buffers split into its arrays and the rest. -/
theorem entry_full (p : Fin 8) (hw : Pipeline.WinFacts (cfgs p).spec) (harr : ∀ w, ((cfgs p).spec w).arr.IsWhole)
    (c : Dev nD) (W : Valuation τ sig (Elt F))
    (hq : ∀ w, (pdats m p c).q w = fullShare)
    (hA : ∀ w, (pdats m p c).A w = W (Proc.devRef .tc (Pipeline.arrRef (cfgs p).spec w)))
    (h0 : (pdats m p c).owed 0 = 0) (hr : (pdats m p c).recorded 0 = Set.univ) :
    iprop(tstate W c ∗ Pipeline.ownSems0 (fun k : PEmpty => k.elim) c ∗ levAts noPairs noLevel)
      ⊢ |={Set.univ}=> iprop((pdats m p c).arrays ((pdats m p c).arrAt · 0)
          ∗ Pipeline.prefHeld (pcfgs (F := F) p).pre c (fun _ => fullShare) (Gen.adm (F := F) p).1
          ∗ (pdats m p c).owesAt () 0 ∗ (∃ r, prngReg c r)
          ∗ Pipeline.unscopedRest (Ix := Unit) (Name := ℕ) (U := UR sig nD τ) (Lvl := ℕ) (cfgs p).spec c (fun b => W b)) := by
  have hsplit := Pipeline.arrays_of_unscopedBufs (p := p) (pcfgs (F := F)) Gen.adm (pdats m) hw harr c
    ((pdats m p c).share_full hq) (fun b => W b) hA
  rw [Pipeline.unscopedBufs_held] at hsplit
  rw [no_tables]
  iintro ⟨⟨Hbufs, Hprng, Howes⟩, -, -⟩
  ihave Hs := hsplit $$ Hbufs
  icases Hs with ⟨Harr, Hby⟩
  imodintro
  isplitl [Harr]; · iexact Harr
  isplitr; · iempintro
  isplitl [Howes]; · iapply (owes_in (pdats m p c) 0 h0 hr); iexact Howes
  isplitl [Hprng]; · iexact Hprng
  iexact Hby

set_option backward.isDefEq.respectTransparency.types false in
/-- Exit: the arrays at their final contents and the untouched rest are every buffer at the contents after. -/
theorem exit_full (p : Fin 8) (hw : Pipeline.WinFacts (cfgs p).spec) (harr : ∀ w, ((cfgs p).spec w).arr.IsWhole)
    (c : Dev nD) (W W' : Valuation τ sig (Elt F))
    (hq : ∀ w, (pdats m p c).q w = fullShare)
    (hF : ∀ w, (pdats m p c).arrAt w (cfgs p).N = W' (Proc.devRef .tc (Pipeline.arrRef (cfgs p).spec w)))
    (hby : ∀ b, b ∉ Finset.univ.image (Pipeline.arrRef (cfgs p).spec) → W' (Proc.devRef .tc b) = W (Proc.devRef .tc b))
    (h0 : (pdats m p c).owed (Fin.last (cfgs p).N) = 0) :
    iprop((pdats m p c).arrays ((pdats m p c).arrAt · (cfgs p).N) ∗ (pdats m p c).owesAt () (Fin.last (cfgs p).N) ∗ (∃ r, prngReg c r)
        ∗ Pipeline.unscopedRest (Ix := Unit) (Name := ℕ) (U := UR sig nD τ) (Lvl := ℕ) (cfgs p).spec c (fun b => W b))
      ⊢ |={Set.univ}=> tstate W' c := by
  have hjoin := Pipeline.unscopedBufs_of_arrays (p := p) (pcfgs (F := F)) Gen.adm (Ix := Unit) (Name := ℕ) (U := UR sig nD τ) (Lvl := ℕ)
    hw harr c (pdats m) ((pdats m p c).share_full hq) (fun b => W b) (fun b => W' b) ((pdats m p c).arrAt · (cfgs p).N) hF hby
  rw [Pipeline.unscopedBufs_held] at hjoin
  iintro ⟨Harr, Howes, Hprng, Hby⟩
  imodintro
  isplitl [Harr Hby]
  · iapply hjoin; isplitl [Harr] <;> iassumption
  isplitl [Hprng]; · iexact Hprng
  iapply (owes_out (pdats m p c) _ h0); iexact Howes

set_option backward.isDefEq.respectTransparency.types false in
theorem inv_in (p : Fin 8) (c : Dev nD) (hΦ : (pdats m p c).Φ 0 = Pipeline.ΦA (cfgs p).spec c) :
    iprop((∃ r, prngReg c r) ∗ Pipeline.prefHeld (pcfgs (F := F) p).pre c (fun _ => fullShare) (Gen.adm (F := F) p).1
        ∗ Pipeline.scopedRest (cfgs p).spec c) ⊢ ((pdats m p c).Φ 0 : sProp 𝕄) := by
  rw [hΦ]; unfold Pipeline.ΦA
  iintro ⟨Hprng, -, Hsc⟩
  isplitl [Hsc]; · iexact Hsc
  iexact Hprng

set_option backward.isDefEq.respectTransparency.types false in
theorem inv_out (p : Fin 8) (c : Dev nD) (hΦ : (pdats m p c).Φ (Fin.last (cfgs p).N) = Pipeline.ΦA (cfgs p).spec c) :
    ((pdats m p c).Φ (Fin.last (cfgs p).N) : sProp 𝕄)
      ⊢ iprop((∃ r, prngReg c r) ∗ Pipeline.ownSems0 (fun k : PEmpty => k.elim) c ∗ Pipeline.scopedRest (cfgs p).spec c) := by
  rw [hΦ, Pipeline.ownSems0_none]; unfold Pipeline.ΦA
  iintro ⟨Hsc, Hprng⟩
  isplitl [Hprng]; · iexact Hprng
  isplitr; · iempintro
  iexact Hsc

set_option backward.isDefEq.respectTransparency.types false in
/-- A region whose data hold every array whole and owe nothing, as a segment from the contents `Wi` to `Wo`. -/
def regFull (p : Fin 8) (L : Pipeline.LaunchFacts (nD := nD) (τ := τ) cfgs p) (Wi Wo : Dev nD → Valuation τ sig (Elt F))
    (hbody : ∀ c, Pipeline.BodyObligationLoose (pdats m p c) defs₀ Variants.none () Set.univ)
    (h : ∀ c, (∀ t, (pdats m p c).owed t = 0) ∧ (∀ w, (pdats m p c).q w = fullShare)
      ∧ (∀ w, (pdats m p c).A w = Wi c (Proc.devRef .tc (Pipeline.arrRef (cfgs p).spec w))) ∧ (pdats m p c).recorded 0 = Set.univ
      ∧ (pdats m p c).Φ 0 = Pipeline.ΦA (cfgs p).spec c ∧ (pdats m p c).Φ (Fin.last (cfgs p).N) = Pipeline.ΦA (cfgs p).spec c)
    (hF : ∀ c w, (pdats m p c).arrAt w (cfgs p).N = Wo c (Proc.devRef .tc (Pipeline.arrRef (cfgs p).spec w)))
    (hby : ∀ c b, b ∉ Finset.univ.image (Pipeline.arrRef (cfgs p).spec) → Wo c (Proc.devRef .tc b) = Wi c (Proc.devRef .tc b)) :
    Pipeline.RegionSeg (pcfgs (F := F)) Gen.adm (pdats m) () defs₀ Variants.none noPairs noLevel p where
  win := L.win.to₀
  block_pos := L.block_pos
  stage_whole := L.stage_whole
  K := PEmpty
  osem k := k.elim
  ho := Pipeline.OwnSemFacts.none _
  hbody := hbody
  hwaits := Pipeline.hwaits_of_owed_zero _ _ _ _ noPairs noLevel p fun c => (h c).1
  pre c := tstate (Wi c) c
  post c := tstate (Wo c) c
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := entry_full m p L.win L.arr_whole c (Wi c) (h c).2.1 (h c).2.2.1 ((h c).1 0) (h c).2.2.2.1
  hin c := inv_in m p c (h c).2.2.2.2.1
  hout c := inv_out m p c (h c).2.2.2.2.2
  hexit c := exit_full m p L.win L.arr_whole c (Wi c) (Wo c) (h c).2.1 (hF c) (hby c) ((h c).1 _)

def reg0 : Pipeline.RegionSeg (pcfgs (F := F)) Gen.adm (pdats m) () defs₀ Variants.none noPairs noLevel 0 :=
  regFull m 0 launch0 (W1 m) (W2 m) (fun c => (body_obligation0 (fun c b => W1 m c b) c).loose)
    (fun _ => ⟨fun _ => rfl, fun _ => rfl, fun _ => rfl, rfl, rfl, rfl⟩) (hF0 m) (hrest0 m)

/-! Region 1 reads `main_v6` through two windows, each holding half of it. -/
section Region1

variable (A : (c : Dev nD) → (b : Ref sig .tc) → Buf (Elt F) ((c : Thread nD τ).loc b))

abbrev arrs1 : List (Ref sig .tc) := [main_v6, main_v16, main_v18, main_v25, main_v22, main_v26, main_v27_0, main_v27_1]
theorem arrs1_img : Finset.univ.image (Pipeline.arrRef spec1) = (arrs1).toFinset := by decide
theorem arrs1_nodup : arrs1.Nodup := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v16) ↦{fullShare} V main_v16)
          ∗ (((c : Thread nD τ).loc main_v18) ↦{fullShare} V main_v18) ∗ (((c : Thread nD τ).loc main_v25) ↦{fullShare} V main_v25)
          ∗ (((c : Thread nD τ).loc main_v22) ↦{fullShare} V main_v22) ∗ (((c : Thread nD τ).loc main_v26) ↦{fullShare} V main_v26)
          ∗ (((c : Thread nD τ).loc main_v27_0) ↦{fullShare} V main_v27_0) ∗ (((c : Thread nD τ).loc main_v27_1) ↦{fullShare} V main_v27_1)) := by
  unfold Pipeline.arrBufs
  exact bigSep_eq_bigSepL_of_eq arrs1 arrs1_img arrs1_nodup _

theorem arrays1_eq (c : Dev nD) (Fa : (w : Fin cfg1.W) → Buf (Elt F) ((cfg1.win w).arr.view.loc (c : Thread nD τ))) :
    ((dat1 A c).arrays Fa : sProp 𝕄)
      = iprop((((c : Thread nD τ).loc main_v6) ↦{fullShare.left} Fa 0) ∗ (((c : Thread nD τ).loc main_v16) ↦{fullShare} Fa 1)
          ∗ (((c : Thread nD τ).loc main_v18) ↦{fullShare} Fa 2) ∗ (((c : Thread nD τ).loc main_v25) ↦{fullShare} Fa 3)
          ∗ (((c : Thread nD τ).loc main_v22) ↦{fullShare} Fa 4) ∗ (((c : Thread nD τ).loc main_v26) ↦{fullShare} Fa 5)
          ∗ (((c : Thread nD τ).loc main_v6) ↦{fullShare.right} Fa 6) ∗ (((c : Thread nD τ).loc main_v27_0) ↦{fullShare} Fa 7)
          ∗ (((c : Thread nD τ).loc main_v27_1) ↦{fullShare} Fa 8)) := by
  have h : ((dat1 A c).arrays Fa : sProp 𝕄)
      = bigSep Finset.univ fun w : Fin 9 => (((c : Thread nD τ).loc (Pipeline.arrRef spec1 w)) ↦{(dat1 A c).share w} Fa w : sProp 𝕄) := by
    unfold Pipeline.Dat.arrays
    exact bigSep_congr fun w _ => by rw [(arr_whole1 w).set_eq_univ]
  rw [h, bigSep_W1]; rfl

theorem arrays1_of_bufs (c : Dev nD) (V : (b : Ref sig .tc) → Buf (Elt F) ((c : Thread nD τ).loc b))
    (Fa : (w : Fin cfg1.W) → Buf (Elt F) ((cfg1.win w).arr.view.loc (c : Thread nD τ)))
    (hFa : ∀ w, Fa w = V (Pipeline.arrRef spec1 w)) :
    (Pipeline.arrBufs (Ix := Unit) (Name := ℕ) (U := UR sig nD τ) (Lvl := ℕ) spec1 c V : sProp 𝕄) ⊢ (dat1 A c).arrays Fa := by
  obtain rfl : Fa = fun w => V (Pipeline.arrRef spec1 w) := funext hFa
  rw [arrBufs1_eq, arrays1_eq]
  iintro ⟨H6, H16, H18, H25, H22, H26, H270, H271⟩
  ihave Hh := (pointsTo_share (PosShare.mem_left_op_right fullShare)).1 $$ H6
  icases Hh with ⟨Hl, Hr⟩
  iframe

theorem bufs_of_arrays1 (c : Dev nD) (V : (b : Ref sig .tc) → Buf (Elt F) ((c : Thread nD τ).loc b))
    (Fa : (w : Fin cfg1.W) → Buf (Elt F) ((cfg1.win w).arr.view.loc (c : Thread nD τ)))
    (hFa : ∀ w, Fa w = V (Pipeline.arrRef spec1 w)) :
    ((dat1 A c).arrays Fa : sProp 𝕄) ⊢ Pipeline.arrBufs (Ix := Unit) (Name := ℕ) (U := UR sig nD τ) (Lvl := ℕ) spec1 c V := by
  obtain rfl : Fa = fun w => V (Pipeline.arrRef spec1 w) := funext hFa
  rw [arrBufs1_eq, arrays1_eq]
  iintro ⟨Hl, H16, H18, H25, H22, H26, Hr, H270, H271⟩
  isplitl [Hl Hr]
  · iapply (pointsTo_share (PosShare.mem_left_op_right fullShare)).2; iframe
  iframe

end Region1

theorem held_split1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held]
  exact Pipeline.unscopedBufs_split₀ cfgs 1 winFacts₀1.arr_unscoped c _

set_option backward.isDefEq.respectTransparency.types false in
theorem entry1 (c : Dev nD) :
    iprop(tstate (W3 m c) c ∗ Pipeline.ownSems0 (fun k : PEmpty => k.elim) c ∗ levAts noPairs noLevel)
      ⊢ |={Set.univ}=> iprop((pdats m 1 c).arrays ((pdats m 1 c).arrAt · 0)
          ∗ Pipeline.prefHeld (pcfgs (F := F) 1).pre c (fun _ => fullShare) (Gen.adm (F := F) 1).1
          ∗ (pdats m 1 c).owesAt () 0 ∗ (∃ r, prngReg c r)
          ∗ Pipeline.unscopedRest (Ix := Unit) (Name := ℕ) (U := UR sig nD τ) (Lvl := ℕ) spec1 c (fun b => W3 m c b)) := by
  unfold tstate
  rw [no_tables, held_split1]
  iintro ⟨⟨⟨Hbufs, Hby⟩, Hprng, Howes⟩, -, -⟩
  imodintro
  isplitl [Hbufs]
  · iapply (arrays1_of_bufs (fun c b => W3 m c b) c (fun b => W3 m c b) _ (fun _ => rfl)); iexact Hbufs
  isplitr; · iempintro
  isplitl [Howes]; · iapply (owes_in (pdats m 1 c) 0 rfl rfl); iexact Howes
  isplitl [Hprng]; · iexact Hprng
  iexact Hby

set_option backward.isDefEq.respectTransparency.types false in
theorem exit1 (c : Dev nD) :
    iprop((pdats m 1 c).arrays ((pdats m 1 c).arrAt · cfg1.N) ∗ (pdats m 1 c).owesAt () (Fin.last cfg1.N) ∗ (∃ r, prngReg c r)
        ∗ Pipeline.unscopedRest (Ix := Unit) (Name := ℕ) (U := UR sig nD τ) (Lvl := ℕ) spec1 c (fun b => W3 m c b))
      ⊢ |={Set.univ}=> tstate (W4 m c) c := by
  have hby : (Pipeline.unscopedRest (Ix := Unit) (Name := ℕ) (U := UR sig nD τ) (Lvl := ℕ) spec1 c (fun b => W4 m c b) : sProp 𝕄)
      = Pipeline.unscopedRest spec1 c (fun b => W3 m c b) := by
    unfold Pipeline.unscopedRest
    exact bigSep_congr fun b hb =>
      congrArg (fun f => (((c : Thread nD τ).loc b) ↦{fullShare} f : sProp 𝕄)) (hrest1 m c b (Finset.mem_sdiff.mp hb).2)
  unfold tstate
  rw [held_split1, hby]
  iintro ⟨Harr, Howes, Hprng, Hby⟩
  imodintro
  isplitl [Harr Hby]
  · isplitl [Harr]
    · iapply (bufs_of_arrays1 (fun c b => W3 m c b) c (fun b => W4 m c b) _ (hF1 m c)); iexact Harr
    iexact Hby
  isplitl [Hprng]; · iexact Hprng
  iapply (owes_out (pdats m 1 c) _ rfl); iexact Howes

set_option backward.isDefEq.respectTransparency.types false in
def reg1 : Pipeline.RegionSeg (pcfgs (F := F)) Gen.adm (pdats m) () defs₀ Variants.none noPairs noLevel 1 where
  win := winFacts₀1
  block_pos := block_pos1
  stage_whole := stage_whole1
  K := PEmpty
  osem k := k.elim
  ho := Pipeline.OwnSemFacts.none _
  hbody c := (body_obligation1 (fun c b => W3 m c b) c).loose
  hwaits := Pipeline.hwaits_of_owed_zero _ _ _ _ noPairs noLevel 1 fun _ _ => rfl
  pre c := tstate (W3 m c) c
  post c := tstate (W4 m c) c
  X c := iprop(∃ r, prngReg c r)
  Y c := iprop(∃ r, prngReg c r)
  Z c := Pipeline.unscopedRest (Ix := Unit) (Name := ℕ) (U := UR sig nD τ) (Lvl := ℕ) spec1 c (fun b => W3 m c b)
  hentry c := entry1 m c
  hin c := inv_in m 1 c rfl
  hout c := inv_out m 1 c rfl
  hexit c := exit1 m c

def reg2 : Pipeline.RegionSeg (pcfgs (F := F)) Gen.adm (pdats m) () defs₀ Variants.none noPairs noLevel 2 :=
  regFull m 2 launch2 (W5 m) (W6 m) (fun c => (body_obligation2 (fun c b => W5 m c b) c).loose)
    (fun _ => ⟨fun _ => rfl, fun _ => rfl, fun _ => rfl, rfl, rfl, rfl⟩) (hF2 m) (hrest2 m)

def reg3 : Pipeline.RegionSeg (pcfgs (F := F)) Gen.adm (pdats m) () defs₀ Variants.none noPairs noLevel 3 :=
  regFull m 3 launch3 (W7 m) (W8 m) (fun c => (body_obligation3 (fun c b => W7 m c b) c).loose)
    (fun _ => ⟨fun _ => rfl, fun _ => rfl, fun _ => rfl, rfl, rfl, rfl⟩) (hF3 m) (hrest3 m)

def reg4 : Pipeline.RegionSeg (pcfgs (F := F)) Gen.adm (pdats m) () defs₀ Variants.none noPairs noLevel 4 :=
  regFull m 4 launch4 (W9 m) (W10 m) (fun c => (body_obligation4 (fun c b => W9 m c b) c).loose)
    (fun _ => ⟨fun _ => rfl, fun _ => rfl, fun _ => rfl, rfl, rfl, rfl⟩) (hF4 m) (hrest4 m)

def reg5 : Pipeline.RegionSeg (pcfgs (F := F)) Gen.adm (pdats m) () defs₀ Variants.none noPairs noLevel 5 :=
  regFull m 5 launch5 (W11 m) (W12 m) (fun c => (body_obligation5 (fun c b => W11 m c b) c).loose)
    (fun _ => ⟨fun _ => rfl, fun _ => rfl, fun _ => rfl, rfl, rfl, rfl⟩) (hF5 m) (hrest5 m)

def reg6 : Pipeline.RegionSeg (pcfgs (F := F)) Gen.adm (pdats m) () defs₀ Variants.none noPairs noLevel 6 :=
  regFull m 6 launch6 (W13 m) (W14 m) (fun c => (body_obligation6 (fun c b => W13 m c b) c).loose)
    (fun _ => ⟨fun _ => rfl, fun _ => rfl, fun _ => rfl, rfl, rfl, rfl⟩) (hF6 m) (hrest6 m)

set_option backward.isDefEq.respectTransparency.types false in
def reg7 : Pipeline.RegionSeg (pcfgs (F := F)) Gen.adm (pdats m) () defs₀ Variants.none noPairs noLevel 7 where
  win := launch7.win.to₀
  block_pos := launch7.block_pos
  stage_whole := launch7.stage_whole
  K := PEmpty
  osem k := k.elim
  ho := Pipeline.OwnSemFacts.none _
  hbody c := (body_obligation7 (fun c b => W15 m c b) c).loose
  hwaits := Pipeline.hwaits_of_owed_zero _ _ _ _ noPairs noLevel 7 fun _ _ => rfl
  pre c := tstate (W15 m c) c
  post c := tstate (W16 m c) c
  X c := iprop(∃ r, prngReg c r)
  Y c := iprop(∃ r, prngReg c r)
  Z c := Pipeline.unscopedRest (Ix := Unit) (Name := ℕ) (U := UR sig nD τ) (Lvl := ℕ) spec7 c (fun b => W15 m c b)
  hentry c := entry_full m 7 launch7.win launch7.arr_whole c (W15 m c) (fun _ => rfl) (fun _ => rfl) rfl rfl
  hin c := hin7 (fun c b => W15 m c b) c
  hout c := hout7 (fun c b => W15 m c b) c
  hexit c := exit_full m 7 launch7.win launch7.arr_whole c (W15 m c) (W16 m c) (fun _ => rfl) (hF7 m c) (hrest7 m c) rfl

abbrev rests : Fin 9 → Dev nD → sProp 𝕄 := fun _ c => rest c

abbrev items : Dev nD → List (Pipeline.Seg (pcfgs (F := F)) Gen.adm (pdats m) () defs₀ Variants.none noPairs noLevel) :=
  Gen.segs m (outsH m) Variants.none noPairs noLevel rests () (pdats m)
    (reg0 m) (reg1 m) (reg2 m) (reg3 m) (reg4 m) (reg5 m) (reg6 m) (reg7 m)

theorem tstate_of_eq {V W : Valuation τ sig (Elt F)} (h : V = W) (c : Dev nD) :
    iprop(StableHlo.held (c : Thread nD τ) (Pipeline.ucRefs τ sig) V ∗ rest c) ⊢ (tstate W c : sProp 𝕄) := h ▸ .rfl
theorem tstate_to_eq {V W : Valuation τ sig (Elt F)} (h : V = W) (c : Dev nD) :
    (tstate W c : sProp 𝕄) ⊢ iprop(StableHlo.held (c : Thread nD τ) (Pipeline.ucRefs τ sig) V ∗ rest c) := h ▸ .rfl

theorem last_link (c : Dev nD) :
    (tstate (W16 m c) c : sProp 𝕄)
      ⊢ iprop((StableHlo.held (c : Thread nD τ) (Pipeline.ucRefs τ sig) (W16 m c) ∗ ∃ r, prngReg c r)
          ∗ ∃ W, owes (c : Thread nD τ) (0 : CellTallies nD τ sig Unit) W) := by
  iintro ⟨Hh, Hp, Ho⟩
  isplitl [Hh Hp]
  · isplitl [Hh] <;> iassumption
  iexact Ho

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev u₀ : UR sig nD τ := initOf (Pipeline.cells cfgs cellOf_inj) (Pipeline.launchToks cfgs cellOf_inj)

theorem launch_elem : (ownU (u₀) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  rw [BI.bigSep_emp_const]
  iintro Hu
  imodintro
  isplitl [Hu]
  · iapply (show (ownU (u₀) : sProp 𝕄) ⊢ BI.own (emb₁ (initOf (Pipeline.cells cfgs cellOf_inj) (Pipeline.launchToks cfgs cellOf_inj))) from .rfl)
    iexact Hu
  iempintro

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W16 m c b) := by
  refine Pipeline.θ_run_regions_kit_dev (pcfgs (F := F)) Gen.adm (pdats m) () cellOf_inj emb₁ defs₀ Variants.none noPairs noLevel m ρ main
    (items m)
    (fun c Q => by
      rewrite [main_chain c, Pipeline.Seg.run_eq_chain,
        show (items m c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [items, Gen.segs, Pipeline.Seg.pipes_host, Pipeline.Seg.pipes_region, Pipeline.Seg.pipes_nil]; decide)
    (O₀ := 0) (hL := fun _ _ => rfl) (G := fun _ => iprop(emp)) (u₀ := u₀) (hu₀ := launch_elem)
    (T₀ := fun c => tstate (W0 m c) c)
    (Tₙ := fun c => iprop(StableHlo.held (c : Thread nD τ) (Pipeline.ucRefs τ sig) (W16 m c) ∗ ∃ r, prngReg c r))
    (hch := fun c => ⟨.rfl,
      tstate_of_eq (V1_eq m c) c,
      tstate_to_eq (V2_eq m c) c,
      tstate_of_eq (V3_eq m c) c,
      tstate_to_eq (V4_eq m c) c,
      tstate_of_eq (V5_eq m c) c,
      tstate_to_eq (V6_eq m c) c,
      tstate_of_eq (V7_eq m c) c,
      tstate_to_eq (V8_eq m c) c,
      tstate_of_eq (V9_eq m c) c,
      tstate_to_eq (V10_eq m c) c,
      tstate_of_eq (V11_eq m c) c,
      tstate_to_eq (V12_eq m c) c,
      tstate_of_eq (V13_eq m c) c,
      tstate_to_eq (V14_eq m c) c,
      tstate_of_eq (V15_eq m c) c,
      last_link m c⟩)
    (hinit := ?_)
    (QY := fun c s => ∀ b ∈ Pipeline.ucRefs τ sig, s.mem ((c : Thread nD τ).1, b) = W16 m c b)
    (hfin := fun c s' => ?_) (hQ := fun _ h => h)
  · refine Pipeline.initEach noPairs noLevel fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hbufs, -, Howes, -, Hprng, -⟩, -⟩
    imodintro
    isplitl [Hbufs]; · iexact Hbufs
    isplitl [Hprng]; · iexists _; iexact Hprng
    iexists ∅; iexact Howes
  · iintro ⟨⟨Hh, -⟩, HSI⟩
    unfold StableHlo.held
    imodintro
    iapply (pointsTo_read_all (Pipeline.ucRefs τ sig) (fun b => ((c : Thread nD τ).1, b)) (W16 m c) s')
    isplitl [Hh] <;> iassumption

/-- Every argument array holds its launch contents. -/
abbrev argsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)
    ∧ m' ((c.tc : Thread nD τ).loc main_arg9) = m ((c.tc : Thread nD τ).loc main_arg9)
    ∧ m' ((c.tc : Thread nD τ).loc main_arg10) = m ((c.tc : Thread nD τ).loc main_arg10)
    ∧ m' ((c.tc : Thread nD τ).loc main_arg11) = m ((c.tc : Thread nD τ).loc main_arg11)
    ∧ m' ((c.tc : Thread nD τ).loc main_arg12) = m ((c.tc : Thread nD τ).loc main_arg12)

theorem result_all (ρ : Dev nD → PrngReg) :
    θ_run defs (onTc (τ := τ) (main (F := F))) ⟨m, fun _ => 0, ρ⟩ (fun r => ∀ c : Dev nD,
      r.2.mem ((c.tc : Thread nD τ).loc main_v135) = W16 m c (Proc.devRef .tc main_v135) ∧ argsKept m r.2.mem c) :=
  (θ_run defs _ _).mono (fun r hr c =>
    have e := fun (b : Ref sig .tc) hb => (hr c (Proc.devRef .tc b) (mem_uc b hb)).trans (congrFun (V16_eq m c).symm _)
    ⟨hr c _ (mem_uc main_v135 (by decide)),
     (e main_arg0 (by decide)).trans (Gen.V16_main_arg0 m (outsH m) c),
     (e main_arg1 (by decide)).trans (Gen.V16_main_arg1 m (outsH m) c),
     (e main_arg2 (by decide)).trans (Gen.V16_main_arg2 m (outsH m) c),
     (e main_arg3 (by decide)).trans (Gen.V16_main_arg3 m (outsH m) c),
     (e main_arg4 (by decide)).trans (Gen.V16_main_arg4 m (outsH m) c),
     (e main_arg5 (by decide)).trans (Gen.V16_main_arg5 m (outsH m) c),
     (e main_arg6 (by decide)).trans (Gen.V16_main_arg6 m (outsH m) c),
     (e main_arg7 (by decide)).trans (Gen.V16_main_arg7 m (outsH m) c),
     (e main_arg8 (by decide)).trans (Gen.V16_main_arg8 m (outsH m) c),
     (e main_arg9 (by decide)).trans (Gen.V16_main_arg9 m (outsH m) c),
     (e main_arg10 (by decide)).trans (Gen.V16_main_arg10 m (outsH m) c),
     (e main_arg11 (by decide)).trans (Gen.V16_main_arg11 m (outsH m) c),
     (e main_arg12 (by decide)).trans (Gen.V16_main_arg12 m (outsH m) c)⟩) (run_all m ρ)

theorem frame_all (ρ : Dev nD → PrngReg) :
    θ_run defs (onTc (τ := τ) (main (F := F))) ⟨m, fun _ => 0, ρ⟩ (fun r => ∀ c : Dev nD, argsKept m r.2.mem c) :=
  (θ_run defs _ _).mono (fun _ h c => (h c).2) (result_all m ρ)

end Run

end Cert.Kernel.Hand

end
-- ==== Proof.KI.Reg0.lean ====
/-
  Region 0: the first affine map, `X W + b`, on row tiles of 1000 nodes. For any contents `V` of the core's buffers at
  entry: what each window's buffer holds after the body at a point, the body's triple, and the pipeline's body
  obligation at every point.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_out : Rect S1000x128 := Rect.unit (s := S1000x128) ![0, 0] S1000x128.size inb_S1000x128_S1000x128_0_0
abbrev r0_w : Rect S128x128 := Rect.unit (s := S128x128) ![0, 0] S128x128.size inb_S128x128_S128x128_0_0
abbrev r0_b : Rect S1x128 := Rect.unit (s := S1x128) ![0, 0] S1x128.size inb_S1x128_S1x128_0_0

def out0_3 (x0 : Vec F S1000x128 .f32) (x1 : Vec F S128x128 .f32) (x2 : Vec F S1x128 .f32) : Vec F S1000x128 .f32 :=
  View.canon [⟨r0_out, k0_pay1 (View.ld x0 r0_out) (View.ld x1 r0_w) (View.ld x2 r0_b)⟩]

/-- A store through the whole tile covers the buffer. -/
theorem cover0_3 (p0 : Vec F S1000x128 .f32) (y : S1000x128.Idx) :
    ∃ pc ∈ ([⟨r0_out, p0⟩] : List (View.Piece (Elt F) S1000x128 .f32)), y ∈ pc.1.set :=
  View.cover_of_tiled [⟨r0_out, p0⟩] S1000x128.size (by rfl) y

set_option maxHeartbeats 1000000 in
/-- The body's triple: the three inputs are returned as found, the output holds `out0_3` of them. -/
theorem sound_kernel0 (E : Set ℕ) (i : grid0.Coords) {arg1 arg4 : Memref sig .tc .vmem S1000x128 .f32}
    {arg2 : Memref sig .tc .vmem S128x128 .f32} {arg3 : Memref sig .tc .vmem S1x128 .f32}
    {harg1 : arg1.IsWhole} {harg2 : arg2.IsWhole} {harg3 : arg3.IsWhole} {harg4 : arg4.IsWhole}
    (x0 : Vec F S1000x128 .f32) (x1 : Vec F S128x128 .f32) (x2 : Vec F S1x128 .f32) (K : PUnit → sProp 𝕄) :
    iprop(ownsTc c arg1 fullShare x0 ∗ ownsTc c arg2 fullShare x1 ∗ ownsTc c arg3 fullShare x2 ∗ (∃ d, ownsTc c arg4 fullShare d)
        ∗ (iprop(ownsTc c arg1 fullShare x0 ∗ ownsTc c arg2 fullShare x1 ∗ ownsTc c arg3 fullShare x2
            ∗ ownsTc c arg4 fullShare (out0_3 x0 x1 x2)) -∗ K ⟨⟩))
      ⊢ wp frame (wpE (defs₀ (F := F)) Variants.none c none) E (cc0__pre_linear_kernel i arg1 harg1 arg2 harg2 arg3 harg3 arg4 harg4) K := by
  simp only [cc0__pre_linear_kernel_eq_skeleton]; unfold cc0__pre_linear_kernel_skel
  unfold ownsTc owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := by
  dsimp only [dat0]

variable (t : Fin cfg0.N)

theorem after0_3 : (dat0 V c).after 3 t = out0_3 (iblk0 V c 0 t) (iblk0 V c 1 t) (iblk0 V c 2 t) := by dsimp only [dat0]

/-- An input window's contents before the body at a point are its contents after it. -/
theorem before0 : ∀ (w : Fin cfg0.W) (d), (cfg0.win w).isOut = false → (dat0 V c).before w t d = (dat0 V c).after w t
  | ⟨0, _⟩, d, h | ⟨1, _⟩, d, h | ⟨2, _⟩, d, h =>
    ((dat0 V c).before_in_eq_fetched _ h (fun _ => rfl) (fun _ _ _ => rfl) (fun _ => by dsimp only [dat0]; rfl) t d).trans
      (by dsimp only [dat0]; rfl)
  | ⟨3, _⟩, _, h => absurd h (by decide +revert)

/-- The body obligation: each input buffer holds its block, so the triple applies; the invariant and the dues pass through. -/
theorem body_obligation0 : BodyObligation (dat0 (F := F) V c) (defs₀ (F := F)) Variants.none () Set.univ := fun t => by
  rw [bigSep_W0, bigSep_W0]
  show iprop(_ ∗ _ ∗ (∃ d, _) ∗ (∃ d, _) ∗ (∃ d, _) ∗ ∃ d, _)
    ⊢ wp _ _ _ (bodyAt0 t) fun _ => iprop(_ ∗ _ ∗ owns _ _ _ _ ∗ owns _ _ _ _ ∗ owns _ _ _ _ ∗ owns _ _ _ _)
  unfold bodyAt0
  iintro ⟨HΦ, Ho, ⟨%d0, H0⟩, ⟨%d1, H1⟩, ⟨%d2, H2⟩, ⟨%d3, H3⟩⟩
  rw [before0 V c t 0 d0 rfl, before0 V c t 1 d1 rfl, before0 V c t 2 d2 rfl]
  dsimp only [dat0]
  iapply sound_kernel0 c Set.univ _ (iblk0 V c 0 t) (iblk0 V c 1 t) (iblk0 V c 2 t) _
  isplitl [H0]; · iexact H0
  isplitl [H1]; · iexact H1
  isplitl [H2]; · iexact H2
  isplitl [H3]; · iexists _; iexact H3
  iintro H
  isplitl [HΦ]; · iexact HΦ
  isplitl [Ho]; · iexact Ho
  iexact H

end Region0

end Cert.KernelIdeal.Hand

end
-- ==== Proof.KI.Reg1.lean ====
/-
  Region 1: a graph layer without residual, on row tiles of 1000 nodes; one array is read through windows 0 and 6, which
  hold it under the two halves of the full share. For any contents `V` of the core's buffers at entry: what each
  window's buffer holds after the body at a point, the body's triple, and the pipeline's body obligation at every point.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_tile : Rect S1000x128 := Rect.unit (s := S1000x128) ![0, 0] S1000x128.size inb_S1000x128_S1000x128_0_0
abbrev r1_w : Rect S128x128 := Rect.unit (s := S128x128) ![0, 0] S128x128.size inb_S128x128_S128x128_0_0
abbrev r1_b : Rect S1x128 := Rect.unit (s := S1x128) ![0, 0] S1x128.size inb_S1x128_S1x128_0_0

def out1_7 (x0 x1 : Vec F S1000x128 .f32) (x2 : Vec F S128x128 .f32) (x3 : Vec F S1x128 .f32)
    (x4 : Vec F S128x128 .f32) (x5 : Vec F S1x128 .f32) : Vec F S1000x128 .f32 :=
  View.canon [⟨r1_tile, k1_pay2 (View.ld x0 r1_tile) (View.ld x1 r1_tile) (View.ld x2 r1_w) (View.ld x3 r1_b)
    (View.ld x4 r1_w) (View.ld x5 r1_b)⟩]

def out1_8 (x6 : Vec F S1000x128 .f32) : Vec F S1000x128 .f32 :=
  View.canon [⟨r1_tile, k1_pay1 (View.ld x6 r1_tile)⟩]

/-- A store through the whole tile covers the buffer. -/
theorem cover1 (p0 : Vec F S1000x128 .f32) (y : S1000x128.Idx) :
    ∃ pc ∈ ([⟨r1_tile, p0⟩] : List (View.Piece (Elt F) S1000x128 .f32)), y ∈ pc.1.set :=
  View.cover_of_tiled [⟨r1_tile, p0⟩] S1000x128.size (by rfl) y

set_option maxHeartbeats 1000000 in
/-- The body's triple: the seven inputs are returned as found, the two outputs hold `out1_7` and `out1_8` of them. -/
theorem sound_kernel1 (E : Set ℕ) (i : grid1.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out1_7 x0 x1 x2 x3 x4 x5) ∗ ownsTc c arg9 fullShare (out1_8 x6)) -∗ K ⟨⟩))
      ⊢ wp frame (wpE (defs₀ (F := F)) Variants.none c none) E
          (cc1_kernel i arg1 harg1 arg2 harg2 arg3 harg3 arg4 harg4 arg5 harg5 arg6 harg6 arg7 harg7 arg8 harg8 arg9 harg9) K := by
  simp only [cc1_kernel_eq_skeleton]; unfold cc1_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  iexists _; isplitr
  swap; · iexact H8
  ipureintro
  exact View.read_writes_eq_canon _ _ _ (cover1 _)

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t)
    | ⟨8, _⟩ => out1_8 (iblk1 V c 6 t)
  Φ _ := Pipeline.ΦA spec1 c
  q w := if w = 0 then fullShare.left else if w = 6 then fullShare.right else fullShare
  owed _ := 0

theorem A_eq1 (w : Fin cfg1.W) : (dat1 V c).A w = V c (Pipeline.arrRef spec1 w) := by
  dsimp only [dat1]

variable (t : Fin cfg1.N)

theorem after1_7 :
    (dat1 V c).after 7 t = out1_7 (iblk1 V c 0 t) (iblk1 V c 1 t) (iblk1 V c 2 t) (iblk1 V c 3 t) (iblk1 V c 4 t) (iblk1 V c 5 t) := by
  dsimp only [dat1]
theorem after1_8 : (dat1 V c).after 8 t = out1_8 (iblk1 V c 6 t) := by dsimp only [dat1]

/-- An input window's contents before the body at a point are its contents after it. -/
theorem before1 : ∀ (w : Fin cfg1.W) (d), (cfg1.win w).isOut = false → (dat1 V c).before w t d = (dat1 V c).after w t
  | ⟨0, _⟩, d, h | ⟨1, _⟩, d, h | ⟨2, _⟩, d, h | ⟨3, _⟩, d, h | ⟨4, _⟩, d, h | ⟨5, _⟩, d, h | ⟨6, _⟩, d, h =>
    ((dat1 V c).before_in_eq_fetched _ h (fun _ => rfl) (fun _ _ _ => rfl) (fun _ => by dsimp only [dat1]; rfl) t d).trans
      (by dsimp only [dat1]; rfl)
  | ⟨7, _⟩, _, h | ⟨8, _⟩, _, h => absurd h (by decide +revert)

/-- The body obligation: each input buffer holds its block, so the triple applies; the invariant and the dues pass through. -/
theorem body_obligation1 : BodyObligation (dat1 (F := F) V c) (defs₀ (F := F)) Variants.none () Set.univ := fun t => by
  rw [bigSep_W1, bigSep_W1]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt1 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before1 V c t 0 d0 rfl, before1 V c t 1 d1 rfl, before1 V c t 2 d2 rfl, before1 V c t 3 d3 rfl, before1 V c t 4 d4 rfl,
    before1 V c t 5 d5 rfl, before1 V c t 6 d6 rfl]
  dsimp only [dat1]
  iapply sound_kernel1 c Set.univ _ (iblk1 V c 0 t) (iblk1 V c 1 t) (iblk1 V c 2 t) (iblk1 V c 3 t) (iblk1 V c 4 t) (iblk1 V c 5 t)
    (iblk1 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region1

end Cert.KernelIdeal.Hand

end
-- ==== Proof.KI.Reg2.lean ====
/-
  Region 2: a graph layer with its residual, on row tiles of 1000 nodes. For any contents `V` of the core's buffers
  at entry: what each window's buffer holds after the body at a point, the body's triple, and the pipeline's body
  obligation at every point.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_tile : Rect S1000x128 := Rect.unit (s := S1000x128) ![0, 0] S1000x128.size inb_S1000x128_S1000x128_0_0
abbrev r2_w : Rect S128x128 := Rect.unit (s := S128x128) ![0, 0] S128x128.size inb_S128x128_S128x128_0_0
abbrev r2_b : Rect S1x128 := Rect.unit (s := S1x128) ![0, 0] S1x128.size inb_S1x128_S1x128_0_0

def out2_7 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r2_tile, k2_pay2 (View.ld x0 r2_tile) (View.ld x1 r2_tile) (View.ld x2 r2_w) (View.ld x3 r2_b) (View.ld x4 r2_w)
    (View.ld x5 r2_b) (View.ld x6 r2_tile)⟩]

def out2_8 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r2_tile, k2_pay1 (View.ld x0 r2_tile) (View.ld x1 r2_tile) (View.ld x2 r2_w) (View.ld x3 r2_b) (View.ld x4 r2_w)
    (View.ld x5 r2_b) (View.ld x6 r2_tile)⟩]

/-- A store through the whole tile covers the buffer. -/
theorem cover2 (p0 : Vec F S1000x128 .f32) (y : S1000x128.Idx) :
    ∃ pc ∈ ([⟨r2_tile, p0⟩] : List (View.Piece (Elt F) S1000x128 .f32)), y ∈ pc.1.set :=
  View.cover_of_tiled [⟨r2_tile, p0⟩] S1000x128.size (by rfl) y

set_option maxHeartbeats 4000000 in
/-- The body's triple: the seven inputs are returned as found, the two outputs hold `out2_7` and `out2_8` of them. -/
theorem sound_kernel2 (E : Set ℕ) (i : grid2.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out2_7 x0 x1 x2 x3 x4 x5 x6) ∗ ownsTc c arg9 fullShare (out2_8 x0 x1 x2 x3 x4 x5 x6)) -∗ K ⟨⟩))
      ⊢ wp frame (wpE (defs₀ (F := F)) Variants.none c none) E
          (cc2_kernel i arg1 harg1 arg2 harg2 arg3 harg3 arg4 harg4 arg5 harg5 arg6 harg6 arg7 harg7 arg8 harg8 arg9 harg9) K := by
  simp only [cc2_kernel_eq_skeleton]; unfold cc2_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover2 _)
  iexists _; isplitr
  swap; · iexact H8
  ipureintro
  exact View.read_writes_eq_canon _ _ _ (cover2 _)

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
    | ⟨8, _⟩ => out2_8 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (w : Fin cfg2.W) : (dat2 V c).A w = V c (Pipeline.arrRef spec2 w) := by
  dsimp only [dat2]

variable (t : Fin cfg2.N)

theorem after2_7 :
    (dat2 V c).after 7 t = out2_7 (iblk2 V c 0 t) (iblk2 V c 1 t) (iblk2 V c 2 t) (iblk2 V c 3 t) (iblk2 V c 4 t) (iblk2 V c 5 t) (iblk2 V c 6 t) := by
  dsimp only [dat2]
theorem after2_8 :
    (dat2 V c).after 8 t = out2_8 (iblk2 V c 0 t) (iblk2 V c 1 t) (iblk2 V c 2 t) (iblk2 V c 3 t) (iblk2 V c 4 t) (iblk2 V c 5 t) (iblk2 V c 6 t) := by
  dsimp only [dat2]

/-- An input window's contents before the body at a point are its contents after it. -/
theorem before2 : ∀ (w : Fin cfg2.W) (d), (cfg2.win w).isOut = false → (dat2 V c).before w t d = (dat2 V c).after w t
  | ⟨0, _⟩, d, h | ⟨1, _⟩, d, h | ⟨2, _⟩, d, h | ⟨3, _⟩, d, h | ⟨4, _⟩, d, h | ⟨5, _⟩, d, h | ⟨6, _⟩, d, h =>
    ((dat2 V c).before_in_eq_fetched _ h (fun _ => rfl) (fun _ _ _ => rfl) (fun _ => by dsimp only [dat2]; rfl) t d).trans
      (by dsimp only [dat2]; rfl)
  | ⟨7, _⟩, _, h | ⟨8, _⟩, _, h => absurd h (by decide +revert)

/-- The body obligation: each input buffer holds its block, so the triple applies; the invariant and the dues pass through. -/
theorem body_obligation2 : BodyObligation (dat2 (F := F) V c) (defs₀ (F := F)) Variants.none () Set.univ := fun t => by
  rw [bigSep_W2, bigSep_W2]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt2 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before2 V c t 0 d0 rfl, before2 V c t 1 d1 rfl, before2 V c t 2 d2 rfl, before2 V c t 3 d3 rfl, before2 V c t 4 d4 rfl,
    before2 V c t 5 d5 rfl, before2 V c t 6 d6 rfl]
  dsimp only [dat2]
  iapply sound_kernel2 c Set.univ _ (iblk2 V c 0 t) (iblk2 V c 1 t) (iblk2 V c 2 t) (iblk2 V c 3 t) (iblk2 V c 4 t) (iblk2 V c 5 t)
    (iblk2 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region2

end Cert.KernelIdeal.Hand

end
-- ==== Proof.KI.Reg3.lean ====
/-
  Region 3: a graph layer without residual, on row tiles of 1000 nodes. For any contents `V` of the core's buffers
  at entry: what each window's buffer holds after the body at a point, the body's triple, and the pipeline's body
  obligation at every point.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b)) (c : Dev nD)

def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_tile : Rect S1000x128 := Rect.unit (s := S1000x128) ![0, 0] S1000x128.size inb_S1000x128_S1000x128_0_0
abbrev r3_w : Rect S128x128 := Rect.unit (s := S128x128) ![0, 0] S128x128.size inb_S128x128_S128x128_0_0
abbrev r3_b : Rect S1x128 := Rect.unit (s := S1x128) ![0, 0] S1x128.size inb_S1x128_S1x128_0_0

def out3_7 (x0 x1 : Vec F S1000x128 .f32) (x2 : Vec F S128x128 .f32) (x3 : Vec F S1x128 .f32)
    (x4 : Vec F S128x128 .f32) (x5 : Vec F S1x128 .f32) : Vec F S1000x128 .f32 :=
  View.canon [⟨r3_tile, k3_pay2 (View.ld x0 r3_tile) (View.ld x1 r3_tile) (View.ld x2 r3_w) (View.ld x3 r3_b)
    (View.ld x4 r3_w) (View.ld x5 r3_b)⟩]

def out3_8 (x6 : Vec F S1000x128 .f32) : Vec F S1000x128 .f32 :=
  View.canon [⟨r3_tile, k3_pay1 (View.ld x6 r3_tile)⟩]

/-- A store through the whole tile covers the buffer. -/
theorem cover3 (p0 : Vec F S1000x128 .f32) (y : S1000x128.Idx) :
    ∃ pc ∈ ([⟨r3_tile, p0⟩] : List (View.Piece (Elt F) S1000x128 .f32)), y ∈ pc.1.set :=
  View.cover_of_tiled [⟨r3_tile, p0⟩] S1000x128.size (by rfl) y

set_option maxHeartbeats 1000000 in
/-- The body's triple: the seven inputs are returned as found, the two outputs hold `out3_7` and `out3_8` of them. -/
theorem sound_kernel3 (E : Set ℕ) (i : grid3.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out3_7 x0 x1 x2 x3 x4 x5) ∗ ownsTc c arg9 fullShare (out3_8 x6)) -∗ K ⟨⟩))
      ⊢ wp frame (wpE (defs₀ (F := F)) Variants.none c none) E
          (cc3_kernel i arg1 harg1 arg2 harg2 arg3 harg3 arg4 harg4 arg5 harg5 arg6 harg6 arg7 harg7 arg8 harg8 arg9 harg9) K := by
  simp only [cc3_kernel_eq_skeleton]; unfold cc3_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover3 _)
  iexists _; isplitr
  swap; · iexact H8
  ipureintro
  exact View.read_writes_eq_canon _ _ _ (cover3 _)

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t)
    | ⟨8, _⟩ => out3_8 (iblk3 V c 6 t)
  Φ _ := Pipeline.ΦA spec3 c
  q _ := fullShare
  owed _ := 0

theorem A_eq3 (w : Fin cfg3.W) : (dat3 V c).A w = V c (Pipeline.arrRef spec3 w) := by
  dsimp only [dat3]

variable (t : Fin cfg3.N)

theorem after3_7 :
    (dat3 V c).after 7 t = out3_7 (iblk3 V c 0 t) (iblk3 V c 1 t) (iblk3 V c 2 t) (iblk3 V c 3 t) (iblk3 V c 4 t) (iblk3 V c 5 t) := by
  dsimp only [dat3]
theorem after3_8 : (dat3 V c).after 8 t = out3_8 (iblk3 V c 6 t) := by dsimp only [dat3]

/-- An input window's contents before the body at a point are its contents after it. -/
theorem before3 : ∀ (w : Fin cfg3.W) (d), (cfg3.win w).isOut = false → (dat3 V c).before w t d = (dat3 V c).after w t
  | ⟨0, _⟩, d, h | ⟨1, _⟩, d, h | ⟨2, _⟩, d, h | ⟨3, _⟩, d, h | ⟨4, _⟩, d, h | ⟨5, _⟩, d, h | ⟨6, _⟩, d, h =>
    ((dat3 V c).before_in_eq_fetched _ h (fun _ => rfl) (fun _ _ _ => rfl) (fun _ => by dsimp only [dat3]; rfl) t d).trans
      (by dsimp only [dat3]; rfl)
  | ⟨7, _⟩, _, h | ⟨8, _⟩, _, h => absurd h (by decide +revert)

/-- The body obligation: each input buffer holds its block, so the triple applies; the invariant and the dues pass through. -/
theorem body_obligation3 : BodyObligation (dat3 (F := F) V c) (defs₀ (F := F)) Variants.none () Set.univ := fun t => by
  rw [bigSep_W3, bigSep_W3]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt3 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before3 V c t 0 d0 rfl, before3 V c t 1 d1 rfl, before3 V c t 2 d2 rfl, before3 V c t 3 d3 rfl, before3 V c t 4 d4 rfl,
    before3 V c t 5 d5 rfl, before3 V c t 6 d6 rfl]
  dsimp only [dat3]
  iapply sound_kernel3 c Set.univ _ (iblk3 V c 0 t) (iblk3 V c 1 t) (iblk3 V c 2 t) (iblk3 V c 3 t) (iblk3 V c 4 t) (iblk3 V c 5 t)
    (iblk3 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region3

end Cert.KernelIdeal.Hand

end
-- ==== Proof.KI.Reg4.lean ====
/-
  Region 4: a graph layer with its residual, on row tiles of 1000 nodes. For any contents `V` of the core's buffers
  at entry: what each window's buffer holds after the body at a point, the body's triple, and the pipeline's body
  obligation at every point.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

variable (V : (c : Dev nD) → (b : Ref sig .tc) → Buf (Elt F) ((c : Thread nD τ).loc b)) (c : Dev nD)

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_tile : Rect S1000x128 := Rect.unit (s := S1000x128) ![0, 0] S1000x128.size inb_S1000x128_S1000x128_0_0
abbrev r4_w : Rect S128x128 := Rect.unit (s := S128x128) ![0, 0] S128x128.size inb_S128x128_S128x128_0_0
abbrev r4_b : Rect S1x128 := Rect.unit (s := S1x128) ![0, 0] S1x128.size inb_S1x128_S1x128_0_0

def out4_7 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r4_tile, k4_pay2 (View.ld x0 r4_tile) (View.ld x1 r4_tile) (View.ld x2 r4_w) (View.ld x3 r4_b) (View.ld x4 r4_w)
    (View.ld x5 r4_b) (View.ld x6 r4_tile)⟩]

def out4_8 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r4_tile, k4_pay1 (View.ld x0 r4_tile) (View.ld x1 r4_tile) (View.ld x2 r4_w) (View.ld x3 r4_b) (View.ld x4 r4_w)
    (View.ld x5 r4_b) (View.ld x6 r4_tile)⟩]

/-- A store through the whole tile covers the buffer. -/
theorem cover4 (p0 : Vec F S1000x128 .f32) (y : S1000x128.Idx) :
    ∃ pc ∈ ([⟨r4_tile, p0⟩] : List (View.Piece (Elt F) S1000x128 .f32)), y ∈ pc.1.set :=
  View.cover_of_tiled [⟨r4_tile, p0⟩] S1000x128.size (by rfl) y

set_option maxHeartbeats 4000000 in
/-- The body's triple: the seven inputs are returned as found, the two outputs hold `out4_7` and `out4_8` of them. -/
theorem sound_kernel4 (E : Set ℕ) (i : grid4.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out4_7 x0 x1 x2 x3 x4 x5 x6) ∗ ownsTc c arg9 fullShare (out4_8 x0 x1 x2 x3 x4 x5 x6)) -∗ K ⟨⟩))
      ⊢ wp frame (wpE (defs₀ (F := F)) Variants.none c none) E
          (cc4_kernel i arg1 harg1 arg2 harg2 arg3 harg3 arg4 harg4 arg5 harg5 arg6 harg6 arg7 harg7 arg8 harg8 arg9 harg9) K := by
  simp only [cc4_kernel_eq_skeleton]; unfold cc4_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover4 _)
  iexists _; isplitr
  swap; · iexact H8
  ipureintro
  exact View.read_writes_eq_canon _ _ _ (cover4 _)

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out4_7 (iblk4 V c 0 t) (iblk4 V c 1 t) (iblk4 V c 2 t) (iblk4 V c 3 t) (iblk4 V c 4 t) (iblk4 V c 5 t) (iblk4 V c 6 t)
    | ⟨8, _⟩ => out4_8 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (w : Fin cfg4.W) : (dat4 V c).A w = V c (Pipeline.arrRef spec4 w) := by
  dsimp only [dat4]

variable (t : Fin cfg4.N)

theorem after4_7 :
    (dat4 V c).after 7 t = out4_7 (iblk4 V c 0 t) (iblk4 V c 1 t) (iblk4 V c 2 t) (iblk4 V c 3 t) (iblk4 V c 4 t) (iblk4 V c 5 t) (iblk4 V c 6 t) := by
  dsimp only [dat4]
theorem after4_8 :
    (dat4 V c).after 8 t = out4_8 (iblk4 V c 0 t) (iblk4 V c 1 t) (iblk4 V c 2 t) (iblk4 V c 3 t) (iblk4 V c 4 t) (iblk4 V c 5 t) (iblk4 V c 6 t) := by
  dsimp only [dat4]

/-- An input window's contents before the body at a point are its contents after it. -/
theorem before4 : ∀ (w : Fin cfg4.W) (d), (cfg4.win w).isOut = false → (dat4 V c).before w t d = (dat4 V c).after w t
  | ⟨0, _⟩, d, h | ⟨1, _⟩, d, h | ⟨2, _⟩, d, h | ⟨3, _⟩, d, h | ⟨4, _⟩, d, h | ⟨5, _⟩, d, h | ⟨6, _⟩, d, h =>
    ((dat4 V c).before_in_eq_fetched _ h (fun _ => rfl) (fun _ _ _ => rfl) (fun _ => by dsimp only [dat4]; rfl) t d).trans
      (by dsimp only [dat4]; rfl)
  | ⟨7, _⟩, _, h | ⟨8, _⟩, _, h => absurd h (by decide +revert)

/-- The body obligation: each input buffer holds its block, so the triple applies; the invariant and the dues pass through. -/
theorem body_obligation4 : BodyObligation (dat4 (F := F) V c) (defs₀ (F := F)) Variants.none () Set.univ := fun t => by
  rw [bigSep_W4, bigSep_W4]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt4 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt4
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before4 V c t 0 d0 rfl, before4 V c t 1 d1 rfl, before4 V c t 2 d2 rfl, before4 V c t 3 d3 rfl, before4 V c t 4 d4 rfl,
    before4 V c t 5 d5 rfl, before4 V c t 6 d6 rfl]
  dsimp only [dat4]
  iapply sound_kernel4 c Set.univ _ (iblk4 V c 0 t) (iblk4 V c 1 t) (iblk4 V c 2 t) (iblk4 V c 3 t) (iblk4 V c 4 t) (iblk4 V c 5 t)
    (iblk4 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region4

end Cert.KernelIdeal.Hand

end
-- ==== Proof.KI.Reg5.lean ====
/-
  Region 5: a graph layer without residual, on row tiles of 1000 nodes. For any contents `V` of the core's buffers
  at entry: what each window's buffer holds after the body at a point, the body's triple, and the pipeline's body
  obligation at every point.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5

variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_tile : Rect S1000x128 := Rect.unit (s := S1000x128) ![0, 0] S1000x128.size inb_S1000x128_S1000x128_0_0
abbrev r5_w : Rect S128x128 := Rect.unit (s := S128x128) ![0, 0] S128x128.size inb_S128x128_S128x128_0_0
abbrev r5_b : Rect S1x128 := Rect.unit (s := S1x128) ![0, 0] S1x128.size inb_S1x128_S1x128_0_0

def out5_7 (x0 x1 : Vec F S1000x128 .f32) (x2 : Vec F S128x128 .f32) (x3 : Vec F S1x128 .f32)
    (x4 : Vec F S128x128 .f32) (x5 : Vec F S1x128 .f32) : Vec F S1000x128 .f32 :=
  View.canon [⟨r5_tile, k5_pay2 (View.ld x0 r5_tile) (View.ld x1 r5_tile) (View.ld x2 r5_w) (View.ld x3 r5_b)
    (View.ld x4 r5_w) (View.ld x5 r5_b)⟩]

def out5_8 (x6 : Vec F S1000x128 .f32) : Vec F S1000x128 .f32 :=
  View.canon [⟨r5_tile, k5_pay1 (View.ld x6 r5_tile)⟩]

/-- A store through the whole tile covers the buffer. -/
theorem cover5 (p0 : Vec F S1000x128 .f32) (y : S1000x128.Idx) :
    ∃ pc ∈ ([⟨r5_tile, p0⟩] : List (View.Piece (Elt F) S1000x128 .f32)), y ∈ pc.1.set :=
  View.cover_of_tiled [⟨r5_tile, p0⟩] S1000x128.size (by rfl) y

set_option maxHeartbeats 1000000 in
/-- The body's triple: the seven inputs are returned as found, the two outputs hold `out5_7` and `out5_8` of them. -/
theorem sound_kernel5 (E : Set ℕ) (i : grid5.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out5_7 x0 x1 x2 x3 x4 x5) ∗ ownsTc c arg9 fullShare (out5_8 x6)) -∗ K ⟨⟩))
      ⊢ wp frame (wpE (defs₀ (F := F)) Variants.none c none) E
          (cc5_kernel i arg1 harg1 arg2 harg2 arg3 harg3 arg4 harg4 arg5 harg5 arg6 harg6 arg7 harg7 arg8 harg8 arg9 harg9) K := by
  simp only [cc5_kernel_eq_skeleton]; unfold cc5_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover5 _)
  iexists _; isplitr
  swap; · iexact H8
  ipureintro
  exact View.read_writes_eq_canon _ _ _ (cover5 _)

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out5_7 (iblk5 V c 0 t) (iblk5 V c 1 t) (iblk5 V c 2 t) (iblk5 V c 3 t) (iblk5 V c 4 t) (iblk5 V c 5 t)
    | ⟨8, _⟩ => out5_8 (iblk5 V c 6 t)
  Φ _ := Pipeline.ΦA spec5 c
  q _ := fullShare
  owed _ := 0

theorem A_eq5 (w : Fin cfg5.W) : (dat5 V c).A w = V c (Pipeline.arrRef spec5 w) := by
  dsimp only [dat5]

variable (t : Fin cfg5.N)

theorem after5_7 :
    (dat5 V c).after 7 t = out5_7 (iblk5 V c 0 t) (iblk5 V c 1 t) (iblk5 V c 2 t) (iblk5 V c 3 t) (iblk5 V c 4 t) (iblk5 V c 5 t) := by
  dsimp only [dat5]
theorem after5_8 : (dat5 V c).after 8 t = out5_8 (iblk5 V c 6 t) := by dsimp only [dat5]

/-- An input window's contents before the body at a point are its contents after it. -/
theorem before5 : ∀ (w : Fin cfg5.W) (d), (cfg5.win w).isOut = false → (dat5 V c).before w t d = (dat5 V c).after w t
  | ⟨0, _⟩, d, h | ⟨1, _⟩, d, h | ⟨2, _⟩, d, h | ⟨3, _⟩, d, h | ⟨4, _⟩, d, h | ⟨5, _⟩, d, h | ⟨6, _⟩, d, h =>
    ((dat5 V c).before_in_eq_fetched _ h (fun _ => rfl) (fun _ _ _ => rfl) (fun _ => by dsimp only [dat5]; rfl) t d).trans
      (by dsimp only [dat5]; rfl)
  | ⟨7, _⟩, _, h | ⟨8, _⟩, _, h => absurd h (by decide +revert)

/-- The body obligation: each input buffer holds its block, so the triple applies; the invariant and the dues pass through. -/
theorem body_obligation5 : BodyObligation (dat5 (F := F) V c) (defs₀ (F := F)) Variants.none () Set.univ := fun t => by
  rw [bigSep_W5, bigSep_W5]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt5 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt5
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before5 V c t 0 d0 rfl, before5 V c t 1 d1 rfl, before5 V c t 2 d2 rfl, before5 V c t 3 d3 rfl, before5 V c t 4 d4 rfl,
    before5 V c t 5 d5 rfl, before5 V c t 6 d6 rfl]
  dsimp only [dat5]
  iapply sound_kernel5 c Set.univ _ (iblk5 V c 0 t) (iblk5 V c 1 t) (iblk5 V c 2 t) (iblk5 V c 3 t) (iblk5 V c 4 t) (iblk5 V c 5 t)
    (iblk5 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region5

end Cert.KernelIdeal.Hand

end
-- ==== Proof.KI.Reg6.lean ====
/-
  Region 6: a graph layer with its residual, on row tiles of 1000 nodes. For any contents `V` of the core's buffers
  at entry: what each window's buffer holds after the body at a point, the body's triple, and the pipeline's body
  obligation at every point.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b)) (c : Dev nD)

def iblk6 (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_tile : Rect S1000x128 := Rect.unit (s := S1000x128) ![0, 0] S1000x128.size inb_S1000x128_S1000x128_0_0
abbrev r6_w : Rect S128x128 := Rect.unit (s := S128x128) ![0, 0] S128x128.size inb_S128x128_S128x128_0_0
abbrev r6_b : Rect S1x128 := Rect.unit (s := S1x128) ![0, 0] S1x128.size inb_S1x128_S1x128_0_0

def out6_7 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r6_tile, k6_pay2 (View.ld x0 r6_tile) (View.ld x1 r6_tile) (View.ld x2 r6_w) (View.ld x3 r6_b) (View.ld x4 r6_w)
    (View.ld x5 r6_b) (View.ld x6 r6_tile)⟩]

def out6_8 (x0 x1 : Vec F S1000x128 .f32) (x2 : Vec F S128x128 .f32) (x3 : Vec F S1x128 .f32) (x4 : Vec F S128x128 .f32)
    (x5 : Vec F S1x128 .f32) (x6 : Vec F S1000x128 .f32) : Vec F S1000x128 .f32 :=
  View.canon [⟨r6_tile, k6_pay1 (View.ld x0 r6_tile) (View.ld x1 r6_tile) (View.ld x2 r6_w) (View.ld x3 r6_b) (View.ld x4 r6_w)
    (View.ld x5 r6_b) (View.ld x6 r6_tile)⟩]

/-- A store through the whole tile covers the buffer. -/
theorem cover6 (p0 : Vec F S1000x128 .f32) (y : S1000x128.Idx) :
    ∃ pc ∈ ([⟨r6_tile, p0⟩] : List (View.Piece (Elt F) S1000x128 .f32)), y ∈ pc.1.set :=
  View.cover_of_tiled [⟨r6_tile, p0⟩] S1000x128.size (by rfl) y

set_option maxHeartbeats 4000000 in
/-- The body's triple: the seven inputs are returned as found, the two outputs hold `out6_7` and `out6_8` of them. -/
theorem sound_kernel6 (E : Set ℕ) (i : grid6.Coords) {arg1 arg2 arg7 arg8 arg9 : Memref sig .tc .vmem S1000x128 .f32}
    {arg3 arg5 : Memref sig .tc .vmem S128x128 .f32} {arg4 arg6 : Memref sig .tc .vmem S1x128 .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole}
    (x0 x1 : Vec F S1000x128 .f32) (x2 : Vec F S128x128 .f32) (x3 : Vec F S1x128 .f32) (x4 : Vec F S128x128 .f32)
    (x5 : Vec F S1x128 .f32) (x6 : Vec F S1000x128 .f32) (K : PUnit → sProp 𝕄) :
    iprop(ownsTc c arg1 fullShare x0 ∗ ownsTc c arg2 fullShare x1 ∗ ownsTc c arg3 fullShare x2 ∗ ownsTc c arg4 fullShare x3
        ∗ ownsTc c arg5 fullShare x4 ∗ ownsTc c arg6 fullShare x5 ∗ ownsTc c arg7 fullShare x6
        ∗ (∃ d, ownsTc c arg8 fullShare d) ∗ (∃ d, ownsTc c arg9 fullShare d)
        ∗ (iprop(ownsTc c arg1 fullShare x0 ∗ ownsTc c arg2 fullShare x1 ∗ ownsTc c arg3 fullShare x2 ∗ ownsTc c arg4 fullShare x3
            ∗ ownsTc c arg5 fullShare x4 ∗ ownsTc c arg6 fullShare x5 ∗ ownsTc c arg7 fullShare x6
            ∗ ownsTc c arg8 fullShare (out6_7 x0 x1 x2 x3 x4 x5 x6) ∗ ownsTc c arg9 fullShare (out6_8 x0 x1 x2 x3 x4 x5 x6)) -∗ K ⟨⟩))
      ⊢ wp frame (wpE (defs₀ (F := F)) Variants.none c none) E
          (cc6_kernel i arg1 harg1 arg2 harg2 arg3 harg3 arg4 harg4 arg5 harg5 arg6 harg6 arg7 harg7 arg8 harg8 arg9 harg9) K := by
  simp only [cc6_kernel_eq_skeleton]; unfold cc6_kernel_skel
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover6 _)
  iexists _; isplitr
  swap; · iexact H8
  ipureintro
  exact View.read_writes_eq_canon _ _ _ (cover6 _)

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
    | ⟨8, _⟩ => out6_8 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (w : Fin cfg6.W) : (dat6 V c).A w = V c (Pipeline.arrRef spec6 w) := by
  dsimp only [dat6]

variable (t : Fin cfg6.N)

theorem after6_7 :
    (dat6 V c).after 7 t = out6_7 (iblk6 V c 0 t) (iblk6 V c 1 t) (iblk6 V c 2 t) (iblk6 V c 3 t) (iblk6 V c 4 t) (iblk6 V c 5 t) (iblk6 V c 6 t) := by
  dsimp only [dat6]
theorem after6_8 :
    (dat6 V c).after 8 t = out6_8 (iblk6 V c 0 t) (iblk6 V c 1 t) (iblk6 V c 2 t) (iblk6 V c 3 t) (iblk6 V c 4 t) (iblk6 V c 5 t) (iblk6 V c 6 t) := by
  dsimp only [dat6]

/-- An input window's contents before the body at a point are its contents after it. -/
theorem before6 : ∀ (w : Fin cfg6.W) (d), (cfg6.win w).isOut = false → (dat6 V c).before w t d = (dat6 V c).after w t
  | ⟨0, _⟩, d, h | ⟨1, _⟩, d, h | ⟨2, _⟩, d, h | ⟨3, _⟩, d, h | ⟨4, _⟩, d, h | ⟨5, _⟩, d, h | ⟨6, _⟩, d, h =>
    ((dat6 V c).before_in_eq_fetched _ h (fun _ => rfl) (fun _ _ _ => rfl) (fun _ => by dsimp only [dat6]; rfl) t d).trans
      (by dsimp only [dat6]; rfl)
  | ⟨7, _⟩, _, h | ⟨8, _⟩, _, h => absurd h (by decide +revert)

/-- The body obligation: each input buffer holds its block, so the triple applies; the invariant and the dues pass through. -/
theorem body_obligation6 : BodyObligation (dat6 (F := F) V c) (defs₀ (F := F)) Variants.none () Set.univ := fun t => by
  rw [bigSep_W6, bigSep_W6]
  show iprop(_ ∗ _ ∗ (∃ d, _) ∗ (∃ d, _) ∗ (∃ d, _) ∗ (∃ d, _) ∗ (∃ d, _) ∗ (∃ d, _) ∗ (∃ d, _) ∗ (∃ d, _) ∗ ∃ d, _)
    ⊢ wp _ _ _ (bodyAt6 t) fun _ => iprop(_ ∗ _ ∗ owns _ _ _ _ ∗ owns _ _ _ _ ∗ owns _ _ _ _ ∗ owns _ _ _ _ ∗ owns _ _ _ _ ∗ owns _ _ _ _ ∗ owns _ _ _ _ ∗ owns _ _ _ _ ∗ owns _ _ _ _)
  unfold bodyAt6
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before6 V c t 0 d0 rfl, before6 V c t 1 d1 rfl, before6 V c t 2 d2 rfl, before6 V c t 3 d3 rfl, before6 V c t 4 d4 rfl,
    before6 V c t 5 d5 rfl, before6 V c t 6 d6 rfl]
  dsimp only [dat6]
  iapply sound_kernel6 c Set.univ _ (iblk6 V c 0 t) (iblk6 V c 1 t) (iblk6 V c 2 t) (iblk6 V c 3 t) (iblk6 V c 4 t) (iblk6 V c 5 t)
    (iblk6 V c 6 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro H
  isplitl [HΦ]; · iexact HΦ
  isplitl [Ho]; · iexact Ho
  iexact H

end Region6

end Cert.KernelIdeal.Hand

end
-- ==== Proof.KI.Reg7.lean ====
/-
  Region 7 of @main: pooling by a one-hot product accumulated over the 50 row tiles and read out through the post-MLP at
  the last tile, at any entry contents `V` and any float type. The accumulator after each point is a recursion over the
  points (`scr7`); the invariant hands it from point to point.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst7 (i : grid7.Coords) : Prop :=
  (Scalar.cmpi .ne (Scalar.extui (Scalar.cmpi .eq (BitVec.ofNat 32 (i 0).val) 0#32)) 0#32) = 1#1
abbrev isLast7 (i : grid7.Coords) : Prop := k7_cond2 i = 1#1

theorem off2_zero : (![0, 0] : Fin 2 → ℕ) = fun _ => 0 := by
  funext a; fin_cases a <;> rfl

/-- After stores the last of which fills the buffer, the buffer reads that store's payload. -/
theorem read_after_fill {κ : Kind} {sp : Space} {S : Shape} {e : EltTy} (v : View sig κ sp S e) (f : v.ty.Contents (Elt F))
    {off : Fin S.rank → ℕ} (hz : off = fun _ => 0) (inb : ∀ a, off a + S.size a ≤ S.size a) (P : S.Idx → Elt F e)
    (L : List (View.Piece (Elt F) S e)) :
    v.read (Elt F) (v.writes (Elt F) f ((⟨Rect.unit off S.size inb, P⟩ : View.Piece (Elt F) S e) :: L)) = P := by
  rw [View.read_writes_eq_canon _ _ _ (fun y => ⟨_, List.mem_cons_self, View.mem_set_unit_zero hz inb y⟩),
    View.canon_cons_unit_zero hz]

/-- A whole memref owned at `X` is its elements' points-to at the raw contents that read `X`. -/
theorem owns_unread (c : Dev nD) {sp : Space} {sh : Shape} {e : EltTy} {m : Memref sig .tc sp sh e} (h : m.IsWhole)
    (X : sh.Idx → Elt F e) :
    (owns (c : Thread nD τ) m fullShare X : sProp 𝕄) = (m.view.loc (c : Thread nD τ) ↦[m.view.set]{fullShare} h.unread X) := by
  unfold owns
  refine BI.equiv_iff.mp ⟨(?_ : (_ : sProp 𝕄) ⊢ _), (?_ : (_ : sProp 𝕄) ⊢ _)⟩
  · iintro ⟨%f, %hf, H⟩; obtain rfl := h.eq_unread hf; iexact H
  · iintro H; iexists _; isplitr; · ipureintro; exact h.read_unread X
    iexact H
section Body
variable (c : Dev nD) (i : grid7.Coords)
  (a1 : Memref sig .tc .vmem S1000x128 .f32) (h1 : a1.IsWhole) (a2 : Memref sig .tc .vmem S1000x128 .f32) (h2 : a2.IsWhole)
  (a3 : Memref sig .tc .vmem S1000x128 .f32) (h3 : a3.IsWhole) (a4 : Memref sig .tc .vmem S1000x128 .f32) (h4 : a4.IsWhole)
  (a5 : Memref sig .tc .vmem S1000x128 .f32) (h5 : a5.IsWhole) (a6 : Memref sig .tc .vmem S1000x128 .f32) (h6 : a6.IsWhole)
  (a7 : Memref sig .tc .vmem S1000x128 .f32) (h7 : a7.IsWhole) (a8 : Memref sig .tc .vmem S1000x1 .i32) (h8 : a8.IsWhole)
  (a9 : Memref sig .tc .vmem S896x128 .f32) (h9 : a9.IsWhole) (a10 : Memref sig .tc .vmem S1x128 .f32) (h10 : a10.IsWhole)
  (a11 : Memref sig .tc .vmem S128x128 .f32) (h11 : a11.IsWhole) (a12 : Memref sig .tc .vmem S1x128 .f32) (h12 : a12.IsWhole)
  (a13 : Memref sig .tc .vmem S128x128 .f32) (h13 : a13.IsWhole) (a14 : Memref sig .tc .vmem S128x896 .f32) (h14 : a14.IsWhole)
  (x1 x2 x3 x4 x5 x6 x7 : Vec F S1000x128 .f32) (x8 : Vec F S1000x1 .i32) (y9 : Vec F S896x128 .f32) (y10 : Vec F S1x128 .f32)
  (y11 : Vec F S128x128 .f32) (y12 : Vec F S1x128 .f32) (o : Vec F S128x128 .f32) (s : Vec F S128x896 .f32)

set_option maxHeartbeats 1000000 in
/-- The body at a point that is not both first and last: the tile's one-hot product is added to the accumulator (to zeros
    at the first point), the last point stores the post-MLP of the sums in the output buffer, and nothing else changes. -/
theorem run7 (hfl : isFirst7 i → ¬ isLast7 i) (E : Set ℕ) (K : PUnit → sProp 𝕄) :
    iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare y9
        ∗ owns (c : Thread nD τ) a10 fullShare y10
        ∗ owns (c : Thread nD τ) a11 fullShare y11
        ∗ owns (c : Thread nD τ) a12 fullShare y12
        ∗ owns (c : Thread nD τ) a13 fullShare o ∗ owns (c : Thread nD τ) a14 fullShare s
        ∗ (iprop(owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare y9
            ∗ owns (c : Thread nD τ) a10 fullShare y10
            ∗ owns (c : Thread nD τ) a11 fullShare y11
            ∗ owns (c : Thread nD τ) a12 fullShare y12
            ∗ owns (c : Thread nD τ) a13 fullShare (if isLast7 i then k7_pay1 (k7_pay3 x1 x2 x3 x4 x5 x6 x7 x8 (if isFirst7 i then k7_pay2 (F := F) else s)) y9 y10 y11 y12 else o)
            ∗ owns (c : Thread nD τ) a14 fullShare (k7_pay3 x1 x2 x3 x4 x5 x6 x7 x8 (if isFirst7 i then k7_pay2 (F := F) else s))) -∗ K ⟨⟩))
      ⊢ wp frame (wpE (defs₀ (F := F)) Variants.none c none) E
          (cc7__pool_post_kernel i a1 h1 a2 h2 a3 h3 a4 h4 a5 h5 a6 h6 a7 h7 a8 h8 a9 h9 a10 h10 a11 h11 a12 h12 a13 h13 a14 h14) K := by
  by_cases hfirst : isFirst7 i <;> by_cases hlast : isLast7 i
  · exact absurd hlast (hfl hfirst)
  all_goals
    first | rw [if_pos hfirst] | rw [if_neg hfirst]
    first | rw [if_pos hlast] | rw [if_neg hlast]
    rw [owns_unread c h13 o, owns_unread c h14 s]
    simp only [owns_unread c h1, owns_unread c h2, owns_unread c h3, owns_unread c h4, owns_unread c h5, owns_unread c h6, owns_unread c h7, owns_unread c h8, owns_unread c h9, owns_unread c h10, owns_unread c h11, owns_unread c h12]
    simp only [cc7__pool_post_kernel_eq_skeleton]; unfold cc7__pool_post_kernel_skel
    simp only [k7_part1_eq_skeleton]
    iintro ⟨H1, H2, H3, H4, H5, H6, H7, H8, H9, H10, H11, H12, H13, H14, Hk⟩
    sl_exec (disch := first | exact hfirst | exact hlast)
    sl_step
    iapply Hk
    iframe
    unfold owns
    (try isplitl [H13]) <;>
      (iexists _; isplitr; swap; · iassumption
       ipureintro
       sl_unfold_words
       refine (read_after_fill _ _ off2_zero _ _ _).trans ?_
       simp only [View.readAt_eq_ld, Memref.IsWhole.read_unread, View.ld_unit_zero (S := S1000x128) off2_zero, View.ld_unit_zero (S := S1000x1) off2_zero, View.ld_unit_zero (S := S128x896) off2_zero, View.ld_unit_zero (S := S896x128) off2_zero, View.ld_unit_zero (S := S1x128) off2_zero, View.ld_unit_zero (S := S128x128) off2_zero,
        View.readCov_unit_zero (S := S128x896) _ off2_zero])

end Body

theorem hcond7_0 : ∀ t : Fin cfg7.N, isFirst7 (grid7.coords t) ↔ t.val = 0 :=
  (by decide +kernel : ∀ t : Fin grid7.N, isFirst7 (grid7.coords t) ↔ t.val = 0)
theorem hcond7_1 : ∀ t : Fin cfg7.N, isLast7 (grid7.coords t) ↔ t.val = 49 :=
  (by decide +kernel : ∀ t : Fin grid7.N, isLast7 (grid7.coords t) ↔ t.val = 49)

theorem idle7_12 : ∀ t : Fin cfg7.N, ¬ t.val = 49 → cfg7.idle 12 (grid7.coords t) = true :=
  (by decide +kernel : ∀ t : Fin grid7.N, ¬ t.val = 49 → idle7 12 (grid7.coords t) = true)
theorem noflush7_12 : ∀ t : Fin cfg7.N, ¬ t.val = 49 → (cfg7.win 12).flush t = false :=
  (by decide +kernel : ∀ t : Fin grid7.N, ¬ t.val = 49 → win7_12.flush t = false)
theorem live7_12 : ∀ t : Fin cfg7.N, t.val = 49 → cfg7.idle 12 (grid7.coords t) = false :=
  (by decide +kernel : ∀ t : Fin grid7.N, t.val = 49 → idle7 12 (grid7.coords t) = false)

abbrev pLast7 : Fin cfg7.N := ⟨49, by decide⟩

section Region
variable (V : (c : Dev nD) → (b : Ref sig .tc) → Buf (Elt F) ((c : Thread nD τ).loc b)) (c : Dev nD)

/-- Window `w`'s block at point `t`, read off the window's array as the region finds it. -/
def iblk7 (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Point `t`'s tile: its one-hot product added to `s`. -/
abbrev step7 (t : Fin cfg7.N) (s : Vec F S128x896 .f32) : Vec F S128x896 .f32 :=
  k7_pay3 (iblk7 V c 0 t) (iblk7 V c 1 t) (iblk7 V c 2 t) (iblk7 V c 3 t) (iblk7 V c 4 t) (iblk7 V c 5 t) (iblk7 V c 6 t) (iblk7 V c 7 t) s

/-- The accumulator after position `n`: the tiles up to `n` added to zeros. -/
def scr7 : (n : ℕ) → n < cfg7.N → Vec F S128x896 .f32
  | 0, h => step7 V c ⟨0, h⟩ (k7_pay2 (F := F))
  | n + 1, h => step7 V c ⟨n + 1, h⟩ (scr7 n (Nat.lt_of_succ_lt h))

theorem scratch7_zero (h : 0 < cfg7.N) :
    scr7 V c 0 h = k7_pay3 (iblk7 V c 0 ⟨0, h⟩) (iblk7 V c 1 ⟨0, h⟩) (iblk7 V c 2 ⟨0, h⟩) (iblk7 V c 3 ⟨0, h⟩) (iblk7 V c 4 ⟨0, h⟩) (iblk7 V c 5 ⟨0, h⟩) (iblk7 V c 6 ⟨0, h⟩) (iblk7 V c 7 ⟨0, h⟩) (k7_pay2 (F := F)) := rfl

theorem scratch7_succ (n : ℕ) (h : n + 1 < cfg7.N) :
    scr7 V c (n + 1) h = k7_pay3 (iblk7 V c 0 ⟨n + 1, h⟩) (iblk7 V c 1 ⟨n + 1, h⟩) (iblk7 V c 2 ⟨n + 1, h⟩) (iblk7 V c 3 ⟨n + 1, h⟩) (iblk7 V c 4 ⟨n + 1, h⟩) (iblk7 V c 5 ⟨n + 1, h⟩) (iblk7 V c 6 ⟨n + 1, h⟩) (iblk7 V c 7 ⟨n + 1, h⟩) (scr7 V c n (Nat.lt_of_succ_lt h)) := rfl

/-- The accumulator after point `t` from what the point before left (anything, before the first point). -/
theorem scr7_at (t : Fin cfg7.N) (s : Vec F S128x896 .f32)
    (hs : ∀ h : t.val ≠ 0, s = scr7 V c (t.val - 1) (Nat.lt_of_le_of_lt (Nat.sub_le _ _) t.isLt)) :
    scr7 V c t.val t.isLt = step7 V c t (if isFirst7 (grid7.coords t) then k7_pay2 (F := F) else s) := by
  obtain ⟨n, hn⟩ := t
  cases n with
  | zero => rw [if_pos ((hcond7_0 ⟨0, hn⟩).mpr rfl)]; rfl
  | succ n =>
    obtain rfl := hs (Nat.succ_ne_zero n)
    rw [if_neg fun h => Nat.succ_ne_zero n ((hcond7_0 ⟨n + 1, hn⟩).mp h)]; rfl

/-- The read-out: the post-MLP of the accumulator as the last point leaves it. -/
def fin7 : Vec F S128x128 .f32 :=
  k7_pay1 (scr7 V c 49 pLast7.isLt) (iblk7 V c 8 pLast7) (iblk7 V c 9 pLast7) (iblk7 V c 10 pLast7) (iblk7 V c 11 pLast7)

abbrev scM7 : Memref sig .tc .vmem S128x896 .f32 := Memref.whole cc7_scratch0

/-- The invariant before position `n`: the accumulator at what the point before left (at anything before the first point),
    the other scoped buffers no window stages, and the generator register. -/
def inv7 (n : ℕ) (hn : n ≤ cfg7.N) : sProp 𝕄 :=
  iprop((∃ s, ⌜∀ h : n ≠ 0, s = scr7 V c (n - 1) (by omega)⌝ ∗ owns (c : Thread nD τ) scM7 fullShare s)
    ∗ Pipeline.scopedRestBut (Ix := Unit) (Name := ℕ) (U := UR sig nD τ) (Lvl := ℕ) (Val := Elt F) spec7 c [cc7_scratch0] ∗ (∃ r, prngReg c r))

/-- Region 7's proof data: the arrays as the region finds them; after the body each input's buffer at its block, the
    output's at the read-out; nothing owed; full shares. -/
def dat7 : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => fin7 V c
  Φ t := inv7 V c t.val (Nat.le_of_lt_succ t.isLt)
  q _ := fullShare
  owed _ := 0

theorem A_eq7 (w : Fin cfg7.W) : (dat7 V c).A w = V c (Pipeline.arrRef spec7 w) := by
  dsimp only [dat7]

theorem out7_last (t : Fin cfg7.N) :
    (dat7 V c).after 12 t = k7_pay1 (scr7 V c 49 pLast7.isLt) (iblk7 V c 8 pLast7) (iblk7 V c 9 pLast7) (iblk7 V c 10 pLast7) (iblk7 V c 11 pLast7) :=
  (show (dat7 V c).after 12 t = fin7 V c by dsimp only [dat7]).trans rfl

/-- An input window's contents before the body at a point are its block of the array. -/
theorem before7 (w : Fin cfg7.W) (t : Fin cfg7.N) (hw : (cfg7.win w).isOut = false := by rfl)
    (hl : ∀ i, cfg7.idle w i = false := by exact fun _ => rfl)
    (hc : ∀ t t' : Fin cfg7.N, (cfg7.win w).index t = (cfg7.win w).index t' →
      (cfg7.win w).clip (cfg7.grid.coords t) = (cfg7.win w).clip (cfg7.grid.coords t') := by exact fun _ _ _ => rfl)
    (hk : ∀ t, (cfg7.win w).cut (cfg7.grid.coords t) ((dat7 V c).after w t) = (dat7 V c).blockOf w t := by exact fun _ => rfl) :
    ∀ d, (dat7 V c).before w t d = (dat7 V c).fetched w t d :=
  (dat7 V c).before_in_eq_fetched w hw hl hc hk t

/-- A window live at every point is left at what the proof data names. -/
theorem leaves7 (w : Fin cfg7.W) (t : Fin cfg7.N) (hl : ∀ i, cfg7.idle w i = false := by exact fun _ => rfl) :
    (dat7 V c).leavesExact w t = owns (c : Thread nD τ) ((cfg7.win w).stage (cfg7.slots t w)) fullShare ((dat7 V c).after w t) := by
  unfold Dat.leavesExact; rw [hl]

/-- Window `w`'s part of what the body is entered with at point `t`. -/
abbrev hand7 (t : Fin cfg7.N) (w : Fin cfg7.W) : sProp 𝕄 :=
  iprop(∃ d, owns (c : Thread nD τ) ((cfg7.win w).stage (cfg7.slots t w)) fullShare ((dat7 V c).before w t d))

/-- The scoped buffers that belong to no window, the accumulator set apart as a memref owned at some contents. -/
theorem scopedRest7_acc :
    (Pipeline.scopedRest spec7 c : sProp 𝕄)
      = iprop((∃ s, owns (c : Thread nD τ) scM7 fullShare s)
          ∗ Pipeline.scopedRestBut (Ix := Unit) (Name := ℕ) (U := UR sig nD τ) (Lvl := ℕ) (Val := Elt F) spec7 c [cc7_scratch0]) := by
  rw [scopedRest7_split]; simp only [scM7, owns_whole]; try rfl

/-- The output window's buffer after the body: the read-out at the last point, before it what the body found. -/
theorem out7 (t : Fin cfg7.N) (d) (s : Vec F S128x896 .f32)
    (hs : ∀ h : t.val ≠ 0, s = scr7 V c (t.val - 1) (Nat.lt_of_le_of_lt (Nat.sub_le _ _) t.isLt)) :
    owns (c : Thread nD τ) (win7_12.stage (cfg7.slots t 12)) fullShare
        (if isLast7 (grid7.coords t) then k7_pay1 (step7 V c t (if isFirst7 (grid7.coords t) then k7_pay2 (F := F) else s))
          (iblk7 V c 8 t) (iblk7 V c 9 t) (iblk7 V c 10 t) (iblk7 V c 11 t) else (dat7 V c).before 12 t d)
      ⊢ (dat7 V c).leavesExact 12 t := by
  rw [← scr7_at V c t s hs]
  by_cases h : t.val = 49
  · rw [if_pos ((hcond7_1 t).mpr h), show (dat7 V c).leavesExact 12 t
        = owns (c : Thread nD τ) (win7_12.stage (cfg7.slots t 12)) fullShare ((dat7 V c).after 12 t) by
      unfold Dat.leavesExact; rw [live7_12 t h], out7_last]
    obtain rfl : t = pLast7 := Fin.ext h
    iintro H; iexact H
  · rw [if_neg fun h' => h ((hcond7_1 t).mp h'), Dat.leavesExact_idle (dat7 V c) 12 t (idle7_12 t h) (noflush7_12 t h)]
    iintro H; iexists d; iexact H

set_option maxHeartbeats 4000000 in
/-- The body at any point: the input windows' buffers hold their blocks, the invariant hands over the accumulator and takes
    it back at this point's contents, and the output window's buffer comes back as found except at the last point. -/
theorem body7 (t : Fin cfg7.N) :
    iprop((dat7 V c).Φ t.castSucc ∗ (dat7 V c).owesAt () t.castSucc
        ∗ hand7 V c t 0 ∗ hand7 V c t 1 ∗ hand7 V c t 2 ∗ hand7 V c t 3 ∗ hand7 V c t 4 ∗ hand7 V c t 5 ∗ hand7 V c t 6 ∗ hand7 V c t 7 ∗ hand7 V c t 8 ∗ hand7 V c t 9 ∗ hand7 V c t 10 ∗ hand7 V c t 11 ∗ hand7 V c t 12)
      ⊢ wp frame (wpE (defs₀ (F := F)) Variants.none c none) Set.univ (bodyAt7 t) fun _ =>
          iprop((dat7 V c).Φ t.succ ∗ (dat7 V c).owesAt () t.succ
            ∗ (dat7 V c).leavesExact 0 t ∗ (dat7 V c).leavesExact 1 t ∗ (dat7 V c).leavesExact 2 t ∗ (dat7 V c).leavesExact 3 t ∗ (dat7 V c).leavesExact 4 t ∗ (dat7 V c).leavesExact 5 t ∗ (dat7 V c).leavesExact 6 t ∗ (dat7 V c).leavesExact 7 t ∗ (dat7 V c).leavesExact 8 t ∗ (dat7 V c).leavesExact 9 t ∗ (dat7 V c).leavesExact 10 t ∗ (dat7 V c).leavesExact 11 t ∗ (dat7 V c).leavesExact 12 t) := by
  unfold bodyAt7
  simp only [hand7, before7 V c 0 t, before7 V c 1 t, before7 V c 2 t, before7 V c 3 t, before7 V c 4 t, before7 V c 5 t, before7 V c 6 t, before7 V c 7 t, before7 V c 8 t, before7 V c 9 t, before7 V c 10 t, before7 V c 11 t]
  rw [show (dat7 V c).owesAt () t.succ = (dat7 V c).owesAt () t.castSucc from rfl,
    show (dat7 V c).Φ t.succ = inv7 V c (t.val + 1) t.isLt from rfl,
    show (dat7 V c).Φ t.castSucc = inv7 V c t.val (Nat.le_of_lt t.isLt) from rfl,
    leaves7 V c 0 t, leaves7 V c 1 t, leaves7 V c 2 t, leaves7 V c 3 t, leaves7 V c 4 t, leaves7 V c 5 t, leaves7 V c 6 t, leaves7 V c 7 t, leaves7 V c 8 t, leaves7 V c 9 t, leaves7 V c 10 t, leaves7 V c 11 t]
  unfold inv7
  iintro ⟨⟨⟨%s, %hs, HS⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run7 c (grid7.coords t) _ _ _ _ _ _ _ _ _ _ _ _ _ _ _ _ _ _ _ _ _ _ _ _ _ _ _ _
    (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) ((dat7 V c).before 12 t d12) s
    (fun h0 h49 => by have := (hcond7_0 t).mp h0; have := (hcond7_1 t).mp h49; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro ⟨H0, H1, H2, H3, H4, H5, H6, H7, H8, H9, H10, H11, H12, HS⟩
  isplitl [HS Hrest Hg]
  · isplitl [HS]
    · iexists _; isplitr; swap; · iexact HS
      ipureintro; exact fun _ => (scr7_at V c t s hs).symm
    isplitl [Hrest]; · iexact Hrest
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (out7 V c t d12 s hs); iexact H12

theorem body_obligation7 : BodyObligation (dat7 (F := F) V c) (defs₀ (F := F)) Variants.none () Set.univ := fun t => by
  rw [bigSep_W7, bigSep_W7]
  exact body7 V c t

/-- What the region is entered with is the invariant before the first point. -/
theorem hin7 :
    (iprop((∃ r, prngReg c r) ∗ Pipeline.prefHeld (pcfgs (F := F) 7).pre c (fun _ => fullShare) ((cfgs 7).toPCfg_adm).1
      ∗ Pipeline.scopedRest spec7 c) : sProp 𝕄) ⊢ (dat7 V c).Φ 0 := by
  rw [show (dat7 V c).Φ 0 = inv7 V c 0 (Nat.zero_le _) from rfl, scopedRest7_acc]; unfold inv7
  iintro ⟨Hg, -, ⟨%s, HS⟩, Hr⟩
  isplitl [HS]
  · iexists s; isplitr; · ipureintro; exact fun h => absurd rfl h
    iexact HS
  isplitl [Hr]; · iexact Hr
  iexact Hg

/-- After the last point the invariant gives the register and the scoped buffers back, the accumulator at some contents. -/
theorem hout7 :
    (dat7 V c).Φ (Fin.last cfg7.N) ⊢ (iprop((∃ r, prngReg c r) ∗ Pipeline.ownSems0 (fun k : PEmpty => k.elim) c
      ∗ Pipeline.scopedRest spec7 c) : sProp 𝕄) := by
  rw [Pipeline.ownSems0_none, show (dat7 V c).Φ (Fin.last cfg7.N) = inv7 V c cfg7.N (Nat.le_refl _) from rfl, scopedRest7_acc]
  unfold inv7
  iintro ⟨⟨%s, -, HS⟩, Hrest, Hg⟩
  isplitl [Hg]; · iexact Hg
  isplitr; · iempintro
  isplitl [HS]; · iexists _; iexact HS
  iexact Hrest

end Region

end Cert.KernelIdeal.Hand

end
-- ==== Proof.KI.Fold.lean ====
/-
  The contents of a core's buffers after each of the program's sixteen items, from the launch memory: a host stretch
  applies its operations, a kernel region overwrites the arrays of its output windows. The fold agrees with the
  generated one, and each item leaves alone every buffer it does not write.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import proofs.«431182_j60713657696761_1_alg».proof.Proof.Gen.KernelIdeal.Regions
import proofs.«431182_j60713657696761_1_alg».proof.Proof.KI.Reg0
import proofs.«431182_j60713657696761_1_alg».proof.Proof.KI.Reg1
import proofs.«431182_j60713657696761_1_alg».proof.Proof.KI.Reg2
import proofs.«431182_j60713657696761_1_alg».proof.Proof.KI.Reg3
import proofs.«431182_j60713657696761_1_alg».proof.Proof.KI.Reg4
import proofs.«431182_j60713657696761_1_alg».proof.Proof.KI.Reg5
import proofs.«431182_j60713657696761_1_alg».proof.Proof.KI.Reg6
import proofs.«431182_j60713657696761_1_alg».proof.Proof.KI.Reg7
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window BodyObligation cellOf)

variable {F : FTy → Type} [FloatOps F]

section Fold

variable (m : (ℓ : Loc nD τ sig) → Buf (Elt F) ℓ)

abbrev W0 (c : Dev nD) : Valuation τ sig (Elt F) := fun b => m (c, b)

def W1 (c : Dev nD) : Valuation τ sig (Elt F) := StableHlo.after hostOps0 (W0 m c)

def W2 (c : Dev nD) : Valuation τ sig (Elt F) :=
  Function.update (W1 m c) main_v6 ((dat0 (fun c b => W1 m c b) c).arrAt 3 cfg0.N)

def W3 (c : Dev nD) : Valuation τ sig (Elt F) := StableHlo.after hostOps1 (W2 m c)

def W4 (c : Dev nD) : Valuation τ sig (Elt F) :=
  Function.update (Function.update (W3 m c) main_v27_0 ((dat1 (fun c b => W3 m c b) c).arrAt 7 cfg1.N)) main_v27_1 ((dat1 (fun c b => W3 m c b) c).arrAt 8 cfg1.N)

def W5 (c : Dev nD) : Valuation τ sig (Elt F) := StableHlo.after hostOps2 (W4 m c)

def W6 (c : Dev nD) : Valuation τ sig (Elt F) :=
  Function.update (Function.update (W5 m c) main_v48_0 ((dat2 (fun c b => W5 m c b) c).arrAt 7 cfg2.N)) main_v48_1 ((dat2 (fun c b => W5 m c b) c).arrAt 8 cfg2.N)

def W7 (c : Dev nD) : Valuation τ sig (Elt F) := StableHlo.after hostOps3 (W6 m c)

def W8 (c : Dev nD) : Valuation τ sig (Elt F) :=
  Function.update (Function.update (W7 m c) main_v69_0 ((dat3 (fun c b => W7 m c b) c).arrAt 7 cfg3.N)) main_v69_1 ((dat3 (fun c b => W7 m c b) c).arrAt 8 cfg3.N)

def W9 (c : Dev nD) : Valuation τ sig (Elt F) := StableHlo.after hostOps4 (W8 m c)

def W10 (c : Dev nD) : Valuation τ sig (Elt F) :=
  Function.update (Function.update (W9 m c) main_v90_0 ((dat4 (fun c b => W9 m c b) c).arrAt 7 cfg4.N)) main_v90_1 ((dat4 (fun c b => W9 m c b) c).arrAt 8 cfg4.N)

def W11 (c : Dev nD) : Valuation τ sig (Elt F) := StableHlo.after hostOps5 (W10 m c)

def W12 (c : Dev nD) : Valuation τ sig (Elt F) :=
  Function.update (Function.update (W11 m c) main_v111_0 ((dat5 (fun c b => W11 m c b) c).arrAt 7 cfg5.N)) main_v111_1 ((dat5 (fun c b => W11 m c b) c).arrAt 8 cfg5.N)

def W13 (c : Dev nD) : Valuation τ sig (Elt F) := StableHlo.after hostOps6 (W12 m c)

def W14 (c : Dev nD) : Valuation τ sig (Elt F) :=
  Function.update (Function.update (W13 m c) main_v132_0 ((dat6 (fun c b => W13 m c b) c).arrAt 7 cfg6.N)) main_v132_1 ((dat6 (fun c b => W13 m c b) c).arrAt 8 cfg6.N)

def W15 (c : Dev nD) : Valuation τ sig (Elt F) := StableHlo.after hostOps7 (W14 m c)

def W16 (c : Dev nD) : Valuation τ sig (Elt F) :=
  Function.update (W15 m c) main_v135 ((dat7 (fun c b => W15 m c b) c).arrAt 12 cfg7.N)

def pdats : (p : Fin 8) → (c : Dev nD) → Dat τ (Elt F) Unit ℕ (UR sig nD τ) ℕ (cfgs p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c
  | ⟨6, _⟩ => fun c => dat6 (fun c b => W13 m c b) c
  | ⟨7, _⟩ => fun c => dat7 (fun c b => W15 m c b) c

def outsH : Gen.Outs (F := F) := fun J r c =>
  (match J with
    | 2 => W2 m c | 4 => W4 m c | 6 => W6 m c | 8 => W8 m c | 10 => W10 m c | 12 => W12 m c | 14 => W14 m c | 16 => W16 m c
    | _ => W0 m c) (Proc.devRef .tc r)

theorem W_out0 (c : Dev nD) : W2 m c (Proc.devRef .tc main_v6) = (dat0 (fun c b => W1 m c b) c).arrAt 3 cfg0.N := by
  unfold W2; exact Function.update_self ..
theorem W_out1_0 (c : Dev nD) : W4 m c (Proc.devRef .tc main_v27_0) = (dat1 (fun c b => W3 m c b) c).arrAt 7 cfg1.N := by
  unfold W4
  rw [Function.update_of_ne (StableHlo.devRef_ne_of_ne (by decide) : (Proc.devRef .tc main_v27_0 : DevRef τ sig) ≠ Proc.devRef .tc main_v27_1)]
  exact Function.update_self ..
theorem W_out1_1 (c : Dev nD) : W4 m c (Proc.devRef .tc main_v27_1) = (dat1 (fun c b => W3 m c b) c).arrAt 8 cfg1.N := by
  unfold W4; exact Function.update_self ..
theorem W_out2_0 (c : Dev nD) : W6 m c (Proc.devRef .tc main_v48_0) = (dat2 (fun c b => W5 m c b) c).arrAt 7 cfg2.N := by
  unfold W6
  rw [Function.update_of_ne (StableHlo.devRef_ne_of_ne (by decide) : (Proc.devRef .tc main_v48_0 : DevRef τ sig) ≠ Proc.devRef .tc main_v48_1)]
  exact Function.update_self ..
theorem W_out2_1 (c : Dev nD) : W6 m c (Proc.devRef .tc main_v48_1) = (dat2 (fun c b => W5 m c b) c).arrAt 8 cfg2.N := by
  unfold W6; exact Function.update_self ..
theorem W_out3_0 (c : Dev nD) : W8 m c (Proc.devRef .tc main_v69_0) = (dat3 (fun c b => W7 m c b) c).arrAt 7 cfg3.N := by
  unfold W8
  rw [Function.update_of_ne (StableHlo.devRef_ne_of_ne (by decide) : (Proc.devRef .tc main_v69_0 : DevRef τ sig) ≠ Proc.devRef .tc main_v69_1)]
  exact Function.update_self ..
theorem W_out3_1 (c : Dev nD) : W8 m c (Proc.devRef .tc main_v69_1) = (dat3 (fun c b => W7 m c b) c).arrAt 8 cfg3.N := by
  unfold W8; exact Function.update_self ..
theorem W_out4_0 (c : Dev nD) : W10 m c (Proc.devRef .tc main_v90_0) = (dat4 (fun c b => W9 m c b) c).arrAt 7 cfg4.N := by
  unfold W10
  rw [Function.update_of_ne (StableHlo.devRef_ne_of_ne (by decide) : (Proc.devRef .tc main_v90_0 : DevRef τ sig) ≠ Proc.devRef .tc main_v90_1)]
  exact Function.update_self ..
theorem W_out4_1 (c : Dev nD) : W10 m c (Proc.devRef .tc main_v90_1) = (dat4 (fun c b => W9 m c b) c).arrAt 8 cfg4.N := by
  unfold W10; exact Function.update_self ..
theorem W_out5_0 (c : Dev nD) : W12 m c (Proc.devRef .tc main_v111_0) = (dat5 (fun c b => W11 m c b) c).arrAt 7 cfg5.N := by
  unfold W12
  rw [Function.update_of_ne (StableHlo.devRef_ne_of_ne (by decide) : (Proc.devRef .tc main_v111_0 : DevRef τ sig) ≠ Proc.devRef .tc main_v111_1)]
  exact Function.update_self ..
theorem W_out5_1 (c : Dev nD) : W12 m c (Proc.devRef .tc main_v111_1) = (dat5 (fun c b => W11 m c b) c).arrAt 8 cfg5.N := by
  unfold W12; exact Function.update_self ..
theorem W_out6_0 (c : Dev nD) : W14 m c (Proc.devRef .tc main_v132_0) = (dat6 (fun c b => W13 m c b) c).arrAt 7 cfg6.N := by
  unfold W14
  rw [Function.update_of_ne (StableHlo.devRef_ne_of_ne (by decide) : (Proc.devRef .tc main_v132_0 : DevRef τ sig) ≠ Proc.devRef .tc main_v132_1)]
  exact Function.update_self ..
theorem W_out6_1 (c : Dev nD) : W14 m c (Proc.devRef .tc main_v132_1) = (dat6 (fun c b => W13 m c b) c).arrAt 8 cfg6.N := by
  unfold W14; exact Function.update_self ..
theorem W_out7 (c : Dev nD) : W16 m c (Proc.devRef .tc main_v135) = (dat7 (fun c b => W15 m c b) c).arrAt 12 cfg7.N := by
  unfold W16; exact Function.update_self ..

theorem V0_eq (c : Dev nD) : Gen.V0 m c = W0 m c := rfl
theorem V1_eq (c : Dev nD) : Gen.V1 m c = W1 m c := by
  show StableHlo.after hostOps0 (Gen.V0 m c) = _
  rw [V0_eq]; rfl
theorem V2_eq (c : Dev nD) : Gen.V2 m (outsH m) c = W2 m c := by
  have h : outsH m 2 main_v6 c = _ := W_out0 m c
  show Function.update (Gen.V1 m c) main_v6 (outsH m 2 main_v6 c) = _
  rw [h, V1_eq]; rfl
theorem V3_eq (c : Dev nD) : Gen.V3 m (outsH m) c = W3 m c := by
  show StableHlo.after hostOps1 (Gen.V2 m (outsH m) c) = _
  rw [V2_eq]; rfl
theorem V4_eq (c : Dev nD) : Gen.V4 m (outsH m) c = W4 m c := by
  have h0 : outsH m 4 main_v27_0 c = _ := W_out1_0 m c
  have h1 : outsH m 4 main_v27_1 c = _ := W_out1_1 m c
  show Function.update (Function.update (Gen.V3 m (outsH m) c) main_v27_0 (outsH m 4 main_v27_0 c)) main_v27_1 (outsH m 4 main_v27_1 c) = _
  rw [h0, h1, V3_eq]; rfl
theorem V5_eq (c : Dev nD) : Gen.V5 m (outsH m) c = W5 m c := by
  show StableHlo.after hostOps2 (Gen.V4 m (outsH m) c) = _
  rw [V4_eq]; rfl
theorem V6_eq (c : Dev nD) : Gen.V6 m (outsH m) c = W6 m c := by
  have h0 : outsH m 6 main_v48_0 c = _ := W_out2_0 m c
  have h1 : outsH m 6 main_v48_1 c = _ := W_out2_1 m c
  show Function.update (Function.update (Gen.V5 m (outsH m) c) main_v48_0 (outsH m 6 main_v48_0 c)) main_v48_1 (outsH m 6 main_v48_1 c) = _
  rw [h0, h1, V5_eq]; rfl
theorem V7_eq (c : Dev nD) : Gen.V7 m (outsH m) c = W7 m c := by
  show StableHlo.after hostOps3 (Gen.V6 m (outsH m) c) = _
  rw [V6_eq]; rfl
theorem V8_eq (c : Dev nD) : Gen.V8 m (outsH m) c = W8 m c := by
  have h0 : outsH m 8 main_v69_0 c = _ := W_out3_0 m c
  have h1 : outsH m 8 main_v69_1 c = _ := W_out3_1 m c
  show Function.update (Function.update (Gen.V7 m (outsH m) c) main_v69_0 (outsH m 8 main_v69_0 c)) main_v69_1 (outsH m 8 main_v69_1 c) = _
  rw [h0, h1, V7_eq]; rfl
theorem V9_eq (c : Dev nD) : Gen.V9 m (outsH m) c = W9 m c := by
  show StableHlo.after hostOps4 (Gen.V8 m (outsH m) c) = _
  rw [V8_eq]; rfl
theorem V10_eq (c : Dev nD) : Gen.V10 m (outsH m) c = W10 m c := by
  have h0 : outsH m 10 main_v90_0 c = _ := W_out4_0 m c
  have h1 : outsH m 10 main_v90_1 c = _ := W_out4_1 m c
  show Function.update (Function.update (Gen.V9 m (outsH m) c) main_v90_0 (outsH m 10 main_v90_0 c)) main_v90_1 (outsH m 10 main_v90_1 c) = _
  rw [h0, h1, V9_eq]; rfl
theorem V11_eq (c : Dev nD) : Gen.V11 m (outsH m) c = W11 m c := by
  show StableHlo.after hostOps5 (Gen.V10 m (outsH m) c) = _
  rw [V10_eq]; rfl
theorem V12_eq (c : Dev nD) : Gen.V12 m (outsH m) c = W12 m c := by
  have h0 : outsH m 12 main_v111_0 c = _ := W_out5_0 m c
  have h1 : outsH m 12 main_v111_1 c = _ := W_out5_1 m c
  show Function.update (Function.update (Gen.V11 m (outsH m) c) main_v111_0 (outsH m 12 main_v111_0 c)) main_v111_1 (outsH m 12 main_v111_1 c) = _
  rw [h0, h1, V11_eq]; rfl
theorem V13_eq (c : Dev nD) : Gen.V13 m (outsH m) c = W13 m c := by
  show StableHlo.after hostOps6 (Gen.V12 m (outsH m) c) = _
  rw [V12_eq]; rfl
theorem V14_eq (c : Dev nD) : Gen.V14 m (outsH m) c = W14 m c := by
  have h0 : outsH m 14 main_v132_0 c = _ := W_out6_0 m c
  have h1 : outsH m 14 main_v132_1 c = _ := W_out6_1 m c
  show Function.update (Function.update (Gen.V13 m (outsH m) c) main_v132_0 (outsH m 14 main_v132_0 c)) main_v132_1 (outsH m 14 main_v132_1 c) = _
  rw [h0, h1, V13_eq]; rfl
theorem V15_eq (c : Dev nD) : Gen.V15 m (outsH m) c = W15 m c := by
  show StableHlo.after hostOps7 (Gen.V14 m (outsH m) c) = _
  rw [V14_eq]; rfl
theorem V16_eq (c : Dev nD) : Gen.V16 m (outsH m) c = W16 m c := by
  have h : outsH m 16 main_v135 c = _ := W_out7 m c
  show Function.update (Gen.V15 m (outsH m) c) main_v135 (outsH m 16 main_v135 c) = _
  rw [h, V15_eq]; rfl

theorem W1_of (c : Dev nD) (r : Ref sig .tc) (h : r ∉ Gen.hostOps0_W) : W1 m c (Proc.devRef .tc r) = W0 m c (Proc.devRef .tc r) := by
  rw [← V1_eq, ← V0_eq]; exact Gen.V1_of m c r h
theorem W2_of (c : Dev nD) (r : Ref sig .tc) (h : r ∉ ([main_v6] : List (Ref sig .tc))) : W2 m c (Proc.devRef .tc r) = W1 m c (Proc.devRef .tc r) := by
  rw [← V2_eq, ← V1_eq]; exact Gen.V2_of m (outsH m) c r h
theorem W3_of (c : Dev nD) (r : Ref sig .tc) (h : r ∉ Gen.hostOps1_W) : W3 m c (Proc.devRef .tc r) = W2 m c (Proc.devRef .tc r) := by
  rw [← V3_eq, ← V2_eq]; exact Gen.V3_of m (outsH m) c r h
theorem W4_of (c : Dev nD) (r : Ref sig .tc) (h : r ∉ ([main_v27_0, main_v27_1] : List (Ref sig .tc))) : W4 m c (Proc.devRef .tc r) = W3 m c (Proc.devRef .tc r) := by
  rw [← V4_eq, ← V3_eq]; exact Gen.V4_of m (outsH m) c r h
theorem W5_of (c : Dev nD) (r : Ref sig .tc) (h : r ∉ Gen.hostOps2_W) : W5 m c (Proc.devRef .tc r) = W4 m c (Proc.devRef .tc r) := by
  rw [← V5_eq, ← V4_eq]; exact Gen.V5_of m (outsH m) c r h
theorem W6_of (c : Dev nD) (r : Ref sig .tc) (h : r ∉ ([main_v48_0, main_v48_1] : List (Ref sig .tc))) : W6 m c (Proc.devRef .tc r) = W5 m c (Proc.devRef .tc r) := by
  rw [← V6_eq, ← V5_eq]; exact Gen.V6_of m (outsH m) c r h
theorem W7_of (c : Dev nD) (r : Ref sig .tc) (h : r ∉ Gen.hostOps3_W) : W7 m c (Proc.devRef .tc r) = W6 m c (Proc.devRef .tc r) := by
  rw [← V7_eq, ← V6_eq]; exact Gen.V7_of m (outsH m) c r h
theorem W8_of (c : Dev nD) (r : Ref sig .tc) (h : r ∉ ([main_v69_0, main_v69_1] : List (Ref sig .tc))) : W8 m c (Proc.devRef .tc r) = W7 m c (Proc.devRef .tc r) := by
  rw [← V8_eq, ← V7_eq]; exact Gen.V8_of m (outsH m) c r h
theorem W9_of (c : Dev nD) (r : Ref sig .tc) (h : r ∉ Gen.hostOps4_W) : W9 m c (Proc.devRef .tc r) = W8 m c (Proc.devRef .tc r) := by
  rw [← V9_eq, ← V8_eq]; exact Gen.V9_of m (outsH m) c r h
theorem W10_of (c : Dev nD) (r : Ref sig .tc) (h : r ∉ ([main_v90_0, main_v90_1] : List (Ref sig .tc))) : W10 m c (Proc.devRef .tc r) = W9 m c (Proc.devRef .tc r) := by
  rw [← V10_eq, ← V9_eq]; exact Gen.V10_of m (outsH m) c r h
theorem W11_of (c : Dev nD) (r : Ref sig .tc) (h : r ∉ Gen.hostOps5_W) : W11 m c (Proc.devRef .tc r) = W10 m c (Proc.devRef .tc r) := by
  rw [← V11_eq, ← V10_eq]; exact Gen.V11_of m (outsH m) c r h
theorem W12_of (c : Dev nD) (r : Ref sig .tc) (h : r ∉ ([main_v111_0, main_v111_1] : List (Ref sig .tc))) : W12 m c (Proc.devRef .tc r) = W11 m c (Proc.devRef .tc r) := by
  rw [← V12_eq, ← V11_eq]; exact Gen.V12_of m (outsH m) c r h
theorem W13_of (c : Dev nD) (r : Ref sig .tc) (h : r ∉ Gen.hostOps6_W) : W13 m c (Proc.devRef .tc r) = W12 m c (Proc.devRef .tc r) := by
  rw [← V13_eq, ← V12_eq]; exact Gen.V13_of m (outsH m) c r h
theorem W14_of (c : Dev nD) (r : Ref sig .tc) (h : r ∉ ([main_v132_0, main_v132_1] : List (Ref sig .tc))) : W14 m c (Proc.devRef .tc r) = W13 m c (Proc.devRef .tc r) := by
  rw [← V14_eq, ← V13_eq]; exact Gen.V14_of m (outsH m) c r h
theorem W15_of (c : Dev nD) (r : Ref sig .tc) (h : r ∉ Gen.hostOps7_W) : W15 m c (Proc.devRef .tc r) = W14 m c (Proc.devRef .tc r) := by
  rw [← V15_eq, ← V14_eq]; exact Gen.V15_of m (outsH m) c r h
theorem W16_of (c : Dev nD) (r : Ref sig .tc) (h : r ∉ ([main_v135] : List (Ref sig .tc))) : W16 m c (Proc.devRef .tc r) = W15 m c (Proc.devRef .tc r) := by
  rw [← V16_eq, ← V15_eq]; exact Gen.V16_of m (outsH m) c r h

/-- A buffer that is no window's array is not among the output arrays, all of which are. -/
theorem not_mem_of_not_arr {gr W : Nat} (spec : Fin W → Pipeline.WinSpec sig gr) {b : Ref sig .tc}
    (hb : b ∉ Finset.univ.image (Pipeline.arrRef spec)) (l : List (Ref sig .tc)) (hl : ∀ r ∈ l, ∃ w, Pipeline.arrRef spec w = r) : b ∉ l :=
  fun h => let ⟨w, e⟩ := hl b h; hb (Finset.mem_image.mpr ⟨w, Finset.mem_univ _, e⟩)

/-- At a region's exit each window's array is what the contents after the region hold there: an input's array is
    unchanged and not overwritten, an output's array is the overwritten entry. -/
theorem hF0 (c : Dev nD) (w : Fin 4) : (dat0 (fun c b => W1 m c b) c).arrAt w cfg0.N = W2 m c (Proc.devRef .tc (Pipeline.arrRef spec0 w)) := by
  fin_cases w
  iterate 3 exact ((dat0 _ c).arrAt_in _ (by rfl) _).trans ((A_eq0 _ c _).trans (W2_of m c _ (by decide)).symm)
  exact (W_out0 m c).symm
theorem hrest0 (c : Dev nD) : ∀ b, b ∉ Finset.univ.image (Pipeline.arrRef spec0) → W2 m c (Proc.devRef .tc b) = W1 m c (Proc.devRef .tc b) :=
  fun b hb => W2_of m c b (not_mem_of_not_arr spec0 hb _ (List.forall_mem_singleton.2 ⟨3, rfl⟩))
theorem hF1 (c : Dev nD) (w : Fin 9) : (dat1 (fun c b => W3 m c b) c).arrAt w cfg1.N = W4 m c (Proc.devRef .tc (Pipeline.arrRef spec1 w)) := by
  fin_cases w
  iterate 7 exact ((dat1 _ c).arrAt_in _ (by rfl) _).trans ((A_eq1 _ c _).trans (W4_of m c _ (by decide)).symm)
  exacts [(W_out1_0 m c).symm, (W_out1_1 m c).symm]
theorem hrest1 (c : Dev nD) : ∀ b, b ∉ Finset.univ.image (Pipeline.arrRef spec1) → W4 m c (Proc.devRef .tc b) = W3 m c (Proc.devRef .tc b) :=
  fun b hb => W4_of m c b (not_mem_of_not_arr spec1 hb _ (List.forall_mem_cons.2 ⟨⟨7, rfl⟩, List.forall_mem_singleton.2 ⟨8, rfl⟩⟩))
theorem hF2 (c : Dev nD) (w : Fin 9) : (dat2 (fun c b => W5 m c b) c).arrAt w cfg2.N = W6 m c (Proc.devRef .tc (Pipeline.arrRef spec2 w)) := by
  fin_cases w
  iterate 7 exact ((dat2 _ c).arrAt_in _ (by rfl) _).trans ((A_eq2 _ c _).trans (W6_of m c _ (by decide)).symm)
  exacts [(W_out2_0 m c).symm, (W_out2_1 m c).symm]
theorem hrest2 (c : Dev nD) : ∀ b, b ∉ Finset.univ.image (Pipeline.arrRef spec2) → W6 m c (Proc.devRef .tc b) = W5 m c (Proc.devRef .tc b) :=
  fun b hb => W6_of m c b (not_mem_of_not_arr spec2 hb _ (List.forall_mem_cons.2 ⟨⟨7, rfl⟩, List.forall_mem_singleton.2 ⟨8, rfl⟩⟩))
theorem hF3 (c : Dev nD) (w : Fin 9) : (dat3 (fun c b => W7 m c b) c).arrAt w cfg3.N = W8 m c (Proc.devRef .tc (Pipeline.arrRef spec3 w)) := by
  fin_cases w
  iterate 7 exact ((dat3 _ c).arrAt_in _ (by rfl) _).trans ((A_eq3 _ c _).trans (W8_of m c _ (by decide)).symm)
  exacts [(W_out3_0 m c).symm, (W_out3_1 m c).symm]
theorem hrest3 (c : Dev nD) : ∀ b, b ∉ Finset.univ.image (Pipeline.arrRef spec3) → W8 m c (Proc.devRef .tc b) = W7 m c (Proc.devRef .tc b) :=
  fun b hb => W8_of m c b (not_mem_of_not_arr spec3 hb _ (List.forall_mem_cons.2 ⟨⟨7, rfl⟩, List.forall_mem_singleton.2 ⟨8, rfl⟩⟩))
theorem hF4 (c : Dev nD) (w : Fin 9) : (dat4 (fun c b => W9 m c b) c).arrAt w cfg4.N = W10 m c (Proc.devRef .tc (Pipeline.arrRef spec4 w)) := by
  fin_cases w
  iterate 7 exact ((dat4 _ c).arrAt_in _ (by rfl) _).trans ((A_eq4 _ c _).trans (W10_of m c _ (by decide)).symm)
  exacts [(W_out4_0 m c).symm, (W_out4_1 m c).symm]
theorem hrest4 (c : Dev nD) : ∀ b, b ∉ Finset.univ.image (Pipeline.arrRef spec4) → W10 m c (Proc.devRef .tc b) = W9 m c (Proc.devRef .tc b) :=
  fun b hb => W10_of m c b (not_mem_of_not_arr spec4 hb _ (List.forall_mem_cons.2 ⟨⟨7, rfl⟩, List.forall_mem_singleton.2 ⟨8, rfl⟩⟩))
theorem hF5 (c : Dev nD) (w : Fin 9) : (dat5 (fun c b => W11 m c b) c).arrAt w cfg5.N = W12 m c (Proc.devRef .tc (Pipeline.arrRef spec5 w)) := by
  fin_cases w
  iterate 7 exact ((dat5 _ c).arrAt_in _ (by rfl) _).trans ((A_eq5 _ c _).trans (W12_of m c _ (by decide)).symm)
  exacts [(W_out5_0 m c).symm, (W_out5_1 m c).symm]
theorem hrest5 (c : Dev nD) : ∀ b, b ∉ Finset.univ.image (Pipeline.arrRef spec5) → W12 m c (Proc.devRef .tc b) = W11 m c (Proc.devRef .tc b) :=
  fun b hb => W12_of m c b (not_mem_of_not_arr spec5 hb _ (List.forall_mem_cons.2 ⟨⟨7, rfl⟩, List.forall_mem_singleton.2 ⟨8, rfl⟩⟩))
theorem hF6 (c : Dev nD) (w : Fin 9) : (dat6 (fun c b => W13 m c b) c).arrAt w cfg6.N = W14 m c (Proc.devRef .tc (Pipeline.arrRef spec6 w)) := by
  fin_cases w
  iterate 7 exact ((dat6 _ c).arrAt_in _ (by rfl) _).trans ((A_eq6 _ c _).trans (W14_of m c _ (by decide)).symm)
  exacts [(W_out6_0 m c).symm, (W_out6_1 m c).symm]
theorem hrest6 (c : Dev nD) : ∀ b, b ∉ Finset.univ.image (Pipeline.arrRef spec6) → W14 m c (Proc.devRef .tc b) = W13 m c (Proc.devRef .tc b) :=
  fun b hb => W14_of m c b (not_mem_of_not_arr spec6 hb _ (List.forall_mem_cons.2 ⟨⟨7, rfl⟩, List.forall_mem_singleton.2 ⟨8, rfl⟩⟩))
theorem hF7 (c : Dev nD) (w : Fin 13) : (dat7 (fun c b => W15 m c b) c).arrAt w cfg7.N = W16 m c (Proc.devRef .tc (Pipeline.arrRef spec7 w)) := by
  fin_cases w
  iterate 12 exact ((dat7 _ c).arrAt_in _ (by rfl) _).trans ((A_eq7 _ c _).trans (W16_of m c _ (by decide)).symm)
  exact (W_out7 m c).symm
theorem hrest7 (c : Dev nD) : ∀ b, b ∉ Finset.univ.image (Pipeline.arrRef spec7) → W16 m c (Proc.devRef .tc b) = W15 m c (Proc.devRef .tc b) :=
  fun b hb => W16_of m c b (not_mem_of_not_arr spec7 hb _ (List.forall_mem_singleton.2 ⟨12, rfl⟩))

end Fold

end Cert.KernelIdeal.Hand

end
-- ==== Proof.KI.Run.lean ====
/-
  The run from launch to return. Each kernel region is a segment from every buffer at the contents before it to every
  buffer at the contents after it; the host stretches are the generated segments. Chained, the sixteen give
  termination with every buffer at the last stage of the fold: the arguments unchanged, the result as region 7 leaves it.
-/
import proofs.«431182_j60713657696761_1_alg».proof.Proof.Gen.KernelIdeal.Launch
import proofs.«431182_j60713657696761_1_alg».proof.Proof.Gen.KernelIdeal.Skeleton
import proofs.«431182_j60713657696761_1_alg».proof.Proof.Gen.KernelIdeal.Points
import proofs.«431182_j60713657696761_1_alg».proof.Proof.Gen.KernelIdeal.Regions
import proofs.«431182_j60713657696761_1_alg».proof.Proof.KI.Fold
import Idealize.ShloMosaic.Lib.Pipeline.FrameBody
import Idealize.ShloMosaic.Lib.Pipeline.Regions
import Idealize.ShloMosaic.Lib.Pipeline.RegionsLoop
import Idealize.ShloMosaic.Lib.Pipeline.FrameSuffix
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ)

abbrev noPairs : GSem nD τ sig → Finset Unit := fun _ => ∅
abbrev noLevel : GSem nD τ sig → Unit → ℕ := fun _ _ => 0

abbrev rest (c : Dev nD) : sProp 𝕄 :=
  iprop((∃ r, prngReg c r) ∗ ∃ W, owes (c : Thread nD τ) (0 : CellTallies nD τ sig Unit) W)

abbrev tstate (W : Valuation τ sig (Elt F)) (c : Dev nD) : sProp 𝕄 :=
  iprop(StableHlo.held (c : Thread nD τ) (Pipeline.ucRefs τ sig) W ∗ rest c)

theorem owes_in {cfg : Cfg sig Λ₀} {c : Dev nD} (dat : Dat τ (Elt F) Unit ℕ (UR sig nD τ) ℕ cfg c) (t : Fin (cfg.N + 1))
    (h0 : dat.owed t = 0) (hr : dat.recorded t = Set.univ) :
    iprop(∃ W, owes (c : Thread nD τ) (0 : CellTallies nD τ sig Unit) W) ⊢ (dat.owesAt () t : sProp 𝕄) := by
  show _ ⊢ Pipeline.owesWithin c (dat.owed t) (dat.bound () t)
  rw [h0]
  iintro ⟨%W, HO⟩
  iexists W
  isplitr
  · ipureintro
    intro x _
    exact Or.inl (hr ▸ Set.mem_univ x)
  iexact HO

theorem owes_out {cfg : Cfg sig Λ₀} {c : Dev nD} (dat : Dat τ (Elt F) Unit ℕ (UR sig nD τ) ℕ cfg c) (t : Fin (cfg.N + 1))
    (h0 : dat.owed t = 0) :
    (dat.owesAt () t : sProp 𝕄) ⊢ iprop(∃ W, owes (c : Thread nD τ) (0 : CellTallies nD τ sig Unit) W) := by
  show Pipeline.owesWithin c (dat.owed t) (dat.bound () t) ⊢ _
  rw [h0]
  iintro ⟨%W, -, HO⟩
  iexists W
  iexact HO

theorem no_tables (p : Fin 8) (c : Dev nD) (q) (v) :
    (Pipeline.prefHeld (Ix := Unit) (Name := ℕ) (U := UR sig nD τ) (Lvl := ℕ) (pcfgs (F := F) p).pre c q v : sProp 𝕄) = BI.emp := by
  unfold Pipeline.prefHeld
  exact BI.bigSep_empty

set_option backward.isDefEq.respectTransparency.types false in
/-- Entry of a region that holds every array whole: the buffers split into its arrays and the rest. -/
theorem entry_full (p : Fin 8) (hw : Pipeline.WinFacts (cfgs p).spec) (harr : ∀ w, ((cfgs p).spec w).arr.IsWhole)
    (c : Dev nD) (W : Valuation τ sig (Elt F))
    (hq : ∀ w, (pdats m p c).q w = fullShare)
    (hA : ∀ w, (pdats m p c).A w = W (Proc.devRef .tc (Pipeline.arrRef (cfgs p).spec w)))
    (h0 : (pdats m p c).owed 0 = 0) (hr : (pdats m p c).recorded 0 = Set.univ) :
    iprop(tstate W c ∗ Pipeline.ownSems0 (fun k : PEmpty => k.elim) c ∗ levAts noPairs noLevel)
      ⊢ |={Set.univ}=> iprop((pdats m p c).arrays ((pdats m p c).arrAt · 0)
          ∗ Pipeline.prefHeld (pcfgs (F := F) p).pre c (fun _ => fullShare) (Gen.adm (F := F) p).1
          ∗ (pdats m p c).owesAt () 0 ∗ (∃ r, prngReg c r)
          ∗ Pipeline.unscopedRest (Ix := Unit) (Name := ℕ) (U := UR sig nD τ) (Lvl := ℕ) (cfgs p).spec c (fun b => W b)) := by
  have hsplit := Pipeline.arrays_of_unscopedBufs (p := p) (pcfgs (F := F)) Gen.adm (pdats m) hw harr c
    ((pdats m p c).share_full hq) (fun b => W b) hA
  rw [Pipeline.unscopedBufs_held] at hsplit
  rw [no_tables]
  iintro ⟨⟨Hbufs, Hprng, Howes⟩, -, -⟩
  ihave Hs := hsplit $$ Hbufs
  icases Hs with ⟨Harr, Hby⟩
  imodintro
  isplitl [Harr]; · iexact Harr
  isplitr; · iempintro
  isplitl [Howes]; · iapply (owes_in (pdats m p c) 0 h0 hr); iexact Howes
  isplitl [Hprng]; · iexact Hprng
  iexact Hby

set_option backward.isDefEq.respectTransparency.types false in
/-- Exit: the arrays at their final contents and the untouched rest are every buffer at the contents after. -/
theorem exit_full (p : Fin 8) (hw : Pipeline.WinFacts (cfgs p).spec) (harr : ∀ w, ((cfgs p).spec w).arr.IsWhole)
    (c : Dev nD) (W W' : Valuation τ sig (Elt F))
    (hq : ∀ w, (pdats m p c).q w = fullShare)
    (hF : ∀ w, (pdats m p c).arrAt w (cfgs p).N = W' (Proc.devRef .tc (Pipeline.arrRef (cfgs p).spec w)))
    (hby : ∀ b, b ∉ Finset.univ.image (Pipeline.arrRef (cfgs p).spec) → W' (Proc.devRef .tc b) = W (Proc.devRef .tc b))
    (h0 : (pdats m p c).owed (Fin.last (cfgs p).N) = 0) :
    iprop((pdats m p c).arrays ((pdats m p c).arrAt · (cfgs p).N) ∗ (pdats m p c).owesAt () (Fin.last (cfgs p).N) ∗ (∃ r, prngReg c r)
        ∗ Pipeline.unscopedRest (Ix := Unit) (Name := ℕ) (U := UR sig nD τ) (Lvl := ℕ) (cfgs p).spec c (fun b => W b))
      ⊢ |={Set.univ}=> tstate W' c := by
  have hjoin := Pipeline.unscopedBufs_of_arrays (p := p) (pcfgs (F := F)) Gen.adm (Ix := Unit) (Name := ℕ) (U := UR sig nD τ) (Lvl := ℕ)
    hw harr c (pdats m) ((pdats m p c).share_full hq) (fun b => W b) (fun b => W' b) ((pdats m p c).arrAt · (cfgs p).N) hF hby
  rw [Pipeline.unscopedBufs_held] at hjoin
  iintro ⟨Harr, Howes, Hprng, Hby⟩
  imodintro
  isplitl [Harr Hby]
  · iapply hjoin; isplitl [Harr] <;> iassumption
  isplitl [Hprng]; · iexact Hprng
  iapply (owes_out (pdats m p c) _ h0); iexact Howes

set_option backward.isDefEq.respectTransparency.types false in
theorem inv_in (p : Fin 8) (c : Dev nD) (hΦ : (pdats m p c).Φ 0 = Pipeline.ΦA (cfgs p).spec c) :
    iprop((∃ r, prngReg c r) ∗ Pipeline.prefHeld (pcfgs (F := F) p).pre c (fun _ => fullShare) (Gen.adm (F := F) p).1
        ∗ Pipeline.scopedRest (cfgs p).spec c) ⊢ ((pdats m p c).Φ 0 : sProp 𝕄) := by
  rw [hΦ]; unfold Pipeline.ΦA
  iintro ⟨Hprng, -, Hsc⟩
  isplitl [Hsc]; · iexact Hsc
  iexact Hprng

set_option backward.isDefEq.respectTransparency.types false in
theorem inv_out (p : Fin 8) (c : Dev nD) (hΦ : (pdats m p c).Φ (Fin.last (cfgs p).N) = Pipeline.ΦA (cfgs p).spec c) :
    ((pdats m p c).Φ (Fin.last (cfgs p).N) : sProp 𝕄)
      ⊢ iprop((∃ r, prngReg c r) ∗ Pipeline.ownSems0 (fun k : PEmpty => k.elim) c ∗ Pipeline.scopedRest (cfgs p).spec c) := by
  rw [hΦ, Pipeline.ownSems0_none]; unfold Pipeline.ΦA
  iintro ⟨Hsc, Hprng⟩
  isplitl [Hprng]; · iexact Hprng
  isplitr; · iempintro
  iexact Hsc

set_option backward.isDefEq.respectTransparency.types false in
/-- A region whose data hold every array whole and owe nothing, as a segment from the contents `Wi` to `Wo`. -/
def regFull (p : Fin 8) (L : Pipeline.LaunchFacts (nD := nD) (τ := τ) cfgs p) (Wi Wo : Dev nD → Valuation τ sig (Elt F))
    (hbody : ∀ c, Pipeline.BodyObligationLoose (pdats m p c) defs₀ Variants.none () Set.univ)
    (h : ∀ c, (∀ t, (pdats m p c).owed t = 0) ∧ (∀ w, (pdats m p c).q w = fullShare)
      ∧ (∀ w, (pdats m p c).A w = Wi c (Proc.devRef .tc (Pipeline.arrRef (cfgs p).spec w))) ∧ (pdats m p c).recorded 0 = Set.univ
      ∧ (pdats m p c).Φ 0 = Pipeline.ΦA (cfgs p).spec c ∧ (pdats m p c).Φ (Fin.last (cfgs p).N) = Pipeline.ΦA (cfgs p).spec c)
    (hF : ∀ c w, (pdats m p c).arrAt w (cfgs p).N = Wo c (Proc.devRef .tc (Pipeline.arrRef (cfgs p).spec w)))
    (hby : ∀ c b, b ∉ Finset.univ.image (Pipeline.arrRef (cfgs p).spec) → Wo c (Proc.devRef .tc b) = Wi c (Proc.devRef .tc b)) :
    Pipeline.RegionSeg (pcfgs (F := F)) Gen.adm (pdats m) () defs₀ Variants.none noPairs noLevel p where
  win := L.win.to₀
  block_pos := L.block_pos
  stage_whole := L.stage_whole
  K := PEmpty
  osem k := k.elim
  ho := Pipeline.OwnSemFacts.none _
  hbody := hbody
  hwaits := Pipeline.hwaits_of_owed_zero _ _ _ _ noPairs noLevel p fun c => (h c).1
  pre c := tstate (Wi c) c
  post c := tstate (Wo c) c
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := entry_full m p L.win L.arr_whole c (Wi c) (h c).2.1 (h c).2.2.1 ((h c).1 0) (h c).2.2.2.1
  hin c := inv_in m p c (h c).2.2.2.2.1
  hout c := inv_out m p c (h c).2.2.2.2.2
  hexit c := exit_full m p L.win L.arr_whole c (Wi c) (Wo c) (h c).2.1 (hF c) (hby c) ((h c).1 _)

def reg0 : Pipeline.RegionSeg (pcfgs (F := F)) Gen.adm (pdats m) () defs₀ Variants.none noPairs noLevel 0 :=
  regFull m 0 launch0 (W1 m) (W2 m) (fun c => (body_obligation0 (fun c b => W1 m c b) c).loose)
    (fun _ => ⟨fun _ => rfl, fun _ => rfl, fun _ => rfl, rfl, rfl, rfl⟩) (hF0 m) (hrest0 m)

/-! Region 1 reads `main_v6` through two windows, each holding half of it. -/
section Region1

variable (A : (c : Dev nD) → (b : Ref sig .tc) → Buf (Elt F) ((c : Thread nD τ).loc b))

abbrev arrs1 : List (Ref sig .tc) := [main_v6, main_v16, main_v18, main_v25, main_v22, main_v26, main_v27_0, main_v27_1]
theorem arrs1_img : Finset.univ.image (Pipeline.arrRef spec1) = (arrs1).toFinset := by decide
theorem arrs1_nodup : arrs1.Nodup := by decide

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v6) ↦{fullShare} V main_v6) ∗ (((c : Thread nD τ).loc main_v16) ↦{fullShare} V main_v16)
          ∗ (((c : Thread nD τ).loc main_v18) ↦{fullShare} V main_v18) ∗ (((c : Thread nD τ).loc main_v25) ↦{fullShare} V main_v25)
          ∗ (((c : Thread nD τ).loc main_v22) ↦{fullShare} V main_v22) ∗ (((c : Thread nD τ).loc main_v26) ↦{fullShare} V main_v26)
          ∗ (((c : Thread nD τ).loc main_v27_0) ↦{fullShare} V main_v27_0) ∗ (((c : Thread nD τ).loc main_v27_1) ↦{fullShare} V main_v27_1)) := by
  unfold Pipeline.arrBufs
  exact bigSep_eq_bigSepL_of_eq arrs1 arrs1_img arrs1_nodup _

theorem arrays1_eq (c : Dev nD) (Fa : (w : Fin cfg1.W) → Buf (Elt F) ((cfg1.win w).arr.view.loc (c : Thread nD τ))) :
    ((dat1 A c).arrays Fa : sProp 𝕄)
      = iprop((((c : Thread nD τ).loc main_v6) ↦{fullShare.left} Fa 0) ∗ (((c : Thread nD τ).loc main_v16) ↦{fullShare} Fa 1)
          ∗ (((c : Thread nD τ).loc main_v18) ↦{fullShare} Fa 2) ∗ (((c : Thread nD τ).loc main_v25) ↦{fullShare} Fa 3)
          ∗ (((c : Thread nD τ).loc main_v22) ↦{fullShare} Fa 4) ∗ (((c : Thread nD τ).loc main_v26) ↦{fullShare} Fa 5)
          ∗ (((c : Thread nD τ).loc main_v6) ↦{fullShare.right} Fa 6) ∗ (((c : Thread nD τ).loc main_v27_0) ↦{fullShare} Fa 7)
          ∗ (((c : Thread nD τ).loc main_v27_1) ↦{fullShare} Fa 8)) := by
  have h : ((dat1 A c).arrays Fa : sProp 𝕄)
      = bigSep Finset.univ fun w : Fin 9 => (((c : Thread nD τ).loc (Pipeline.arrRef spec1 w)) ↦{(dat1 A c).share w} Fa w : sProp 𝕄) := by
    unfold Pipeline.Dat.arrays
    exact bigSep_congr fun w _ => by rw [(arr_whole1 w).set_eq_univ]
  rw [h, bigSep_W1]; rfl

theorem arrays1_of_bufs (c : Dev nD) (V : (b : Ref sig .tc) → Buf (Elt F) ((c : Thread nD τ).loc b))
    (Fa : (w : Fin cfg1.W) → Buf (Elt F) ((cfg1.win w).arr.view.loc (c : Thread nD τ)))
    (hFa : ∀ w, Fa w = V (Pipeline.arrRef spec1 w)) :
    (Pipeline.arrBufs (Ix := Unit) (Name := ℕ) (U := UR sig nD τ) (Lvl := ℕ) spec1 c V : sProp 𝕄) ⊢ (dat1 A c).arrays Fa := by
  obtain rfl : Fa = fun w => V (Pipeline.arrRef spec1 w) := funext hFa
  rw [arrBufs1_eq, arrays1_eq]
  iintro ⟨H6, H16, H18, H25, H22, H26, H270, H271⟩
  ihave Hh := (pointsTo_share (PosShare.mem_left_op_right fullShare)).1 $$ H6
  icases Hh with ⟨Hl, Hr⟩
  iframe

theorem bufs_of_arrays1 (c : Dev nD) (V : (b : Ref sig .tc) → Buf (Elt F) ((c : Thread nD τ).loc b))
    (Fa : (w : Fin cfg1.W) → Buf (Elt F) ((cfg1.win w).arr.view.loc (c : Thread nD τ)))
    (hFa : ∀ w, Fa w = V (Pipeline.arrRef spec1 w)) :
    ((dat1 A c).arrays Fa : sProp 𝕄) ⊢ Pipeline.arrBufs (Ix := Unit) (Name := ℕ) (U := UR sig nD τ) (Lvl := ℕ) spec1 c V := by
  obtain rfl : Fa = fun w => V (Pipeline.arrRef spec1 w) := funext hFa
  rw [arrBufs1_eq, arrays1_eq]
  iintro ⟨Hl, H16, H18, H25, H22, H26, Hr, H270, H271⟩
  isplitl [Hl Hr]
  · iapply (pointsTo_share (PosShare.mem_left_op_right fullShare)).2; iframe
  iframe

end Region1

theorem held_split1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held]
  exact Pipeline.unscopedBufs_split₀ cfgs 1 winFacts₀1.arr_unscoped c _

set_option backward.isDefEq.respectTransparency.types false in
theorem entry1 (c : Dev nD) :
    iprop(tstate (W3 m c) c ∗ Pipeline.ownSems0 (fun k : PEmpty => k.elim) c ∗ levAts noPairs noLevel)
      ⊢ |={Set.univ}=> iprop((pdats m 1 c).arrays ((pdats m 1 c).arrAt · 0)
          ∗ Pipeline.prefHeld (pcfgs (F := F) 1).pre c (fun _ => fullShare) (Gen.adm (F := F) 1).1
          ∗ (pdats m 1 c).owesAt () 0 ∗ (∃ r, prngReg c r)
          ∗ Pipeline.unscopedRest (Ix := Unit) (Name := ℕ) (U := UR sig nD τ) (Lvl := ℕ) spec1 c (fun b => W3 m c b)) := by
  unfold tstate
  rw [no_tables, held_split1]
  iintro ⟨⟨⟨Hbufs, Hby⟩, Hprng, Howes⟩, -, -⟩
  imodintro
  isplitl [Hbufs]
  · iapply (arrays1_of_bufs (fun c b => W3 m c b) c (fun b => W3 m c b) _ (fun _ => rfl)); iexact Hbufs
  isplitr; · iempintro
  isplitl [Howes]; · iapply (owes_in (pdats m 1 c) 0 rfl rfl); iexact Howes
  isplitl [Hprng]; · iexact Hprng
  iexact Hby

set_option backward.isDefEq.respectTransparency.types false in
theorem exit1 (c : Dev nD) :
    iprop((pdats m 1 c).arrays ((pdats m 1 c).arrAt · cfg1.N) ∗ (pdats m 1 c).owesAt () (Fin.last cfg1.N) ∗ (∃ r, prngReg c r)
        ∗ Pipeline.unscopedRest (Ix := Unit) (Name := ℕ) (U := UR sig nD τ) (Lvl := ℕ) spec1 c (fun b => W3 m c b))
      ⊢ |={Set.univ}=> tstate (W4 m c) c := by
  have hby : (Pipeline.unscopedRest (Ix := Unit) (Name := ℕ) (U := UR sig nD τ) (Lvl := ℕ) spec1 c (fun b => W4 m c b) : sProp 𝕄)
      = Pipeline.unscopedRest spec1 c (fun b => W3 m c b) := by
    unfold Pipeline.unscopedRest
    exact bigSep_congr fun b hb =>
      congrArg (fun f => (((c : Thread nD τ).loc b) ↦{fullShare} f : sProp 𝕄)) (hrest1 m c b (Finset.mem_sdiff.mp hb).2)
  unfold tstate
  rw [held_split1, hby]
  iintro ⟨Harr, Howes, Hprng, Hby⟩
  imodintro
  isplitl [Harr Hby]
  · isplitl [Harr]
    · iapply (bufs_of_arrays1 (fun c b => W3 m c b) c (fun b => W4 m c b) _ (hF1 m c)); iexact Harr
    iexact Hby
  isplitl [Hprng]; · iexact Hprng
  iapply (owes_out (pdats m 1 c) _ rfl); iexact Howes

set_option backward.isDefEq.respectTransparency.types false in
def reg1 : Pipeline.RegionSeg (pcfgs (F := F)) Gen.adm (pdats m) () defs₀ Variants.none noPairs noLevel 1 where
  win := winFacts₀1
  block_pos := block_pos1
  stage_whole := stage_whole1
  K := PEmpty
  osem k := k.elim
  ho := Pipeline.OwnSemFacts.none _
  hbody c := (body_obligation1 (fun c b => W3 m c b) c).loose
  hwaits := Pipeline.hwaits_of_owed_zero _ _ _ _ noPairs noLevel 1 fun _ _ => rfl
  pre c := tstate (W3 m c) c
  post c := tstate (W4 m c) c
  X c := iprop(∃ r, prngReg c r)
  Y c := iprop(∃ r, prngReg c r)
  Z c := Pipeline.unscopedRest (Ix := Unit) (Name := ℕ) (U := UR sig nD τ) (Lvl := ℕ) spec1 c (fun b => W3 m c b)
  hentry c := entry1 m c
  hin c := inv_in m 1 c rfl
  hout c := inv_out m 1 c rfl
  hexit c := exit1 m c

def reg2 : Pipeline.RegionSeg (pcfgs (F := F)) Gen.adm (pdats m) () defs₀ Variants.none noPairs noLevel 2 :=
  regFull m 2 launch2 (W5 m) (W6 m) (fun c => (body_obligation2 (fun c b => W5 m c b) c).loose)
    (fun _ => ⟨fun _ => rfl, fun _ => rfl, fun _ => rfl, rfl, rfl, rfl⟩) (hF2 m) (hrest2 m)

def reg3 : Pipeline.RegionSeg (pcfgs (F := F)) Gen.adm (pdats m) () defs₀ Variants.none noPairs noLevel 3 :=
  regFull m 3 launch3 (W7 m) (W8 m) (fun c => (body_obligation3 (fun c b => W7 m c b) c).loose)
    (fun _ => ⟨fun _ => rfl, fun _ => rfl, fun _ => rfl, rfl, rfl, rfl⟩) (hF3 m) (hrest3 m)

def reg4 : Pipeline.RegionSeg (pcfgs (F := F)) Gen.adm (pdats m) () defs₀ Variants.none noPairs noLevel 4 :=
  regFull m 4 launch4 (W9 m) (W10 m) (fun c => (body_obligation4 (fun c b => W9 m c b) c).loose)
    (fun _ => ⟨fun _ => rfl, fun _ => rfl, fun _ => rfl, rfl, rfl, rfl⟩) (hF4 m) (hrest4 m)

def reg5 : Pipeline.RegionSeg (pcfgs (F := F)) Gen.adm (pdats m) () defs₀ Variants.none noPairs noLevel 5 :=
  regFull m 5 launch5 (W11 m) (W12 m) (fun c => (body_obligation5 (fun c b => W11 m c b) c).loose)
    (fun _ => ⟨fun _ => rfl, fun _ => rfl, fun _ => rfl, rfl, rfl, rfl⟩) (hF5 m) (hrest5 m)

def reg6 : Pipeline.RegionSeg (pcfgs (F := F)) Gen.adm (pdats m) () defs₀ Variants.none noPairs noLevel 6 :=
  regFull m 6 launch6 (W13 m) (W14 m) (fun c => (body_obligation6 (fun c b => W13 m c b) c).loose)
    (fun _ => ⟨fun _ => rfl, fun _ => rfl, fun _ => rfl, rfl, rfl, rfl⟩) (hF6 m) (hrest6 m)

set_option backward.isDefEq.respectTransparency.types false in
def reg7 : Pipeline.RegionSeg (pcfgs (F := F)) Gen.adm (pdats m) () defs₀ Variants.none noPairs noLevel 7 where
  win := launch7.win.to₀
  block_pos := launch7.block_pos
  stage_whole := launch7.stage_whole
  K := PEmpty
  osem k := k.elim
  ho := Pipeline.OwnSemFacts.none _
  hbody c := (body_obligation7 (fun c b => W15 m c b) c).loose
  hwaits := Pipeline.hwaits_of_owed_zero _ _ _ _ noPairs noLevel 7 fun _ _ => rfl
  pre c := tstate (W15 m c) c
  post c := tstate (W16 m c) c
  X c := iprop(∃ r, prngReg c r)
  Y c := iprop(∃ r, prngReg c r)
  Z c := Pipeline.unscopedRest (Ix := Unit) (Name := ℕ) (U := UR sig nD τ) (Lvl := ℕ) spec7 c (fun b => W15 m c b)
  hentry c := entry_full m 7 launch7.win launch7.arr_whole c (W15 m c) (fun _ => rfl) (fun _ => rfl) rfl rfl
  hin c := hin7 (fun c b => W15 m c b) c
  hout c := hout7 (fun c b => W15 m c b) c
  hexit c := exit_full m 7 launch7.win launch7.arr_whole c (W15 m c) (W16 m c) (fun _ => rfl) (hF7 m c) (hrest7 m c) rfl

abbrev rests : Fin 9 → Dev nD → sProp 𝕄 := fun _ c => rest c

abbrev items : Dev nD → List (Pipeline.Seg (pcfgs (F := F)) Gen.adm (pdats m) () defs₀ Variants.none noPairs noLevel) :=
  Gen.segs m (outsH m) Variants.none noPairs noLevel rests () (pdats m)
    (reg0 m) (reg1 m) (reg2 m) (reg3 m) (reg4 m) (reg5 m) (reg6 m) (reg7 m)

theorem tstate_of_eq {V W : Valuation τ sig (Elt F)} (h : V = W) (c : Dev nD) :
    iprop(StableHlo.held (c : Thread nD τ) (Pipeline.ucRefs τ sig) V ∗ rest c) ⊢ (tstate W c : sProp 𝕄) := h ▸ .rfl
theorem tstate_to_eq {V W : Valuation τ sig (Elt F)} (h : V = W) (c : Dev nD) :
    (tstate W c : sProp 𝕄) ⊢ iprop(StableHlo.held (c : Thread nD τ) (Pipeline.ucRefs τ sig) V ∗ rest c) := h ▸ .rfl

theorem last_link (c : Dev nD) :
    (tstate (W16 m c) c : sProp 𝕄)
      ⊢ iprop((StableHlo.held (c : Thread nD τ) (Pipeline.ucRefs τ sig) (W16 m c) ∗ ∃ r, prngReg c r)
          ∗ ∃ W, owes (c : Thread nD τ) (0 : CellTallies nD τ sig Unit) W) := by
  iintro ⟨Hh, Hp, Ho⟩
  isplitl [Hh Hp]
  · isplitl [Hh] <;> iassumption
  iexact Ho

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev u₀ : UR sig nD τ := initOf (Pipeline.cells cfgs cellOf_inj) (Pipeline.launchToks cfgs cellOf_inj)

theorem launch_elem : (ownU (u₀) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  rw [BI.bigSep_emp_const]
  iintro Hu
  imodintro
  isplitl [Hu]
  · iapply (show (ownU (u₀) : sProp 𝕄) ⊢ BI.own (emb₁ (initOf (Pipeline.cells cfgs cellOf_inj) (Pipeline.launchToks cfgs cellOf_inj))) from .rfl)
    iexact Hu
  iempintro

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W16 m c b) := by
  refine Pipeline.θ_run_regions_kit_dev (pcfgs (F := F)) Gen.adm (pdats m) () cellOf_inj emb₁ defs₀ Variants.none noPairs noLevel m ρ main
    (items m)
    (fun c Q => by
      rewrite [main_chain c, Pipeline.Seg.run_eq_chain,
        show (items m c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [items, Gen.segs, Pipeline.Seg.pipes_host, Pipeline.Seg.pipes_region, Pipeline.Seg.pipes_nil]; decide)
    (O₀ := 0) (hL := fun _ _ => rfl) (G := fun _ => iprop(emp)) (u₀ := u₀) (hu₀ := launch_elem)
    (T₀ := fun c => tstate (W0 m c) c)
    (Tₙ := fun c => iprop(StableHlo.held (c : Thread nD τ) (Pipeline.ucRefs τ sig) (W16 m c) ∗ ∃ r, prngReg c r))
    (hch := fun c => ⟨.rfl,
      tstate_of_eq (V1_eq m c) c,
      tstate_to_eq (V2_eq m c) c,
      tstate_of_eq (V3_eq m c) c,
      tstate_to_eq (V4_eq m c) c,
      tstate_of_eq (V5_eq m c) c,
      tstate_to_eq (V6_eq m c) c,
      tstate_of_eq (V7_eq m c) c,
      tstate_to_eq (V8_eq m c) c,
      tstate_of_eq (V9_eq m c) c,
      tstate_to_eq (V10_eq m c) c,
      tstate_of_eq (V11_eq m c) c,
      tstate_to_eq (V12_eq m c) c,
      tstate_of_eq (V13_eq m c) c,
      tstate_to_eq (V14_eq m c) c,
      tstate_of_eq (V15_eq m c) c,
      last_link m c⟩)
    (hinit := ?_)
    (QY := fun c s => ∀ b ∈ Pipeline.ucRefs τ sig, s.mem ((c : Thread nD τ).1, b) = W16 m c b)
    (hfin := fun c s' => ?_) (hQ := fun _ h => h)
  · refine Pipeline.initEach noPairs noLevel fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hbufs, -, Howes, -, Hprng, -⟩, -⟩
    imodintro
    isplitl [Hbufs]; · iexact Hbufs
    isplitl [Hprng]; · iexists _; iexact Hprng
    iexists ∅; iexact Howes
  · iintro ⟨⟨Hh, -⟩, HSI⟩
    unfold StableHlo.held
    imodintro
    iapply (pointsTo_read_all (Pipeline.ucRefs τ sig) (fun b => ((c : Thread nD τ).1, b)) (W16 m c) s')
    isplitl [Hh] <;> iassumption

/-- Every argument array holds its launch contents. -/
abbrev argsKept (m' : (ℓ : Loc nD τ sig) → Buf (Elt F) ℓ) (c : Dev nD) : Prop :=
  m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)
    ∧ m' ((c.tc : Thread nD τ).loc main_arg4) = m ((c.tc : Thread nD τ).loc main_arg4)
    ∧ m' ((c.tc : Thread nD τ).loc main_arg5) = m ((c.tc : Thread nD τ).loc main_arg5)
    ∧ m' ((c.tc : Thread nD τ).loc main_arg6) = m ((c.tc : Thread nD τ).loc main_arg6)
    ∧ m' ((c.tc : Thread nD τ).loc main_arg7) = m ((c.tc : Thread nD τ).loc main_arg7)
    ∧ m' ((c.tc : Thread nD τ).loc main_arg8) = m ((c.tc : Thread nD τ).loc main_arg8)
    ∧ m' ((c.tc : Thread nD τ).loc main_arg9) = m ((c.tc : Thread nD τ).loc main_arg9)
    ∧ m' ((c.tc : Thread nD τ).loc main_arg10) = m ((c.tc : Thread nD τ).loc main_arg10)
    ∧ m' ((c.tc : Thread nD τ).loc main_arg11) = m ((c.tc : Thread nD τ).loc main_arg11)
    ∧ m' ((c.tc : Thread nD τ).loc main_arg12) = m ((c.tc : Thread nD τ).loc main_arg12)

theorem result_all (ρ : Dev nD → PrngReg) :
    θ_run defs (onTc (τ := τ) (main (F := F))) ⟨m, fun _ => 0, ρ⟩ (fun r => ∀ c : Dev nD,
      r.2.mem ((c.tc : Thread nD τ).loc main_v135) = W16 m c (Proc.devRef .tc main_v135) ∧ argsKept m r.2.mem c) :=
  (θ_run defs _ _).mono (fun r hr c =>
    have e := fun (b : Ref sig .tc) hb => (hr c (Proc.devRef .tc b) (mem_uc b hb)).trans (congrFun (V16_eq m c).symm _)
    ⟨hr c _ (mem_uc main_v135 (by decide)),
     (e main_arg0 (by decide)).trans (Gen.V16_main_arg0 m (outsH m) c),
     (e main_arg1 (by decide)).trans (Gen.V16_main_arg1 m (outsH m) c),
     (e main_arg2 (by decide)).trans (Gen.V16_main_arg2 m (outsH m) c),
     (e main_arg3 (by decide)).trans (Gen.V16_main_arg3 m (outsH m) c),
     (e main_arg4 (by decide)).trans (Gen.V16_main_arg4 m (outsH m) c),
     (e main_arg5 (by decide)).trans (Gen.V16_main_arg5 m (outsH m) c),
     (e main_arg6 (by decide)).trans (Gen.V16_main_arg6 m (outsH m) c),
     (e main_arg7 (by decide)).trans (Gen.V16_main_arg7 m (outsH m) c),
     (e main_arg8 (by decide)).trans (Gen.V16_main_arg8 m (outsH m) c),
     (e main_arg9 (by decide)).trans (Gen.V16_main_arg9 m (outsH m) c),
     (e main_arg10 (by decide)).trans (Gen.V16_main_arg10 m (outsH m) c),
     (e main_arg11 (by decide)).trans (Gen.V16_main_arg11 m (outsH m) c),
     (e main_arg12 (by decide)).trans (Gen.V16_main_arg12 m (outsH m) c)⟩) (run_all m ρ)

theorem frame_all (ρ : Dev nD → PrngReg) :
    θ_run defs (onTc (τ := τ) (main (F := F))) ⟨m, fun _ => 0, ρ⟩ (fun r => ∀ c : Dev nD, argsKept m r.2.mem c) :=
  (θ_run defs _ _).mono (fun _ h c => (h c).2) (result_all m ρ)

end Run

end Cert.KernelIdeal.Hand

end
-- ==== Proof.Spec.lean ====
/-
  The network both programs compute, as whole-array functions over the extended reals, entry by entry.
-/
import Idealize.ShloMosaic.PureOps.Ideal
import Idealize.ShloMosaic.Lib.ValueIdx

noncomputable section

open scoped BigOperators

namespace Cert.Spec

open Idealize.ShloMosaic Idealize.ShloMosaic.ValueIdx

abbrev Mat (R C : Nat) : Type := (⟨2, ![R, C]⟩ : Shape).Idx → EReal

def relu {R C : Nat} (X : Mat R C) : Mat R C := fun j => max (X j) 0

def affineN (X : Mat 50000 128) (W : Mat 128 128) (b : Mat 1 128) : Mat 50000 128 :=
  fun j => (∑ k : Fin 128, X (ix2 (j 0) k) * W (ix2 k (j 1))) + b (ix2 (0 : Fin 1) (j 1))

def addN (X Y : Mat 50000 128) : Mat 50000 128 := fun j => X j + Y j

def layerZ (h agg : Mat 50000 128) (W1 : Mat 128 128) (b1 : Mat 1 128) (W2 : Mat 128 128) (b2 : Mat 1 128) : Mat 50000 128 :=
  affineN (relu (affineN (addN h agg) W1 b1)) W2 b2

def emb7 (h0 h1 h2 h3 h4 h5 h6 : Mat 50000 128) : Mat 50000 896 :=
  fun j => match (j 1).val / 128 with
    | 0 => h0 (ix2 (j 0) ⟨(j 1).val % 128, Nat.mod_lt _ (by norm_num)⟩)
    | 1 => h1 (ix2 (j 0) ⟨(j 1).val % 128, Nat.mod_lt _ (by norm_num)⟩)
    | 2 => h2 (ix2 (j 0) ⟨(j 1).val % 128, Nat.mod_lt _ (by norm_num)⟩)
    | 3 => h3 (ix2 (j 0) ⟨(j 1).val % 128, Nat.mod_lt _ (by norm_num)⟩)
    | 4 => h4 (ix2 (j 0) ⟨(j 1).val % 128, Nat.mod_lt _ (by norm_num)⟩)
    | 5 => h5 (ix2 (j 0) ⟨(j 1).val % 128, Nat.mod_lt _ (by norm_num)⟩)
    | _ => h6 (ix2 (j 0) ⟨(j 1).val % 128, Nat.mod_lt _ (by norm_num)⟩)

def pool (batch : IVec ⟨2, ![50000, 1]⟩ 32) (E : Mat 50000 896) : Mat 128 896 :=
  fun j => ∑ e ∈ Finset.univ.filter (fun e : Fin 50000 => (batch (ix2 e (0 : Fin 1))).toInt = ((j 0).val : ℤ)), E (ix2 e (j 1))

def post (P : Mat 128 896) (W1 : Mat 896 128) (b1 : Mat 1 128) (W2 : Mat 128 128) (b2 : Mat 1 128) : Mat 128 128 :=
  fun j => (∑ k : Fin 128,
      (max ((∑ l : Fin 896, P (ix2 (j 0) l) * W1 (ix2 l k)) + b1 (ix2 (0 : Fin 1) k)) 0) * W2 (ix2 k (j 1)))
    + b2 (ix2 (0 : Fin 1) (j 1))

def W6 (cw : (⟨3, ![6, 128, 128]⟩ : Shape).Idx → EReal) (i : Fin 6) : Mat 128 128 := fun j => cw (ix3 i (j 0) (j 1))

def B6 (cb : (⟨2, ![6, 128]⟩ : Shape).Idx → EReal) (i : Fin 6) : Mat 1 128 := fun j => cb (ix2 i (j 1))

def row (b : (⟨1, ![128]⟩ : Shape).Idx → EReal) : Mat 1 128 := fun j => b (ix1 (j 1))

def col (batch : IVec ⟨1, ![50000]⟩ 32) : IVec ⟨2, ![50000, 1]⟩ 32 := fun j => batch (ix1 (j 0))

def srcRow (ei : IVec ⟨2, ![2, 800000]⟩ 32) (e : Fin 800000) : Fin 50000 :=
  let s := ei (ix2 (0 : Fin 2) e)
  let s' := if s.toInt < 0 then s + 50000#32 else s
  ⟨min s'.toInt.toNat (50000 - 1), by omega⟩

def agg (ei : IVec ⟨2, ![2, 800000]⟩ 32) (h : Mat 50000 128) : Mat 50000 128 :=
  fun j => 0 + ∑ e ∈ Finset.univ.filter (fun e : Fin 800000 => (ei (ix2 (1 : Fin 2) e)).toInt = ((j 0).val : ℤ)),
    h (ix2 (srcRow ei e) (j 1))

def net (agg : Mat 50000 128 → Mat 50000 128) (x : Mat 50000 128) (batch : IVec ⟨2, ![50000, 1]⟩ 32)
    (preW : Mat 128 128) (preB : Mat 1 128) (W1 W2 : Fin 6 → Mat 128 128) (B1 B2 : Fin 6 → Mat 1 128)
    (postW1 : Mat 896 128) (postB1 : Mat 1 128) (postW2 : Mat 128 128) (postB2 : Mat 1 128) : Mat 128 128 :=
  let h0 := affineN x preW preB
  let h1 := relu (layerZ h0 (agg h0) (W1 0) (B1 0) (W2 0) (B2 0))
  let r1 := addN (layerZ h1 (agg h1) (W1 1) (B1 1) (W2 1) (B2 1)) h0
  let h2 := relu r1
  let h3 := relu (layerZ h2 (agg h2) (W1 2) (B1 2) (W2 2) (B2 2))
  let r3 := addN (layerZ h3 (agg h3) (W1 3) (B1 3) (W2 3) (B2 3)) r1
  let h4 := relu r3
  let h5 := relu (layerZ h4 (agg h4) (W1 4) (B1 4) (W2 4) (B2 4))
  let r5 := addN (layerZ h5 (agg h5) (W1 5) (B1 5) (W2 5) (B2 5)) r3
  let h6 := relu r5
  post (pool batch (emb7 h0 h1 h2 h3 h4 h5 h6)) postW1 postB1 postW2 postB2

end Cert.Spec

end
-- ==== Proof.LibRows.lean ====
/-
  A row gather and a row scatter-add read at an entry, for any extents: the gathered row is the table's row at the
  index word; the scatter-add's entry is the operand's plus the sum of the update rows whose index word names that row.
-/
import Idealize.ShloMosaic.Lib.ValueIdx
import Idealize.ShloMosaic.PureOps.Ideal

noncomputable section

open scoped BigOperators

namespace Cert.LibRows

open Idealize.ShloMosaic Idealize.ShloMosaic.ValueIdx

theorem gather_siIdx {N C E : Nat} (d : GatherDims ⟨2, ![N, C]⟩ ⟨2, ![E, 1]⟩ ⟨2, ![E, C]⟩)
    (hoff : d.offsetDims = [1]) (hsim : d.startIndexMap = [0]) (hivd : d.indexVectorDim = 1)
    (e : Fin E) (q : Fin C) (c : Fin d.startIndexMap.length) :
    d.siIdx (ix2 e q) c = ix2 e (0 : Fin 1) := by
  obtain ⟨od, cd, ob, sb, sm, iv, ss, wf⟩ := d
  dsimp only at hoff hsim hivd c ⊢
  subst hoff hsim hivd
  funext b
  apply Fin.ext
  match b with
  | ⟨0, _⟩ => rfl
  | ⟨1, _⟩ => exact Nat.lt_one_iff.mp c.isLt

theorem gather_operandIdx_row {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (q : Fin C) :
    (d.operandIdx (ix2 e q) idx (0 : Fin 2)).val = min (idx (ix2 e (0 : Fin 1))).toInt.toNat (N - 1) := by
  have hsl : d.sliceSizes 0 = 1 := d.slice_collapsed 0 (by rw [hcoll]; exact List.mem_singleton.mpr rfl)
  have h0 : (0 : Fin 2) ∈ d.startIndexMap := by rw [hsim]; exact List.mem_singleton.mpr rfl
  have hc : (0 : Fin 2) ∉ d.sKept := fun h => ((d.mem_sKept 0).mp h).1 (by rw [hcoll]; exact List.mem_singleton.mpr rfl)
  have hb : (0 : Fin 2) ∉ d.operandBatchingDims := by rw [hob]; exact List.not_mem_nil
  show d.start (ix2 e q) idx 0 + d.batchCoord (ix2 e q) 0 + d.offCoord (ix2 e q) 0 = _
  rw [d.batchCoord_eq_zero _ _ hb, d.offCoord_eq_zero _ _ hc, Nat.add_zero]
  unfold GatherDims.start
  rw [dif_pos h0, gather_siIdx d hoff hsim hivd, hsl]
  rfl

theorem gather_operandIdx_col {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0])
    (idx : IVec ⟨2, ![E, 1]⟩ w) (e : Fin E) (q : Fin C) :
    (d.operandIdx (ix2 e q) idx (1 : Fin 2)).val = q.val := by
  obtain ⟨od, cd, ob, sb, sm, iv, ss, wf⟩ := d
  dsimp only at hoff hcoll hob hsim
  subst hoff hcoll hob hsim
  have h1 : (1 : Fin 2) ∉ ([0] : List (Fin 2)) := by decide
  simp only [GatherDims.operandIdx]
  rw [GatherDims.batchCoord_eq_zero _ _ _ List.not_mem_nil]
  unfold GatherDims.start GatherDims.offCoord
  rw [dif_neg h1, dif_pos ((GatherDims.mem_sKept _ _).mpr ⟨h1, List.not_mem_nil⟩), Nat.zero_add]
  rfl

theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  match a with
  | ⟨0, _⟩ => exact gather_operandIdx_row d hoff hcoll hob hsim hivd idx e q
  | ⟨1, _⟩ => exact gather_operandIdx_col d hoff hcoll hob hsim idx e q

theorem scatter_siIdx {N C E : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  obtain ⟨uw, iw, sd, iv, wf⟩ := d
  dsimp only at huw hsd hivd c ⊢
  subst huw hsd hivd
  funext b
  apply Fin.ext
  match b with
  | ⟨0, _⟩ => rfl
  | ⟨1, _⟩ => exact Nat.lt_one_iff.mp c.isLt

theorem scatter_start_row {N C E w : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx (0 : Fin 2) = (idx (ix2 e (0 : Fin 1))).toInt := by
  have h0 : (0 : Fin 2) ∈ d.scatterDimsToOperandDims := by rw [hsd]; exact List.mem_singleton.mpr rfl
  unfold ScatterDims.start
  rw [dif_pos h0, scatter_siIdx d huw hsd hivd]

theorem scatter_start_col {N C E w : Nat} (d : ScatterDims ⟨2, ![N, C]⟩ ⟨2, ![E, 1]⟩ ⟨2, ![E, C]⟩)
    (hsd : d.scatterDimsToOperandDims = [0])
    (idx : IVec ⟨2, ![E, 1]⟩ w) (j : (⟨2, ![E, C]⟩ : Shape).Idx) :
    d.start j idx (1 : Fin 2) = 0 := by
  have h1 : (1 : Fin 2) ∉ d.scatterDimsToOperandDims := by
    rw [hsd]; exact (show (1 : Fin 2) ∉ ([0] : List (Fin 2)) by decide)
  unfold ScatterDims.start
  rw [dif_neg h1]

theorem scatter_window_row {N C E : Nat} (d : ScatterDims ⟨2, ![N, C]⟩ ⟨2, ![E, 1]⟩ ⟨2, ![E, C]⟩)
    (hiw : d.insertedWindowDims = [0]) (j : (⟨2, ![E, C]⟩ : Shape).Idx) :
    d.window j (0 : Fin 2) = 0 := by
  have h0 : (0 : Fin 2) ∉ d.sKept := by
    simp [ScatterDims.sKept, Shape.kept, List.mem_filter, hiw]
  unfold ScatterDims.window
  rw [dif_neg h0]

theorem scatter_window_col {N C E : Nat} (d : ScatterDims ⟨2, ![N, C]⟩ ⟨2, ![E, 1]⟩ ⟨2, ![E, C]⟩)
    (huw : d.updateWindowDims = [1]) (hiw : d.insertedWindowDims = [0]) (e : Fin E) (q' : Fin C) :
    d.window (ix2 e q') (1 : Fin 2) = q'.val := by
  have h1 : (1 : Fin 2) ∈ d.sKept := by
    simp [ScatterDims.sKept, Shape.kept, List.mem_filter, hiw]
  obtain ⟨uw, iw, sd, iv, wf⟩ := d
  dsimp only at huw hiw
  subst huw hiw
  unfold ScatterDims.window
  rw [dif_pos h1]
  rfl

theorem scatter_resultIdx_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (q' : Fin C) (n : Fin N) (q : Fin C) :
    d.resultIdx? (ix2 e q') idx = some (ix2 n q)
      ↔ ((idx (ix2 e (0 : Fin 1))).toInt = (n.val : ℤ) ∧ q' = q) := by
  have hs0 := scatter_start_row d huw hsd hivd idx e q'
  have hs1 := scatter_start_col d hsd idx (ix2 e q')
  have hw0 := scatter_window_row d hiw (ix2 e q')
  have hw1 := scatter_window_col d huw hiw e q'
  have hN : (⟨2, ![N, C]⟩ : Shape).size (0 : Fin 2) = N := rfl
  have hC : (⟨2, ![N, C]⟩ : Shape).size (1 : Fin 2) = C := rfl
  have hn := n.isLt
  have hq' := q'.isLt
  unfold ScatterDims.resultIdx?
  constructor
  · intro h
    split at h
    · next hin =>

      have hf := Option.some.inj h
      have c0 : (d.start (ix2 e q') idx 0 + d.window (ix2 e q') 0).toNat = n.val :=
        congrArg (fun f => (f (0 : Fin 2)).val) hf
      have c1 : (d.start (ix2 e q') idx 1 + d.window (ix2 e q') 1).toNat = q.val :=
        congrArg (fun f => (f (1 : Fin 2)).val) hf
      have b0 := hin 0
      rw [hs0, hw0] at c0 b0
      rw [hs1, hw1] at c1
      exact ⟨by omega, Fin.ext (by omega)⟩
    · exact absurd h (by simp)
  · rintro ⟨hi, rfl⟩
    have p0 : 0 ≤ d.start (ix2 e q') idx 0 + d.window (ix2 e q') 0
        ∧ d.start (ix2 e q') idx 0 + d.window (ix2 e q') 0 < (⟨2, ![N, C]⟩ : Shape).size (0 : Fin 2) := by
      rw [hs0, hw0, hi, hN]; omega
    have p1 : 0 ≤ d.start (ix2 e q') idx 1 + d.window (ix2 e q') 1
        ∧ d.start (ix2 e q') idx 1 + d.window (ix2 e q') 1 < (⟨2, ![N, C]⟩ : Shape).size (1 : Fin 2) := by
      rw [hs1, hw1, hC]; omega
    rw [dif_pos (Fin.forall_fin_two.mpr ⟨p0, p1⟩)]
    congr 1
    funext a
    apply Fin.ext
    match a with
    | ⟨0, _⟩ =>
      show (d.start (ix2 e q') idx 0 + d.window (ix2 e q') 0).toNat = n.val
      rw [hs0, hw0, hi]; omega
    | ⟨1, _⟩ =>
      show (d.start (ix2 e q') idx 1 + d.window (ix2 e q') 1).toNat = q'.val
      rw [hs1, hw1]; omega

theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    (Host.scatterAdd (F := Ideal) (φ := .f32) d x idx upd : (⟨2, ![N, C]⟩ : Shape).Idx → EReal) (ix2 n q)
      = x (ix2 n q)
        + ∑ e ∈ Finset.univ.filter (fun e : Fin E => (idx (ix2 e (0 : Fin 1))).toInt = (n.val : ℤ)), upd (ix2 e q) := by

  have key : ∀ j : (⟨2, ![E, C]⟩ : Shape).Idx, d.resultIdx? j idx = some (ix2 n q)
      ↔ ((idx (ix2 (j 0) (0 : Fin 1))).toInt = (n.val : ℤ) ∧ j 1 = q) := fun j => by
    have := scatter_resultIdx_iff d huw hiw hsd hivd idx (j 0) (j 1) n q
    rw [congrArg (fun k => d.resultIdx? k idx) (eq_ix2 j)]
    exact this

  have back : ∀ j : (⟨2, ![E, C]⟩ : Shape).Idx, d.resultIdx? j idx = some (ix2 n q) → ix2 (j 0) q = j := fun j hj => by
    rw [← ((key j).mp hj).2]; exact (eq_ix2 j).symm
  show x (ix2 n q) + ∑ j ∈ Finset.univ.filter (fun j => d.resultIdx? j idx = some (ix2 n q)), upd j = _
  congr 1

  refine Finset.sum_bij' (fun j _ => j 0) (fun e _ => ix2 e q) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e q)).mpr ⟨(Finset.mem_filter.mp he).2, rfl⟩⟩
  · intro j hj
    exact back j (Finset.mem_filter.mp hj).2
  · intro e _
    rfl
  · intro j hj
    exact congrArg upd (back j (Finset.mem_filter.mp hj).2).symm

end Cert.LibRows

end
-- ==== Proof.RefLemmas.lean ====
/-
  The host operations around the matrix products, as the specification's functions: a slice of the stacked weights or
  biases, the broadcasts, the neighbourhood sum (gather by source, scatter-add by target), the concatenate and the pooling.
-/
import proofs.«431182_j60713657696761_1_alg».proof.Proof.Spec
import proofs.«431182_j60713657696761_1_alg».proof.Proof.LibRows
import Idealize.ShloMosaic.Lib.ValueIdx
import Idealize.ShloMosaic.Lib.Pipeline.Value
import Idealize.ShloMosaic.PureOps.Ideal.Laws

noncomputable section

open scoped BigOperators

namespace Cert.RefLemmas

open Idealize.ShloMosaic Idealize.ShloMosaic.ValueIdx

section Layout
variable {α : Type}

theorem splat_vec {n : Nat} (x : (⟨0, ![]⟩ : Shape).Idx → α)
    (hb : (⟨0, ![]⟩ : Shape).BroadcastsInDim ⟨1, ![n]⟩ ![]) :
    broadcastInDim ⟨1, ![n]⟩ ![] hb x = fun _ => x ix0 := by
  funext j
  exact broadcastInDim_apply _ hb x j ix0 (fun a => a.elim0)

theorem splat_mat {R C : Nat} (x : (⟨0, ![]⟩ : Shape).Idx → α)
    (hb : (⟨0, ![]⟩ : Shape).BroadcastsInDim ⟨2, ![R, C]⟩ ![]) :
    broadcastInDim ⟨2, ![R, C]⟩ ![] hb x = fun _ => x ix0 := by
  funext j
  exact broadcastInDim_apply _ hb x j ix0 (fun a => a.elim0)

theorem col_of_bcast {n : Nat} (v : (⟨1, ![n]⟩ : Shape).Idx → α)
    (hb : (⟨1, ![n]⟩ : Shape).BroadcastsInDim ⟨2, ![n, 1]⟩ ![0]) :
    broadcastInDim ⟨2, ![n, 1]⟩ ![0] hb v = fun j => v (ix1 (j 0)) := by
  funext j
  refine broadcastInDim_apply _ hb v j (ix1 (j 0)) (fun a => ?_)
  match a with
  | ⟨0, _⟩ =>
    show (j 0).val = if n = 1 then 0 else (j 0).val
    split
    · next h1 => have := (j 0).isLt; simp only [Matrix.cons_val_zero] at this; omega
    · rfl

theorem col_of_reshape {n : Nat} (v : (⟨1, ![n]⟩ : Shape).Idx → α)
    (hc : (⟨1, ![n]⟩ : Shape).ShapeCasts ⟨2, ![n, 1]⟩) :
    shapeCast ⟨2, ![n, 1]⟩ v hc = fun j => v (ix1 (j 0)) := by
  funext j
  refine shapeCast_apply v hc j (ix1 (j 0)) ?_
  rewrite [Shape.rowMajor_val_one, Shape.rowMajor_val_two]
  have h1 : (j 1).val < 1 := (j 1).isLt
  show (j 0).val = (j 0).val * 1 + (j 1).val
  omega

theorem row_of_bcast {n : Nat} (v : (⟨1, ![n]⟩ : Shape).Idx → α)
    (hb : (⟨1, ![n]⟩ : Shape).BroadcastsInDim ⟨2, ![1, n]⟩ ![1]) :
    broadcastInDim ⟨2, ![1, n]⟩ ![1] hb v = fun j => v (ix1 (j 1)) := by
  funext j
  refine broadcastInDim_apply _ hb v j (ix1 (j 1)) (fun a => ?_)
  match a with
  | ⟨0, _⟩ =>
    show (j 1).val = if n = 1 then 0 else (j 1).val
    split
    · next h1 => have := (j 1).isLt; simp only [Matrix.cons_val_one, Matrix.cons_val_zero] at this; omega
    · rfl

theorem row_of_reshape {n : Nat} (v : (⟨1, ![n]⟩ : Shape).Idx → α)
    (hc : (⟨1, ![n]⟩ : Shape).ShapeCasts ⟨2, ![1, n]⟩) :
    shapeCast ⟨2, ![1, n]⟩ v hc = fun j => v (ix1 (j 1)) := by
  funext j
  refine shapeCast_apply v hc j (ix1 (j 1)) ?_
  rewrite [Shape.rowMajor_val_one, Shape.rowMajor_val_two]
  have h0 : (j 0).val < 1 := (j 0).isLt
  show (j 1).val = (j 0).val * n + (j 1).val
  have : (j 0).val = 0 := by omega
  rw [this, Nat.zero_mul, Nat.zero_add]

theorem rows_of_bcast {R n : Nat} (hR : R ≠ 1) (hn : n ≠ 1) (b : (⟨2, ![1, n]⟩ : Shape).Idx → α)
    (hb : (⟨2, ![1, n]⟩ : Shape).BroadcastsInDim ⟨2, ![R, n]⟩ ![0, 1]) :
    broadcastInDim ⟨2, ![R, n]⟩ ![0, 1] hb b = fun j => b (ix2 (0 : Fin 1) (j 1)) := by
  funext j
  refine broadcastInDim_apply _ hb b j (ix2 (0 : Fin 1) (j 1)) (fun a => ?_)
  match a with
  | ⟨0, _⟩ => show 0 = if (1 : Nat) = 1 then 0 else (j 0).val; rw [if_pos rfl]
  | ⟨1, _⟩ => show (j 1).val = if n = 1 then 0 else (j 1).val; rw [if_neg hn]

theorem row_slice {n : Nat} (r : Nat) (hr : r < 2) (x : (⟨2, ![2, n]⟩ : Shape).Idx → α)
    (hs : (⟨2, ![2, n]⟩ : Shape).Slices ![r, 0] ⟨2, ![1, n]⟩)
    (hc : (⟨2, ![1, n]⟩ : Shape).ShapeCasts ⟨1, ![n]⟩) :
    shapeCast ⟨1, ![n]⟩ (extractStridedSlice ⟨2, ![1, n]⟩ ![r, 0] x hs) hc = fun j => x (ix2 (⟨r, hr⟩ : Fin 2) (j 0)) := by
  funext j
  rw [shapeCast_apply _ hc j (ix2 (0 : Fin 1) (j 0)) (by
    rewrite [Shape.rowMajor_val_two, Shape.rowMajor_val_one]
    show 0 * n + (j 0).val = (j 0).val
    omega)]
  refine extractStridedSlice_apply ![r, 0] x hs _ (ix2 (⟨r, hr⟩ : Fin 2) (j 0)) (fun a => ?_)
  match a with
  | ⟨0, _⟩ => show r = r + 0; omega
  | ⟨1, _⟩ => show (j 0).val = 0 + (j 0).val; omega

end Layout

def bvec (cb : (⟨2, ![6, 128]⟩ : Shape).Idx → EReal) (i : Fin 6) : (⟨1, ![128]⟩ : Shape).Idx → EReal :=
  fun j => cb (ix2 i (j 0))

theorem row_bvec (cb : (⟨2, ![6, 128]⟩ : Shape).Idx → EReal) (i : Fin 6) : Spec.row (bvec cb i) = Spec.B6 cb i := rfl

theorem weight_slice (s : Nat) (hs6 : s < 6) (cw : (⟨3, ![6, 128, 128]⟩ : Shape).Idx → EReal)
    (hs : (⟨3, ![6, 128, 128]⟩ : Shape).Slices ![s, 0, 0] ⟨3, ![1, 128, 128]⟩)
    (hc : (⟨3, ![1, 128, 128]⟩ : Shape).ShapeCasts ⟨2, ![128, 128]⟩) :
    (shapeCast ⟨2, ![128, 128]⟩ (extractStridedSlice ⟨3, ![1, 128, 128]⟩ ![s, 0, 0] cw hs) hc : Spec.Mat 128 128)
      = Spec.W6 cw ⟨s, hs6⟩ := by
  funext j
  have h0 : (j 0).val < 128 := (j 0).isLt
  have h1 : (j 1).val < 128 := (j 1).isLt
  rw [shapeCast_apply _ hc j (ix3 (0 : Fin 1) (j 0) (j 1)) (by
    rewrite [Shape.rowMajor_val_three, Shape.rowMajor_val_two]
    show (0 * 128 + (j 0).val) * 128 + (j 1).val = (j 0).val * 128 + (j 1).val
    omega)]
  refine extractStridedSlice_apply ![s, 0, 0] cw hs _ (ix3 (⟨s, hs6⟩ : Fin 6) (j 0) (j 1)) (fun a => ?_)
  match a with
  | ⟨0, _⟩ => show s = s + 0; omega
  | ⟨1, _⟩ => show (j 0).val = 0 + (j 0).val; omega
  | ⟨2, _⟩ => show (j 1).val = 0 + (j 1).val; omega

theorem bias_slice (s : Nat) (hs6 : s < 6) (cb : (⟨2, ![6, 128]⟩ : Shape).Idx → EReal)
    (hs : (⟨2, ![6, 128]⟩ : Shape).Slices ![s, 0] ⟨2, ![1, 128]⟩)
    (hc : (⟨2, ![1, 128]⟩ : Shape).ShapeCasts ⟨1, ![128]⟩) :
    shapeCast ⟨1, ![128]⟩ (extractStridedSlice ⟨2, ![1, 128]⟩ ![s, 0] cb hs) hc = bvec cb ⟨s, hs6⟩ := by
  funext j
  rw [shapeCast_apply _ hc j (ix2 (0 : Fin 1) (j 0)) (by
    rewrite [Shape.rowMajor_val_two, Shape.rowMajor_val_one]
    show 0 * 128 + (j 0).val = (j 0).val
    omega)]
  refine extractStridedSlice_apply ![s, 0] cb hs _ (ix2 (⟨s, hs6⟩ : Fin 6) (j 0)) (fun a => ?_)
  match a with
  | ⟨0, _⟩ => show s = s + 0; omega
  | ⟨1, _⟩ => show (j 0).val = 0 + (j 0).val; omega

theorem wrap_word (s : BitVec 32) :
    Scalar.select (IntOp.cmpi .slt s 0#32) (IntOp.addi s 50000#32) s = if s.toInt < 0 then s + 50000#32 else s := by
  unfold Scalar.select IntOp.cmpi IntOp.addi
  by_cases h : s.toInt < 0
  · have hs : s.slt 0#32 = true := by simp [BitVec.slt, h]
    simp [hs, h]
  · have hs : s.slt 0#32 = false := by simp [BitVec.slt, h]
    simp [hs, h]

def srcCol (ei : IVec ⟨2, ![2, 800000]⟩ 32) : IVec ⟨2, ![800000, 1]⟩ 32 :=
  fun j => if (ei (ix2 (0 : Fin 2) (j 0))).toInt < 0 then ei (ix2 (0 : Fin 2) (j 0)) + 50000#32 else ei (ix2 (0 : Fin 2) (j 0))

def dstCol (ei : IVec ⟨2, ![2, 800000]⟩ 32) : IVec ⟨2, ![800000, 1]⟩ 32 :=
  fun j => ei (ix2 (1 : Fin 2) (j 0))

theorem srcCol_chain (ei : IVec ⟨2, ![2, 800000]⟩ 32)
    (hs : (⟨2, ![2, 800000]⟩ : Shape).Slices ![0, 0] ⟨2, ![1, 800000]⟩)
    (hc : (⟨2, ![1, 800000]⟩ : Shape).ShapeCasts ⟨1, ![800000]⟩)
    (hb0 hb0' : (⟨0, ![]⟩ : Shape).BroadcastsInDim ⟨1, ![800000]⟩ ![])
    (hb : (⟨1, ![800000]⟩ : Shape).BroadcastsInDim ⟨2, ![800000, 1]⟩ ![0]) :
    broadcastInDim ⟨2, ![800000, 1]⟩ ![0] hb
      (select
        (cmpi .slt (shapeCast ⟨1, ![800000]⟩ (extractStridedSlice ⟨2, ![1, 800000]⟩ ![0, 0] ei hs) hc)
          (broadcastInDim ⟨1, ![800000]⟩ ![] hb0 (constantI ⟨0, ![]⟩ 32 0#32)))
        (addi (shapeCast ⟨1, ![800000]⟩ (extractStridedSlice ⟨2, ![1, 800000]⟩ ![0, 0] ei hs) hc)
          (broadcastInDim ⟨1, ![800000]⟩ ![] hb0' (constantI ⟨0, ![]⟩ 32 50000#32)))
        (shapeCast ⟨1, ![800000]⟩ (extractStridedSlice ⟨2, ![1, 800000]⟩ ![0, 0] ei hs) hc))
      = srcCol ei := by
  rw [col_of_bcast, row_slice 0 (by norm_num), splat_vec, splat_vec]
  funext j
  exact wrap_word (ei (ix2 (0 : Fin 2) (j 0)))

theorem dstCol_chain (ei : IVec ⟨2, ![2, 800000]⟩ 32)
    (hs : (⟨2, ![2, 800000]⟩ : Shape).Slices ![1, 0] ⟨2, ![1, 800000]⟩)
    (hc : (⟨2, ![1, 800000]⟩ : Shape).ShapeCasts ⟨1, ![800000]⟩)
    (hb : (⟨1, ![800000]⟩ : Shape).BroadcastsInDim ⟨2, ![800000, 1]⟩ ![0]) :
    broadcastInDim ⟨2, ![800000, 1]⟩ ![0] hb
      (shapeCast ⟨1, ![800000]⟩ (extractStridedSlice ⟨2, ![1, 800000]⟩ ![1, 0] ei hs) hc) = dstCol ei := by
  rw [col_of_bcast, row_slice 1 (by norm_num)]
  rfl

theorem col_bcast (batch : IVec ⟨1, ![50000]⟩ 32)
    (hb : (⟨1, ![50000]⟩ : Shape).BroadcastsInDim ⟨2, ![50000, 1]⟩ ![0]) :
    broadcastInDim ⟨2, ![50000, 1]⟩ ![0] hb batch = Spec.col batch := col_of_bcast batch hb

theorem col_reshape (batch : IVec ⟨1, ![50000]⟩ 32)
    (hc : (⟨1, ![50000]⟩ : Shape).ShapeCasts ⟨2, ![50000, 1]⟩) :
    shapeCast ⟨2, ![50000, 1]⟩ batch hc = Spec.col batch := col_of_reshape batch hc

theorem row_bcast (b : (⟨1, ![128]⟩ : Shape).Idx → EReal)
    (hb : (⟨1, ![128]⟩ : Shape).BroadcastsInDim ⟨2, ![1, 128]⟩ ![1]) :
    broadcastInDim ⟨2, ![1, 128]⟩ ![1] hb b = Spec.row b := row_of_bcast b hb

theorem row_reshape (b : (⟨1, ![128]⟩ : Shape).Idx → EReal)
    (hc : (⟨1, ![128]⟩ : Shape).ShapeCasts ⟨2, ![1, 128]⟩) :
    shapeCast ⟨2, ![1, 128]⟩ b hc = Spec.row b := row_of_reshape b hc

theorem zeros_mat {R C : Nat} (hb : (⟨0, ![]⟩ : Shape).BroadcastsInDim ⟨2, ![R, C]⟩ ![]) :
    (broadcastInDim ⟨2, ![R, C]⟩ ![] hb (constant (F := Ideal) ⟨0, ![]⟩ .f32 0x00000000#32) : (⟨2, ![R, C]⟩ : Shape).Idx → EReal)
      = fun _ => 0 := by
  rw [splat_mat]
  funext _
  exact Ideal.ofBits_zero_f32

theorem agg_rows
    (dg : GatherDims ⟨2, ![50000, 128]⟩ ⟨2, ![800000, 1]⟩ ⟨2, ![800000, 128]⟩)
    (hoff : dg.offsetDims = [1]) (hcoll : dg.collapsedSliceDims = [0]) (hob : dg.operandBatchingDims = [])
    (hsim : dg.startIndexMap = [0]) (hivd : dg.indexVectorDim = 1)
    (ds : ScatterDims ⟨2, ![50000, 128]⟩ ⟨2, ![800000, 1]⟩ ⟨2, ![800000, 128]⟩)
    (huw : ds.updateWindowDims = [1]) (hiw : ds.insertedWindowDims = [0]) (hsd : ds.scatterDimsToOperandDims = [0])
    (hivd' : ds.indexVectorDim = 1)
    (ei : IVec ⟨2, ![2, 800000]⟩ 32) (h Z : Spec.Mat 50000 128) (hZ : ∀ j, Z j = 0) :
    (Host.scatterAdd (F := Ideal) (φ := .f32) ds Z (dstCol ei) (Host.gather dg h (srcCol ei)) : Spec.Mat 50000 128)
      = Spec.agg ei h := by
  funext j
  obtain ⟨n, q, rfl⟩ : ∃ (n : Fin 50000) (q : Fin 128), j = ix2 n q := ⟨j 0, j 1, eq_ix2 j⟩
  rw [LibRows.scatterAdd_rows_apply ds huw hiw hsd hivd' Z (dstCol ei) _ n q, hZ]
  refine congrArg (fun t : EReal => 0 + t) (Finset.sum_congr rfl fun e _ => ?_)
  rw [LibRows.gather_rows_apply dg hoff hcoll hob hsim hivd h (srcCol ei) e q (by norm_num)]
  rfl

theorem agg_eq
    (dg : GatherDims ⟨2, ![50000, 128]⟩ ⟨2, ![800000, 1]⟩ ⟨2, ![800000, 128]⟩)
    (hoff : dg.offsetDims = [1]) (hcoll : dg.collapsedSliceDims = [0]) (hob : dg.operandBatchingDims = [])
    (hsim : dg.startIndexMap = [0]) (hivd : dg.indexVectorDim = 1)
    (ds : ScatterDims ⟨2, ![50000, 128]⟩ ⟨2, ![800000, 1]⟩ ⟨2, ![800000, 128]⟩)
    (huw : ds.updateWindowDims = [1]) (hiw : ds.insertedWindowDims = [0]) (hsd : ds.scatterDimsToOperandDims = [0])
    (hivd' : ds.indexVectorDim = 1)
    (ei : IVec ⟨2, ![2, 800000]⟩ 32) (h : Spec.Mat 50000 128) :
    (Host.scatterAdd (F := Ideal) (φ := .f32) ds (fun _ => (0 : EReal)) (dstCol ei) (Host.gather dg h (srcCol ei)) : Spec.Mat 50000 128)
      = Spec.agg ei h :=
  agg_rows dg hoff hcoll hob hsim hivd ds huw hiw hsd hivd' ei h _ (fun _ => rfl)

theorem concat7 (h0 h1 h2 h3 h4 h5 h6 : Spec.Mat 50000 128)
    (hc : Shape.Concatenates
      (([⟨⟨2, ![50000, 128]⟩, h0⟩, ⟨⟨2, ![50000, 128]⟩, h1⟩, ⟨⟨2, ![50000, 128]⟩, h2⟩, ⟨⟨2, ![50000, 128]⟩, h3⟩,
         ⟨⟨2, ![50000, 128]⟩, h4⟩, ⟨⟨2, ![50000, 128]⟩, h5⟩, ⟨⟨2, ![50000, 128]⟩, h6⟩] :
          List ((s : Shape) × (s.Idx → EReal))).map (·.1)) ⟨2, ![50000, 896]⟩ (1 : Fin 2)) :
    (concatenate ⟨2, ![50000, 896]⟩ (1 : Fin 2)
      [⟨⟨2, ![50000, 128]⟩, h0⟩, ⟨⟨2, ![50000, 128]⟩, h1⟩, ⟨⟨2, ![50000, 128]⟩, h2⟩, ⟨⟨2, ![50000, 128]⟩, h3⟩,
       ⟨⟨2, ![50000, 128]⟩, h4⟩, ⟨⟨2, ![50000, 128]⟩, h5⟩, ⟨⟨2, ![50000, 128]⟩, h6⟩] hc : Spec.Mat 50000 896)
      = Spec.emb7 h0 h1 h2 h3 h4 h5 h6 := by
  funext j
  have hj : (j 1).val < 896 := idx2_lt1 j
  have hlt : (j 1).val / 128 < 7 := by omega
  unfold Spec.emb7
  generalize hk : (j 1).val / 128 = k at hlt
  interval_cases k
  · exact concatenate_apply_piece (1 : Fin 2) _ hc j 0 (by show (0 : ℕ) < 7; norm_num) _ _ rfl rfl (0) rfl
      (ix2 (j 0) ⟨(j 1).val % 128, Nat.mod_lt _ (by norm_num)⟩)
      (fun b hb => by
        match b with
        | ⟨0, _⟩ => rfl
        | ⟨1, _⟩ => exact absurd rfl hb)
      (by show 0 + (j 1).val % 128 = (j 1).val; omega)
  · exact concatenate_apply_piece (1 : Fin 2) _ hc j 1 (by show (1 : ℕ) < 7; norm_num) _ _ rfl rfl (128) rfl
      (ix2 (j 0) ⟨(j 1).val % 128, Nat.mod_lt _ (by norm_num)⟩)
      (fun b hb => by
        match b with
        | ⟨0, _⟩ => rfl
        | ⟨1, _⟩ => exact absurd rfl hb)
      (by show 128 + (j 1).val % 128 = (j 1).val; omega)
  · exact concatenate_apply_piece (1 : Fin 2) _ hc j 2 (by show (2 : ℕ) < 7; norm_num) _ _ rfl rfl (256) rfl
      (ix2 (j 0) ⟨(j 1).val % 128, Nat.mod_lt _ (by norm_num)⟩)
      (fun b hb => by
        match b with
        | ⟨0, _⟩ => rfl
        | ⟨1, _⟩ => exact absurd rfl hb)
      (by show 256 + (j 1).val % 128 = (j 1).val; omega)
  · exact concatenate_apply_piece (1 : Fin 2) _ hc j 3 (by show (3 : ℕ) < 7; norm_num) _ _ rfl rfl (384) rfl
      (ix2 (j 0) ⟨(j 1).val % 128, Nat.mod_lt _ (by norm_num)⟩)
      (fun b hb => by
        match b with
        | ⟨0, _⟩ => rfl
        | ⟨1, _⟩ => exact absurd rfl hb)
      (by show 384 + (j 1).val % 128 = (j 1).val; omega)
  · exact concatenate_apply_piece (1 : Fin 2) _ hc j 4 (by show (4 : ℕ) < 7; norm_num) _ _ rfl rfl (512) rfl
      (ix2 (j 0) ⟨(j 1).val % 128, Nat.mod_lt _ (by norm_num)⟩)
      (fun b hb => by
        match b with
        | ⟨0, _⟩ => rfl
        | ⟨1, _⟩ => exact absurd rfl hb)
      (by show 512 + (j 1).val % 128 = (j 1).val; omega)
  · exact concatenate_apply_piece (1 : Fin 2) _ hc j 5 (by show (5 : ℕ) < 7; norm_num) _ _ rfl rfl (640) rfl
      (ix2 (j 0) ⟨(j 1).val % 128, Nat.mod_lt _ (by norm_num)⟩)
      (fun b hb => by
        match b with
        | ⟨0, _⟩ => rfl
        | ⟨1, _⟩ => exact absurd rfl hb)
      (by show 640 + (j 1).val % 128 = (j 1).val; omega)
  · exact concatenate_apply_piece (1 : Fin 2) _ hc j 6 (by show (6 : ℕ) < 7; norm_num) _ _ rfl rfl (768) rfl
      (ix2 (j 0) ⟨(j 1).val % 128, Nat.mod_lt _ (by norm_num)⟩)
      (fun b hb => by
        match b with
        | ⟨0, _⟩ => rfl
        | ⟨1, _⟩ => exact absurd rfl hb)
      (by show 768 + (j 1).val % 128 = (j 1).val; omega)

theorem pool_rows
    (ds : ScatterDims ⟨2, ![128, 896]⟩ ⟨2, ![50000, 1]⟩ ⟨2, ![50000, 896]⟩)
    (huw : ds.updateWindowDims = [1]) (hiw : ds.insertedWindowDims = [0]) (hsd : ds.scatterDimsToOperandDims = [0])
    (hivd : ds.indexVectorDim = 1)
    (Z : Spec.Mat 128 896) (hZ : ∀ j, Z j = 0) (bc : IVec ⟨2, ![50000, 1]⟩ 32) (E : Spec.Mat 50000 896) :
    (Host.scatterAdd (F := Ideal) (φ := .f32) ds Z bc E : Spec.Mat 128 896) = Spec.pool bc E := by
  funext j
  obtain ⟨g, q, rfl⟩ : ∃ (g : Fin 128) (q : Fin 896), j = ix2 g q := ⟨j 0, j 1, eq_ix2 j⟩
  rw [LibRows.scatterAdd_rows_apply ds huw hiw hsd hivd Z bc E g q, hZ, zero_add]
  rfl

end Cert.RefLemmas

end
-- ==== Proof.Val.Host.lean ====
/-
  What the host operations between the regions leave in the buffers the regions read, as the specification's functions.
-/
import proofs.«431182_j60713657696761_1_alg».proof.Proof.Gen.KernelIdeal.Regions
import proofs.«431182_j60713657696761_1_alg».proof.Proof.Spec
import proofs.«431182_j60713657696761_1_alg».proof.Proof.RefLemmas
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.StableHlo

section Rows

variable {α : Type}

def srcVec (ei : S2x800000.Idx → α) : S800000.Idx → α :=
  shapeCast S800000 (extractStridedSlice S1x800000 ![0, 0] ei slices_S2x800000_S1x800000_0_0) shapeCasts_S1x800000_S800000

def dstVec (ei : S2x800000.Idx → α) : S800000.Idx → α :=
  shapeCast S800000 (extractStridedSlice S1x800000 ![1, 0] ei slices_S2x800000_S1x800000_1_0) shapeCasts_S1x800000_S800000

end Rows

theorem agg_of_vecs (ei : IVec S2x800000 32) (h : Spec.Mat 50000 128) :
    (Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (dstVec ei))
        (Host.gather gather_S50000x128_S800000x1_S800000x128_1_0_n_n_0_1_1128 h
          (broadcastInDim S800000x1 ![0] bcast_S800000_S800000x1_0
            (select (cmpi .slt (srcVec ei) (broadcastInDim S800000 ![] bcast_S_S800000 (constantI S_ 32 0#32)))
              (addi (srcVec ei) (broadcastInDim S800000 ![] bcast_S_S800000 (constantI S_ 32 50000#32)))
              (srcVec ei)))) : Spec.Mat 50000 128)
      = Spec.agg ei h := by
  unfold srcVec dstVec
  rw [RefLemmas.srcCol_chain, RefLemmas.dstCol_chain, RefLemmas.zeros_mat]
  exact RefLemmas.agg_eq _ rfl rfl rfl rfl rfl _ rfl rfl rfl rfl ei h

theorem weight_cut (s : Nat) (hs6 : s < 6) (i : Fin 6) (hi : i = ⟨s, hs6⟩) (cw : S6x128x128.Idx → EReal)
    (hs : S6x128x128.Slices ![s, 0, 0] S1x128x128) :
    (shapeCast S128x128 (extractStridedSlice S1x128x128 ![s, 0, 0] cw hs) shapeCasts_S1x128x128_S128x128 : Spec.Mat 128 128)
      = Spec.W6 cw i := by
  subst hi
  exact RefLemmas.weight_slice s hs6 cw hs _

theorem bias_cut (s : Nat) (hs6 : s < 6) (i : Fin 6) (hi : i = ⟨s, hs6⟩) (cb : S6x128.Idx → EReal)
    (hs : S6x128.Slices ![s, 0] S1x128) :
    (shapeCast S1x128 (shapeCast S128 (extractStridedSlice S1x128 ![s, 0] cb hs) shapeCasts_S1x128_S128) shapeCasts_S128_S1x128 : Spec.Mat 1 128)
      = Spec.B6 cb i := by
  subst hi
  rw [RefLemmas.bias_slice s hs6 cb hs, RefLemmas.row_reshape, RefLemmas.row_bvec]

variable {F : FTy → Type} [FloatOps F]

theorem s0_src (W : Valuation τ sig (Elt F)) :
    StableHlo.after (hostOps0 (F := F)) W (Proc.devRef .tc main_v1) = srcVec (W (Proc.devRef .tc main_arg1)) := by
  after_results_simp <;> rfl

theorem s0_dst (W : Valuation τ sig (Elt F)) :
    StableHlo.after (hostOps0 (F := F)) W (Proc.devRef .tc main_v3) = dstVec (W (Proc.devRef .tc main_arg1)) := by
  after_results_simp <;> rfl

theorem s0_ids (W : Valuation τ sig (Elt Ideal)) :
    StableHlo.after (hostOps0 (F := Ideal)) W (Proc.devRef .tc main_v4) = Spec.col (W (Proc.devRef .tc main_arg2)) := by
  have e : StableHlo.after (hostOps0 (F := Ideal)) W (Proc.devRef .tc main_v4)
      = shapeCast S50000x1 (W (Proc.devRef .tc main_arg2)) shapeCasts_S50000_S50000x1 := by
    after_results_simp <;> rfl
  exact e.trans (RefLemmas.col_reshape _ _)

theorem s0_bias (W : Valuation τ sig (Elt Ideal)) :
    StableHlo.after (hostOps0 (F := Ideal)) W (Proc.devRef .tc main_v5) = Spec.row (W (Proc.devRef .tc main_arg4)) := by
  have e : StableHlo.after (hostOps0 (F := Ideal)) W (Proc.devRef .tc main_v5)
      = shapeCast S1x128 (W (Proc.devRef .tc main_arg4)) shapeCasts_S128_S1x128 := by
    after_results_simp <;> rfl
  exact e.trans (RefLemmas.row_reshape _ _)

theorem s7_bias1 (W : Valuation τ sig (Elt Ideal)) :
    StableHlo.after (hostOps7 (F := Ideal)) W (Proc.devRef .tc main_v133) = Spec.row (W (Proc.devRef .tc main_arg10)) := by
  have e : StableHlo.after (hostOps7 (F := Ideal)) W (Proc.devRef .tc main_v133)
      = shapeCast S1x128 (W (Proc.devRef .tc main_arg10)) shapeCasts_S128_S1x128 := by
    after_results_simp <;> rfl
  exact e.trans (RefLemmas.row_reshape _ _)

theorem s7_bias2 (W : Valuation τ sig (Elt Ideal)) :
    StableHlo.after (hostOps7 (F := Ideal)) W (Proc.devRef .tc main_v134) = Spec.row (W (Proc.devRef .tc main_arg12)) := by
  have e : StableHlo.after (hostOps7 (F := Ideal)) W (Proc.devRef .tc main_v134)
      = shapeCast S1x128 (W (Proc.devRef .tc main_arg12)) shapeCasts_S128_S1x128 := by
    after_results_simp <;> rfl
  exact e.trans (RefLemmas.row_reshape _ _)

end Cert.KernelIdeal.Val

end
-- ==== Proof.Val.Tile.lean ====
/-
  One tile of 1000 rows of a layer without residual, entry by entry over the extended reals.
-/
import proofs.«431182_j60713657696761_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

theorem lhs_tile_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

theorem lhs_tile_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q

theorem rhs_tile_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q

theorem rhs_tile_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

theorem tile_mul_apply {φ₁ φ₂ : FTy} (a : FVec Ideal S1000x128 φ₁) (b : FVec Ideal S128x128 φ₂) (p : Fin 1000) (q : Fin 128) :
    matmul dot_S1000x128_S128x128_S1000x128_1_0_0_1_n_n none a b (constant S1000x128 .f32 0x00000000#32) (ix2 p q)
      = ∑ k : Fin 128, a (ix2 p k) * b (ix2 k q) := by
  refine (Ideal.matmul_constant_zero_apply dot_S1000x128_S128x128_S1000x128_1_0_0_1_n_n none a b (ix2 p q)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k :=
    funext fun d => Fin.ext (by
      match d with
      | ⟨0, _⟩ => exact lhs_tile_0 _ _
      | ⟨1, _⟩ => exact (lhs_tile_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q :=
    funext fun d => Fin.ext (by
      match d with
      | ⟨0, _⟩ => exact (rhs_tile_0 _ _).trans hk
      | ⟨1, _⟩ => exact rhs_tile_1 _ _)
  rw [el, er]

theorem bias_rows_apply (b : FVec Ideal S1x128 .f32) (p : Fin 1000) (q : Fin 128) :
    broadcastTo S1000x128 (shapeCast S1x128 b shapeCasts_S1x128_S1x128) broadcasts_S1x128_S1000x128 (ix2 p q)
      = b (ix2 (0 : Fin 1) q) := by
  rw [shapeCast_self]
  refine broadcastTo_apply b broadcasts_S1x128_S1000x128 (ix2 p q) (ix2 (0 : Fin 1) q) (fun d => ?_)
  match d with
  | ⟨0, _⟩ => rfl
  | ⟨1, _⟩ => rfl

theorem pre_tile_apply (x : Vec Ideal S1000x128 .f32) (w : Vec Ideal S128x128 .f32) (b : Vec Ideal S1x128 .f32)
    (p : Fin 1000) (q : Fin 128) :
    k0_pay1 x w b (ix2 p q) = (∑ k : Fin 128, x (ix2 p k) * w (ix2 k q)) + b (ix2 (0 : Fin 1) q) := by
  unfold k0_pay1
  refine (addf_apply _ _ _).trans ?_
  refine congrArg₂ (· + ·) ?_ (bias_rows_apply b p q)
  exact tile_mul_apply _ _ p q

theorem rect_apply {s : Shape} (v : FVec Ideal s .f32) (i : s.Idx) :
    maximumf v (broadcast s (Scalar.ofBits (F := Ideal) .f32 0x00000000#32)) i = max (v i) 0 := by
  refine (maximumf_apply _ _ _).trans ?_
  refine congrArg (max (v i)) ?_
  exact Ideal.ofBits_zero_f32

theorem affine_tile_apply (z : FVec Ideal S1000x128 .f32) (w : Vec Ideal S128x128 .f32) (b : Vec Ideal S1x128 .f32)
    (p : Fin 1000) (q : Fin 128) :
    addf (matmul dot_S1000x128_S128x128_S1000x128_1_0_0_1_n_n none (truncf .bf16 z bitsLt_bf16_f32)
        (truncf .bf16 (shapeCast S128x128 w shapeCasts_S128x128_S128x128) bitsLt_bf16_f32) (constant S1000x128 .f32 0x00000000#32))
      (broadcastTo S1000x128 (shapeCast S1x128 b shapeCasts_S1x128_S1x128) broadcasts_S1x128_S1000x128) (ix2 p q)
      = (∑ k : Fin 128, z (ix2 p k) * w (ix2 k q)) + b (ix2 (0 : Fin 1) q) := by
  refine (addf_apply _ _ _).trans ?_
  refine congrArg₂ (· + ·) ?_ (bias_rows_apply b p q)
  refine (tile_mul_apply _ _ p q).trans ?_
  rw [shapeCast_self]
  rfl

theorem layer_tile_apply (h a : Vec Ideal S1000x128 .f32) (w1 : Vec Ideal S128x128 .f32) (b1 : Vec Ideal S1x128 .f32)
    (w2 : Vec Ideal S128x128 .f32) (b2 : Vec Ideal S1x128 .f32) (p : Fin 1000) (q : Fin 128) :
    k1_pay2 h a w1 b1 w2 b2 (ix2 p q)
      = max ((∑ k : Fin 128, max ((∑ l : Fin 128, (h (ix2 p l) + a (ix2 p l)) * w1 (ix2 l k)) + b1 (ix2 (0 : Fin 1) k)) 0
          * w2 (ix2 k q)) + b2 (ix2 (0 : Fin 1) q)) 0 := by
  unfold k1_pay2
  refine (rect_apply _ _).trans ?_
  refine congrArg (max · 0) ?_
  refine (affine_tile_apply _ w2 b2 p q).trans ?_
  refine congrArg (· + b2 (ix2 (0 : Fin 1) q)) ?_
  refine Finset.sum_congr rfl fun k _ => ?_
  refine congrArg (· * w2 (ix2 k q)) ?_
  refine (rect_apply _ _).trans ?_
  refine congrArg (max · 0) ?_
  refine (affine_tile_apply _ w1 b1 p k).trans ?_
  refine congrArg (· + b1 (ix2 (0 : Fin 1) k)) ?_
  refine Finset.sum_congr rfl fun l _ => ?_
  refine congrArg (· * w1 (ix2 l k)) ?_
  rw [shapeCast_self, shapeCast_self]
  rfl

theorem k3_pay2_eq : @k3_pay2 Ideal _ = @k1_pay2 Ideal _ := rfl
theorem k5_pay2_eq : @k5_pay2 Ideal _ = @k1_pay2 Ideal _ := rfl

theorem k1_pay1_eq (r : Vec Ideal S1000x128 .f32) : k1_pay1 r = r := by unfold k1_pay1; exact shapeCast_self _ _
theorem k3_pay1_eq (r : Vec Ideal S1000x128 .f32) : k3_pay1 r = r := by unfold k3_pay1; exact shapeCast_self _ _
theorem k5_pay1_eq (r : Vec Ideal S1000x128 .f32) : k5_pay1 r = r := by unfold k5_pay1; exact shapeCast_self _ _

theorem layer1_tile_apply (h a : Vec Ideal S1000x128 .f32) (w1 : Vec Ideal S128x128 .f32) (b1 : Vec Ideal S1x128 .f32)
    (w2 : Vec Ideal S128x128 .f32) (b2 : Vec Ideal S1x128 .f32) (p : Fin 1000) (q : Fin 128) :
    k1_pay2 h a w1 b1 w2 b2 (ix2 p q)
      = max ((∑ k : Fin 128, max ((∑ l : Fin 128, (h (ix2 p l) + a (ix2 p l)) * w1 (ix2 l k)) + b1 (ix2 (0 : Fin 1) k)) 0
          * w2 (ix2 k q)) + b2 (ix2 (0 : Fin 1) q)) 0 :=
  layer_tile_apply h a w1 b1 w2 b2 p q
theorem layer3_tile_apply (h a : Vec Ideal S1000x128 .f32) (w1 : Vec Ideal S128x128 .f32) (b1 : Vec Ideal S1x128 .f32)
    (w2 : Vec Ideal S128x128 .f32) (b2 : Vec Ideal S1x128 .f32) (p : Fin 1000) (q : Fin 128) :
    k3_pay2 h a w1 b1 w2 b2 (ix2 p q)
      = max ((∑ k : Fin 128, max ((∑ l : Fin 128, (h (ix2 p l) + a (ix2 p l)) * w1 (ix2 l k)) + b1 (ix2 (0 : Fin 1) k)) 0
          * w2 (ix2 k q)) + b2 (ix2 (0 : Fin 1) q)) 0 := by
  rw [k3_pay2_eq]; exact layer_tile_apply h a w1 b1 w2 b2 p q
theorem layer5_tile_apply (h a : Vec Ideal S1000x128 .f32) (w1 : Vec Ideal S128x128 .f32) (b1 : Vec Ideal S1x128 .f32)
    (w2 : Vec Ideal S128x128 .f32) (b2 : Vec Ideal S1x128 .f32) (p : Fin 1000) (q : Fin 128) :
    k5_pay2 h a w1 b1 w2 b2 (ix2 p q)
      = max ((∑ k : Fin 128, max ((∑ l : Fin 128, (h (ix2 p l) + a (ix2 p l)) * w1 (ix2 l k)) + b1 (ix2 (0 : Fin 1) k)) 0
          * w2 (ix2 k q)) + b2 (ix2 (0 : Fin 1) q)) 0 := by
  rw [k5_pay2_eq]; exact layer_tile_apply h a w1 b1 w2 b2 p q

end Cert.KernelIdeal.Val

end
-- ==== Proof.Val.SpecAt.lean ====
/-
  The specification's node maps read at one entry.
-/
import proofs.«431182_j60713657696761_1_alg».proof.Proof.Spec

noncomputable section

open scoped BigOperators

namespace Cert.KernelIdeal.Val

open Idealize.ShloMosaic Idealize.ShloMosaic.ValueIdx Cert.Spec

theorem affineN_at (X : Mat 50000 128) (W : Mat 128 128) (b : Mat 1 128) (r : Fin 50000) (q : Fin 128) :
    affineN X W b (ix2 r q) = (∑ k : Fin 128, X (ix2 r k) * W (ix2 k q)) + b (ix2 (0 : Fin 1) q) := rfl

theorem relu_layerZ_at (h agg : Mat 50000 128) (W1 : Mat 128 128) (b1 : Mat 1 128) (W2 : Mat 128 128) (b2 : Mat 1 128)
    (r : Fin 50000) (q : Fin 128) :
    relu (layerZ h agg W1 b1 W2 b2) (ix2 r q)
      = max ((∑ k : Fin 128, max ((∑ l : Fin 128, (h (ix2 r l) + agg (ix2 r l)) * W1 (ix2 l k)) + b1 (ix2 (0 : Fin 1) k)) 0
          * W2 (ix2 k q)) + b2 (ix2 (0 : Fin 1) q)) 0 := rfl

end Cert.KernelIdeal.Val

end
-- ==== Proof.Val.Reg0Val.lean ====
/-
  Region 0's result: after its 50 points the output array is the affine map of the arrays the region finds.
-/
import proofs.«431182_j60713657696761_1_alg».proof.Proof.KI.Reg0
import proofs.«431182_j60713657696761_1_alg».proof.Proof.Val.Tile
import proofs.«431182_j60713657696761_1_alg».proof.Proof.Val.SpecAt
import Idealize.ShloMosaic.Lib.Pipeline.Value

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem x_tile0 (c : Dev nD) (t : Fin cfg0.N) (p : Fin 1000) (k : Fin 128) (r : Fin 50000) (hr : r.val = t.val * 1000 + p.val) :
    (Hand.iblk0 V c 0 t : Vec Ideal S1000x128 .f32) (ix2 p k) = (V c main_arg0 : S50000x128.Idx → EReal) (ix2 r k) := by
  obtain ⟨e0, e1, -⟩ := where0 t
  unfold Hand.iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 1000 + 1 * p.val = r.val; omega
  | ⟨1, _⟩ => show win0_0.index t (1 : Fin 2) * 128 + 1 * k.val = k.val; omega

theorem w_tile0 (c : Dev nD) (t : Fin cfg0.N) (k q : Fin 128) :
    (Hand.iblk0 V c 1 t : Vec Ideal S128x128 .f32) (ix2 k q) = (V c main_arg3 : S128x128.Idx → EReal) (ix2 k q) := by
  obtain ⟨-, -, e0, e1, -⟩ := where0 t
  unfold Hand.iblk0
  rw [View.read_apply]
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem b_tile0 (c : Dev nD) (t : Fin cfg0.N) (q : Fin 128) :
    (Hand.iblk0 V c 2 t : Vec Ideal S1x128 .f32) (ix2 (0 : Fin 1) q) = (V c main_v5 : S1x128.Idx → EReal) (ix2 (0 : Fin 1) q) := by
  obtain ⟨-, -, -, -, e0, e1, -⟩ := where0 t
  unfold Hand.iblk0
  rw [View.read_apply]
  show V c main_v5 (((cfg0.win 2).blk t).view.emb (ix2 (0 : Fin 1) q)) = V c main_v5 (ix2 (0 : Fin 1) q)
  refine congrArg (V c main_v5) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

theorem wrote0 (c : Dev nD) (t : Fin cfg0.N) :
    (Hand.dat0 (F := Ideal) V c).flushed 3 t
      = ((cfg0.win 3).blk t).view.read (Elt Ideal) (Cert.Spec.affineN (V c main_arg0) (V c main_arg3) (V c main_v5)) := by
  show (cfg0.win 3).cut (grid0.coords t) ((Hand.dat0 (F := Ideal) V c).after 3 t) = _
  rw [Hand.after0_3]
  unfold Hand.out0_3
  rw [View.canon_unit_zero zeros2]
  simp only [View.ld_unit_zero (S := S1000x128) zeros2, View.ld_unit_zero (S := S128x128) zeros2, View.ld_unit_zero (S := S1x128) zeros2]
  obtain ⟨-, -, -, -, -, -, e0, e1⟩ := where0 t
  funext j
  obtain ⟨p, q, rfl⟩ : ∃ (p : Fin 1000) (q : Fin 128), j = ix2 p q := ⟨j 0, j 1, eq_ix2 j⟩
  have ht : t.val < 50 := t.isLt
  have hr : t.val * 1000 + p.val < 50000 := by have := p.isLt; omega
  have hj : ((cfg0.win 3).blk t).view.emb (ix2 p q) = (ix2 (⟨t.val * 1000 + p.val, hr⟩ : Fin 50000) q : S50000x128.Idx) := by
    funext a; apply Fin.ext
    match a with
    | ⟨0, _⟩ => show win0_3.index t (0 : Fin 2) * 1000 + 1 * p.val = t.val * 1000 + p.val; omega
    | ⟨1, _⟩ => show win0_3.index t (1 : Fin 2) * 128 + 1 * q.val = q.val; omega
  show k0_pay1 (Hand.iblk0 V c 0 t) (Hand.iblk0 V c 1 t) (Hand.iblk0 V c 2 t) (ix2 p q)
    = Cert.Spec.affineN (V c main_arg0) (V c main_arg3) (V c main_v5) (((cfg0.win 3).blk t).view.emb (ix2 p q))
  rw [hj]
  refine (pre_tile_apply _ _ _ p q).trans ?_
  rw [affineN_at]
  refine congrArg₂ (· + ·) (Finset.sum_congr rfl fun k _ => ?_) (b_tile0 V c t q)
  exact congrArg₂ (· * ·) (x_tile0 V c t p k ⟨t.val * 1000 + p.val, hr⟩ rfl) (w_tile0 V c t k q)

theorem in_tile0 (t : Fin cfg0.N) (i : S50000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v6).slice (win0_3.rect t)).set ↔ _
  rw [View.set_slice_whole, Rect.mem_set_unit]
  exact Iff.rfl

theorem all_rows0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 50 := N_0
  let t : Fin cfg0.N := ⟨(i 0).val / 1000, by rw [hN]; omega⟩
  obtain ⟨-, -, -, -, -, -, e0, e1⟩ := where0 t
  have ht : t.val = (i 0).val / 1000 := rfl
  refine ⟨t, flush0_3 t, ?_⟩
  rw [in_tile0]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 128 ≤ (i 1).val ∧ (i 1).val < win0_3.index t (1 : Fin 2) * 128 + 128; omega

theorem final0 (c : Dev nD) :
    (Hand.dat0 (F := Ideal) V c).arrAt 3 cfg0.N = Cert.Spec.affineN (V c main_arg0) (V c main_arg3) (V c main_v5) :=
  (Hand.dat0 (F := Ideal) V c).arrAt_eq_of_cover 3 (Cert.Spec.affineN (V c main_arg0) (V c main_arg3) (V c main_v5))
    (fun t _ => wrote0 V c t) all_rows0

end Cert.KernelIdeal.Val

end
-- ==== Proof.Val.Layer0.lean ====
/-
  The program's buffers as the specification's terms of the launch arguments: the terms, and region 0.
-/
import proofs.«431182_j60713657696761_1_alg».proof.Proof.KI.Fold
import proofs.«431182_j60713657696761_1_alg».proof.Proof.Val.Host
import proofs.«431182_j60713657696761_1_alg».proof.Proof.Val.Reg0Val

set_option maxRecDepth 16384

noncomputable section

namespace Cert.KernelIdeal.Val

open Cert.KernelIdeal Cert.KernelIdeal.Gen
open Idealize.ShloMosaic Idealize.ShloMosaic.TcCoe Idealize.ShloMosaic.StableHlo

macro "keep_back" : tactic => `(tactic| repeat (first
    | (rw [Hand.W16_of]; rotate_left; decide)
    | (rw [Hand.W15_of]; rotate_left; decide)
    | (rw [Hand.W14_of]; rotate_left; decide)
    | (rw [Hand.W13_of]; rotate_left; decide)
    | (rw [Hand.W12_of]; rotate_left; decide)
    | (rw [Hand.W11_of]; rotate_left; decide)
    | (rw [Hand.W10_of]; rotate_left; decide)
    | (rw [Hand.W9_of]; rotate_left; decide)
    | (rw [Hand.W8_of]; rotate_left; decide)
    | (rw [Hand.W7_of]; rotate_left; decide)
    | (rw [Hand.W6_of]; rotate_left; decide)
    | (rw [Hand.W5_of]; rotate_left; decide)
    | (rw [Hand.W4_of]; rotate_left; decide)
    | (rw [Hand.W3_of]; rotate_left; decide)
    | (rw [Hand.W2_of]; rotate_left; decide)
    | (rw [Hand.W1_of]; rotate_left; decide)))

section Terms

variable (m : (ℓ : Loc nD τ sig) → Buf (Elt Ideal) ℓ) (c : Dev nD)

def edges : IVec S2x800000 32 := Hand.W0 m c (Proc.devRef .tc main_arg1)

def h0 : Spec.Mat 50000 128 :=
  Spec.affineN (Hand.W0 m c (Proc.devRef .tc main_arg0)) (Hand.W0 m c (Proc.devRef .tc main_arg3))
    (Spec.row (Hand.W0 m c (Proc.devRef .tc main_arg4)))

def layer (i : Fin 6) (h : Spec.Mat 50000 128) : Spec.Mat 50000 128 :=
  Spec.layerZ h (Spec.agg (edges m c) h)
    (Spec.W6 (Hand.W0 m c (Proc.devRef .tc main_arg5)) i) (Spec.B6 (Hand.W0 m c (Proc.devRef .tc main_arg6)) i)
    (Spec.W6 (Hand.W0 m c (Proc.devRef .tc main_arg7)) i) (Spec.B6 (Hand.W0 m c (Proc.devRef .tc main_arg8)) i)

def res0 : Spec.Mat 50000 128 := h0 m c

def h1 : Spec.Mat 50000 128 := Spec.relu (layer m c 0 (h0 m c))
def res1 : Spec.Mat 50000 128 := res0 m c
def res2 : Spec.Mat 50000 128 := Spec.addN (layer m c 1 (h1 m c)) (res1 m c)
def h2 : Spec.Mat 50000 128 := Spec.relu (res2 m c)
def h3 : Spec.Mat 50000 128 := Spec.relu (layer m c 2 (h2 m c))
def res3 : Spec.Mat 50000 128 := res2 m c
def res4 : Spec.Mat 50000 128 := Spec.addN (layer m c 3 (h3 m c)) (res3 m c)
def h4 : Spec.Mat 50000 128 := Spec.relu (res4 m c)
def h5 : Spec.Mat 50000 128 := Spec.relu (layer m c 4 (h4 m c))
def res5 : Spec.Mat 50000 128 := res4 m c
def res6 : Spec.Mat 50000 128 := Spec.addN (layer m c 5 (h5 m c)) (res5 m c)
def h6 : Spec.Mat 50000 128 := Spec.relu (res6 m c)

theorem src_at1 : Hand.W1 m c (Proc.devRef .tc main_v1) = srcVec (edges m c) := s0_src (Hand.W0 m c)
theorem dst_at1 : Hand.W1 m c (Proc.devRef .tc main_v3) = dstVec (edges m c) := s0_dst (Hand.W0 m c)
theorem src_at2 : Hand.W2 m c (Proc.devRef .tc main_v1) = srcVec (edges m c) := by keep_back; exact src_at1 m c
theorem dst_at2 : Hand.W2 m c (Proc.devRef .tc main_v3) = dstVec (edges m c) := by keep_back; exact dst_at1 m c
theorem src_at4 : Hand.W4 m c (Proc.devRef .tc main_v1) = srcVec (edges m c) := by keep_back; exact src_at1 m c
theorem dst_at4 : Hand.W4 m c (Proc.devRef .tc main_v3) = dstVec (edges m c) := by keep_back; exact dst_at1 m c
theorem src_at6 : Hand.W6 m c (Proc.devRef .tc main_v1) = srcVec (edges m c) := by keep_back; exact src_at1 m c
theorem dst_at6 : Hand.W6 m c (Proc.devRef .tc main_v3) = dstVec (edges m c) := by keep_back; exact dst_at1 m c
theorem src_at8 : Hand.W8 m c (Proc.devRef .tc main_v1) = srcVec (edges m c) := by keep_back; exact src_at1 m c
theorem dst_at8 : Hand.W8 m c (Proc.devRef .tc main_v3) = dstVec (edges m c) := by keep_back; exact dst_at1 m c
theorem src_at10 : Hand.W10 m c (Proc.devRef .tc main_v1) = srcVec (edges m c) := by keep_back; exact src_at1 m c
theorem dst_at10 : Hand.W10 m c (Proc.devRef .tc main_v3) = dstVec (edges m c) := by keep_back; exact dst_at1 m c
theorem src_at12 : Hand.W12 m c (Proc.devRef .tc main_v1) = srcVec (edges m c) := by keep_back; exact src_at1 m c
theorem dst_at12 : Hand.W12 m c (Proc.devRef .tc main_v3) = dstVec (edges m c) := by keep_back; exact dst_at1 m c

theorem out0 : Hand.W2 m c (Proc.devRef .tc main_v6) = h0 m c := by
  have e0 : Hand.W1 m c (Proc.devRef .tc main_arg0) = Hand.W0 m c (Proc.devRef .tc main_arg0) := by keep_back
  have e3 : Hand.W1 m c (Proc.devRef .tc main_arg3) = Hand.W0 m c (Proc.devRef .tc main_arg3) := by keep_back
  have e5 : Hand.W1 m c (Proc.devRef .tc main_v5) = Spec.row (Hand.W0 m c (Proc.devRef .tc main_arg4)) :=
    s0_bias (Hand.W0 m c)
  rw [Hand.W_out0, final0]
  beta_reduce
  rw [e0, e3, e5]
  rfl

end Terms

end Cert.KernelIdeal.Val

end
-- ==== Proof.Val.Host1.lean ====
/-
  The host operations before a layer region, for any valuation they start from: the weights and biases sliced out of
  their stacks and the neighbourhood sum of the feature array.
-/
import proofs.«431182_j60713657696761_1_alg».proof.Proof.Val.Host

set_option maxRecDepth 16384

noncomputable section

namespace Cert.KernelIdeal.Val

open Cert.KernelIdeal Cert.KernelIdeal.Gen
open Idealize.ShloMosaic Idealize.ShloMosaic.TcCoe Idealize.ShloMosaic.StableHlo

variable {F : FTy → Type} [FloatOps F]

set_option maxHeartbeats 4000000 in

theorem s1_agg_term (W : Valuation τ sig (Elt F)) :
    StableHlo.after (hostOps1 (F := F)) W (Proc.devRef .tc main_v16)
      = Host.scatterAdd (F := F) scatter_S50000x128_S800000x1_S800000x128_1_0_0_1
          (broadcastInDim S50000x128 ![] bcast_S_S50000x128 (constant (F := F) S_ .f32 0x00000000#32))
          (broadcastInDim S800000x1 ![0] bcast_S800000_S800000x1_0 (W (Proc.devRef .tc main_v3)))
          (Host.gather gather_S50000x128_S800000x1_S800000x128_1_0_n_n_0_1_1128 (W (Proc.devRef .tc main_v6))
            (broadcastInDim S800000x1 ![0] bcast_S800000_S800000x1_0
              (select (cmpi .slt (W (Proc.devRef .tc main_v1)) (broadcastInDim S800000 ![] bcast_S_S800000 (constantI S_ 32 0#32)))
                (addi (W (Proc.devRef .tc main_v1)) (broadcastInDim S800000 ![] bcast_S_S800000 (constantI S_ 32 50000#32)))
                (W (Proc.devRef .tc main_v1))))) := by
  after_results_simp <;> rfl

set_option maxHeartbeats 4000000 in

theorem s1_w1_term (W : Valuation τ sig (Elt F)) :
    StableHlo.after (hostOps1 (F := F)) W (Proc.devRef .tc main_v18)
      = shapeCast S128x128 (extractStridedSlice S1x128x128 ![0, 0, 0] (W (Proc.devRef .tc main_arg5)) slices_S6x128x128_S1x128x128_0_0_0)
          shapeCasts_S1x128x128_S128x128 := by
  after_results_simp <;> rfl

set_option maxHeartbeats 4000000 in

theorem s1_b1_term (W : Valuation τ sig (Elt F)) :
    StableHlo.after (hostOps1 (F := F)) W (Proc.devRef .tc main_v25)
      = shapeCast S1x128 (shapeCast S128 (extractStridedSlice S1x128 ![0, 0] (W (Proc.devRef .tc main_arg6)) slices_S6x128_S1x128_0_0)
          shapeCasts_S1x128_S128) shapeCasts_S128_S1x128 := by
  after_results_simp <;> rfl

set_option maxHeartbeats 4000000 in

theorem s1_w2_term (W : Valuation τ sig (Elt F)) :
    StableHlo.after (hostOps1 (F := F)) W (Proc.devRef .tc main_v22)
      = shapeCast S128x128 (extractStridedSlice S1x128x128 ![0, 0, 0] (W (Proc.devRef .tc main_arg7)) slices_S6x128x128_S1x128x128_0_0_0)
          shapeCasts_S1x128x128_S128x128 := by
  after_results_simp <;> rfl

set_option maxHeartbeats 4000000 in

theorem s1_b2_term (W : Valuation τ sig (Elt F)) :
    StableHlo.after (hostOps1 (F := F)) W (Proc.devRef .tc main_v26)
      = shapeCast S1x128 (shapeCast S128 (extractStridedSlice S1x128 ![0, 0] (W (Proc.devRef .tc main_arg8)) slices_S6x128_S1x128_0_0)
          shapeCasts_S1x128_S128) shapeCasts_S128_S1x128 := by
  after_results_simp <;> rfl

theorem s1_agg (W : Valuation τ sig (Elt Ideal)) (ei : IVec S2x800000 32)
    (hsrc : W (Proc.devRef .tc main_v1) = srcVec ei) (hdst : W (Proc.devRef .tc main_v3) = dstVec ei) :
    StableHlo.after (hostOps1 (F := Ideal)) W (Proc.devRef .tc main_v16) = Spec.agg ei (W (Proc.devRef .tc main_v6)) := by
  rw [s1_agg_term (F := Ideal) W, hsrc, hdst]
  exact agg_of_vecs ei _

theorem s1_w1 (W : Valuation τ sig (Elt Ideal)) :
    StableHlo.after (hostOps1 (F := Ideal)) W (Proc.devRef .tc main_v18) = Spec.W6 (W (Proc.devRef .tc main_arg5)) (0 : Fin 6) :=
  (s1_w1_term (F := Ideal) W).trans (weight_cut 0 (by norm_num) _ rfl _ _)

theorem s1_b1 (W : Valuation τ sig (Elt Ideal)) :
    StableHlo.after (hostOps1 (F := Ideal)) W (Proc.devRef .tc main_v25) = Spec.B6 (W (Proc.devRef .tc main_arg6)) (0 : Fin 6) :=
  (s1_b1_term (F := Ideal) W).trans (bias_cut 0 (by norm_num) _ rfl _ _)

theorem s1_w2 (W : Valuation τ sig (Elt Ideal)) :
    StableHlo.after (hostOps1 (F := Ideal)) W (Proc.devRef .tc main_v22) = Spec.W6 (W (Proc.devRef .tc main_arg7)) (0 : Fin 6) :=
  (s1_w2_term (F := Ideal) W).trans (weight_cut 0 (by norm_num) _ rfl _ _)

theorem s1_b2 (W : Valuation τ sig (Elt Ideal)) :
    StableHlo.after (hostOps1 (F := Ideal)) W (Proc.devRef .tc main_v26) = Spec.B6 (W (Proc.devRef .tc main_arg8)) (0 : Fin 6) :=
  (s1_b2_term (F := Ideal) W).trans (bias_cut 0 (by norm_num) _ rfl _ _)

end Cert.KernelIdeal.Val

end
-- ==== Proof.Val.Reg1Val.lean ====
/-
  Region 1 at the ideal reading of floats: after the 50 points the layer's output array holds
  `relu (relu ((h + agg) W₁ + b₁) W₂ + b₂)` of the arrays it reads and the carried output holds the carried input. Each
  point writes back its row tile of those, an entry of the map reading only its own row, and the 50 tiles cover the rows.
-/
import proofs.«431182_j60713657696761_1_alg».proof.Proof.KI.Reg1
import proofs.«431182_j60713657696761_1_alg».proof.Proof.Val.Tile
import proofs.«431182_j60713657696761_1_alg».proof.Proof.Val.SpecAt
import Idealize.ShloMosaic.Lib.Pipeline.Value

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD) (t : Fin cfg1.N)

theorem zeros2_1 : (![0, 0] : Fin 2 → Nat) = fun _ => 0 := funext fun a => by fin_cases a <;> rfl

theorem where1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem h_tile1 (p : Fin 1000) (k : Fin 128) (r : Fin 50000) (hr : r.val = t.val * 1000 + p.val) :
    (Hand.iblk1 V c 0 t : Vec Ideal S1000x128 .f32) (ix2 p k) = (V c main_v6 : S50000x128.Idx → EReal) (ix2 r k) := by
  obtain ⟨e0, e1, -⟩ := where1 t
  refine congrArg (V c main_v6) (funext fun a => Fin.ext ?_)
  match a with
  | ⟨0, _⟩ => show win1_0.index t (0 : Fin 2) * 1000 + 1 * p.val = r.val; omega
  | ⟨1, _⟩ => show win1_0.index t (1 : Fin 2) * 128 + 1 * k.val = k.val; omega

theorem agg_tile1 (p : Fin 1000) (k : Fin 128) (r : Fin 50000) (hr : r.val = t.val * 1000 + p.val) :
    (Hand.iblk1 V c 1 t : Vec Ideal S1000x128 .f32) (ix2 p k) = (V c main_v16 : S50000x128.Idx → EReal) (ix2 r k) := by
  obtain ⟨-, -, e0, e1, -⟩ := where1 t
  refine congrArg (V c main_v16) (funext fun a => Fin.ext ?_)
  match a with
  | ⟨0, _⟩ => show win1_1.index t (0 : Fin 2) * 1000 + 1 * p.val = r.val; omega
  | ⟨1, _⟩ => show win1_1.index t (1 : Fin 2) * 128 + 1 * k.val = k.val; omega

theorem w1_tile1 (k q : Fin 128) :
    (Hand.iblk1 V c 2 t : Vec Ideal S128x128 .f32) (ix2 k q) = (V c main_v18 : S128x128.Idx → EReal) (ix2 k q) := by
  obtain ⟨-, -, -, -, e0, e1, -⟩ := where1 t
  refine congrArg (V c main_v18) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

theorem b1_tile1 (q : Fin 128) :
    (Hand.iblk1 V c 3 t : Vec Ideal S1x128 .f32) (ix2 (0 : Fin 1) q) = (V c main_v25 : S1x128.Idx → EReal) (ix2 (0 : Fin 1) q) := by
  obtain ⟨-, -, -, -, -, -, e0, e1, -⟩ := where1 t
  refine congrArg (V c main_v25) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem w2_tile1 (k q : Fin 128) :
    (Hand.iblk1 V c 4 t : Vec Ideal S128x128 .f32) (ix2 k q) = (V c main_v22 : S128x128.Idx → EReal) (ix2 k q) := by
  obtain ⟨-, -, -, -, -, -, -, -, e0, e1, -⟩ := where1 t
  refine congrArg (V c main_v22) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

theorem b2_tile1 (q : Fin 128) :
    (Hand.iblk1 V c 5 t : Vec Ideal S1x128 .f32) (ix2 (0 : Fin 1) q) = (V c main_v26 : S1x128.Idx → EReal) (ix2 (0 : Fin 1) q) := by
  obtain ⟨-, -, -, -, -, -, -, -, -, -, e0, e1, -⟩ := where1 t
  refine congrArg (V c main_v26) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

theorem wrote1_7 :
    (Hand.dat1 (F := Ideal) V c).flushed 7 t
      = ((cfg1.win 7).blk t).view.read (Elt Ideal)
          (Cert.Spec.relu (Cert.Spec.layerZ (V c main_v6) (V c main_v16) (V c main_v18) (V c main_v25) (V c main_v22) (V c main_v26))) := by
  show (cfg1.win 7).cut (grid1.coords t) ((Hand.dat1 (F := Ideal) V c).after 7 t) = _
  rw [Hand.after1_7]
  unfold Hand.out1_7
  rw [View.canon_unit_zero zeros2_1]
  simp only [View.ld_unit_zero (S := S1000x128) zeros2_1, View.ld_unit_zero (S := S128x128) zeros2_1, View.ld_unit_zero (S := S1x128) zeros2_1]
  obtain ⟨-, -, -, -, -, -, -, -, -, -, -, -, -, -, e0, e1, -⟩ := where1 t
  funext j
  obtain ⟨p, q, rfl⟩ : ∃ (p : Fin 1000) (q : Fin 128), j = ix2 p q := ⟨j 0, j 1, eq_ix2 j⟩
  have ht : t.val < 50 := t.isLt
  have hr : t.val * 1000 + p.val < 50000 := by have := p.isLt; omega
  have hj : ((cfg1.win 7).blk t).view.emb (ix2 p q) = (ix2 (⟨t.val * 1000 + p.val, hr⟩ : Fin 50000) q : S50000x128.Idx) := by
    funext a; apply Fin.ext
    match a with
    | ⟨0, _⟩ => show win1_7.index t (0 : Fin 2) * 1000 + 1 * p.val = t.val * 1000 + p.val; omega
    | ⟨1, _⟩ => show win1_7.index t (1 : Fin 2) * 128 + 1 * q.val = q.val; omega
  show k1_pay2 (F := Ideal) _ _ _ _ _ _ (ix2 p q)
    = Cert.Spec.relu (Cert.Spec.layerZ (V c main_v6) (V c main_v16) (V c main_v18) (V c main_v25) (V c main_v22) (V c main_v26))
        (((cfg1.win 7).blk t).view.emb (ix2 p q))
  rw [hj]
  refine ((layer1_tile_apply _ _ _ _ _ _ p q).trans ?_).trans
    (relu_layerZ_at _ _ _ _ _ _ ⟨t.val * 1000 + p.val, hr⟩ q).symm
  refine congrArg (max · 0) ?_
  refine congrArg₂ (· + ·) (Finset.sum_congr rfl fun k _ => ?_) (b2_tile1 V c t q)
  refine congrArg₂ (· * ·) ?_ (w2_tile1 V c t k q)
  refine congrArg (max · 0) ?_
  refine congrArg₂ (· + ·) (Finset.sum_congr rfl fun l _ => ?_) (b1_tile1 V c t k)
  refine congrArg₂ (· * ·) ?_ (w1_tile1 V c t l k)
  exact congrArg₂ (· + ·) (h_tile1 V c t p l ⟨t.val * 1000 + p.val, hr⟩ rfl) (agg_tile1 V c t p l ⟨t.val * 1000 + p.val, hr⟩ rfl)

theorem wrote1_8 :
    (Hand.dat1 (F := Ideal) V c).flushed 8 t = ((cfg1.win 8).blk t).view.read (Elt Ideal) (V c main_v6) := by
  show (cfg1.win 8).cut (grid1.coords t) ((Hand.dat1 (F := Ideal) V c).after 8 t) = _
  rw [Hand.after1_8]
  unfold Hand.out1_8
  rw [View.canon_unit_zero zeros2_1]
  simp only [View.ld_unit_zero (S := S1000x128) zeros2_1]
  rw [k1_pay1_eq]
  obtain ⟨-, -, -, -, -, -, -, -, -, -, -, -, e0, e1, -, -, f0, f1⟩ := where1 t
  funext j
  obtain ⟨p, q, rfl⟩ : ∃ (p : Fin 1000) (q : Fin 128), j = ix2 p q := ⟨j 0, j 1, eq_ix2 j⟩
  show (Hand.iblk1 V c 6 t : Vec Ideal S1000x128 .f32) (ix2 p q) = V c main_v6 (((cfg1.win 8).blk t).view.emb (ix2 p q))
  refine congrArg (V c main_v6) (funext fun a => Fin.ext ?_)
  match a with
  | ⟨0, _⟩ => show win1_6.index t (0 : Fin 2) * 1000 + 1 * p.val = win1_8.index t (0 : Fin 2) * 1000 + 1 * p.val; omega
  | ⟨1, _⟩ => show win1_6.index t (1 : Fin 2) * 128 + 1 * q.val = win1_8.index t (1 : Fin 2) * 128 + 1 * q.val; omega

theorem all_rows1 (i : S50000x128.Idx) : ∃ t : Fin cfg1.N, t.val * 1000 ≤ (i 0).val ∧ (i 0).val < t.val * 1000 + 1000 :=
  ⟨⟨(i 0).val / 1000, by have hN : cfg1.N = 50 := N_1; have h : (i 0).val < 50000 := (i 0).isLt; omega⟩, by show (i 0).val / 1000 * 1000 ≤ (i 0).val ∧ (i 0).val < (i 0).val / 1000 * 1000 + 1000; omega⟩

theorem all_rows1_7 (i : S50000x128.Idx) : ∃ t : Fin cfg1.N, (cfg1.win 7).flush t = true ∧ i ∈ ((cfg1.win 7).blk t).view.set := by
  obtain ⟨t, h0, h1⟩ := all_rows1 i
  have hi1 : (i 1).val < 128 := (i 1).isLt
  obtain ⟨-, -, -, -, -, -, -, -, -, -, -, -, -, -, e0, e1, -⟩ := where1 t
  refine ⟨t, flush1_7 t, ?_⟩
  show i ∈ ((View.whole main_v27_0).slice (win1_7.rect t)).set
  rw [View.set_slice_whole, Rect.mem_set_unit]
  intro a
  match a with
  | ⟨0, _⟩ => show win1_7.index t (0 : Fin 2) * 1000 ≤ (i 0).val ∧ (i 0).val < win1_7.index t (0 : Fin 2) * 1000 + 1000; omega
  | ⟨1, _⟩ => show win1_7.index t (1 : Fin 2) * 128 ≤ (i 1).val ∧ (i 1).val < win1_7.index t (1 : Fin 2) * 128 + 128; omega
theorem all_rows1_8 (i : S50000x128.Idx) : ∃ t : Fin cfg1.N, (cfg1.win 8).flush t = true ∧ i ∈ ((cfg1.win 8).blk t).view.set := by
  obtain ⟨t, h0, h1⟩ := all_rows1 i
  have hi1 : (i 1).val < 128 := (i 1).isLt
  obtain ⟨-, -, -, -, -, -, -, -, -, -, -, -, -, -, -, -, e0, e1⟩ := where1 t
  refine ⟨t, flush1_8 t, ?_⟩
  show i ∈ ((View.whole main_v27_1).slice (win1_8.rect t)).set
  rw [View.set_slice_whole, Rect.mem_set_unit]
  intro a
  match a with
  | ⟨0, _⟩ => show win1_8.index t (0 : Fin 2) * 1000 ≤ (i 0).val ∧ (i 0).val < win1_8.index t (0 : Fin 2) * 1000 + 1000; omega
  | ⟨1, _⟩ => show win1_8.index t (1 : Fin 2) * 128 ≤ (i 1).val ∧ (i 1).val < win1_8.index t (1 : Fin 2) * 128 + 128; omega

theorem final1_7 :
    (Hand.dat1 (F := Ideal) V c).arrAt 7 cfg1.N
      = Cert.Spec.relu (Cert.Spec.layerZ (V c main_v6) (V c main_v16) (V c main_v18) (V c main_v25) (V c main_v22) (V c main_v26)) :=
  (Hand.dat1 (F := Ideal) V c).arrAt_eq_of_cover 7 _ (fun t _ => wrote1_7 V c t) all_rows1_7

theorem final1_8 : (Hand.dat1 (F := Ideal) V c).arrAt 8 cfg1.N = V c main_v6 :=
  (Hand.dat1 (F := Ideal) V c).arrAt_eq_of_cover 8 _ (fun t _ => wrote1_8 V c t) all_rows1_8

end Cert.KernelIdeal.Val

end
-- ==== Proof.Val.Layer1.lean ====
/-
  Region 1: the feature array and the carried array it leaves are the specification's terms of the launch arguments.
-/
import proofs.«431182_j60713657696761_1_alg».proof.Proof.Val.Layer0
import proofs.«431182_j60713657696761_1_alg».proof.Proof.Val.Host1
import proofs.«431182_j60713657696761_1_alg».proof.Proof.Val.Reg1Val

set_option maxRecDepth 16384

noncomputable section

namespace Cert.KernelIdeal.Val

open Cert.KernelIdeal Cert.KernelIdeal.Gen
open Idealize.ShloMosaic Idealize.ShloMosaic.TcCoe Idealize.ShloMosaic.StableHlo

section Layer

variable (m : (ℓ : Loc nD τ sig) → Buf (Elt Ideal) ℓ) (c : Dev nD)

theorem out1 : Hand.W4 m c (Proc.devRef .tc main_v27_0) = h1 m c ∧ Hand.W4 m c (Proc.devRef .tc main_v27_1) = res1 m c := by
  have eh : Hand.W3 m c (Proc.devRef .tc main_v6) = h0 m c := by keep_back; exact out0 m c
  have ea : Hand.W3 m c (Proc.devRef .tc main_v16) = Spec.agg (edges m c) (h0 m c) :=
    (s1_agg (Hand.W2 m c) (edges m c) (src_at2 m c) (dst_at2 m c)).trans (by rw [out0 m c])
  have e1 : Hand.W3 m c (Proc.devRef .tc main_v18) = Spec.W6 (Hand.W0 m c (Proc.devRef .tc main_arg5)) (0 : Fin 6) :=
    (s1_w1 (Hand.W2 m c)).trans (by keep_back)
  have e2 : Hand.W3 m c (Proc.devRef .tc main_v25) = Spec.B6 (Hand.W0 m c (Proc.devRef .tc main_arg6)) (0 : Fin 6) :=
    (s1_b1 (Hand.W2 m c)).trans (by keep_back)
  have e3 : Hand.W3 m c (Proc.devRef .tc main_v22) = Spec.W6 (Hand.W0 m c (Proc.devRef .tc main_arg7)) (0 : Fin 6) :=
    (s1_w2 (Hand.W2 m c)).trans (by keep_back)
  have e4 : Hand.W3 m c (Proc.devRef .tc main_v26) = Spec.B6 (Hand.W0 m c (Proc.devRef .tc main_arg8)) (0 : Fin 6) :=
    (s1_b2 (Hand.W2 m c)).trans (by keep_back)
  constructor
  · rw [Hand.W_out1_0, final1_7]
    beta_reduce
    rw [eh, ea, e1, e2, e3, e4]
    rfl
  · rw [Hand.W_out1_1, final1_8]
    exact eh

end Layer

end Cert.KernelIdeal.Val

end
-- ==== Proof.Val.Host2.lean ====
/-
  The stretch of host operations before the second layer (layer 1 of the six), read for an arbitrary valuation `W` of
  the core's buffers: the neighbourhood sum of the previous output `main_v27_0` lands in `main_v37`, and the layer's
  two weights and two biases, cut out of the stacks, in `main_v39`, `main_v46`, `main_v43` and `main_v47`.
  Each buffer is first read as the operations' own term of `W`'s buffers, whatever the floats are, and then, on the
  extended reals, as the specification's function.
-/
import proofs.«431182_j60713657696761_1_alg».proof.Proof.Val.Host

set_option maxRecDepth 16384

noncomputable section

namespace Cert.KernelIdeal.Val

open Cert.KernelIdeal Cert.KernelIdeal.Gen
open Idealize.ShloMosaic Idealize.ShloMosaic.TcCoe Idealize.ShloMosaic.StableHlo

variable {F : FTy → Type} [FloatOps F]

/-! ## The operations' terms -/

set_option maxHeartbeats 4000000 in
/-- The wrapped source vector as a column, the gather by it, the scatter-add by the target vector as a column. -/
theorem s2_agg_term (W : Valuation τ sig (Elt F)) :
    StableHlo.after (hostOps2 (F := F)) W (Proc.devRef .tc main_v37)
      = Host.scatterAdd (F := F) scatter_S50000x128_S800000x1_S800000x128_1_0_0_1
          (broadcastInDim S50000x128 ![] bcast_S_S50000x128 (constant (F := F) S_ .f32 0x00000000#32))
          (broadcastInDim S800000x1 ![0] bcast_S800000_S800000x1_0 (W (Proc.devRef .tc main_v3)))
          (Host.gather gather_S50000x128_S800000x1_S800000x128_1_0_n_n_0_1_1128 (W (Proc.devRef .tc main_v27_0))
            (broadcastInDim S800000x1 ![0] bcast_S800000_S800000x1_0
              (select (cmpi .slt (W (Proc.devRef .tc main_v1)) (broadcastInDim S800000 ![] bcast_S_S800000 (constantI S_ 32 0#32)))
                (addi (W (Proc.devRef .tc main_v1)) (broadcastInDim S800000 ![] bcast_S_S800000 (constantI S_ 32 50000#32)))
                (W (Proc.devRef .tc main_v1))))) := by
  after_results_simp <;> rfl

set_option maxHeartbeats 4000000 in
/-- The first weight: a slab of its stack, reshaped. -/
theorem s2_w1_term (W : Valuation τ sig (Elt F)) :
    StableHlo.after (hostOps2 (F := F)) W (Proc.devRef .tc main_v39)
      = shapeCast S128x128 (extractStridedSlice S1x128x128 ![1, 0, 0] (W (Proc.devRef .tc main_arg5)) slices_S6x128x128_S1x128x128_1_0_0)
          shapeCasts_S1x128x128_S128x128 := by
  after_results_simp <;> rfl

set_option maxHeartbeats 4000000 in
/-- The first bias: a row of its stack, flattened and laid out as a row. -/
theorem s2_b1_term (W : Valuation τ sig (Elt F)) :
    StableHlo.after (hostOps2 (F := F)) W (Proc.devRef .tc main_v46)
      = shapeCast S1x128 (shapeCast S128 (extractStridedSlice S1x128 ![1, 0] (W (Proc.devRef .tc main_arg6)) slices_S6x128_S1x128_1_0)
          shapeCasts_S1x128_S128) shapeCasts_S128_S1x128 := by
  after_results_simp <;> rfl

set_option maxHeartbeats 4000000 in
/-- The second weight. -/
theorem s2_w2_term (W : Valuation τ sig (Elt F)) :
    StableHlo.after (hostOps2 (F := F)) W (Proc.devRef .tc main_v43)
      = shapeCast S128x128 (extractStridedSlice S1x128x128 ![1, 0, 0] (W (Proc.devRef .tc main_arg7)) slices_S6x128x128_S1x128x128_1_0_0)
          shapeCasts_S1x128x128_S128x128 := by
  after_results_simp <;> rfl

set_option maxHeartbeats 4000000 in
/-- The second bias. -/
theorem s2_b2_term (W : Valuation τ sig (Elt F)) :
    StableHlo.after (hostOps2 (F := F)) W (Proc.devRef .tc main_v47)
      = shapeCast S1x128 (shapeCast S128 (extractStridedSlice S1x128 ![1, 0] (W (Proc.devRef .tc main_arg8)) slices_S6x128_S1x128_1_0)
          shapeCasts_S1x128_S128) shapeCasts_S128_S1x128 := by
  after_results_simp <;> rfl

/-! ## On the extended reals -/

/-- When `main_v1` and `main_v3` hold the source and target vectors of an edge list, the stretch leaves the
    neighbourhood sum of `main_v27_0` over that edge list in `main_v37`. -/
theorem s2_agg (W : Valuation τ sig (Elt Ideal)) (ei : IVec S2x800000 32)
    (hsrc : W (Proc.devRef .tc main_v1) = srcVec ei) (hdst : W (Proc.devRef .tc main_v3) = dstVec ei) :
    StableHlo.after (hostOps2 (F := Ideal)) W (Proc.devRef .tc main_v37) = Spec.agg ei (W (Proc.devRef .tc main_v27_0)) := by
  rw [s2_agg_term (F := Ideal) W, hsrc, hdst]
  exact agg_of_vecs ei _

/-- The stretch leaves the layer's first weight in `main_v39`. -/
theorem s2_w1 (W : Valuation τ sig (Elt Ideal)) :
    StableHlo.after (hostOps2 (F := Ideal)) W (Proc.devRef .tc main_v39) = Spec.W6 (W (Proc.devRef .tc main_arg5)) (1 : Fin 6) :=
  (s2_w1_term (F := Ideal) W).trans (weight_cut 1 (by norm_num) _ rfl _ _)

/-- The stretch leaves the layer's first bias in `main_v46`. -/
theorem s2_b1 (W : Valuation τ sig (Elt Ideal)) :
    StableHlo.after (hostOps2 (F := Ideal)) W (Proc.devRef .tc main_v46) = Spec.B6 (W (Proc.devRef .tc main_arg6)) (1 : Fin 6) :=
  (s2_b1_term (F := Ideal) W).trans (bias_cut 1 (by norm_num) _ rfl _ _)

/-- The stretch leaves the layer's second weight in `main_v43`. -/
theorem s2_w2 (W : Valuation τ sig (Elt Ideal)) :
    StableHlo.after (hostOps2 (F := Ideal)) W (Proc.devRef .tc main_v43) = Spec.W6 (W (Proc.devRef .tc main_arg7)) (1 : Fin 6) :=
  (s2_w2_term (F := Ideal) W).trans (weight_cut 1 (by norm_num) _ rfl _ _)

/-- The stretch leaves the layer's second bias in `main_v47`. -/
theorem s2_b2 (W : Valuation τ sig (Elt Ideal)) :
    StableHlo.after (hostOps2 (F := Ideal)) W (Proc.devRef .tc main_v47) = Spec.B6 (W (Proc.devRef .tc main_arg8)) (1 : Fin 6) :=
  (s2_b2_term (F := Ideal) W).trans (bias_cut 1 (by norm_num) _ rfl _ _)

end Cert.KernelIdeal.Val

end
-- ==== Proof.Val.TileRes.lean ====
/-
  One tile of 1000 rows of a layer with its residual, entry by entry over the extended reals.
-/
import proofs.«431182_j60713657696761_1_alg».proof.Proof.Gen.KernelIdeal.Skeleton
import proofs.«431182_j60713657696761_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen
open Idealize.ShloMosaic Idealize.ShloMosaic.ValueIdx

theorem resTile_lhs_0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl

theorem resTile_lhs_1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q

theorem resTile_rhs_0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q

theorem resTile_rhs_1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

theorem resTile_matmul {φ₁ φ₂ : FTy} (x : FVec Ideal S1000x128 φ₁) (w : FVec Ideal S128x128 φ₂) (p : Fin 1000) (q : Fin 128) :
    matmul dot_S1000x128_S128x128_S1000x128_1_0_0_1_n_n none x w (constant S1000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p q) ((ValueIdx.contrEquiv1 dot_S1000x128_S128x128_S1000x128_1_0_0_1_n_n 128 rfl rfl).symm k) = ix2 p k := funext fun a => Fin.ext (by
    match a with
    | ⟨0, _⟩ => exact resTile_lhs_0 _ _
    | ⟨1, _⟩ => exact (resTile_lhs_1 _ _).trans hk)
  have er : dot_S1000x128_S128x128_S1000x128_1_0_0_1_n_n.rhsIdx (ix2 p q) ((ValueIdx.contrEquiv1 dot_S1000x128_S128x128_S1000x128_1_0_0_1_n_n 128 rfl rfl).symm k) = ix2 k q := funext fun a => Fin.ext (by
    match a with
    | ⟨0, _⟩ => exact (resTile_rhs_0 _ _).trans hk
    | ⟨1, _⟩ => exact resTile_rhs_1 _ _)
  rw [el, er]

theorem resTile_bias (b : FVec Ideal S1x128 .f32) (p : Fin 1000) (q : Fin 128) :
    broadcastTo S1000x128 b broadcasts_S1x128_S1000x128 (ix2 p q) = b (ix2 (0 : Fin 1) q) := by
  refine broadcastTo_apply b broadcasts_S1x128_S1000x128 (ix2 p q) (ix2 (0 : Fin 1) q) fun a => ?_
  match a with
  | ⟨0, _⟩ => rfl
  | ⟨1, _⟩ => rfl

def resTileVal (h a : FVec Ideal S1000x128 .f32) (w1 : FVec Ideal S128x128 .f32) (b1 : FVec Ideal S1x128 .f32)
    (w2 : FVec Ideal S128x128 .f32) (b2 : FVec Ideal S1x128 .f32) (r : FVec Ideal S1000x128 .f32) (p : Fin 1000) (q : Fin 128) : EReal :=
  ((∑ k : Fin 128, max ((∑ l : Fin 128, (h (ix2 p l) + a (ix2 p l)) * w1 (ix2 l k)) + b1 (ix2 (0 : Fin 1) k)) 0 * w2 (ix2 k q))
    + b2 (ix2 (0 : Fin 1) q)) + r (ix2 p q)

theorem resTile_pay1 (h a : FVec Ideal S1000x128 .f32) (w1 : FVec Ideal S128x128 .f32) (b1 : FVec Ideal S1x128 .f32)
    (w2 : FVec Ideal S128x128 .f32) (b2 : FVec Ideal S1x128 .f32) (r : FVec Ideal S1000x128 .f32) (p : Fin 1000) (q : Fin 128) :
    k2_pay1 (F := Ideal) h a w1 b1 w2 b2 r (ix2 p q) = resTileVal h a w1 b1 w2 b2 r p q := by
  unfold k2_pay1 resTileVal
  simp only [shapeCast_self]
  refine (addf_apply _ _ _).trans ?_
  refine congrArg (· + r (ix2 p q)) ?_
  refine (addf_apply _ _ _).trans ?_
  refine congrArg₂ (· + ·) ?_ (resTile_bias b2 p q)
  refine (resTile_matmul _ _ p q).trans ?_
  refine Finset.sum_congr rfl fun k _ => ?_
  refine congrArg (· * w2 (ix2 k q)) ?_
  show max _ _ = _
  refine congrArg₂ max ?_ Ideal.ofBits_zero_f32
  refine (addf_apply _ _ _).trans ?_
  refine congrArg₂ (· + ·) ?_ (resTile_bias b1 p k)
  exact resTile_matmul _ _ p k

theorem resTile_pay2 (h a : FVec Ideal S1000x128 .f32) (w1 : FVec Ideal S128x128 .f32) (b1 : FVec Ideal S1x128 .f32)
    (w2 : FVec Ideal S128x128 .f32) (b2 : FVec Ideal S1x128 .f32) (r : FVec Ideal S1000x128 .f32) (p : Fin 1000) (q : Fin 128) :
    k2_pay2 (F := Ideal) h a w1 b1 w2 b2 r (ix2 p q) = max (resTileVal h a w1 b1 w2 b2 r p q) 0 := by
  unfold k2_pay2
  show max _ _ = _
  exact congrArg₂ max (resTile_pay1 h a w1 b1 w2 b2 r p q) Ideal.ofBits_zero_f32

theorem resTile_pay1_r4 (h a : FVec Ideal S1000x128 .f32) (w1 : FVec Ideal S128x128 .f32) (b1 : FVec Ideal S1x128 .f32)
    (w2 : FVec Ideal S128x128 .f32) (b2 : FVec Ideal S1x128 .f32) (r : FVec Ideal S1000x128 .f32) (p : Fin 1000) (q : Fin 128) :
    k4_pay1 (F := Ideal) h a w1 b1 w2 b2 r (ix2 p q) = resTileVal h a w1 b1 w2 b2 r p q :=
  resTile_pay1 h a w1 b1 w2 b2 r p q
theorem resTile_pay2_r4 (h a : FVec Ideal S1000x128 .f32) (w1 : FVec Ideal S128x128 .f32) (b1 : FVec Ideal S1x128 .f32)
    (w2 : FVec Ideal S128x128 .f32) (b2 : FVec Ideal S1x128 .f32) (r : FVec Ideal S1000x128 .f32) (p : Fin 1000) (q : Fin 128) :
    k4_pay2 (F := Ideal) h a w1 b1 w2 b2 r (ix2 p q) = max (resTileVal h a w1 b1 w2 b2 r p q) 0 :=
  resTile_pay2 h a w1 b1 w2 b2 r p q
theorem resTile_pay1_r6 (h a : FVec Ideal S1000x128 .f32) (w1 : FVec Ideal S128x128 .f32) (b1 : FVec Ideal S1x128 .f32)
    (w2 : FVec Ideal S128x128 .f32) (b2 : FVec Ideal S1x128 .f32) (r : FVec Ideal S1000x128 .f32) (p : Fin 1000) (q : Fin 128) :
    k6_pay1 (F := Ideal) h a w1 b1 w2 b2 r (ix2 p q) = resTileVal h a w1 b1 w2 b2 r p q :=
  resTile_pay1 h a w1 b1 w2 b2 r p q
theorem resTile_pay2_r6 (h a : FVec Ideal S1000x128 .f32) (w1 : FVec Ideal S128x128 .f32) (b1 : FVec Ideal S1x128 .f32)
    (w2 : FVec Ideal S128x128 .f32) (b2 : FVec Ideal S1x128 .f32) (r : FVec Ideal S1000x128 .f32) (p : Fin 1000) (q : Fin 128) :
    k6_pay2 (F := Ideal) h a w1 b1 w2 b2 r (ix2 p q) = max (resTileVal h a w1 b1 w2 b2 r p q) 0 :=
  resTile_pay2 h a w1 b1 w2 b2 r p q

theorem resTileVal_eq_spec (hb ab rb : FVec Ideal S1000x128 .f32) (w1 w2 : FVec Ideal S128x128 .f32) (b1 b2 : FVec Ideal S1x128 .f32)
    (H A R : Cert.Spec.Mat 50000 128) (n : Fin 50000) (p : Fin 1000) (q : Fin 128)
    (eh : ∀ l : Fin 128, hb (ix2 p l) = H (ix2 n l)) (ea : ∀ l : Fin 128, ab (ix2 p l) = A (ix2 n l)) (er : rb (ix2 p q) = R (ix2 n q)) :
    resTileVal hb ab w1 b1 w2 b2 rb p q = Cert.Spec.addN (Cert.Spec.layerZ H A w1 b1 w2 b2) R (ix2 n q) := by
  unfold resTileVal
  rw [er]
  simp only [eh, ea]
  rfl

theorem resTileVal_relu_eq_spec (hb ab rb : FVec Ideal S1000x128 .f32) (w1 w2 : FVec Ideal S128x128 .f32) (b1 b2 : FVec Ideal S1x128 .f32)
    (H A R : Cert.Spec.Mat 50000 128) (n : Fin 50000) (p : Fin 1000) (q : Fin 128)
    (eh : ∀ l : Fin 128, hb (ix2 p l) = H (ix2 n l)) (ea : ∀ l : Fin 128, ab (ix2 p l) = A (ix2 n l)) (er : rb (ix2 p q) = R (ix2 n q)) :
    max (resTileVal hb ab w1 b1 w2 b2 rb p q) 0 = Cert.Spec.relu (Cert.Spec.addN (Cert.Spec.layerZ H A w1 b1 w2 b2) R) (ix2 n q) := by
  rw [resTileVal_eq_spec hb ab rb w1 w2 b1 b2 H A R n p q eh ea er]
  rfl

end Cert.KernelIdeal.Val

end
-- ==== Proof.Val.Reg2Val.lean ====
/-
  Region 2 (a layer with residual) at the ideal reading of floats: after the 50 points its two output arrays hold the
  specification's residual sum and its rectification, as functions of the arrays the region finds.
-/
import proofs.«431182_j60713657696761_1_alg».proof.Proof.KI.Reg2
import proofs.«431182_j60713657696761_1_alg».proof.Proof.Val.TileRes
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD) (t : Fin cfg2.N)

theorem hzero2 : (![0, 0] : Fin 2 → Nat) = fun _ => 0 := funext fun a => by fin_cases a <;> rfl

theorem grid_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

def tileRow2 (t : Fin cfg2.N) (p : Fin 1000) : Fin 50000 :=
  ⟨t.val * 1000 + p.val, by have := t.isLt; have hN : cfg2.N = 50 := N_2; have := p.isLt; omega⟩

theorem blk2_0 (p : Fin 1000) (l : Fin 128) :
    (iblk2 V c 0 t : FVec Ideal S1000x128 .f32) (ix2 p l) = (V c main_v27_0 : Cert.Spec.Mat 50000 128) (ix2 (tileRow2 t p) l) := by
  obtain ⟨e0, e1, -⟩ := grid_facts2 t
  refine congrArg (V c main_v27_0) (funext fun a => Fin.ext ?_)
  match a with
  | ⟨0, _⟩ => show win2_0.index t (0 : Fin 2) * 1000 + 1 * p.val = t.val * 1000 + p.val; omega
  | ⟨1, _⟩ => show win2_0.index t (1 : Fin 2) * 128 + 1 * l.val = l.val; omega

theorem blk2_1 (p : Fin 1000) (l : Fin 128) :
    (iblk2 V c 1 t : FVec Ideal S1000x128 .f32) (ix2 p l) = (V c main_v37 : Cert.Spec.Mat 50000 128) (ix2 (tileRow2 t p) l) := by
  obtain ⟨-, -, e0, e1, -⟩ := grid_facts2 t
  refine congrArg (V c main_v37) (funext fun a => Fin.ext ?_)
  match a with
  | ⟨0, _⟩ => show win2_1.index t (0 : Fin 2) * 1000 + 1 * p.val = t.val * 1000 + p.val; omega
  | ⟨1, _⟩ => show win2_1.index t (1 : Fin 2) * 128 + 1 * l.val = l.val; omega

theorem blk2_6 (p : Fin 1000) (l : Fin 128) :
    (iblk2 V c 6 t : FVec Ideal S1000x128 .f32) (ix2 p l) = (V c main_v27_1 : Cert.Spec.Mat 50000 128) (ix2 (tileRow2 t p) l) := by
  obtain ⟨-, -, -, -, -, -, -, -, -, -, -, -, e0, e1, -⟩ := grid_facts2 t
  refine congrArg (V c main_v27_1) (funext fun a => Fin.ext ?_)
  match a with
  | ⟨0, _⟩ => show win2_6.index t (0 : Fin 2) * 1000 + 1 * p.val = t.val * 1000 + p.val; omega
  | ⟨1, _⟩ => show win2_6.index t (1 : Fin 2) * 128 + 1 * l.val = l.val; omega

theorem blk2_2 :
    (iblk2 V c 2 t : FVec Ideal S128x128 .f32) = (V c main_v39 : Cert.Spec.Mat 128 128) := by
  obtain ⟨-, -, -, -, e0, e1, -⟩ := grid_facts2 t
  funext y
  refine congrArg (V c main_v39) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem blk2_3 :
    (iblk2 V c 3 t : FVec Ideal S1x128 .f32) = (V c main_v46 : Cert.Spec.Mat 1 128) := by
  obtain ⟨-, -, -, -, -, -, e0, e1, -⟩ := grid_facts2 t
  funext y
  refine congrArg (V c main_v46) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem blk2_4 :
    (iblk2 V c 4 t : FVec Ideal S128x128 .f32) = (V c main_v43 : Cert.Spec.Mat 128 128) := by
  obtain ⟨-, -, -, -, -, -, -, -, e0, e1, -⟩ := grid_facts2 t
  funext y
  refine congrArg (V c main_v43) (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

theorem blk2_5 :
    (iblk2 V c 5 t : FVec Ideal S1x128 .f32) = (V c main_v47 : Cert.Spec.Mat 1 128) := by
  obtain ⟨-, -, -, -, -, -, -, -, -, -, e0, e1, -⟩ := grid_facts2 t
  funext y
  refine congrArg (V c main_v47) (funext fun a => Fin.ext ?_)
  match a with
  | ⟨0, _⟩ => show win2_5.index t (0 : Fin 2) * 1 + 1 * (y 0).val = (y 0).val; omega
  | ⟨1, _⟩ => show win2_5.index t (1 : Fin 2) * 128 + 1 * (y 1).val = (y 1).val; omega

abbrev resOut2 : Cert.Spec.Mat 50000 128 :=
  Cert.Spec.addN (Cert.Spec.layerZ (V c main_v27_0) (V c main_v37) (V c main_v39) (V c main_v46) (V c main_v43) (V c main_v47)) (V c main_v27_1)

abbrev featOut2 : Cert.Spec.Mat 50000 128 := Cert.Spec.relu (resOut2 V c)

theorem covered2 (i : S50000x128.Idx) : ∃ t : Fin cfg2.N, t.val * 1000 ≤ (i 0).val ∧ (i 0).val < t.val * 1000 + 1000 :=
  ⟨⟨(i 0).val / 1000, by have hN : cfg2.N = 50 := N_2; have h : (i 0).val < 50000 := (i 0).isLt; omega⟩, by show (i 0).val / 1000 * 1000 ≤ (i 0).val ∧ (i 0).val < (i 0).val / 1000 * 1000 + 1000; omega⟩

theorem emb2_8 (p : Fin 1000) (q : Fin 128) :
    (((cfg2.win 8).blk t).view.emb (ix2 p q : S1000x128.Idx) : S50000x128.Idx) = ix2 (tileRow2 t p) q := by
  obtain ⟨-, -, -, -, -, -, -, -, -, -, -, -, -, -, -, -, e0, e1⟩ := grid_facts2 t
  funext a
  apply Fin.ext
  match a with
  | ⟨0, _⟩ => show win2_8.index t (0 : Fin 2) * 1000 + 1 * p.val = t.val * 1000 + p.val; omega
  | ⟨1, _⟩ => show win2_8.index t (1 : Fin 2) * 128 + 1 * q.val = q.val; omega

theorem flushed2_8_eq :
    (dat2 V c).flushed 8 t = ((cfg2.win 8).blk t).view.read (Elt Ideal) (resOut2 V c) := by
  show (cfg2.win 8).cut (grid2.coords t) ((dat2 V c).after 8 t) = _
  rw [after2_8]
  unfold out2_8
  rw [View.canon_unit_zero hzero2]
  simp only [View.ld_unit_zero (S := S1000x128) hzero2, View.ld_unit_zero (S := S128x128) hzero2, View.ld_unit_zero (S := S1x128) hzero2]
  funext y
  obtain ⟨p, q, rfl⟩ : ∃ (p : Fin 1000) (q : Fin 128), (y : S1000x128.Idx) = ix2 p q := ⟨y 0, y 1, eq_ix2 y⟩
  rw [View.read_apply]
  show k2_pay1 (F := Ideal) _ _ _ _ _ _ _ (ix2 p q)
    = resOut2 V c (((cfg2.win 8).blk t).view.emb (ix2 p q : S1000x128.Idx))
  rw [emb2_8 t p q]
  refine (resTile_pay1 _ _ _ _ _ _ _ p q).trans ?_
  rw [blk2_2 V c t, blk2_3 V c t, blk2_4 V c t, blk2_5 V c t]
  exact resTileVal_eq_spec _ _ _ _ _ _ _ _ _ _ (tileRow2 t p) p q
    (fun l => blk2_0 V c t p l) (fun l => blk2_1 V c t p l) (blk2_6 V c t p q)

theorem covered2_8 (i : S50000x128.Idx) :
    ∃ t : Fin cfg2.N, (cfg2.win 8).flush t = true ∧ i ∈ ((cfg2.win 8).blk t).view.set := by
  obtain ⟨t, h0, h1⟩ := covered2 i
  have hi1 : (i 1).val < 128 := (i 1).isLt
  obtain ⟨-, -, -, -, -, -, -, -, -, -, -, -, -, -, -, -, e0, e1⟩ := grid_facts2 t
  refine ⟨t, flush2_8 t, ?_⟩
  show i ∈ ((View.whole main_v48_1).slice (win2_8.rect t)).set
  rw [View.set_slice_whole, Rect.mem_set_unit]
  intro a
  match a with
  | ⟨0, _⟩ => show win2_8.index t (0 : Fin 2) * 1000 ≤ (i 0).val ∧ (i 0).val < win2_8.index t (0 : Fin 2) * 1000 + 1000; omega
  | ⟨1, _⟩ => show win2_8.index t (1 : Fin 2) * 128 ≤ (i 1).val ∧ (i 1).val < win2_8.index t (1 : Fin 2) * 128 + 128; omega

theorem final2_8 :
    (dat2 (F := Ideal) V c).arrAt 8 cfg2.N = Cert.Spec.addN (Cert.Spec.layerZ (V c main_v27_0) (V c main_v37) (V c main_v39) (V c main_v46) (V c main_v43) (V c main_v47)) (V c main_v27_1) :=
  (dat2 V c).arrAt_eq_of_cover 8 (resOut2 V c) (fun t _ => flushed2_8_eq V c t) covered2_8

theorem emb2_7 (p : Fin 1000) (q : Fin 128) :
    (((cfg2.win 7).blk t).view.emb (ix2 p q : S1000x128.Idx) : S50000x128.Idx) = ix2 (tileRow2 t p) q := by
  obtain ⟨-, -, -, -, -, -, -, -, -, -, -, -, -, -, e0, e1, -⟩ := grid_facts2 t
  funext a
  apply Fin.ext
  match a with
  | ⟨0, _⟩ => show win2_7.index t (0 : Fin 2) * 1000 + 1 * p.val = t.val * 1000 + p.val; omega
  | ⟨1, _⟩ => show win2_7.index t (1 : Fin 2) * 128 + 1 * q.val = q.val; omega

theorem flushed2_7_eq :
    (dat2 V c).flushed 7 t = ((cfg2.win 7).blk t).view.read (Elt Ideal) (featOut2 V c) := by
  show (cfg2.win 7).cut (grid2.coords t) ((dat2 V c).after 7 t) = _
  rw [after2_7]
  unfold out2_7
  rw [View.canon_unit_zero hzero2]
  simp only [View.ld_unit_zero (S := S1000x128) hzero2, View.ld_unit_zero (S := S128x128) hzero2, View.ld_unit_zero (S := S1x128) hzero2]
  funext y
  obtain ⟨p, q, rfl⟩ : ∃ (p : Fin 1000) (q : Fin 128), (y : S1000x128.Idx) = ix2 p q := ⟨y 0, y 1, eq_ix2 y⟩
  rw [View.read_apply]
  show k2_pay2 (F := Ideal) _ _ _ _ _ _ _ (ix2 p q)
    = featOut2 V c (((cfg2.win 7).blk t).view.emb (ix2 p q : S1000x128.Idx))
  rw [emb2_7 t p q]
  refine (resTile_pay2 _ _ _ _ _ _ _ p q).trans ?_
  rw [blk2_2 V c t, blk2_3 V c t, blk2_4 V c t, blk2_5 V c t]
  exact resTileVal_relu_eq_spec _ _ _ _ _ _ _ _ _ _ (tileRow2 t p) p q
    (fun l => blk2_0 V c t p l) (fun l => blk2_1 V c t p l) (blk2_6 V c t p q)

theorem covered2_7 (i : S50000x128.Idx) :
    ∃ t : Fin cfg2.N, (cfg2.win 7).flush t = true ∧ i ∈ ((cfg2.win 7).blk t).view.set := by
  obtain ⟨t, h0, h1⟩ := covered2 i
  have hi1 : (i 1).val < 128 := (i 1).isLt
  obtain ⟨-, -, -, -, -, -, -, -, -, -, -, -, -, -, e0, e1, -⟩ := grid_facts2 t
  refine ⟨t, flush2_7 t, ?_⟩
  show i ∈ ((View.whole main_v48_0).slice (win2_7.rect t)).set
  rw [View.set_slice_whole, Rect.mem_set_unit]
  intro a
  match a with
  | ⟨0, _⟩ => show win2_7.index t (0 : Fin 2) * 1000 ≤ (i 0).val ∧ (i 0).val < win2_7.index t (0 : Fin 2) * 1000 + 1000; omega
  | ⟨1, _⟩ => show win2_7.index t (1 : Fin 2) * 128 ≤ (i 1).val ∧ (i 1).val < win2_7.index t (1 : Fin 2) * 128 + 128; omega

theorem final2_7 :
    (dat2 (F := Ideal) V c).arrAt 7 cfg2.N = Cert.Spec.relu (Cert.Spec.addN (Cert.Spec.layerZ (V c main_v27_0) (V c main_v37) (V c main_v39) (V c main_v46) (V c main_v43) (V c main_v47)) (V c main_v27_1)) :=
  (dat2 V c).arrAt_eq_of_cover 7 (featOut2 V c) (fun t _ => flushed2_7_eq V c t) covered2_7

end Cert.KernelIdeal.Val

end
-- ==== Proof.Val.Layer2.lean ====
/-
  Region 2: the feature array and the carried array it leaves are the specification's terms of the launch arguments;
  this layer adds the carried array and renews it.
-/
import proofs.«431182_j60713657696761_1_alg».proof.Proof.Val.Layer1
import proofs.«431182_j60713657696761_1_alg».proof.Proof.Val.Host2
import proofs.«431182_j60713657696761_1_alg».proof.Proof.Val.Reg2Val

set_option maxRecDepth 16384

noncomputable section

namespace Cert.KernelIdeal.Val

open Cert.KernelIdeal Cert.KernelIdeal.Gen
open Idealize.ShloMosaic Idealize.ShloMosaic.TcCoe Idealize.ShloMosaic.StableHlo

section Layer

variable (m : (ℓ : Loc nD τ sig) → Buf (Elt Ideal) ℓ) (c : Dev nD)

theorem out2 : Hand.W6 m c (Proc.devRef .tc main_v48_0) = h2 m c ∧ Hand.W6 m c (Proc.devRef .tc main_v48_1) = res2 m c := by
  have eh : Hand.W5 m c (Proc.devRef .tc main_v27_0) = h1 m c := by keep_back; exact (out1 m c).1
  have er : Hand.W5 m c (Proc.devRef .tc main_v27_1) = res1 m c := by keep_back; exact (out1 m c).2
  have ea : Hand.W5 m c (Proc.devRef .tc main_v37) = Spec.agg (edges m c) (h1 m c) :=
    (s2_agg (Hand.W4 m c) (edges m c) (src_at4 m c) (dst_at4 m c)).trans (by rw [(out1 m c).1])
  have e1 : Hand.W5 m c (Proc.devRef .tc main_v39) = Spec.W6 (Hand.W0 m c (Proc.devRef .tc main_arg5)) (1 : Fin 6) :=
    (s2_w1 (Hand.W4 m c)).trans (by keep_back)
  have e2 : Hand.W5 m c (Proc.devRef .tc main_v46) = Spec.B6 (Hand.W0 m c (Proc.devRef .tc main_arg6)) (1 : Fin 6) :=
    (s2_b1 (Hand.W4 m c)).trans (by keep_back)
  have e3 : Hand.W5 m c (Proc.devRef .tc main_v43) = Spec.W6 (Hand.W0 m c (Proc.devRef .tc main_arg7)) (1 : Fin 6) :=
    (s2_w2 (Hand.W4 m c)).trans (by keep_back)
  have e4 : Hand.W5 m c (Proc.devRef .tc main_v47) = Spec.B6 (Hand.W0 m c (Proc.devRef .tc main_arg8)) (1 : Fin 6) :=
    (s2_b2 (Hand.W4 m c)).trans (by keep_back)
  constructor
  · rw [Hand.W_out2_0, final2_7]
    beta_reduce
    rw [eh, ea, e1, e2, e3, e4, er]
    rfl
  · rw [Hand.W_out2_1, final2_8]
    beta_reduce
    rw [eh, ea, e1, e2, e3, e4, er]
    rfl

end Layer

end Cert.KernelIdeal.Val

end
-- ==== Proof.Val.Host3.lean ====
/-
  The stretch of host operations before the third layer (layer 2 of the six), read for an arbitrary valuation `W` of
  the core's buffers: the neighbourhood sum of the previous output `main_v48_0` lands in `main_v58`, and the layer's
  two weights and two biases, cut out of the stacks, in `main_v60`, `main_v67`, `main_v64` and `main_v68`.
  Each buffer is first read as the operations' own term of `W`'s buffers, whatever the floats are, and then, on the
  extended reals, as the specification's function.
-/
import proofs.«431182_j60713657696761_1_alg».proof.Proof.Val.Host

set_option maxRecDepth 16384

noncomputable section

namespace Cert.KernelIdeal.Val

open Cert.KernelIdeal Cert.KernelIdeal.Gen
open Idealize.ShloMosaic Idealize.ShloMosaic.TcCoe Idealize.ShloMosaic.StableHlo

variable {F : FTy → Type} [FloatOps F]

/-! ## The operations' terms -/

set_option maxHeartbeats 4000000 in
/-- The wrapped source vector as a column, the gather by it, the scatter-add by the target vector as a column. -/
theorem s3_agg_term (W : Valuation τ sig (Elt F)) :
    StableHlo.after (hostOps3 (F := F)) W (Proc.devRef .tc main_v58)
      = Host.scatterAdd (F := F) scatter_S50000x128_S800000x1_S800000x128_1_0_0_1
          (broadcastInDim S50000x128 ![] bcast_S_S50000x128 (constant (F := F) S_ .f32 0x00000000#32))
          (broadcastInDim S800000x1 ![0] bcast_S800000_S800000x1_0 (W (Proc.devRef .tc main_v3)))
          (Host.gather gather_S50000x128_S800000x1_S800000x128_1_0_n_n_0_1_1128 (W (Proc.devRef .tc main_v48_0))
            (broadcastInDim S800000x1 ![0] bcast_S800000_S800000x1_0
              (select (cmpi .slt (W (Proc.devRef .tc main_v1)) (broadcastInDim S800000 ![] bcast_S_S800000 (constantI S_ 32 0#32)))
                (addi (W (Proc.devRef .tc main_v1)) (broadcastInDim S800000 ![] bcast_S_S800000 (constantI S_ 32 50000#32)))
                (W (Proc.devRef .tc main_v1))))) := by
  after_results_simp <;> rfl

set_option maxHeartbeats 4000000 in
/-- The first weight: a slab of its stack, reshaped. -/
theorem s3_w1_term (W : Valuation τ sig (Elt F)) :
    StableHlo.after (hostOps3 (F := F)) W (Proc.devRef .tc main_v60)
      = shapeCast S128x128 (extractStridedSlice S1x128x128 ![2, 0, 0] (W (Proc.devRef .tc main_arg5)) slices_S6x128x128_S1x128x128_2_0_0)
          shapeCasts_S1x128x128_S128x128 := by
  after_results_simp <;> rfl

set_option maxHeartbeats 4000000 in
/-- The first bias: a row of its stack, flattened and laid out as a row. -/
theorem s3_b1_term (W : Valuation τ sig (Elt F)) :
    StableHlo.after (hostOps3 (F := F)) W (Proc.devRef .tc main_v67)
      = shapeCast S1x128 (shapeCast S128 (extractStridedSlice S1x128 ![2, 0] (W (Proc.devRef .tc main_arg6)) slices_S6x128_S1x128_2_0)
          shapeCasts_S1x128_S128) shapeCasts_S128_S1x128 := by
  after_results_simp <;> rfl

set_option maxHeartbeats 4000000 in
/-- The second weight. -/
theorem s3_w2_term (W : Valuation τ sig (Elt F)) :
    StableHlo.after (hostOps3 (F := F)) W (Proc.devRef .tc main_v64)
      = shapeCast S128x128 (extractStridedSlice S1x128x128 ![2, 0, 0] (W (Proc.devRef .tc main_arg7)) slices_S6x128x128_S1x128x128_2_0_0)
          shapeCasts_S1x128x128_S128x128 := by
  after_results_simp <;> rfl

set_option maxHeartbeats 4000000 in
/-- The second bias. -/
theorem s3_b2_term (W : Valuation τ sig (Elt F)) :
    StableHlo.after (hostOps3 (F := F)) W (Proc.devRef .tc main_v68)
      = shapeCast S1x128 (shapeCast S128 (extractStridedSlice S1x128 ![2, 0] (W (Proc.devRef .tc main_arg8)) slices_S6x128_S1x128_2_0)
          shapeCasts_S1x128_S128) shapeCasts_S128_S1x128 := by
  after_results_simp <;> rfl

/-! ## On the extended reals -/

/-- When `main_v1` and `main_v3` hold the source and target vectors of an edge list, the stretch leaves the
    neighbourhood sum of `main_v48_0` over that edge list in `main_v58`. -/
theorem s3_agg (W : Valuation τ sig (Elt Ideal)) (ei : IVec S2x800000 32)
    (hsrc : W (Proc.devRef .tc main_v1) = srcVec ei) (hdst : W (Proc.devRef .tc main_v3) = dstVec ei) :
    StableHlo.after (hostOps3 (F := Ideal)) W (Proc.devRef .tc main_v58) = Spec.agg ei (W (Proc.devRef .tc main_v48_0)) := by
  rw [s3_agg_term (F := Ideal) W, hsrc, hdst]
  exact agg_of_vecs ei _

/-- The stretch leaves the layer's first weight in `main_v60`. -/
theorem s3_w1 (W : Valuation τ sig (Elt Ideal)) :
    StableHlo.after (hostOps3 (F := Ideal)) W (Proc.devRef .tc main_v60) = Spec.W6 (W (Proc.devRef .tc main_arg5)) (2 : Fin 6) :=
  (s3_w1_term (F := Ideal) W).trans (weight_cut 2 (by norm_num) _ rfl _ _)

/-- The stretch leaves the layer's first bias in `main_v67`. -/
theorem s3_b1 (W : Valuation τ sig (Elt Ideal)) :
    StableHlo.after (hostOps3 (F := Ideal)) W (Proc.devRef .tc main_v67) = Spec.B6 (W (Proc.devRef .tc main_arg6)) (2 : Fin 6) :=
  (s3_b1_term (F := Ideal) W).trans (bias_cut 2 (by norm_num) _ rfl _ _)

/-- The stretch leaves the layer's second weight in `main_v64`. -/
theorem s3_w2 (W : Valuation τ sig (Elt Ideal)) :
    StableHlo.after (hostOps3 (F := Ideal)) W (Proc.devRef .tc main_v64) = Spec.W6 (W (Proc.devRef .tc main_arg7)) (2 : Fin 6) :=
  (s3_w2_term (F := Ideal) W).trans (weight_cut 2 (by norm_num) _ rfl _ _)

/-- The stretch leaves the layer's second bias in `main_v68`. -/
theorem s3_b2 (W : Valuation τ sig (Elt Ideal)) :
    StableHlo.after (hostOps3 (F := Ideal)) W (Proc.devRef .tc main_v68) = Spec.B6 (W (Proc.devRef .tc main_arg8)) (2 : Fin 6) :=
  (s3_b2_term (F := Ideal) W).trans (bias_cut 2 (by norm_num) _ rfl _ _)

end Cert.KernelIdeal.Val

end
-- ==== Proof.Val.Reg3Val.lean ====
/-
  Region 3 at the ideal reading of floats: after the 50 points the layer's output array holds
  `relu (relu ((h + agg) W₁ + b₁) W₂ + b₂)` of the arrays it reads and the carried output holds the carried input. Each
  point writes back its row tile of those, an entry of the map reading only its own row, and the 50 tiles cover the rows.
-/
import proofs.«431182_j60713657696761_1_alg».proof.Proof.KI.Reg3
import proofs.«431182_j60713657696761_1_alg».proof.Proof.Val.Tile
import proofs.«431182_j60713657696761_1_alg».proof.Proof.Val.SpecAt
import Idealize.ShloMosaic.Lib.Pipeline.Value

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD) (t : Fin cfg3.N)

theorem zeros2_3 : (![0, 0] : Fin 2 → Nat) = fun _ => 0 := funext fun a => by fin_cases a <;> rfl

theorem where3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

theorem h_tile3 (p : Fin 1000) (k : Fin 128) (r : Fin 50000) (hr : r.val = t.val * 1000 + p.val) :
    (Hand.iblk3 V c 0 t : Vec Ideal S1000x128 .f32) (ix2 p k) = (V c main_v48_0 : S50000x128.Idx → EReal) (ix2 r k) := by
  obtain ⟨e0, e1, -⟩ := where3 t
  refine congrArg (V c main_v48_0) (funext fun a => Fin.ext ?_)
  match a with
  | ⟨0, _⟩ => show win3_0.index t (0 : Fin 2) * 1000 + 1 * p.val = r.val; omega
  | ⟨1, _⟩ => show win3_0.index t (1 : Fin 2) * 128 + 1 * k.val = k.val; omega

theorem agg_tile3 (p : Fin 1000) (k : Fin 128) (r : Fin 50000) (hr : r.val = t.val * 1000 + p.val) :
    (Hand.iblk3 V c 1 t : Vec Ideal S1000x128 .f32) (ix2 p k) = (V c main_v58 : S50000x128.Idx → EReal) (ix2 r k) := by
  obtain ⟨-, -, e0, e1, -⟩ := where3 t
  refine congrArg (V c main_v58) (funext fun a => Fin.ext ?_)
  match a with
  | ⟨0, _⟩ => show win3_1.index t (0 : Fin 2) * 1000 + 1 * p.val = r.val; omega
  | ⟨1, _⟩ => show win3_1.index t (1 : Fin 2) * 128 + 1 * k.val = k.val; omega

theorem w1_tile3 (k q : Fin 128) :
    (Hand.iblk3 V c 2 t : Vec Ideal S128x128 .f32) (ix2 k q) = (V c main_v60 : S128x128.Idx → EReal) (ix2 k q) := by
  obtain ⟨-, -, -, -, e0, e1, -⟩ := where3 t
  refine congrArg (V c main_v60) (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

theorem b1_tile3 (q : Fin 128) :
    (Hand.iblk3 V c 3 t : Vec Ideal S1x128 .f32) (ix2 (0 : Fin 1) q) = (V c main_v67 : S1x128.Idx → EReal) (ix2 (0 : Fin 1) q) := by
  obtain ⟨-, -, -, -, -, -, e0, e1, -⟩ := where3 t
  refine congrArg (V c main_v67) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

theorem w2_tile3 (k q : Fin 128) :
    (Hand.iblk3 V c 4 t : Vec Ideal S128x128 .f32) (ix2 k q) = (V c main_v64 : S128x128.Idx → EReal) (ix2 k q) := by
  obtain ⟨-, -, -, -, -, -, -, -, e0, e1, -⟩ := where3 t
  refine congrArg (V c main_v64) (funext fun a => Fin.ext ?_)
  match a with
  | ⟨0, _⟩ => show win3_4.index t (0 : Fin 2) * 128 + 1 * k.val = k.val; omega
  | ⟨1, _⟩ => show win3_4.index t (1 : Fin 2) * 128 + 1 * q.val = q.val; omega

theorem b2_tile3 (q : Fin 128) :
    (Hand.iblk3 V c 5 t : Vec Ideal S1x128 .f32) (ix2 (0 : Fin 1) q) = (V c main_v68 : S1x128.Idx → EReal) (ix2 (0 : Fin 1) q) := by
  obtain ⟨-, -, -, -, -, -, -, -, -, -, e0, e1, -⟩ := where3 t
  refine congrArg (V c main_v68) (funext fun a => Fin.ext ?_)
  match a with
  | ⟨0, _⟩ => show win3_5.index t (0 : Fin 2) * 1 + 1 * 0 = 0; omega
  | ⟨1, _⟩ => show win3_5.index t (1 : Fin 2) * 128 + 1 * q.val = q.val; omega

theorem wrote3_7 :
    (Hand.dat3 (F := Ideal) V c).flushed 7 t
      = ((cfg3.win 7).blk t).view.read (Elt Ideal)
          (Cert.Spec.relu (Cert.Spec.layerZ (V c main_v48_0) (V c main_v58) (V c main_v60) (V c main_v67) (V c main_v64) (V c main_v68))) := by
  show (cfg3.win 7).cut (grid3.coords t) ((Hand.dat3 (F := Ideal) V c).after 7 t) = _
  rw [Hand.after3_7]
  unfold Hand.out3_7
  rw [View.canon_unit_zero zeros2_3]
  simp only [View.ld_unit_zero (S := S1000x128) zeros2_3, View.ld_unit_zero (S := S128x128) zeros2_3, View.ld_unit_zero (S := S1x128) zeros2_3]
  obtain ⟨-, -, -, -, -, -, -, -, -, -, -, -, -, -, e0, e1, -⟩ := where3 t
  funext j
  obtain ⟨p, q, rfl⟩ : ∃ (p : Fin 1000) (q : Fin 128), j = ix2 p q := ⟨j 0, j 1, eq_ix2 j⟩
  have ht : t.val < 50 := t.isLt
  have hr : t.val * 1000 + p.val < 50000 := by have := p.isLt; omega
  have hj : ((cfg3.win 7).blk t).view.emb (ix2 p q) = (ix2 (⟨t.val * 1000 + p.val, hr⟩ : Fin 50000) q : S50000x128.Idx) := by
    funext a; apply Fin.ext
    match a with
    | ⟨0, _⟩ => show win3_7.index t (0 : Fin 2) * 1000 + 1 * p.val = t.val * 1000 + p.val; omega
    | ⟨1, _⟩ => show win3_7.index t (1 : Fin 2) * 128 + 1 * q.val = q.val; omega
  show k3_pay2 (F := Ideal) _ _ _ _ _ _ (ix2 p q)
    = Cert.Spec.relu (Cert.Spec.layerZ (V c main_v48_0) (V c main_v58) (V c main_v60) (V c main_v67) (V c main_v64) (V c main_v68))
        (((cfg3.win 7).blk t).view.emb (ix2 p q))
  rw [hj]
  refine ((layer3_tile_apply _ _ _ _ _ _ p q).trans ?_).trans
    (relu_layerZ_at _ _ _ _ _ _ ⟨t.val * 1000 + p.val, hr⟩ q).symm
  refine congrArg (max · 0) ?_
  refine congrArg₂ (· + ·) (Finset.sum_congr rfl fun k _ => ?_) (b2_tile3 V c t q)
  refine congrArg₂ (· * ·) ?_ (w2_tile3 V c t k q)
  refine congrArg (max · 0) ?_
  refine congrArg₂ (· + ·) (Finset.sum_congr rfl fun l _ => ?_) (b1_tile3 V c t k)
  refine congrArg₂ (· * ·) ?_ (w1_tile3 V c t l k)
  exact congrArg₂ (· + ·) (h_tile3 V c t p l ⟨t.val * 1000 + p.val, hr⟩ rfl) (agg_tile3 V c t p l ⟨t.val * 1000 + p.val, hr⟩ rfl)

theorem wrote3_8 :
    (Hand.dat3 (F := Ideal) V c).flushed 8 t = ((cfg3.win 8).blk t).view.read (Elt Ideal) (V c main_v48_1) := by
  show (cfg3.win 8).cut (grid3.coords t) ((Hand.dat3 (F := Ideal) V c).after 8 t) = _
  rw [Hand.after3_8]
  unfold Hand.out3_8
  rw [View.canon_unit_zero zeros2_3]
  simp only [View.ld_unit_zero (S := S1000x128) zeros2_3]
  rw [k3_pay1_eq]
  obtain ⟨-, -, -, -, -, -, -, -, -, -, -, -, e0, e1, -, -, f0, f1⟩ := where3 t
  funext j
  obtain ⟨p, q, rfl⟩ : ∃ (p : Fin 1000) (q : Fin 128), j = ix2 p q := ⟨j 0, j 1, eq_ix2 j⟩
  show (Hand.iblk3 V c 6 t : Vec Ideal S1000x128 .f32) (ix2 p q) = V c main_v48_1 (((cfg3.win 8).blk t).view.emb (ix2 p q))
  refine congrArg (V c main_v48_1) (funext fun a => Fin.ext ?_)
  match a with
  | ⟨0, _⟩ => show win3_6.index t (0 : Fin 2) * 1000 + 1 * p.val = win3_8.index t (0 : Fin 2) * 1000 + 1 * p.val; omega
  | ⟨1, _⟩ => show win3_6.index t (1 : Fin 2) * 128 + 1 * q.val = win3_8.index t (1 : Fin 2) * 128 + 1 * q.val; omega

theorem all_rows3 (i : S50000x128.Idx) : ∃ t : Fin cfg3.N, t.val * 1000 ≤ (i 0).val ∧ (i 0).val < t.val * 1000 + 1000 :=
  ⟨⟨(i 0).val / 1000, by have hN : cfg3.N = 50 := N_3; have h : (i 0).val < 50000 := (i 0).isLt; omega⟩, by show (i 0).val / 1000 * 1000 ≤ (i 0).val ∧ (i 0).val < (i 0).val / 1000 * 1000 + 1000; omega⟩

theorem all_rows3_7 (i : S50000x128.Idx) : ∃ t : Fin cfg3.N, (cfg3.win 7).flush t = true ∧ i ∈ ((cfg3.win 7).blk t).view.set := by
  obtain ⟨t, h0, h1⟩ := all_rows3 i
  have hi1 : (i 1).val < 128 := (i 1).isLt
  obtain ⟨-, -, -, -, -, -, -, -, -, -, -, -, -, -, e0, e1, -⟩ := where3 t
  refine ⟨t, flush3_7 t, ?_⟩
  show i ∈ ((View.whole main_v69_0).slice (win3_7.rect t)).set
  rw [View.set_slice_whole, Rect.mem_set_unit]
  intro a
  match a with
  | ⟨0, _⟩ => show win3_7.index t (0 : Fin 2) * 1000 ≤ (i 0).val ∧ (i 0).val < win3_7.index t (0 : Fin 2) * 1000 + 1000; omega
  | ⟨1, _⟩ => show win3_7.index t (1 : Fin 2) * 128 ≤ (i 1).val ∧ (i 1).val < win3_7.index t (1 : Fin 2) * 128 + 128; omega
theorem all_rows3_8 (i : S50000x128.Idx) : ∃ t : Fin cfg3.N, (cfg3.win 8).flush t = true ∧ i ∈ ((cfg3.win 8).blk t).view.set := by
  obtain ⟨t, h0, h1⟩ := all_rows3 i
  have hi1 : (i 1).val < 128 := (i 1).isLt
  obtain ⟨-, -, -, -, -, -, -, -, -, -, -, -, -, -, -, -, e0, e1⟩ := where3 t
  refine ⟨t, flush3_8 t, ?_⟩
  show i ∈ ((View.whole main_v69_1).slice (win3_8.rect t)).set
  rw [View.set_slice_whole, Rect.mem_set_unit]
  intro a
  match a with
  | ⟨0, _⟩ => show win3_8.index t (0 : Fin 2) * 1000 ≤ (i 0).val ∧ (i 0).val < win3_8.index t (0 : Fin 2) * 1000 + 1000; omega
  | ⟨1, _⟩ => show win3_8.index t (1 : Fin 2) * 128 ≤ (i 1).val ∧ (i 1).val < win3_8.index t (1 : Fin 2) * 128 + 128; omega

theorem final3_7 :
    (Hand.dat3 (F := Ideal) V c).arrAt 7 cfg3.N
      = Cert.Spec.relu (Cert.Spec.layerZ (V c main_v48_0) (V c main_v58) (V c main_v60) (V c main_v67) (V c main_v64) (V c main_v68)) :=
  (Hand.dat3 (F := Ideal) V c).arrAt_eq_of_cover 7 _ (fun t _ => wrote3_7 V c t) all_rows3_7

theorem final3_8 : (Hand.dat3 (F := Ideal) V c).arrAt 8 cfg3.N = V c main_v48_1 :=
  (Hand.dat3 (F := Ideal) V c).arrAt_eq_of_cover 8 _ (fun t _ => wrote3_8 V c t) all_rows3_8

end Cert.KernelIdeal.Val

end
-- ==== Proof.Val.Layer3.lean ====
/-
  Region 3: the feature array and the carried array it leaves are the specification's terms of the launch arguments;
  this layer adds no residual and the carried array passes through.
-/
import proofs.«431182_j60713657696761_1_alg».proof.Proof.Val.Layer2
import proofs.«431182_j60713657696761_1_alg».proof.Proof.Val.Host3
import proofs.«431182_j60713657696761_1_alg».proof.Proof.Val.Reg3Val

set_option maxRecDepth 16384

noncomputable section

namespace Cert.KernelIdeal.Val

open Cert.KernelIdeal Cert.KernelIdeal.Gen
open Idealize.ShloMosaic Idealize.ShloMosaic.TcCoe Idealize.ShloMosaic.StableHlo

section Layer

variable (m : (ℓ : Loc nD τ sig) → Buf (Elt Ideal) ℓ) (c : Dev nD)

theorem out3 : Hand.W8 m c (Proc.devRef .tc main_v69_0) = h3 m c ∧ Hand.W8 m c (Proc.devRef .tc main_v69_1) = res3 m c := by
  have eh : Hand.W7 m c (Proc.devRef .tc main_v48_0) = h2 m c := by keep_back; exact (out2 m c).1
  have er : Hand.W7 m c (Proc.devRef .tc main_v48_1) = res2 m c := by keep_back; exact (out2 m c).2
  have ea : Hand.W7 m c (Proc.devRef .tc main_v58) = Spec.agg (edges m c) (h2 m c) :=
    (s3_agg (Hand.W6 m c) (edges m c) (src_at6 m c) (dst_at6 m c)).trans (by rw [(out2 m c).1])
  have e1 : Hand.W7 m c (Proc.devRef .tc main_v60) = Spec.W6 (Hand.W0 m c (Proc.devRef .tc main_arg5)) (2 : Fin 6) :=
    (s3_w1 (Hand.W6 m c)).trans (by keep_back)
  have e2 : Hand.W7 m c (Proc.devRef .tc main_v67) = Spec.B6 (Hand.W0 m c (Proc.devRef .tc main_arg6)) (2 : Fin 6) :=
    (s3_b1 (Hand.W6 m c)).trans (by keep_back)
  have e3 : Hand.W7 m c (Proc.devRef .tc main_v64) = Spec.W6 (Hand.W0 m c (Proc.devRef .tc main_arg7)) (2 : Fin 6) :=
    (s3_w2 (Hand.W6 m c)).trans (by keep_back)
  have e4 : Hand.W7 m c (Proc.devRef .tc main_v68) = Spec.B6 (Hand.W0 m c (Proc.devRef .tc main_arg8)) (2 : Fin 6) :=
    (s3_b2 (Hand.W6 m c)).trans (by keep_back)
  constructor
  · rw [Hand.W_out3_0, final3_7]
    beta_reduce
    rw [eh, ea, e1, e2, e3, e4]
    rfl
  · rw [Hand.W_out3_1, final3_8]
    exact er

end Layer

end Cert.KernelIdeal.Val

end
-- ==== Proof.Val.Host4.lean ====
/-
  The stretch of host operations before the fourth layer (layer 3 of the six), read for an arbitrary valuation `W` of
  the core's buffers: the neighbourhood sum of the previous output `main_v69_0` lands in `main_v79`, and the layer's
  two weights and two biases, cut out of the stacks, in `main_v81`, `main_v88`, `main_v85` and `main_v89`.
  Each buffer is first read as the operations' own term of `W`'s buffers, whatever the floats are, and then, on the
  extended reals, as the specification's function.
-/
import proofs.«431182_j60713657696761_1_alg».proof.Proof.Val.Host

set_option maxRecDepth 16384

noncomputable section

namespace Cert.KernelIdeal.Val

open Cert.KernelIdeal Cert.KernelIdeal.Gen
open Idealize.ShloMosaic Idealize.ShloMosaic.TcCoe Idealize.ShloMosaic.StableHlo

variable {F : FTy → Type} [FloatOps F]

/-! ## The operations' terms -/

set_option maxHeartbeats 4000000 in
/-- The wrapped source vector as a column, the gather by it, the scatter-add by the target vector as a column. -/
theorem s4_agg_term (W : Valuation τ sig (Elt F)) :
    StableHlo.after (hostOps4 (F := F)) W (Proc.devRef .tc main_v79)
      = Host.scatterAdd (F := F) scatter_S50000x128_S800000x1_S800000x128_1_0_0_1
          (broadcastInDim S50000x128 ![] bcast_S_S50000x128 (constant (F := F) S_ .f32 0x00000000#32))
          (broadcastInDim S800000x1 ![0] bcast_S800000_S800000x1_0 (W (Proc.devRef .tc main_v3)))
          (Host.gather gather_S50000x128_S800000x1_S800000x128_1_0_n_n_0_1_1128 (W (Proc.devRef .tc main_v69_0))
            (broadcastInDim S800000x1 ![0] bcast_S800000_S800000x1_0
              (select (cmpi .slt (W (Proc.devRef .tc main_v1)) (broadcastInDim S800000 ![] bcast_S_S800000 (constantI S_ 32 0#32)))
                (addi (W (Proc.devRef .tc main_v1)) (broadcastInDim S800000 ![] bcast_S_S800000 (constantI S_ 32 50000#32)))
                (W (Proc.devRef .tc main_v1))))) := by
  after_results_simp <;> rfl

set_option maxHeartbeats 4000000 in
/-- The first weight: a slab of its stack, reshaped. -/
theorem s4_w1_term (W : Valuation τ sig (Elt F)) :
    StableHlo.after (hostOps4 (F := F)) W (Proc.devRef .tc main_v81)
      = shapeCast S128x128 (extractStridedSlice S1x128x128 ![3, 0, 0] (W (Proc.devRef .tc main_arg5)) slices_S6x128x128_S1x128x128_3_0_0)
          shapeCasts_S1x128x128_S128x128 := by
  after_results_simp <;> rfl

set_option maxHeartbeats 4000000 in
/-- The first bias: a row of its stack, flattened and laid out as a row. -/
theorem s4_b1_term (W : Valuation τ sig (Elt F)) :
    StableHlo.after (hostOps4 (F := F)) W (Proc.devRef .tc main_v88)
      = shapeCast S1x128 (shapeCast S128 (extractStridedSlice S1x128 ![3, 0] (W (Proc.devRef .tc main_arg6)) slices_S6x128_S1x128_3_0)
          shapeCasts_S1x128_S128) shapeCasts_S128_S1x128 := by
  after_results_simp <;> rfl

set_option maxHeartbeats 4000000 in
/-- The second weight. -/
theorem s4_w2_term (W : Valuation τ sig (Elt F)) :
    StableHlo.after (hostOps4 (F := F)) W (Proc.devRef .tc main_v85)
      = shapeCast S128x128 (extractStridedSlice S1x128x128 ![3, 0, 0] (W (Proc.devRef .tc main_arg7)) slices_S6x128x128_S1x128x128_3_0_0)
          shapeCasts_S1x128x128_S128x128 := by
  after_results_simp <;> rfl

set_option maxHeartbeats 4000000 in
/-- The second bias. -/
theorem s4_b2_term (W : Valuation τ sig (Elt F)) :
    StableHlo.after (hostOps4 (F := F)) W (Proc.devRef .tc main_v89)
      = shapeCast S1x128 (shapeCast S128 (extractStridedSlice S1x128 ![3, 0] (W (Proc.devRef .tc main_arg8)) slices_S6x128_S1x128_3_0)
          shapeCasts_S1x128_S128) shapeCasts_S128_S1x128 := by
  after_results_simp <;> rfl

/-! ## On the extended reals -/

/-- When `main_v1` and `main_v3` hold the source and target vectors of an edge list, the stretch leaves the
    neighbourhood sum of `main_v69_0` over that edge list in `main_v79`. -/
theorem s4_agg (W : Valuation τ sig (Elt Ideal)) (ei : IVec S2x800000 32)
    (hsrc : W (Proc.devRef .tc main_v1) = srcVec ei) (hdst : W (Proc.devRef .tc main_v3) = dstVec ei) :
    StableHlo.after (hostOps4 (F := Ideal)) W (Proc.devRef .tc main_v79) = Spec.agg ei (W (Proc.devRef .tc main_v69_0)) := by
  rw [s4_agg_term (F := Ideal) W, hsrc, hdst]
  exact agg_of_vecs ei _

/-- The stretch leaves the layer's first weight in `main_v81`. -/
theorem s4_w1 (W : Valuation τ sig (Elt Ideal)) :
    StableHlo.after (hostOps4 (F := Ideal)) W (Proc.devRef .tc main_v81) = Spec.W6 (W (Proc.devRef .tc main_arg5)) (3 : Fin 6) :=
  (s4_w1_term (F := Ideal) W).trans (weight_cut 3 (by norm_num) _ rfl _ _)

/-- The stretch leaves the layer's first bias in `main_v88`. -/
theorem s4_b1 (W : Valuation τ sig (Elt Ideal)) :
    StableHlo.after (hostOps4 (F := Ideal)) W (Proc.devRef .tc main_v88) = Spec.B6 (W (Proc.devRef .tc main_arg6)) (3 : Fin 6) :=
  (s4_b1_term (F := Ideal) W).trans (bias_cut 3 (by norm_num) _ rfl _ _)

/-- The stretch leaves the layer's second weight in `main_v85`. -/
theorem s4_w2 (W : Valuation τ sig (Elt Ideal)) :
    StableHlo.after (hostOps4 (F := Ideal)) W (Proc.devRef .tc main_v85) = Spec.W6 (W (Proc.devRef .tc main_arg7)) (3 : Fin 6) :=
  (s4_w2_term (F := Ideal) W).trans (weight_cut 3 (by norm_num) _ rfl _ _)

/-- The stretch leaves the layer's second bias in `main_v89`. -/
theorem s4_b2 (W : Valuation τ sig (Elt Ideal)) :
    StableHlo.after (hostOps4 (F := Ideal)) W (Proc.devRef .tc main_v89) = Spec.B6 (W (Proc.devRef .tc main_arg8)) (3 : Fin 6) :=
  (s4_b2_term (F := Ideal) W).trans (bias_cut 3 (by norm_num) _ rfl _ _)

end Cert.KernelIdeal.Val

end
-- ==== Proof.Val.Reg4Val.lean ====
/-
  Region 4 (a layer with residual) at the ideal reading of floats: after the 50 points its two output arrays hold the
  specification's residual sum and its rectification, as functions of the arrays the region finds.
-/
import proofs.«431182_j60713657696761_1_alg».proof.Proof.KI.Reg4
import proofs.«431182_j60713657696761_1_alg».proof.Proof.Val.TileRes
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD) (t : Fin cfg4.N)

theorem hzero4 : (![0, 0] : Fin 2 → Nat) = fun _ => 0 := funext fun a => by fin_cases a <;> rfl

theorem grid_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

def tileRow4 (t : Fin cfg4.N) (p : Fin 1000) : Fin 50000 :=
  ⟨t.val * 1000 + p.val, by have := t.isLt; have hN : cfg4.N = 50 := N_4; have := p.isLt; omega⟩

theorem blk4_0 (p : Fin 1000) (l : Fin 128) :
    (iblk4 V c 0 t : FVec Ideal S1000x128 .f32) (ix2 p l) = (V c main_v69_0 : Cert.Spec.Mat 50000 128) (ix2 (tileRow4 t p) l) := by
  obtain ⟨e0, e1, -⟩ := grid_facts4 t
  refine congrArg (V c main_v69_0) (funext fun a => Fin.ext ?_)
  match a with
  | ⟨0, _⟩ => show win4_0.index t (0 : Fin 2) * 1000 + 1 * p.val = t.val * 1000 + p.val; omega
  | ⟨1, _⟩ => show win4_0.index t (1 : Fin 2) * 128 + 1 * l.val = l.val; omega

theorem blk4_1 (p : Fin 1000) (l : Fin 128) :
    (iblk4 V c 1 t : FVec Ideal S1000x128 .f32) (ix2 p l) = (V c main_v79 : Cert.Spec.Mat 50000 128) (ix2 (tileRow4 t p) l) := by
  obtain ⟨-, -, e0, e1, -⟩ := grid_facts4 t
  refine congrArg (V c main_v79) (funext fun a => Fin.ext ?_)
  match a with
  | ⟨0, _⟩ => show win4_1.index t (0 : Fin 2) * 1000 + 1 * p.val = t.val * 1000 + p.val; omega
  | ⟨1, _⟩ => show win4_1.index t (1 : Fin 2) * 128 + 1 * l.val = l.val; omega

theorem blk4_6 (p : Fin 1000) (l : Fin 128) :
    (iblk4 V c 6 t : FVec Ideal S1000x128 .f32) (ix2 p l) = (V c main_v69_1 : Cert.Spec.Mat 50000 128) (ix2 (tileRow4 t p) l) := by
  obtain ⟨-, -, -, -, -, -, -, -, -, -, -, -, e0, e1, -⟩ := grid_facts4 t
  refine congrArg (V c main_v69_1) (funext fun a => Fin.ext ?_)
  match a with
  | ⟨0, _⟩ => show win4_6.index t (0 : Fin 2) * 1000 + 1 * p.val = t.val * 1000 + p.val; omega
  | ⟨1, _⟩ => show win4_6.index t (1 : Fin 2) * 128 + 1 * l.val = l.val; omega

theorem blk4_2 :
    (iblk4 V c 2 t : FVec Ideal S128x128 .f32) = (V c main_v81 : Cert.Spec.Mat 128 128) := by
  obtain ⟨-, -, -, -, e0, e1, -⟩ := grid_facts4 t
  funext y
  refine congrArg (V c main_v81) (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

theorem blk4_3 :
    (iblk4 V c 3 t : FVec Ideal S1x128 .f32) = (V c main_v88 : Cert.Spec.Mat 1 128) := by
  obtain ⟨-, -, -, -, -, -, e0, e1, -⟩ := grid_facts4 t
  funext y
  refine congrArg (V c main_v88) (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

theorem blk4_4 :
    (iblk4 V c 4 t : FVec Ideal S128x128 .f32) = (V c main_v85 : Cert.Spec.Mat 128 128) := by
  obtain ⟨-, -, -, -, -, -, -, -, e0, e1, -⟩ := grid_facts4 t
  funext y
  refine congrArg (V c main_v85) (funext fun a => Fin.ext ?_)
  match a with
  | ⟨0, _⟩ => show win4_4.index t (0 : Fin 2) * 128 + 1 * (y 0).val = (y 0).val; omega
  | ⟨1, _⟩ => show win4_4.index t (1 : Fin 2) * 128 + 1 * (y 1).val = (y 1).val; omega

theorem blk4_5 :
    (iblk4 V c 5 t : FVec Ideal S1x128 .f32) = (V c main_v89 : Cert.Spec.Mat 1 128) := by
  obtain ⟨-, -, -, -, -, -, -, -, -, -, e0, e1, -⟩ := grid_facts4 t
  funext y
  refine congrArg (V c main_v89) (funext fun a => Fin.ext ?_)
  match a with
  | ⟨0, _⟩ => show win4_5.index t (0 : Fin 2) * 1 + 1 * (y 0).val = (y 0).val; omega
  | ⟨1, _⟩ => show win4_5.index t (1 : Fin 2) * 128 + 1 * (y 1).val = (y 1).val; omega

abbrev resOut4 : Cert.Spec.Mat 50000 128 :=
  Cert.Spec.addN (Cert.Spec.layerZ (V c main_v69_0) (V c main_v79) (V c main_v81) (V c main_v88) (V c main_v85) (V c main_v89)) (V c main_v69_1)

abbrev featOut4 : Cert.Spec.Mat 50000 128 := Cert.Spec.relu (resOut4 V c)

theorem covered4 (i : S50000x128.Idx) : ∃ t : Fin cfg4.N, t.val * 1000 ≤ (i 0).val ∧ (i 0).val < t.val * 1000 + 1000 :=
  ⟨⟨(i 0).val / 1000, by have hN : cfg4.N = 50 := N_4; have h : (i 0).val < 50000 := (i 0).isLt; omega⟩, by show (i 0).val / 1000 * 1000 ≤ (i 0).val ∧ (i 0).val < (i 0).val / 1000 * 1000 + 1000; omega⟩

theorem emb4_8 (p : Fin 1000) (q : Fin 128) :
    (((cfg4.win 8).blk t).view.emb (ix2 p q : S1000x128.Idx) : S50000x128.Idx) = ix2 (tileRow4 t p) q := by
  obtain ⟨-, -, -, -, -, -, -, -, -, -, -, -, -, -, -, -, e0, e1⟩ := grid_facts4 t
  funext a
  apply Fin.ext
  match a with
  | ⟨0, _⟩ => show win4_8.index t (0 : Fin 2) * 1000 + 1 * p.val = t.val * 1000 + p.val; omega
  | ⟨1, _⟩ => show win4_8.index t (1 : Fin 2) * 128 + 1 * q.val = q.val; omega

theorem flushed4_8_eq :
    (dat4 V c).flushed 8 t = ((cfg4.win 8).blk t).view.read (Elt Ideal) (resOut4 V c) := by
  show (cfg4.win 8).cut (grid4.coords t) ((dat4 V c).after 8 t) = _
  rw [after4_8]
  unfold out4_8
  rw [View.canon_unit_zero hzero4]
  simp only [View.ld_unit_zero (S := S1000x128) hzero4, View.ld_unit_zero (S := S128x128) hzero4, View.ld_unit_zero (S := S1x128) hzero4]
  funext y
  obtain ⟨p, q, rfl⟩ : ∃ (p : Fin 1000) (q : Fin 128), (y : S1000x128.Idx) = ix2 p q := ⟨y 0, y 1, eq_ix2 y⟩
  rw [View.read_apply]
  show k4_pay1 (F := Ideal) _ _ _ _ _ _ _ (ix2 p q)
    = resOut4 V c (((cfg4.win 8).blk t).view.emb (ix2 p q : S1000x128.Idx))
  rw [emb4_8 t p q]
  refine (resTile_pay1_r4 _ _ _ _ _ _ _ p q).trans ?_
  rw [blk4_2 V c t, blk4_3 V c t, blk4_4 V c t, blk4_5 V c t]
  exact resTileVal_eq_spec _ _ _ _ _ _ _ _ _ _ (tileRow4 t p) p q
    (fun l => blk4_0 V c t p l) (fun l => blk4_1 V c t p l) (blk4_6 V c t p q)

theorem covered4_8 (i : S50000x128.Idx) :
    ∃ t : Fin cfg4.N, (cfg4.win 8).flush t = true ∧ i ∈ ((cfg4.win 8).blk t).view.set := by
  obtain ⟨t, h0, h1⟩ := covered4 i
  have hi1 : (i 1).val < 128 := (i 1).isLt
  obtain ⟨-, -, -, -, -, -, -, -, -, -, -, -, -, -, -, -, e0, e1⟩ := grid_facts4 t
  refine ⟨t, flush4_8 t, ?_⟩
  show i ∈ ((View.whole main_v90_1).slice (win4_8.rect t)).set
  rw [View.set_slice_whole, Rect.mem_set_unit]
  intro a
  match a with
  | ⟨0, _⟩ => show win4_8.index t (0 : Fin 2) * 1000 ≤ (i 0).val ∧ (i 0).val < win4_8.index t (0 : Fin 2) * 1000 + 1000; omega
  | ⟨1, _⟩ => show win4_8.index t (1 : Fin 2) * 128 ≤ (i 1).val ∧ (i 1).val < win4_8.index t (1 : Fin 2) * 128 + 128; omega

theorem final4_8 :
    (dat4 (F := Ideal) V c).arrAt 8 cfg4.N = Cert.Spec.addN (Cert.Spec.layerZ (V c main_v69_0) (V c main_v79) (V c main_v81) (V c main_v88) (V c main_v85) (V c main_v89)) (V c main_v69_1) :=
  (dat4 V c).arrAt_eq_of_cover 8 (resOut4 V c) (fun t _ => flushed4_8_eq V c t) covered4_8

theorem emb4_7 (p : Fin 1000) (q : Fin 128) :
    (((cfg4.win 7).blk t).view.emb (ix2 p q : S1000x128.Idx) : S50000x128.Idx) = ix2 (tileRow4 t p) q := by
  obtain ⟨-, -, -, -, -, -, -, -, -, -, -, -, -, -, e0, e1, -⟩ := grid_facts4 t
  funext a
  apply Fin.ext
  match a with
  | ⟨0, _⟩ => show win4_7.index t (0 : Fin 2) * 1000 + 1 * p.val = t.val * 1000 + p.val; omega
  | ⟨1, _⟩ => show win4_7.index t (1 : Fin 2) * 128 + 1 * q.val = q.val; omega

theorem flushed4_7_eq :
    (dat4 V c).flushed 7 t = ((cfg4.win 7).blk t).view.read (Elt Ideal) (featOut4 V c) := by
  show (cfg4.win 7).cut (grid4.coords t) ((dat4 V c).after 7 t) = _
  rw [after4_7]
  unfold out4_7
  rw [View.canon_unit_zero hzero4]
  simp only [View.ld_unit_zero (S := S1000x128) hzero4, View.ld_unit_zero (S := S128x128) hzero4, View.ld_unit_zero (S := S1x128) hzero4]
  funext y
  obtain ⟨p, q, rfl⟩ : ∃ (p : Fin 1000) (q : Fin 128), (y : S1000x128.Idx) = ix2 p q := ⟨y 0, y 1, eq_ix2 y⟩
  rw [View.read_apply]
  show k4_pay2 (F := Ideal) _ _ _ _ _ _ _ (ix2 p q)
    = featOut4 V c (((cfg4.win 7).blk t).view.emb (ix2 p q : S1000x128.Idx))
  rw [emb4_7 t p q]
  refine (resTile_pay2_r4 _ _ _ _ _ _ _ p q).trans ?_
  rw [blk4_2 V c t, blk4_3 V c t, blk4_4 V c t, blk4_5 V c t]
  exact resTileVal_relu_eq_spec _ _ _ _ _ _ _ _ _ _ (tileRow4 t p) p q
    (fun l => blk4_0 V c t p l) (fun l => blk4_1 V c t p l) (blk4_6 V c t p q)

theorem covered4_7 (i : S50000x128.Idx) :
    ∃ t : Fin cfg4.N, (cfg4.win 7).flush t = true ∧ i ∈ ((cfg4.win 7).blk t).view.set := by
  obtain ⟨t, h0, h1⟩ := covered4 i
  have hi1 : (i 1).val < 128 := (i 1).isLt
  obtain ⟨-, -, -, -, -, -, -, -, -, -, -, -, -, -, e0, e1, -⟩ := grid_facts4 t
  refine ⟨t, flush4_7 t, ?_⟩
  show i ∈ ((View.whole main_v90_0).slice (win4_7.rect t)).set
  rw [View.set_slice_whole, Rect.mem_set_unit]
  intro a
  match a with
  | ⟨0, _⟩ => show win4_7.index t (0 : Fin 2) * 1000 ≤ (i 0).val ∧ (i 0).val < win4_7.index t (0 : Fin 2) * 1000 + 1000; omega
  | ⟨1, _⟩ => show win4_7.index t (1 : Fin 2) * 128 ≤ (i 1).val ∧ (i 1).val < win4_7.index t (1 : Fin 2) * 128 + 128; omega

theorem final4_7 :
    (dat4 (F := Ideal) V c).arrAt 7 cfg4.N = Cert.Spec.relu (Cert.Spec.addN (Cert.Spec.layerZ (V c main_v69_0) (V c main_v79) (V c main_v81) (V c main_v88) (V c main_v85) (V c main_v89)) (V c main_v69_1)) :=
  (dat4 V c).arrAt_eq_of_cover 7 (featOut4 V c) (fun t _ => flushed4_7_eq V c t) covered4_7

end Cert.KernelIdeal.Val

end
-- ==== Proof.Val.Layer4.lean ====
/-
  Region 4, the fourth layer (layer 3 of the six), on the extended reals. The layer adds the running residual before
  the rectifier: it leaves `h4`, the rectified sum, in `main_v90_0` and the sum itself, the new residual `res4`, in
  `main_v90_1`.
-/
import proofs.«431182_j60713657696761_1_alg».proof.Proof.Val.Layer3
import proofs.«431182_j60713657696761_1_alg».proof.Proof.Val.Host4
import proofs.«431182_j60713657696761_1_alg».proof.Proof.Val.Reg4Val

set_option maxRecDepth 16384

noncomputable section

namespace Cert.KernelIdeal.Val

open Cert.KernelIdeal Cert.KernelIdeal.Gen
open Idealize.ShloMosaic Idealize.ShloMosaic.TcCoe Idealize.ShloMosaic.StableHlo

section Layer

variable (m : (ℓ : Loc nD τ sig) → Buf (Elt Ideal) ℓ) (c : Dev nD)

/-- Region 4 leaves `h4` in `main_v90_0` and the new residual `res4` in `main_v90_1`. -/
theorem out4 : Hand.W10 m c (Proc.devRef .tc main_v90_0) = h4 m c ∧ Hand.W10 m c (Proc.devRef .tc main_v90_1) = res4 m c := by
  have eh : Hand.W9 m c (Proc.devRef .tc main_v69_0) = h3 m c := by keep_back; exact (out3 m c).1
  have er : Hand.W9 m c (Proc.devRef .tc main_v69_1) = res3 m c := by keep_back; exact (out3 m c).2
  have ea : Hand.W9 m c (Proc.devRef .tc main_v79) = Spec.agg (edges m c) (h3 m c) :=
    (s4_agg (Hand.W8 m c) (edges m c) (src_at8 m c) (dst_at8 m c)).trans (by rw [(out3 m c).1])
  have e1 : Hand.W9 m c (Proc.devRef .tc main_v81) = Spec.W6 (Hand.W0 m c (Proc.devRef .tc main_arg5)) (3 : Fin 6) :=
    (s4_w1 (Hand.W8 m c)).trans (by keep_back)
  have e2 : Hand.W9 m c (Proc.devRef .tc main_v88) = Spec.B6 (Hand.W0 m c (Proc.devRef .tc main_arg6)) (3 : Fin 6) :=
    (s4_b1 (Hand.W8 m c)).trans (by keep_back)
  have e3 : Hand.W9 m c (Proc.devRef .tc main_v85) = Spec.W6 (Hand.W0 m c (Proc.devRef .tc main_arg7)) (3 : Fin 6) :=
    (s4_w2 (Hand.W8 m c)).trans (by keep_back)
  have e4 : Hand.W9 m c (Proc.devRef .tc main_v89) = Spec.B6 (Hand.W0 m c (Proc.devRef .tc main_arg8)) (3 : Fin 6) :=
    (s4_b2 (Hand.W8 m c)).trans (by keep_back)
  constructor
  · rw [Hand.W_out4_0, final4_7]
    beta_reduce
    rw [eh, ea, e1, e2, e3, e4, er]
    rfl
  · rw [Hand.W_out4_1, final4_8]
    beta_reduce
    rw [eh, ea, e1, e2, e3, e4, er]
    rfl

end Layer

end Cert.KernelIdeal.Val

end
-- ==== Proof.Val.Host5.lean ====
/-
  The stretch of host operations before the fifth layer (layer 4 of the six), read for an arbitrary valuation `W` of
  the core's buffers: the neighbourhood sum of the previous output `main_v90_0` lands in `main_v100`, and the layer's
  two weights and two biases, cut out of the stacks, in `main_v102`, `main_v109`, `main_v106` and `main_v110`.
  Each buffer is first read as the operations' own term of `W`'s buffers, whatever the floats are, and then, on the
  extended reals, as the specification's function.
-/
import proofs.«431182_j60713657696761_1_alg».proof.Proof.Val.Host

set_option maxRecDepth 16384

noncomputable section

namespace Cert.KernelIdeal.Val

open Cert.KernelIdeal Cert.KernelIdeal.Gen
open Idealize.ShloMosaic Idealize.ShloMosaic.TcCoe Idealize.ShloMosaic.StableHlo

variable {F : FTy → Type} [FloatOps F]

/-! ## The operations' terms -/

set_option maxHeartbeats 4000000 in
/-- The wrapped source vector as a column, the gather by it, the scatter-add by the target vector as a column. -/
theorem s5_agg_term (W : Valuation τ sig (Elt F)) :
    StableHlo.after (hostOps5 (F := F)) W (Proc.devRef .tc main_v100)
      = Host.scatterAdd (F := F) scatter_S50000x128_S800000x1_S800000x128_1_0_0_1
          (broadcastInDim S50000x128 ![] bcast_S_S50000x128 (constant (F := F) S_ .f32 0x00000000#32))
          (broadcastInDim S800000x1 ![0] bcast_S800000_S800000x1_0 (W (Proc.devRef .tc main_v3)))
          (Host.gather gather_S50000x128_S800000x1_S800000x128_1_0_n_n_0_1_1128 (W (Proc.devRef .tc main_v90_0))
            (broadcastInDim S800000x1 ![0] bcast_S800000_S800000x1_0
              (select (cmpi .slt (W (Proc.devRef .tc main_v1)) (broadcastInDim S800000 ![] bcast_S_S800000 (constantI S_ 32 0#32)))
                (addi (W (Proc.devRef .tc main_v1)) (broadcastInDim S800000 ![] bcast_S_S800000 (constantI S_ 32 50000#32)))
                (W (Proc.devRef .tc main_v1))))) := by
  after_results_simp <;> rfl

set_option maxHeartbeats 4000000 in
/-- The first weight: a slab of its stack, reshaped. -/
theorem s5_w1_term (W : Valuation τ sig (Elt F)) :
    StableHlo.after (hostOps5 (F := F)) W (Proc.devRef .tc main_v102)
      = shapeCast S128x128 (extractStridedSlice S1x128x128 ![4, 0, 0] (W (Proc.devRef .tc main_arg5)) slices_S6x128x128_S1x128x128_4_0_0)
          shapeCasts_S1x128x128_S128x128 := by
  after_results_simp <;> rfl

set_option maxHeartbeats 4000000 in
/-- The first bias: a row of its stack, flattened and laid out as a row. -/
theorem s5_b1_term (W : Valuation τ sig (Elt F)) :
    StableHlo.after (hostOps5 (F := F)) W (Proc.devRef .tc main_v109)
      = shapeCast S1x128 (shapeCast S128 (extractStridedSlice S1x128 ![4, 0] (W (Proc.devRef .tc main_arg6)) slices_S6x128_S1x128_4_0)
          shapeCasts_S1x128_S128) shapeCasts_S128_S1x128 := by
  after_results_simp <;> rfl

set_option maxHeartbeats 4000000 in
/-- The second weight. -/
theorem s5_w2_term (W : Valuation τ sig (Elt F)) :
    StableHlo.after (hostOps5 (F := F)) W (Proc.devRef .tc main_v106)
      = shapeCast S128x128 (extractStridedSlice S1x128x128 ![4, 0, 0] (W (Proc.devRef .tc main_arg7)) slices_S6x128x128_S1x128x128_4_0_0)
          shapeCasts_S1x128x128_S128x128 := by
  after_results_simp <;> rfl

set_option maxHeartbeats 4000000 in
/-- The second bias. -/
theorem s5_b2_term (W : Valuation τ sig (Elt F)) :
    StableHlo.after (hostOps5 (F := F)) W (Proc.devRef .tc main_v110)
      = shapeCast S1x128 (shapeCast S128 (extractStridedSlice S1x128 ![4, 0] (W (Proc.devRef .tc main_arg8)) slices_S6x128_S1x128_4_0)
          shapeCasts_S1x128_S128) shapeCasts_S128_S1x128 := by
  after_results_simp <;> rfl

/-! ## On the extended reals -/

/-- When `main_v1` and `main_v3` hold the source and target vectors of an edge list, the stretch leaves the
    neighbourhood sum of `main_v90_0` over that edge list in `main_v100`. -/
theorem s5_agg (W : Valuation τ sig (Elt Ideal)) (ei : IVec S2x800000 32)
    (hsrc : W (Proc.devRef .tc main_v1) = srcVec ei) (hdst : W (Proc.devRef .tc main_v3) = dstVec ei) :
    StableHlo.after (hostOps5 (F := Ideal)) W (Proc.devRef .tc main_v100) = Spec.agg ei (W (Proc.devRef .tc main_v90_0)) := by
  rw [s5_agg_term (F := Ideal) W, hsrc, hdst]
  exact agg_of_vecs ei _

/-- The stretch leaves the layer's first weight in `main_v102`. -/
theorem s5_w1 (W : Valuation τ sig (Elt Ideal)) :
    StableHlo.after (hostOps5 (F := Ideal)) W (Proc.devRef .tc main_v102) = Spec.W6 (W (Proc.devRef .tc main_arg5)) (4 : Fin 6) :=
  (s5_w1_term (F := Ideal) W).trans (weight_cut 4 (by norm_num) _ rfl _ _)

/-- The stretch leaves the layer's first bias in `main_v109`. -/
theorem s5_b1 (W : Valuation τ sig (Elt Ideal)) :
    StableHlo.after (hostOps5 (F := Ideal)) W (Proc.devRef .tc main_v109) = Spec.B6 (W (Proc.devRef .tc main_arg6)) (4 : Fin 6) :=
  (s5_b1_term (F := Ideal) W).trans (bias_cut 4 (by norm_num) _ rfl _ _)

/-- The stretch leaves the layer's second weight in `main_v106`. -/
theorem s5_w2 (W : Valuation τ sig (Elt Ideal)) :
    StableHlo.after (hostOps5 (F := Ideal)) W (Proc.devRef .tc main_v106) = Spec.W6 (W (Proc.devRef .tc main_arg7)) (4 : Fin 6) :=
  (s5_w2_term (F := Ideal) W).trans (weight_cut 4 (by norm_num) _ rfl _ _)

/-- The stretch leaves the layer's second bias in `main_v110`. -/
theorem s5_b2 (W : Valuation τ sig (Elt Ideal)) :
    StableHlo.after (hostOps5 (F := Ideal)) W (Proc.devRef .tc main_v110) = Spec.B6 (W (Proc.devRef .tc main_arg8)) (4 : Fin 6) :=
  (s5_b2_term (F := Ideal) W).trans (bias_cut 4 (by norm_num) _ rfl _ _)

end Cert.KernelIdeal.Val

end
-- ==== Proof.Val.Reg5Val.lean ====
/-
  Region 5 at the ideal reading of floats: after the 50 points the layer's output array holds
  `relu (relu ((h + agg) W₁ + b₁) W₂ + b₂)` of the arrays it reads and the carried output holds the carried input. Each
  point writes back its row tile of those, an entry of the map reading only its own row, and the 50 tiles cover the rows.
-/
import proofs.«431182_j60713657696761_1_alg».proof.Proof.KI.Reg5
import proofs.«431182_j60713657696761_1_alg».proof.Proof.Val.Tile
import proofs.«431182_j60713657696761_1_alg».proof.Proof.Val.SpecAt
import Idealize.ShloMosaic.Lib.Pipeline.Value

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD) (t : Fin cfg5.N)

theorem zeros2_5 : (![0, 0] : Fin 2 → Nat) = fun _ => 0 := funext fun a => by fin_cases a <;> rfl

theorem where5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0
    ∧ win5_8.index t (0 : Fin 2) = t.val ∧ win5_8.index t (1 : Fin 2) = 0 :=
  (by decide +kernel : ∀ t : Fin grid5.N, _)

theorem h_tile5 (p : Fin 1000) (k : Fin 128) (r : Fin 50000) (hr : r.val = t.val * 1000 + p.val) :
    (Hand.iblk5 V c 0 t : Vec Ideal S1000x128 .f32) (ix2 p k) = (V c main_v90_0 : S50000x128.Idx → EReal) (ix2 r k) := by
  obtain ⟨e0, e1, -⟩ := where5 t
  refine congrArg (V c main_v90_0) (funext fun a => Fin.ext ?_)
  match a with
  | ⟨0, _⟩ => show win5_0.index t (0 : Fin 2) * 1000 + 1 * p.val = r.val; omega
  | ⟨1, _⟩ => show win5_0.index t (1 : Fin 2) * 128 + 1 * k.val = k.val; omega

theorem agg_tile5 (p : Fin 1000) (k : Fin 128) (r : Fin 50000) (hr : r.val = t.val * 1000 + p.val) :
    (Hand.iblk5 V c 1 t : Vec Ideal S1000x128 .f32) (ix2 p k) = (V c main_v100 : S50000x128.Idx → EReal) (ix2 r k) := by
  obtain ⟨-, -, e0, e1, -⟩ := where5 t
  refine congrArg (V c main_v100) (funext fun a => Fin.ext ?_)
  match a with
  | ⟨0, _⟩ => show win5_1.index t (0 : Fin 2) * 1000 + 1 * p.val = r.val; omega
  | ⟨1, _⟩ => show win5_1.index t (1 : Fin 2) * 128 + 1 * k.val = k.val; omega

theorem w1_tile5 (k q : Fin 128) :
    (Hand.iblk5 V c 2 t : Vec Ideal S128x128 .f32) (ix2 k q) = (V c main_v102 : S128x128.Idx → EReal) (ix2 k q) := by
  obtain ⟨-, -, -, -, e0, e1, -⟩ := where5 t
  refine congrArg (V c main_v102) (funext fun a => Fin.ext ?_)
  match a with
  | ⟨0, _⟩ => show win5_2.index t (0 : Fin 2) * 128 + 1 * k.val = k.val; omega
  | ⟨1, _⟩ => show win5_2.index t (1 : Fin 2) * 128 + 1 * q.val = q.val; omega

theorem b1_tile5 (q : Fin 128) :
    (Hand.iblk5 V c 3 t : Vec Ideal S1x128 .f32) (ix2 (0 : Fin 1) q) = (V c main_v109 : S1x128.Idx → EReal) (ix2 (0 : Fin 1) q) := by
  obtain ⟨-, -, -, -, -, -, e0, e1, -⟩ := where5 t
  refine congrArg (V c main_v109) (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

theorem w2_tile5 (k q : Fin 128) :
    (Hand.iblk5 V c 4 t : Vec Ideal S128x128 .f32) (ix2 k q) = (V c main_v106 : S128x128.Idx → EReal) (ix2 k q) := by
  obtain ⟨-, -, -, -, -, -, -, -, e0, e1, -⟩ := where5 t
  refine congrArg (V c main_v106) (funext fun a => Fin.ext ?_)
  match a with
  | ⟨0, _⟩ => show win5_4.index t (0 : Fin 2) * 128 + 1 * k.val = k.val; omega
  | ⟨1, _⟩ => show win5_4.index t (1 : Fin 2) * 128 + 1 * q.val = q.val; omega

theorem b2_tile5 (q : Fin 128) :
    (Hand.iblk5 V c 5 t : Vec Ideal S1x128 .f32) (ix2 (0 : Fin 1) q) = (V c main_v110 : S1x128.Idx → EReal) (ix2 (0 : Fin 1) q) := by
  obtain ⟨-, -, -, -, -, -, -, -, -, -, e0, e1, -⟩ := where5 t
  refine congrArg (V c main_v110) (funext fun a => Fin.ext ?_)
  match a with
  | ⟨0, _⟩ => show win5_5.index t (0 : Fin 2) * 1 + 1 * 0 = 0; omega
  | ⟨1, _⟩ => show win5_5.index t (1 : Fin 2) * 128 + 1 * q.val = q.val; omega

theorem wrote5_7 :
    (Hand.dat5 (F := Ideal) V c).flushed 7 t
      = ((cfg5.win 7).blk t).view.read (Elt Ideal)
          (Cert.Spec.relu (Cert.Spec.layerZ (V c main_v90_0) (V c main_v100) (V c main_v102) (V c main_v109) (V c main_v106) (V c main_v110))) := by
  show (cfg5.win 7).cut (grid5.coords t) ((Hand.dat5 (F := Ideal) V c).after 7 t) = _
  rw [Hand.after5_7]
  unfold Hand.out5_7
  rw [View.canon_unit_zero zeros2_5]
  simp only [View.ld_unit_zero (S := S1000x128) zeros2_5, View.ld_unit_zero (S := S128x128) zeros2_5, View.ld_unit_zero (S := S1x128) zeros2_5]
  obtain ⟨-, -, -, -, -, -, -, -, -, -, -, -, -, -, e0, e1, -⟩ := where5 t
  funext j
  obtain ⟨p, q, rfl⟩ : ∃ (p : Fin 1000) (q : Fin 128), j = ix2 p q := ⟨j 0, j 1, eq_ix2 j⟩
  have ht : t.val < 50 := t.isLt
  have hr : t.val * 1000 + p.val < 50000 := by have := p.isLt; omega
  have hj : ((cfg5.win 7).blk t).view.emb (ix2 p q) = (ix2 (⟨t.val * 1000 + p.val, hr⟩ : Fin 50000) q : S50000x128.Idx) := by
    funext a; apply Fin.ext
    match a with
    | ⟨0, _⟩ => show win5_7.index t (0 : Fin 2) * 1000 + 1 * p.val = t.val * 1000 + p.val; omega
    | ⟨1, _⟩ => show win5_7.index t (1 : Fin 2) * 128 + 1 * q.val = q.val; omega
  show k5_pay2 (F := Ideal) _ _ _ _ _ _ (ix2 p q)
    = Cert.Spec.relu (Cert.Spec.layerZ (V c main_v90_0) (V c main_v100) (V c main_v102) (V c main_v109) (V c main_v106) (V c main_v110))
        (((cfg5.win 7).blk t).view.emb (ix2 p q))
  rw [hj]
  refine ((layer5_tile_apply _ _ _ _ _ _ p q).trans ?_).trans
    (relu_layerZ_at _ _ _ _ _ _ ⟨t.val * 1000 + p.val, hr⟩ q).symm
  refine congrArg (max · 0) ?_
  refine congrArg₂ (· + ·) (Finset.sum_congr rfl fun k _ => ?_) (b2_tile5 V c t q)
  refine congrArg₂ (· * ·) ?_ (w2_tile5 V c t k q)
  refine congrArg (max · 0) ?_
  refine congrArg₂ (· + ·) (Finset.sum_congr rfl fun l _ => ?_) (b1_tile5 V c t k)
  refine congrArg₂ (· * ·) ?_ (w1_tile5 V c t l k)
  exact congrArg₂ (· + ·) (h_tile5 V c t p l ⟨t.val * 1000 + p.val, hr⟩ rfl) (agg_tile5 V c t p l ⟨t.val * 1000 + p.val, hr⟩ rfl)

theorem wrote5_8 :
    (Hand.dat5 (F := Ideal) V c).flushed 8 t = ((cfg5.win 8).blk t).view.read (Elt Ideal) (V c main_v90_1) := by
  show (cfg5.win 8).cut (grid5.coords t) ((Hand.dat5 (F := Ideal) V c).after 8 t) = _
  rw [Hand.after5_8]
  unfold Hand.out5_8
  rw [View.canon_unit_zero zeros2_5]
  simp only [View.ld_unit_zero (S := S1000x128) zeros2_5]
  rw [k5_pay1_eq]
  obtain ⟨-, -, -, -, -, -, -, -, -, -, -, -, e0, e1, -, -, f0, f1⟩ := where5 t
  funext j
  obtain ⟨p, q, rfl⟩ : ∃ (p : Fin 1000) (q : Fin 128), j = ix2 p q := ⟨j 0, j 1, eq_ix2 j⟩
  show (Hand.iblk5 V c 6 t : Vec Ideal S1000x128 .f32) (ix2 p q) = V c main_v90_1 (((cfg5.win 8).blk t).view.emb (ix2 p q))
  refine congrArg (V c main_v90_1) (funext fun a => Fin.ext ?_)
  match a with
  | ⟨0, _⟩ => show win5_6.index t (0 : Fin 2) * 1000 + 1 * p.val = win5_8.index t (0 : Fin 2) * 1000 + 1 * p.val; omega
  | ⟨1, _⟩ => show win5_6.index t (1 : Fin 2) * 128 + 1 * q.val = win5_8.index t (1 : Fin 2) * 128 + 1 * q.val; omega

theorem all_rows5 (i : S50000x128.Idx) : ∃ t : Fin cfg5.N, t.val * 1000 ≤ (i 0).val ∧ (i 0).val < t.val * 1000 + 1000 :=
  ⟨⟨(i 0).val / 1000, by have hN : cfg5.N = 50 := N_5; have h : (i 0).val < 50000 := (i 0).isLt; omega⟩, by show (i 0).val / 1000 * 1000 ≤ (i 0).val ∧ (i 0).val < (i 0).val / 1000 * 1000 + 1000; omega⟩

theorem all_rows5_7 (i : S50000x128.Idx) : ∃ t : Fin cfg5.N, (cfg5.win 7).flush t = true ∧ i ∈ ((cfg5.win 7).blk t).view.set := by
  obtain ⟨t, h0, h1⟩ := all_rows5 i
  have hi1 : (i 1).val < 128 := (i 1).isLt
  obtain ⟨-, -, -, -, -, -, -, -, -, -, -, -, -, -, e0, e1, -⟩ := where5 t
  refine ⟨t, flush5_7 t, ?_⟩
  show i ∈ ((View.whole main_v111_0).slice (win5_7.rect t)).set
  rw [View.set_slice_whole, Rect.mem_set_unit]
  intro a
  match a with
  | ⟨0, _⟩ => show win5_7.index t (0 : Fin 2) * 1000 ≤ (i 0).val ∧ (i 0).val < win5_7.index t (0 : Fin 2) * 1000 + 1000; omega
  | ⟨1, _⟩ => show win5_7.index t (1 : Fin 2) * 128 ≤ (i 1).val ∧ (i 1).val < win5_7.index t (1 : Fin 2) * 128 + 128; omega
theorem all_rows5_8 (i : S50000x128.Idx) : ∃ t : Fin cfg5.N, (cfg5.win 8).flush t = true ∧ i ∈ ((cfg5.win 8).blk t).view.set := by
  obtain ⟨t, h0, h1⟩ := all_rows5 i
  have hi1 : (i 1).val < 128 := (i 1).isLt
  obtain ⟨-, -, -, -, -, -, -, -, -, -, -, -, -, -, -, -, e0, e1⟩ := where5 t
  refine ⟨t, flush5_8 t, ?_⟩
  show i ∈ ((View.whole main_v111_1).slice (win5_8.rect t)).set
  rw [View.set_slice_whole, Rect.mem_set_unit]
  intro a
  match a with
  | ⟨0, _⟩ => show win5_8.index t (0 : Fin 2) * 1000 ≤ (i 0).val ∧ (i 0).val < win5_8.index t (0 : Fin 2) * 1000 + 1000; omega
  | ⟨1, _⟩ => show win5_8.index t (1 : Fin 2) * 128 ≤ (i 1).val ∧ (i 1).val < win5_8.index t (1 : Fin 2) * 128 + 128; omega

theorem final5_7 :
    (Hand.dat5 (F := Ideal) V c).arrAt 7 cfg5.N
      = Cert.Spec.relu (Cert.Spec.layerZ (V c main_v90_0) (V c main_v100) (V c main_v102) (V c main_v109) (V c main_v106) (V c main_v110)) :=
  (Hand.dat5 (F := Ideal) V c).arrAt_eq_of_cover 7 _ (fun t _ => wrote5_7 V c t) all_rows5_7

theorem final5_8 : (Hand.dat5 (F := Ideal) V c).arrAt 8 cfg5.N = V c main_v90_1 :=
  (Hand.dat5 (F := Ideal) V c).arrAt_eq_of_cover 8 _ (fun t _ => wrote5_8 V c t) all_rows5_8

end Cert.KernelIdeal.Val

end
-- ==== Proof.Val.Layer5.lean ====
/-
  Region 5, the fifth layer (layer 4 of the six), on the extended reals. The layer adds no residual: it leaves the
  rectified two-layer map `h5` in `main_v111_0` and hands the running residual on, unchanged, in `main_v111_1`.
-/
import proofs.«431182_j60713657696761_1_alg».proof.Proof.Val.Layer4
import proofs.«431182_j60713657696761_1_alg».proof.Proof.Val.Host5
import proofs.«431182_j60713657696761_1_alg».proof.Proof.Val.Reg5Val

set_option maxRecDepth 16384

noncomputable section

namespace Cert.KernelIdeal.Val

open Cert.KernelIdeal Cert.KernelIdeal.Gen
open Idealize.ShloMosaic Idealize.ShloMosaic.TcCoe Idealize.ShloMosaic.StableHlo

section Layer

variable (m : (ℓ : Loc nD τ sig) → Buf (Elt Ideal) ℓ) (c : Dev nD)

/-- Region 5 leaves `h5` in `main_v111_0` and the residual, as it found it, in `main_v111_1`. -/
theorem out5 : Hand.W12 m c (Proc.devRef .tc main_v111_0) = h5 m c ∧ Hand.W12 m c (Proc.devRef .tc main_v111_1) = res5 m c := by
  have eh : Hand.W11 m c (Proc.devRef .tc main_v90_0) = h4 m c := by keep_back; exact (out4 m c).1
  have er : Hand.W11 m c (Proc.devRef .tc main_v90_1) = res4 m c := by keep_back; exact (out4 m c).2
  have ea : Hand.W11 m c (Proc.devRef .tc main_v100) = Spec.agg (edges m c) (h4 m c) :=
    (s5_agg (Hand.W10 m c) (edges m c) (src_at10 m c) (dst_at10 m c)).trans (by rw [(out4 m c).1])
  have e1 : Hand.W11 m c (Proc.devRef .tc main_v102) = Spec.W6 (Hand.W0 m c (Proc.devRef .tc main_arg5)) (4 : Fin 6) :=
    (s5_w1 (Hand.W10 m c)).trans (by keep_back)
  have e2 : Hand.W11 m c (Proc.devRef .tc main_v109) = Spec.B6 (Hand.W0 m c (Proc.devRef .tc main_arg6)) (4 : Fin 6) :=
    (s5_b1 (Hand.W10 m c)).trans (by keep_back)
  have e3 : Hand.W11 m c (Proc.devRef .tc main_v106) = Spec.W6 (Hand.W0 m c (Proc.devRef .tc main_arg7)) (4 : Fin 6) :=
    (s5_w2 (Hand.W10 m c)).trans (by keep_back)
  have e4 : Hand.W11 m c (Proc.devRef .tc main_v110) = Spec.B6 (Hand.W0 m c (Proc.devRef .tc main_arg8)) (4 : Fin 6) :=
    (s5_b2 (Hand.W10 m c)).trans (by keep_back)
  constructor
  · rw [Hand.W_out5_0, final5_7]
    beta_reduce
    rw [eh, ea, e1, e2, e3, e4]
    rfl
  · rw [Hand.W_out5_1, final5_8]
    exact er

end Layer

end Cert.KernelIdeal.Val

end
-- ==== Proof.Val.Host6.lean ====
/-
  The stretch of host operations before the sixth layer (layer 5 of the six), read for an arbitrary valuation `W` of
  the core's buffers: the neighbourhood sum of the previous output `main_v111_0` lands in `main_v121`, and the layer's
  two weights and two biases, cut out of the stacks, in `main_v123`, `main_v130`, `main_v127` and `main_v131`.
  Each buffer is first read as the operations' own term of `W`'s buffers, whatever the floats are, and then, on the
  extended reals, as the specification's function.
-/
import proofs.«431182_j60713657696761_1_alg».proof.Proof.Val.Host

set_option maxRecDepth 16384

noncomputable section

namespace Cert.KernelIdeal.Val

open Cert.KernelIdeal Cert.KernelIdeal.Gen
open Idealize.ShloMosaic Idealize.ShloMosaic.TcCoe Idealize.ShloMosaic.StableHlo

variable {F : FTy → Type} [FloatOps F]

/-! ## The operations' terms -/

set_option maxHeartbeats 4000000 in
/-- The wrapped source vector as a column, the gather by it, the scatter-add by the target vector as a column. -/
theorem s6_agg_term (W : Valuation τ sig (Elt F)) :
    StableHlo.after (hostOps6 (F := F)) W (Proc.devRef .tc main_v121)
      = Host.scatterAdd (F := F) scatter_S50000x128_S800000x1_S800000x128_1_0_0_1
          (broadcastInDim S50000x128 ![] bcast_S_S50000x128 (constant (F := F) S_ .f32 0x00000000#32))
          (broadcastInDim S800000x1 ![0] bcast_S800000_S800000x1_0 (W (Proc.devRef .tc main_v3)))
          (Host.gather gather_S50000x128_S800000x1_S800000x128_1_0_n_n_0_1_1128 (W (Proc.devRef .tc main_v111_0))
            (broadcastInDim S800000x1 ![0] bcast_S800000_S800000x1_0
              (select (cmpi .slt (W (Proc.devRef .tc main_v1)) (broadcastInDim S800000 ![] bcast_S_S800000 (constantI S_ 32 0#32)))
                (addi (W (Proc.devRef .tc main_v1)) (broadcastInDim S800000 ![] bcast_S_S800000 (constantI S_ 32 50000#32)))
                (W (Proc.devRef .tc main_v1))))) := by
  after_results_simp <;> rfl

set_option maxHeartbeats 4000000 in
/-- The first weight: a slab of its stack, reshaped. -/
theorem s6_w1_term (W : Valuation τ sig (Elt F)) :
    StableHlo.after (hostOps6 (F := F)) W (Proc.devRef .tc main_v123)
      = shapeCast S128x128 (extractStridedSlice S1x128x128 ![5, 0, 0] (W (Proc.devRef .tc main_arg5)) slices_S6x128x128_S1x128x128_5_0_0)
          shapeCasts_S1x128x128_S128x128 := by
  after_results_simp <;> rfl

set_option maxHeartbeats 4000000 in
/-- The first bias: a row of its stack, flattened and laid out as a row. -/
theorem s6_b1_term (W : Valuation τ sig (Elt F)) :
    StableHlo.after (hostOps6 (F := F)) W (Proc.devRef .tc main_v130)
      = shapeCast S1x128 (shapeCast S128 (extractStridedSlice S1x128 ![5, 0] (W (Proc.devRef .tc main_arg6)) slices_S6x128_S1x128_5_0)
          shapeCasts_S1x128_S128) shapeCasts_S128_S1x128 := by
  after_results_simp <;> rfl

set_option maxHeartbeats 4000000 in
/-- The second weight. -/
theorem s6_w2_term (W : Valuation τ sig (Elt F)) :
    StableHlo.after (hostOps6 (F := F)) W (Proc.devRef .tc main_v127)
      = shapeCast S128x128 (extractStridedSlice S1x128x128 ![5, 0, 0] (W (Proc.devRef .tc main_arg7)) slices_S6x128x128_S1x128x128_5_0_0)
          shapeCasts_S1x128x128_S128x128 := by
  after_results_simp <;> rfl

set_option maxHeartbeats 4000000 in
/-- The second bias. -/
theorem s6_b2_term (W : Valuation τ sig (Elt F)) :
    StableHlo.after (hostOps6 (F := F)) W (Proc.devRef .tc main_v131)
      = shapeCast S1x128 (shapeCast S128 (extractStridedSlice S1x128 ![5, 0] (W (Proc.devRef .tc main_arg8)) slices_S6x128_S1x128_5_0)
          shapeCasts_S1x128_S128) shapeCasts_S128_S1x128 := by
  after_results_simp <;> rfl

/-! ## On the extended reals -/

/-- When `main_v1` and `main_v3` hold the source and target vectors of an edge list, the stretch leaves the
    neighbourhood sum of `main_v111_0` over that edge list in `main_v121`. -/
theorem s6_agg (W : Valuation τ sig (Elt Ideal)) (ei : IVec S2x800000 32)
    (hsrc : W (Proc.devRef .tc main_v1) = srcVec ei) (hdst : W (Proc.devRef .tc main_v3) = dstVec ei) :
    StableHlo.after (hostOps6 (F := Ideal)) W (Proc.devRef .tc main_v121) = Spec.agg ei (W (Proc.devRef .tc main_v111_0)) := by
  rw [s6_agg_term (F := Ideal) W, hsrc, hdst]
  exact agg_of_vecs ei _

/-- The stretch leaves the layer's first weight in `main_v123`. -/
theorem s6_w1 (W : Valuation τ sig (Elt Ideal)) :
    StableHlo.after (hostOps6 (F := Ideal)) W (Proc.devRef .tc main_v123) = Spec.W6 (W (Proc.devRef .tc main_arg5)) (5 : Fin 6) :=
  (s6_w1_term (F := Ideal) W).trans (weight_cut 5 (by norm_num) _ rfl _ _)

/-- The stretch leaves the layer's first bias in `main_v130`. -/
theorem s6_b1 (W : Valuation τ sig (Elt Ideal)) :
    StableHlo.after (hostOps6 (F := Ideal)) W (Proc.devRef .tc main_v130) = Spec.B6 (W (Proc.devRef .tc main_arg6)) (5 : Fin 6) :=
  (s6_b1_term (F := Ideal) W).trans (bias_cut 5 (by norm_num) _ rfl _ _)

/-- The stretch leaves the layer's second weight in `main_v127`. -/
theorem s6_w2 (W : Valuation τ sig (Elt Ideal)) :
    StableHlo.after (hostOps6 (F := Ideal)) W (Proc.devRef .tc main_v127) = Spec.W6 (W (Proc.devRef .tc main_arg7)) (5 : Fin 6) :=
  (s6_w2_term (F := Ideal) W).trans (weight_cut 5 (by norm_num) _ rfl _ _)

/-- The stretch leaves the layer's second bias in `main_v131`. -/
theorem s6_b2 (W : Valuation τ sig (Elt Ideal)) :
    StableHlo.after (hostOps6 (F := Ideal)) W (Proc.devRef .tc main_v131) = Spec.B6 (W (Proc.devRef .tc main_arg8)) (5 : Fin 6) :=
  (s6_b2_term (F := Ideal) W).trans (bias_cut 5 (by norm_num) _ rfl _ _)

end Cert.KernelIdeal.Val

end
-- ==== Proof.Val.Reg6Val.lean ====
/-
  Region 6 (a layer with residual) at the ideal reading of floats: after the 50 points its two output arrays hold the
  specification's residual sum and its rectification, as functions of the arrays the region finds.
-/
import proofs.«431182_j60713657696761_1_alg».proof.Proof.KI.Reg6
import proofs.«431182_j60713657696761_1_alg».proof.Proof.Val.TileRes
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD) (t : Fin cfg6.N)

theorem hzero6 : (![0, 0] : Fin 2 → Nat) = fun _ => 0 := funext fun a => by fin_cases a <;> rfl

theorem grid_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0
    ∧ win6_8.index t (0 : Fin 2) = t.val ∧ win6_8.index t (1 : Fin 2) = 0 :=
  (by decide +kernel : ∀ t : Fin grid6.N, _)

def tileRow6 (t : Fin cfg6.N) (p : Fin 1000) : Fin 50000 :=
  ⟨t.val * 1000 + p.val, by have := t.isLt; have hN : cfg6.N = 50 := N_6; have := p.isLt; omega⟩

theorem blk6_0 (p : Fin 1000) (l : Fin 128) :
    (iblk6 V c 0 t : FVec Ideal S1000x128 .f32) (ix2 p l) = (V c main_v111_0 : Cert.Spec.Mat 50000 128) (ix2 (tileRow6 t p) l) := by
  obtain ⟨e0, e1, -⟩ := grid_facts6 t
  refine congrArg (V c main_v111_0) (funext fun a => Fin.ext ?_)
  match a with
  | ⟨0, _⟩ => show win6_0.index t (0 : Fin 2) * 1000 + 1 * p.val = t.val * 1000 + p.val; omega
  | ⟨1, _⟩ => show win6_0.index t (1 : Fin 2) * 128 + 1 * l.val = l.val; omega

theorem blk6_1 (p : Fin 1000) (l : Fin 128) :
    (iblk6 V c 1 t : FVec Ideal S1000x128 .f32) (ix2 p l) = (V c main_v121 : Cert.Spec.Mat 50000 128) (ix2 (tileRow6 t p) l) := by
  obtain ⟨-, -, e0, e1, -⟩ := grid_facts6 t
  refine congrArg (V c main_v121) (funext fun a => Fin.ext ?_)
  match a with
  | ⟨0, _⟩ => show win6_1.index t (0 : Fin 2) * 1000 + 1 * p.val = t.val * 1000 + p.val; omega
  | ⟨1, _⟩ => show win6_1.index t (1 : Fin 2) * 128 + 1 * l.val = l.val; omega

theorem blk6_6 (p : Fin 1000) (l : Fin 128) :
    (iblk6 V c 6 t : FVec Ideal S1000x128 .f32) (ix2 p l) = (V c main_v111_1 : Cert.Spec.Mat 50000 128) (ix2 (tileRow6 t p) l) := by
  obtain ⟨-, -, -, -, -, -, -, -, -, -, -, -, e0, e1, -⟩ := grid_facts6 t
  refine congrArg (V c main_v111_1) (funext fun a => Fin.ext ?_)
  match a with
  | ⟨0, _⟩ => show win6_6.index t (0 : Fin 2) * 1000 + 1 * p.val = t.val * 1000 + p.val; omega
  | ⟨1, _⟩ => show win6_6.index t (1 : Fin 2) * 128 + 1 * l.val = l.val; omega

theorem blk6_2 :
    (iblk6 V c 2 t : FVec Ideal S128x128 .f32) = (V c main_v123 : Cert.Spec.Mat 128 128) := by
  obtain ⟨-, -, -, -, e0, e1, -⟩ := grid_facts6 t
  funext y
  refine congrArg (V c main_v123) (funext fun a => Fin.ext ?_)
  match a with
  | ⟨0, _⟩ => show win6_2.index t (0 : Fin 2) * 128 + 1 * (y 0).val = (y 0).val; omega
  | ⟨1, _⟩ => show win6_2.index t (1 : Fin 2) * 128 + 1 * (y 1).val = (y 1).val; omega

theorem blk6_3 :
    (iblk6 V c 3 t : FVec Ideal S1x128 .f32) = (V c main_v130 : Cert.Spec.Mat 1 128) := by
  obtain ⟨-, -, -, -, -, -, e0, e1, -⟩ := grid_facts6 t
  funext y
  refine congrArg (V c main_v130) (funext fun a => Fin.ext ?_)
  match a with
  | ⟨0, _⟩ => show win6_3.index t (0 : Fin 2) * 1 + 1 * (y 0).val = (y 0).val; omega
  | ⟨1, _⟩ => show win6_3.index t (1 : Fin 2) * 128 + 1 * (y 1).val = (y 1).val; omega

theorem blk6_4 :
    (iblk6 V c 4 t : FVec Ideal S128x128 .f32) = (V c main_v127 : Cert.Spec.Mat 128 128) := by
  obtain ⟨-, -, -, -, -, -, -, -, e0, e1, -⟩ := grid_facts6 t
  funext y
  refine congrArg (V c main_v127) (funext fun a => Fin.ext ?_)
  match a with
  | ⟨0, _⟩ => show win6_4.index t (0 : Fin 2) * 128 + 1 * (y 0).val = (y 0).val; omega
  | ⟨1, _⟩ => show win6_4.index t (1 : Fin 2) * 128 + 1 * (y 1).val = (y 1).val; omega

theorem blk6_5 :
    (iblk6 V c 5 t : FVec Ideal S1x128 .f32) = (V c main_v131 : Cert.Spec.Mat 1 128) := by
  obtain ⟨-, -, -, -, -, -, -, -, -, -, e0, e1, -⟩ := grid_facts6 t
  funext y
  refine congrArg (V c main_v131) (funext fun a => Fin.ext ?_)
  match a with
  | ⟨0, _⟩ => show win6_5.index t (0 : Fin 2) * 1 + 1 * (y 0).val = (y 0).val; omega
  | ⟨1, _⟩ => show win6_5.index t (1 : Fin 2) * 128 + 1 * (y 1).val = (y 1).val; omega

abbrev resOut6 : Cert.Spec.Mat 50000 128 :=
  Cert.Spec.addN (Cert.Spec.layerZ (V c main_v111_0) (V c main_v121) (V c main_v123) (V c main_v130) (V c main_v127) (V c main_v131)) (V c main_v111_1)

abbrev featOut6 : Cert.Spec.Mat 50000 128 := Cert.Spec.relu (resOut6 V c)

theorem covered6 (i : S50000x128.Idx) : ∃ t : Fin cfg6.N, t.val * 1000 ≤ (i 0).val ∧ (i 0).val < t.val * 1000 + 1000 :=
  ⟨⟨(i 0).val / 1000, by have hN : cfg6.N = 50 := N_6; have h : (i 0).val < 50000 := (i 0).isLt; omega⟩, by show (i 0).val / 1000 * 1000 ≤ (i 0).val ∧ (i 0).val < (i 0).val / 1000 * 1000 + 1000; omega⟩

theorem emb6_8 (p : Fin 1000) (q : Fin 128) :
    (((cfg6.win 8).blk t).view.emb (ix2 p q : S1000x128.Idx) : S50000x128.Idx) = ix2 (tileRow6 t p) q := by
  obtain ⟨-, -, -, -, -, -, -, -, -, -, -, -, -, -, -, -, e0, e1⟩ := grid_facts6 t
  funext a
  apply Fin.ext
  match a with
  | ⟨0, _⟩ => show win6_8.index t (0 : Fin 2) * 1000 + 1 * p.val = t.val * 1000 + p.val; omega
  | ⟨1, _⟩ => show win6_8.index t (1 : Fin 2) * 128 + 1 * q.val = q.val; omega

theorem flushed6_8_eq :
    (dat6 V c).flushed 8 t = ((cfg6.win 8).blk t).view.read (Elt Ideal) (resOut6 V c) := by
  show (cfg6.win 8).cut (grid6.coords t) ((dat6 V c).after 8 t) = _
  rw [after6_8]
  unfold out6_8
  rw [View.canon_unit_zero hzero6]
  simp only [View.ld_unit_zero (S := S1000x128) hzero6, View.ld_unit_zero (S := S128x128) hzero6, View.ld_unit_zero (S := S1x128) hzero6]
  funext y
  obtain ⟨p, q, rfl⟩ : ∃ (p : Fin 1000) (q : Fin 128), (y : S1000x128.Idx) = ix2 p q := ⟨y 0, y 1, eq_ix2 y⟩
  rw [View.read_apply]
  show k6_pay1 (F := Ideal) _ _ _ _ _ _ _ (ix2 p q)
    = resOut6 V c (((cfg6.win 8).blk t).view.emb (ix2 p q : S1000x128.Idx))
  rw [emb6_8 t p q]
  refine (resTile_pay1_r6 _ _ _ _ _ _ _ p q).trans ?_
  rw [blk6_2 V c t, blk6_3 V c t, blk6_4 V c t, blk6_5 V c t]
  exact resTileVal_eq_spec _ _ _ _ _ _ _ _ _ _ (tileRow6 t p) p q
    (fun l => blk6_0 V c t p l) (fun l => blk6_1 V c t p l) (blk6_6 V c t p q)

theorem covered6_8 (i : S50000x128.Idx) :
    ∃ t : Fin cfg6.N, (cfg6.win 8).flush t = true ∧ i ∈ ((cfg6.win 8).blk t).view.set := by
  obtain ⟨t, h0, h1⟩ := covered6 i
  have hi1 : (i 1).val < 128 := (i 1).isLt
  obtain ⟨-, -, -, -, -, -, -, -, -, -, -, -, -, -, -, -, e0, e1⟩ := grid_facts6 t
  refine ⟨t, flush6_8 t, ?_⟩
  show i ∈ ((View.whole main_v132_1).slice (win6_8.rect t)).set
  rw [View.set_slice_whole, Rect.mem_set_unit]
  intro a
  match a with
  | ⟨0, _⟩ => show win6_8.index t (0 : Fin 2) * 1000 ≤ (i 0).val ∧ (i 0).val < win6_8.index t (0 : Fin 2) * 1000 + 1000; omega
  | ⟨1, _⟩ => show win6_8.index t (1 : Fin 2) * 128 ≤ (i 1).val ∧ (i 1).val < win6_8.index t (1 : Fin 2) * 128 + 128; omega

theorem final6_8 :
    (dat6 (F := Ideal) V c).arrAt 8 cfg6.N = Cert.Spec.addN (Cert.Spec.layerZ (V c main_v111_0) (V c main_v121) (V c main_v123) (V c main_v130) (V c main_v127) (V c main_v131)) (V c main_v111_1) :=
  (dat6 V c).arrAt_eq_of_cover 8 (resOut6 V c) (fun t _ => flushed6_8_eq V c t) covered6_8

theorem emb6_7 (p : Fin 1000) (q : Fin 128) :
    (((cfg6.win 7).blk t).view.emb (ix2 p q : S1000x128.Idx) : S50000x128.Idx) = ix2 (tileRow6 t p) q := by
  obtain ⟨-, -, -, -, -, -, -, -, -, -, -, -, -, -, e0, e1, -⟩ := grid_facts6 t
  funext a
  apply Fin.ext
  match a with
  | ⟨0, _⟩ => show win6_7.index t (0 : Fin 2) * 1000 + 1 * p.val = t.val * 1000 + p.val; omega
  | ⟨1, _⟩ => show win6_7.index t (1 : Fin 2) * 128 + 1 * q.val = q.val; omega

theorem flushed6_7_eq :
    (dat6 V c).flushed 7 t = ((cfg6.win 7).blk t).view.read (Elt Ideal) (featOut6 V c) := by
  show (cfg6.win 7).cut (grid6.coords t) ((dat6 V c).after 7 t) = _
  rw [after6_7]
  unfold out6_7
  rw [View.canon_unit_zero hzero6]
  simp only [View.ld_unit_zero (S := S1000x128) hzero6, View.ld_unit_zero (S := S128x128) hzero6, View.ld_unit_zero (S := S1x128) hzero6]
  funext y
  obtain ⟨p, q, rfl⟩ : ∃ (p : Fin 1000) (q : Fin 128), (y : S1000x128.Idx) = ix2 p q := ⟨y 0, y 1, eq_ix2 y⟩
  rw [View.read_apply]
  show k6_pay2 (F := Ideal) _ _ _ _ _ _ _ (ix2 p q)
    = featOut6 V c (((cfg6.win 7).blk t).view.emb (ix2 p q : S1000x128.Idx))
  rw [emb6_7 t p q]
  refine (resTile_pay2_r6 _ _ _ _ _ _ _ p q).trans ?_
  rw [blk6_2 V c t, blk6_3 V c t, blk6_4 V c t, blk6_5 V c t]
  exact resTileVal_relu_eq_spec _ _ _ _ _ _ _ _ _ _ (tileRow6 t p) p q
    (fun l => blk6_0 V c t p l) (fun l => blk6_1 V c t p l) (blk6_6 V c t p q)

theorem covered6_7 (i : S50000x128.Idx) :
    ∃ t : Fin cfg6.N, (cfg6.win 7).flush t = true ∧ i ∈ ((cfg6.win 7).blk t).view.set := by
  obtain ⟨t, h0, h1⟩ := covered6 i
  have hi1 : (i 1).val < 128 := (i 1).isLt
  obtain ⟨-, -, -, -, -, -, -, -, -, -, -, -, -, -, e0, e1, -⟩ := grid_facts6 t
  refine ⟨t, flush6_7 t, ?_⟩
  show i ∈ ((View.whole main_v132_0).slice (win6_7.rect t)).set
  rw [View.set_slice_whole, Rect.mem_set_unit]
  intro a
  match a with
  | ⟨0, _⟩ => show win6_7.index t (0 : Fin 2) * 1000 ≤ (i 0).val ∧ (i 0).val < win6_7.index t (0 : Fin 2) * 1000 + 1000; omega
  | ⟨1, _⟩ => show win6_7.index t (1 : Fin 2) * 128 ≤ (i 1).val ∧ (i 1).val < win6_7.index t (1 : Fin 2) * 128 + 128; omega

theorem final6_7 :
    (dat6 (F := Ideal) V c).arrAt 7 cfg6.N = Cert.Spec.relu (Cert.Spec.addN (Cert.Spec.layerZ (V c main_v111_0) (V c main_v121) (V c main_v123) (V c main_v130) (V c main_v127) (V c main_v131)) (V c main_v111_1)) :=
  (dat6 V c).arrAt_eq_of_cover 7 (featOut6 V c) (fun t _ => flushed6_7_eq V c t) covered6_7

end Cert.KernelIdeal.Val

end
-- ==== Proof.Val.Layer6.lean ====
/-
  Region 6, the sixth layer (layer 5 of the six), on the extended reals. The layer adds the running residual before
  the rectifier: it leaves `h6`, the rectified sum, in `main_v132_0` and the sum itself, the new residual `res6`, in
  `main_v132_1`.
-/
import proofs.«431182_j60713657696761_1_alg».proof.Proof.Val.Layer5
import proofs.«431182_j60713657696761_1_alg».proof.Proof.Val.Host6
import proofs.«431182_j60713657696761_1_alg».proof.Proof.Val.Reg6Val

set_option maxRecDepth 16384

noncomputable section

namespace Cert.KernelIdeal.Val

open Cert.KernelIdeal Cert.KernelIdeal.Gen
open Idealize.ShloMosaic Idealize.ShloMosaic.TcCoe Idealize.ShloMosaic.StableHlo

section Layer

variable (m : (ℓ : Loc nD τ sig) → Buf (Elt Ideal) ℓ) (c : Dev nD)

/-- Region 6 leaves `h6` in `main_v132_0` and the new residual `res6` in `main_v132_1`. -/
theorem out6 : Hand.W14 m c (Proc.devRef .tc main_v132_0) = h6 m c ∧ Hand.W14 m c (Proc.devRef .tc main_v132_1) = res6 m c := by
  have eh : Hand.W13 m c (Proc.devRef .tc main_v111_0) = h5 m c := by keep_back; exact (out5 m c).1
  have er : Hand.W13 m c (Proc.devRef .tc main_v111_1) = res5 m c := by keep_back; exact (out5 m c).2
  have ea : Hand.W13 m c (Proc.devRef .tc main_v121) = Spec.agg (edges m c) (h5 m c) :=
    (s6_agg (Hand.W12 m c) (edges m c) (src_at12 m c) (dst_at12 m c)).trans (by rw [(out5 m c).1])
  have e1 : Hand.W13 m c (Proc.devRef .tc main_v123) = Spec.W6 (Hand.W0 m c (Proc.devRef .tc main_arg5)) (5 : Fin 6) :=
    (s6_w1 (Hand.W12 m c)).trans (by keep_back)
  have e2 : Hand.W13 m c (Proc.devRef .tc main_v130) = Spec.B6 (Hand.W0 m c (Proc.devRef .tc main_arg6)) (5 : Fin 6) :=
    (s6_b1 (Hand.W12 m c)).trans (by keep_back)
  have e3 : Hand.W13 m c (Proc.devRef .tc main_v127) = Spec.W6 (Hand.W0 m c (Proc.devRef .tc main_arg7)) (5 : Fin 6) :=
    (s6_w2 (Hand.W12 m c)).trans (by keep_back)
  have e4 : Hand.W13 m c (Proc.devRef .tc main_v131) = Spec.B6 (Hand.W0 m c (Proc.devRef .tc main_arg8)) (5 : Fin 6) :=
    (s6_b2 (Hand.W12 m c)).trans (by keep_back)
  constructor
  · rw [Hand.W_out6_0, final6_7]
    beta_reduce
    rw [eh, ea, e1, e2, e3, e4, er]
    rfl
  · rw [Hand.W_out6_1, final6_8]
    beta_reduce
    rw [eh, ea, e1, e2, e3, e4, er]
    rfl

end Layer

end Cert.KernelIdeal.Val

end
-- ==== Proof.Val.Tile7.lean ====
/-
  The pooling region's three stored values over abstract tiles, at the extended reals: the cleared accumulator, the
  accumulator plus the tile's one-hot product, and the read-out of the accumulator.
-/
import proofs.«431182_j60713657696761_1_alg».proof.Proof.Gen.KernelIdeal.Skeleton
import proofs.«431182_j60713657696761_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Idealize.ShloMosaic Idealize.ShloMosaic.ValueIdx

def sideBySide {R : Nat} (h0 h1 h2 h3 h4 h5 h6 : Cert.Spec.Mat R 128) (p : Fin R) (q : Fin 896) : EReal :=
  match q.val / 128 with
    | 0 => h0 (ix2 p ⟨q.val % 128, Nat.mod_lt _ (by norm_num)⟩)
    | 1 => h1 (ix2 p ⟨q.val % 128, Nat.mod_lt _ (by norm_num)⟩)
    | 2 => h2 (ix2 p ⟨q.val % 128, Nat.mod_lt _ (by norm_num)⟩)
    | 3 => h3 (ix2 p ⟨q.val % 128, Nat.mod_lt _ (by norm_num)⟩)
    | 4 => h4 (ix2 p ⟨q.val % 128, Nat.mod_lt _ (by norm_num)⟩)
    | 5 => h5 (ix2 p ⟨q.val % 128, Nat.mod_lt _ (by norm_num)⟩)
    | _ => h6 (ix2 p ⟨q.val % 128, Nat.mod_lt _ (by norm_num)⟩)

theorem concat7_apply (h0 h1 h2 h3 h4 h5 h6 : Vec Ideal S1000x128 .f32)
    (hc : Shape.Concatenates [S1000x128, S1000x128, S1000x128, S1000x128, S1000x128, S1000x128, S1000x128] S1000x896 1)
    (p : Fin 1000) (q : Fin 896) :
    concatenate S1000x896 1 [⟨S1000x128, h0⟩, ⟨S1000x128, h1⟩, ⟨S1000x128, h2⟩, ⟨S1000x128, h3⟩, ⟨S1000x128, h4⟩,
      ⟨S1000x128, h5⟩, ⟨S1000x128, h6⟩] hc (ix2 p q) = sideBySide h0 h1 h2 h3 h4 h5 h6 p q := by
  have hq : q.val < 896 := q.isLt

  have piece : ∀ (k : Nat) (hk : k < 7) (x : Vec Ideal S1000x128 .f32),
      ([⟨S1000x128, h0⟩, ⟨S1000x128, h1⟩, ⟨S1000x128, h2⟩, ⟨S1000x128, h3⟩, ⟨S1000x128, h4⟩, ⟨S1000x128, h5⟩,
        ⟨S1000x128, h6⟩] : List ((s : Shape) × (s.Idx → EReal)))[k] = ⟨S1000x128, x⟩ →
      q.val / 128 = k →
      concatenate S1000x896 1 [⟨S1000x128, h0⟩, ⟨S1000x128, h1⟩, ⟨S1000x128, h2⟩, ⟨S1000x128, h3⟩, ⟨S1000x128, h4⟩,
        ⟨S1000x128, h5⟩, ⟨S1000x128, h6⟩] hc (ix2 p q) = x (ix2 p ⟨q.val % 128, Nat.mod_lt _ (by norm_num)⟩) := by
    intro k hk x hx hdiv
    refine concatenate_apply_piece (1 : Fin S1000x896.rank) [⟨S1000x128, h0⟩, ⟨S1000x128, h1⟩, ⟨S1000x128, h2⟩,
      ⟨S1000x128, h3⟩, ⟨S1000x128, h4⟩, ⟨S1000x128, h5⟩, ⟨S1000x128, h6⟩] hc (ix2 p q) k hk S1000x128 x hx rfl (128 * k) ?_
      (ix2 p ⟨q.val % 128, Nat.mod_lt _ (by norm_num)⟩) ?_ ?_
    · interval_cases k <;> rfl
    · intro b hb
      match b with
      | ⟨0, _⟩ => rfl
      | ⟨1, _⟩ => exact absurd rfl hb
    · show 128 * k + q.val % 128 = q.val
      omega
  unfold sideBySide
  split
  · next h => exact piece 0 (by norm_num) h0 rfl h
  · next h => exact piece 1 (by norm_num) h1 rfl h
  · next h => exact piece 2 (by norm_num) h2 rfl h
  · next h => exact piece 3 (by norm_num) h3 rfl h
  · next h => exact piece 4 (by norm_num) h4 rfl h
  · next h => exact piece 5 (by norm_num) h5 rfl h
  · next _ n0 n1 n2 n3 n4 n5 =>
    have e0 : ¬ q.val / 128 = 0 := n0
    have e1 : ¬ q.val / 128 = 1 := n1
    have e2 : ¬ q.val / 128 = 2 := n2
    have e3 : ¬ q.val / 128 = 3 := n3
    have e4 : ¬ q.val / 128 = 4 := n4
    have e5 : ¬ q.val / 128 = 5 := n5
    exact piece 6 (by norm_num) h6 rfl (by omega)

theorem sitofp_eq_bit (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h
    rw [if_pos rfl]
    have e : (IntOp.cmpi .eq x x).setWidth 32 = 1#32 := by simp [IntOp.cmpi]
    rw [e]
    norm_num
  · rw [if_neg h]
    have hb : (x == y) = false := beq_eq_false_iff_ne.mpr h
    have e : (IntOp.cmpi .eq x y).setWidth 32 = 0#32 := by simp [IntOp.cmpi, hb]
    rw [e]
    norm_num

theorem onehot_apply (b : IVec S1000x1 32) (hb : S1000x1.Broadcasts S1000x128)
    (hi : S1000x128.Iotas .tc 32 [1]) (hlt : 1 < 32) (hbits : FTy.bits .bf16 < FTy.bits .f32) (p : Fin 1000) (g : Fin 128) :
    (truncf .bf16 (sitofp (F := Ideal) .f32 (extui 32 (cmpi .eq (broadcastTo S1000x128 b hb)
      (iota .tc S1000x128 32 [1] hi)) hlt)) hbits : FVec Ideal S1000x128 .bf16) (ix2 p g)
      = if b (ix2 p (0 : Fin 1)) = BitVec.ofNat 32 g.val then 1 else 0 := by
  show FloatOps.sitofp (F := Ideal) .f32 ((IntOp.cmpi .eq (broadcastTo S1000x128 b hb (ix2 p g))
      (iota .tc S1000x128 32 [1] hi (ix2 p g))).setWidth 32) = _
  rw [iota_single_apply, broadcastTo_apply b hb (ix2 p g) (ix2 p (0 : Fin 1)) (fun a => by
    match a with
    | ⟨0, _⟩ => rfl
    | ⟨1, _⟩ => rfl)]
  exact sitofp_eq_bit _ _

theorem lhs_pool_0 (i : S128x896.Idx) (k : dot_S1000x128_S1000x896_S128x896_0_0_1_1_n_n.contr.Idx) :
    (dot_S1000x128_S1000x896_S128x896_0_0_1_1_n_n.lhsIdx i k 0).val = (k ⟨0, by decide⟩).val :=
  dot_S1000x128_S1000x896_S128x896_0_0_1_1_n_n.lhsIdx_val_of_single rfl i k
theorem lhs_pool_1 (i : S128x896.Idx) (k : dot_S1000x128_S1000x896_S128x896_0_0_1_1_n_n.contr.Idx) :
    (dot_S1000x128_S1000x896_S128x896_0_0_1_1_n_n.lhsIdx i k 1).val = (i 0).val := by
  unfold DotDims.lhsIdx
  rw [dif_neg (show ¬(1 : Fin S1000x128.rank) ∈ dot_S1000x128_S1000x896_S128x896_0_0_1_1_n_n.lhsBatch by decide), dif_pos (show (1 : Fin S1000x128.rank) ∈ dot_S1000x128_S1000x896_S128x896_0_0_1_1_n_n.lhsNonContracting by decide)]
  rfl
theorem rhs_pool_0 (i : S128x896.Idx) (k : dot_S1000x128_S1000x896_S128x896_0_0_1_1_n_n.contr.Idx) :
    (dot_S1000x128_S1000x896_S128x896_0_0_1_1_n_n.rhsIdx i k 0).val = (k ⟨0, by decide⟩).val :=
  dot_S1000x128_S1000x896_S128x896_0_0_1_1_n_n.rhsIdx_val_of_single rfl i k
theorem rhs_pool_1 (i : S128x896.Idx) (k : dot_S1000x128_S1000x896_S128x896_0_0_1_1_n_n.contr.Idx) :
    (dot_S1000x128_S1000x896_S128x896_0_0_1_1_n_n.rhsIdx i k 1).val = (i 1).val := by
  unfold DotDims.rhsIdx
  rw [dif_neg (show ¬(1 : Fin S1000x896.rank) ∈ dot_S1000x128_S1000x896_S128x896_0_0_1_1_n_n.rhsBatch by decide), dif_pos (show (1 : Fin S1000x896.rank) ∈ dot_S1000x128_S1000x896_S128x896_0_0_1_1_n_n.rhsNonContracting by decide)]
  rfl

theorem pool_matmul_apply (A : FVec Ideal S1000x128 .bf16) (B : FVec Ideal S1000x896 .bf16) (g : Fin 128) (q : Fin 896) :
    matmul dot_S1000x128_S1000x896_S128x896_0_0_1_1_n_n none A B (constant (F := Ideal) S128x896 .f32 0x00000000#32) (ix2 g q)
      = ∑ p : Fin 1000, A (ix2 p g) * B (ix2 p q) := by
  simp only [matmul]
  rw [Ideal.matmul_constant_zero_apply, ← Equiv.sum_comp (contrEquiv1 dot_S1000x128_S1000x896_S128x896_0_0_1_1_n_n 1000 rfl rfl).symm]
  refine Finset.sum_congr rfl fun k _ => ?_
  have hk := contrEquiv1_symm_val dot_S1000x128_S1000x896_S128x896_0_0_1_1_n_n 1000 rfl rfl k
  have el : dot_S1000x128_S1000x896_S128x896_0_0_1_1_n_n.lhsIdx (ix2 g q) ((contrEquiv1 dot_S1000x128_S1000x896_S128x896_0_0_1_1_n_n 1000 rfl rfl).symm k) = ix2 k g := funext fun a => Fin.ext (by
    match a with
    | ⟨0, _⟩ => exact (lhs_pool_0 _ _).trans hk
    | ⟨1, _⟩ => exact lhs_pool_1 _ _)
  have er : dot_S1000x128_S1000x896_S128x896_0_0_1_1_n_n.rhsIdx (ix2 g q) ((contrEquiv1 dot_S1000x128_S1000x896_S128x896_0_0_1_1_n_n 1000 rfl rfl).symm k) = ix2 k q := funext fun a => Fin.ext (by
    match a with
    | ⟨0, _⟩ => exact (rhs_pool_0 _ _).trans hk
    | ⟨1, _⟩ => exact rhs_pool_1 _ _)
  rw [el, er]

theorem pay3_apply (h0 h1 h2 h3 h4 h5 h6 : Vec Ideal S1000x128 .f32) (b : Vec Ideal S1000x1 .i32)
    (acc : Vec Ideal S128x896 .f32) (g : Fin 128) (q : Fin 896) :
    k7_pay3 h0 h1 h2 h3 h4 h5 h6 b acc (ix2 g q)
      = acc (ix2 g q) + ∑ p : Fin 1000, (if b (ix2 p (0 : Fin 1)) = BitVec.ofNat 32 g.val then (1 : EReal) else 0)
          * sideBySide h0 h1 h2 h3 h4 h5 h6 p q := by
  unfold k7_pay3
  simp only [shapeCast_self]
  rw [addf_apply, pool_matmul_apply]
  refine congrArg (acc (ix2 g q) + ·) (Finset.sum_congr rfl fun p _ => ?_)
  rw [onehot_apply, truncf_apply, concat7_apply]
  simp only [shapeCast_self]

theorem pay3_apply_filter (h0 h1 h2 h3 h4 h5 h6 : Vec Ideal S1000x128 .f32) (b : Vec Ideal S1000x1 .i32)
    (acc : Vec Ideal S128x896 .f32) (g : Fin 128) (q : Fin 896) :
    k7_pay3 h0 h1 h2 h3 h4 h5 h6 b acc (ix2 g q)
      = acc (ix2 g q) + ∑ p ∈ Finset.univ.filter (fun p : Fin 1000 => b (ix2 p (0 : Fin 1)) = BitVec.ofNat 32 g.val),
          sideBySide h0 h1 h2 h3 h4 h5 h6 p q := by
  rw [pay3_apply, Finset.sum_filter]
  refine congrArg (acc (ix2 g q) + ·) (Finset.sum_congr rfl fun p _ => ?_)
  by_cases h : b (ix2 p (0 : Fin 1)) = BitVec.ofNat 32 g.val
  · rw [if_pos h, if_pos h, one_mul]
  · rw [if_neg h, if_neg h, zero_mul]

theorem word_eq_iff_toInt (w : BitVec 32) (g : Nat) (hg : g < 128) : w = BitVec.ofNat 32 g ↔ w.toInt = (g : ℤ) := by
  constructor
  · rintro rfl
    rw [BitVec.toInt_eq_toNat_cond, BitVec.toNat_ofNat]
    have e : g % 2 ^ 32 = g := Nat.mod_eq_of_lt (by omega)
    rw [e, if_pos (by omega)]
  · intro h
    have e := congrArg (BitVec.ofInt 32) h
    rwa [BitVec.ofInt_toInt, BitVec.ofInt_natCast] at e

theorem pay2_apply (j : S128x896.Idx) : (k7_pay2 (F := Ideal)) j = 0 := by
  unfold k7_pay2
  rw [shapeCast_self]
  show Ideal.ofBits .f32 0x00000000#32 = 0
  exact Ideal.ofBits_zero_f32

theorem lhs_post1_0 (i : S128x128.Idx) (k : dot_S128x896_S896x128_S128x128_1_0_0_1_n_n.contr.Idx) :
    (dot_S128x896_S896x128_S128x128_1_0_0_1_n_n.lhsIdx i k 0).val = (i 0).val := by
  unfold DotDims.lhsIdx
  rw [dif_neg (show ¬(0 : Fin S128x896.rank) ∈ dot_S128x896_S896x128_S128x128_1_0_0_1_n_n.lhsBatch by decide), dif_pos (show (0 : Fin S128x896.rank) ∈ dot_S128x896_S896x128_S128x128_1_0_0_1_n_n.lhsNonContracting by decide)]
  rfl
theorem lhs_post1_1 (i : S128x128.Idx) (k : dot_S128x896_S896x128_S128x128_1_0_0_1_n_n.contr.Idx) :
    (dot_S128x896_S896x128_S128x128_1_0_0_1_n_n.lhsIdx i k 1).val = (k ⟨0, by decide⟩).val :=
  dot_S128x896_S896x128_S128x128_1_0_0_1_n_n.lhsIdx_val_of_single rfl i k
theorem rhs_post1_0 (i : S128x128.Idx) (k : dot_S128x896_S896x128_S128x128_1_0_0_1_n_n.contr.Idx) :
    (dot_S128x896_S896x128_S128x128_1_0_0_1_n_n.rhsIdx i k 0).val = (k ⟨0, by decide⟩).val :=
  dot_S128x896_S896x128_S128x128_1_0_0_1_n_n.rhsIdx_val_of_single rfl i k
theorem rhs_post1_1 (i : S128x128.Idx) (k : dot_S128x896_S896x128_S128x128_1_0_0_1_n_n.contr.Idx) :
    (dot_S128x896_S896x128_S128x128_1_0_0_1_n_n.rhsIdx i k 1).val = (i 1).val := by
  unfold DotDims.rhsIdx
  rw [dif_neg (show ¬(1 : Fin S896x128.rank) ∈ dot_S128x896_S896x128_S128x128_1_0_0_1_n_n.rhsBatch by decide), dif_pos (show (1 : Fin S896x128.rank) ∈ dot_S128x896_S896x128_S128x128_1_0_0_1_n_n.rhsNonContracting by decide)]
  rfl

theorem post1_matmul_apply (A : FVec Ideal S128x896 .bf16) (B : FVec Ideal S896x128 .bf16) (r c : Fin 128) :
    matmul dot_S128x896_S896x128_S128x128_1_0_0_1_n_n none A B (constant (F := Ideal) S128x128 .f32 0x00000000#32) (ix2 r c)
      = ∑ l : Fin 896, A (ix2 r l) * B (ix2 l c) := by
  simp only [matmul]
  rw [Ideal.matmul_constant_zero_apply, ← Equiv.sum_comp (contrEquiv1 dot_S128x896_S896x128_S128x128_1_0_0_1_n_n 896 rfl rfl).symm]
  refine Finset.sum_congr rfl fun k _ => ?_
  have hk := contrEquiv1_symm_val dot_S128x896_S896x128_S128x128_1_0_0_1_n_n 896 rfl rfl k
  have el : dot_S128x896_S896x128_S128x128_1_0_0_1_n_n.lhsIdx (ix2 r c) ((contrEquiv1 dot_S128x896_S896x128_S128x128_1_0_0_1_n_n 896 rfl rfl).symm k) = ix2 r k := funext fun a => Fin.ext (by
    match a with
    | ⟨0, _⟩ => exact lhs_post1_0 _ _
    | ⟨1, _⟩ => exact (lhs_post1_1 _ _).trans hk)
  have er : dot_S128x896_S896x128_S128x128_1_0_0_1_n_n.rhsIdx (ix2 r c) ((contrEquiv1 dot_S128x896_S896x128_S128x128_1_0_0_1_n_n 896 rfl rfl).symm k) = ix2 k c := funext fun a => Fin.ext (by
    match a with
    | ⟨0, _⟩ => exact (rhs_post1_0 _ _).trans hk
    | ⟨1, _⟩ => exact rhs_post1_1 _ _)
  rw [el, er]

theorem lhs_post2_0 (i : S128x128.Idx) (k : dot_S128x128_S128x128_S128x128_1_0_0_1_n_n.contr.Idx) :
    (dot_S128x128_S128x128_S128x128_1_0_0_1_n_n.lhsIdx i k 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_post2_1 (i : S128x128.Idx) (k : dot_S128x128_S128x128_S128x128_1_0_0_1_n_n.contr.Idx) :
    (dot_S128x128_S128x128_S128x128_1_0_0_1_n_n.lhsIdx i k 1).val = (k ⟨0, by decide⟩).val :=
  dot_S128x128_S128x128_S128x128_1_0_0_1_n_n.lhsIdx_val_of_single rfl i k
theorem rhs_post2_0 (i : S128x128.Idx) (k : dot_S128x128_S128x128_S128x128_1_0_0_1_n_n.contr.Idx) :
    (dot_S128x128_S128x128_S128x128_1_0_0_1_n_n.rhsIdx i k 0).val = (k ⟨0, by decide⟩).val :=
  dot_S128x128_S128x128_S128x128_1_0_0_1_n_n.rhsIdx_val_of_single rfl i k
theorem rhs_post2_1 (i : S128x128.Idx) (k : dot_S128x128_S128x128_S128x128_1_0_0_1_n_n.contr.Idx) :
    (dot_S128x128_S128x128_S128x128_1_0_0_1_n_n.rhsIdx i k 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

theorem post2_matmul_apply (A : FVec Ideal S128x128 .bf16) (B : FVec Ideal S128x128 .bf16) (r c : Fin 128) :
    matmul dot_S128x128_S128x128_S128x128_1_0_0_1_n_n none A B (constant (F := Ideal) S128x128 .f32 0x00000000#32) (ix2 r c)
      = ∑ l : Fin 128, A (ix2 r l) * B (ix2 l c) := by
  simp only [matmul]
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 r c) ((contrEquiv1 dot_S128x128_S128x128_S128x128_1_0_0_1_n_n 128 rfl rfl).symm k) = ix2 r k := funext fun a => Fin.ext (by
    match a with
    | ⟨0, _⟩ => exact lhs_post2_0 _ _
    | ⟨1, _⟩ => exact (lhs_post2_1 _ _).trans hk)
  have er : dot_S128x128_S128x128_S128x128_1_0_0_1_n_n.rhsIdx (ix2 r c) ((contrEquiv1 dot_S128x128_S128x128_S128x128_1_0_0_1_n_n 128 rfl rfl).symm k) = ix2 k c := funext fun a => Fin.ext (by
    match a with
    | ⟨0, _⟩ => exact (rhs_post2_0 _ _).trans hk
    | ⟨1, _⟩ => exact rhs_post2_1 _ _)
  rw [el, er]

theorem biasRow_apply (v : FVec Ideal S1x128 .f32) (hb : S1x128.Broadcasts S128x128) (r c : Fin 128) :
    broadcastTo S128x128 v hb (ix2 r c) = v (ix2 (0 : Fin 1) c) :=
  broadcastTo_apply v hb (ix2 r c) (ix2 (0 : Fin 1) c) (fun a => by
    match a with
    | ⟨0, _⟩ => rfl
    | ⟨1, _⟩ => rfl)

theorem pay1_eq_post (P : Vec Ideal S128x896 .f32) (W1 : Vec Ideal S896x128 .f32) (b1 : Vec Ideal S1x128 .f32)
    (W2 : Vec Ideal S128x128 .f32) (b2 : Vec Ideal S1x128 .f32) :
    k7_pay1 P W1 b1 W2 b2 = Cert.Spec.post P W1 b1 W2 b2 := by
  funext j
  obtain ⟨r, c, rfl⟩ : ∃ (r c : Fin 128), j = ix2 r c := ⟨j 0, j 1, eq_ix2 j⟩
  unfold k7_pay1 Cert.Spec.post
  simp only [shapeCast_self]
  rw [addf_apply, post2_matmul_apply, biasRow_apply]
  refine congrArg (· + b2 (ix2 (0 : Fin 1) c)) (Finset.sum_congr rfl fun k _ => ?_)
  rw [truncf_apply, truncf_apply, maximumf_apply, addf_apply, post1_matmul_apply, biasRow_apply, broadcast_apply]
  show max _ (Ideal.ofBits .f32 0x00000000#32) * _ = _
  rw [Ideal.ofBits_zero_f32]
  rfl

end Cert.KernelIdeal.Val

end
-- ==== Proof.Val.Reg7Val.lean ====
/-
  The last region's result: after its 50 points the result array is the read-out of the pooled rows, the pooling being
  the sum over the tiles of each tile's one-hot product.
-/
import proofs.«431182_j60713657696761_1_alg».proof.Proof.KI.Reg7
import proofs.«431182_j60713657696761_1_alg».proof.Proof.Val.Tile7
import proofs.«431182_j60713657696761_1_alg».proof.Proof.Spec
import Idealize.ShloMosaic.Lib.Pipeline.Value

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

def nodeRow (t : Nat) (ht : t < 50) (p : Fin 1000) : Fin 50000 := ⟨1000 * t + p.val, by have := p.isLt; omega⟩

theorem nodeRow_val (t : Nat) (ht : t < 50) (p : Fin 1000) : (nodeRow t ht p).val = 1000 * t + p.val := rfl

theorem nodeRow_injective (t : Nat) (ht : t < 50) : Function.Injective (nodeRow t ht) := fun p p' h => by
  have e : (nodeRow t ht p).val = (nodeRow t ht p').val := congrArg Fin.val h
  rw [nodeRow_val, nodeRow_val] at e
  exact Fin.ext (by omega)

theorem sum_rows_tile (t : Nat) (ht : t < 50) (P : Fin 50000 → Prop) [DecidablePred P] (f : Fin 50000 → EReal) :
    ∑ e ∈ Finset.univ.filter (fun e : Fin 50000 => e.val < 1000 * (t + 1) ∧ P e), f e
      = ∑ e ∈ Finset.univ.filter (fun e : Fin 50000 => e.val < 1000 * t ∧ P e), f e
        + ∑ p ∈ Finset.univ.filter (fun p : Fin 1000 => P (nodeRow t ht p)), f (nodeRow t ht p) := by
  have hsplit : Finset.univ.filter (fun e : Fin 50000 => e.val < 1000 * (t + 1) ∧ P e)
      = Finset.univ.filter (fun e : Fin 50000 => e.val < 1000 * t ∧ P e)
        ∪ (Finset.univ.filter (fun p : Fin 1000 => P (nodeRow t ht p))).map ⟨nodeRow t ht, nodeRow_injective t ht⟩ := by
    ext e
    simp only [Finset.mem_filter, Finset.mem_univ, true_and, Finset.mem_union, Finset.mem_map,
      Function.Embedding.coeFn_mk]
    constructor
    · rintro ⟨h1, h2⟩
      by_cases h : e.val < 1000 * t
      · exact Or.inl ⟨h, h2⟩
      · have he : nodeRow t ht ⟨e.val - 1000 * t, by omega⟩ = e :=
          Fin.ext (by rw [nodeRow_val]; show 1000 * t + (e.val - 1000 * t) = e.val; omega)
        exact Or.inr ⟨⟨e.val - 1000 * t, by omega⟩, by rw [he]; exact h2, he⟩
    · rintro (⟨h1, h2⟩ | ⟨p, hp, rfl⟩)
      · exact ⟨by omega, h2⟩
      · exact ⟨by rw [nodeRow_val]; have := p.isLt; omega, hp⟩
  have hdisj : Disjoint (Finset.univ.filter (fun e : Fin 50000 => e.val < 1000 * t ∧ P e))
      ((Finset.univ.filter (fun p : Fin 1000 => P (nodeRow t ht p))).map ⟨nodeRow t ht, nodeRow_injective t ht⟩) := by
    rw [Finset.disjoint_left]
    intro e h1 h2
    simp only [Finset.mem_filter, Finset.mem_univ, true_and] at h1
    simp only [Finset.mem_map, Finset.mem_filter, Finset.mem_univ, true_and, Function.Embedding.coeFn_mk] at h2
    obtain ⟨p, -, rfl⟩ := h2
    have := h1.1
    rw [nodeRow_val] at this
    omega
  rw [hsplit, Finset.sum_union hdisj, Finset.sum_map]
  rfl

theorem emb7_apply (H0 H1 H2 H3 H4 H5 H6 : Cert.Spec.Mat 50000 128) (e : Fin 50000) (q : Fin 896) :
    Cert.Spec.emb7 H0 H1 H2 H3 H4 H5 H6 (ix2 e q) = sideBySide H0 H1 H2 H3 H4 H5 H6 e q := rfl

theorem sideBySide_congr {R R' : Nat} (h0 h1 h2 h3 h4 h5 h6 : Cert.Spec.Mat R 128) (k0 k1 k2 k3 k4 k5 k6 : Cert.Spec.Mat R' 128)
    (p : Fin R) (p' : Fin R') (e0 : ∀ k, h0 (ix2 p k) = k0 (ix2 p' k)) (e1 : ∀ k, h1 (ix2 p k) = k1 (ix2 p' k))
    (e2 : ∀ k, h2 (ix2 p k) = k2 (ix2 p' k)) (e3 : ∀ k, h3 (ix2 p k) = k3 (ix2 p' k)) (e4 : ∀ k, h4 (ix2 p k) = k4 (ix2 p' k))
    (e5 : ∀ k, h5 (ix2 p k) = k5 (ix2 p' k)) (e6 : ∀ k, h6 (ix2 p k) = k6 (ix2 p' k)) (q : Fin 896) :
    sideBySide h0 h1 h2 h3 h4 h5 h6 p q = sideBySide k0 k1 k2 k3 k4 k5 k6 p' q := by
  unfold sideBySide
  generalize q.val / 128 = n
  match n with
  | 0 => exact e0 _
  | 1 => exact e1 _
  | 2 => exact e2 _
  | 3 => exact e3 _
  | 4 => exact e4 _
  | 5 => exact e5 _
  | n + 6 => exact e6 _

variable (V : (c : Dev nD) → (b : Ref sig .tc) → Buf (Elt Ideal) ((c : Thread nD τ).loc b))

theorem lt50 (t : Fin cfg7.N) : t.val < 50 := lt_of_lt_of_eq t.isLt N_7

theorem where7 : ∀ t : Fin cfg7.N,
    (win7_0.index t (0 : Fin 2) = t.val ∧ win7_0.index t (1 : Fin 2) = 0)
    ∧ (win7_1.index t (0 : Fin 2) = t.val ∧ win7_1.index t (1 : Fin 2) = 0)
    ∧ (win7_2.index t (0 : Fin 2) = t.val ∧ win7_2.index t (1 : Fin 2) = 0)
    ∧ (win7_3.index t (0 : Fin 2) = t.val ∧ win7_3.index t (1 : Fin 2) = 0)
    ∧ (win7_4.index t (0 : Fin 2) = t.val ∧ win7_4.index t (1 : Fin 2) = 0)
    ∧ (win7_5.index t (0 : Fin 2) = t.val ∧ win7_5.index t (1 : Fin 2) = 0)
    ∧ (win7_6.index t (0 : Fin 2) = t.val ∧ win7_6.index t (1 : Fin 2) = 0)
    ∧ (win7_7.index t (0 : Fin 2) = t.val ∧ win7_7.index t (1 : Fin 2) = 0)
    ∧ (win7_8.index t (0 : Fin 2) = 0 ∧ win7_8.index t (1 : Fin 2) = 0)
    ∧ (win7_9.index t (0 : Fin 2) = 0 ∧ win7_9.index t (1 : Fin 2) = 0)
    ∧ (win7_10.index t (0 : Fin 2) = 0 ∧ win7_10.index t (1 : Fin 2) = 0)
    ∧ (win7_11.index t (0 : Fin 2) = 0 ∧ win7_11.index t (1 : Fin 2) = 0)
    ∧ (win7_12.index t (0 : Fin 2) = 0 ∧ win7_12.index t (1 : Fin 2) = 0) :=
  (by decide +kernel : ∀ t : Fin grid7.N, _)

theorem tile7_0 (c : Dev nD) (t : Fin cfg7.N) (p : Fin 1000) (k : Fin 128) :
    (Hand.iblk7 V c 0 t : Vec Ideal S1000x128 .f32) (ix2 p k)
      = (V c main_v6 : S50000x128.Idx → EReal) (ix2 (nodeRow t.val (lt50 t) p) k) := by
  obtain ⟨⟨e0, e1⟩, -⟩ := where7 t
  unfold Hand.iblk7
  rw [View.read_apply]
  show V c main_v6 (((cfg7.win 0).blk t).view.emb (ix2 p k)) = V c main_v6 (ix2 (nodeRow t.val (lt50 t) p) k)
  refine congrArg (V c main_v6) (funext fun a => Fin.ext ?_)
  match a with
  | ⟨0, _⟩ => show win7_0.index t (0 : Fin 2) * 1000 + 1 * p.val = 1000 * t.val + p.val; omega
  | ⟨1, _⟩ => show win7_0.index t (1 : Fin 2) * 128 + 1 * k.val = k.val; omega

theorem tile7_1 (c : Dev nD) (t : Fin cfg7.N) (p : Fin 1000) (k : Fin 128) :
    (Hand.iblk7 V c 1 t : Vec Ideal S1000x128 .f32) (ix2 p k)
      = (V c main_v27_0 : S50000x128.Idx → EReal) (ix2 (nodeRow t.val (lt50 t) p) k) := by
  obtain ⟨-, ⟨e0, e1⟩, -⟩ := where7 t
  unfold Hand.iblk7
  rw [View.read_apply]
  show V c main_v27_0 (((cfg7.win 1).blk t).view.emb (ix2 p k)) = V c main_v27_0 (ix2 (nodeRow t.val (lt50 t) p) k)
  refine congrArg (V c main_v27_0) (funext fun a => Fin.ext ?_)
  match a with
  | ⟨0, _⟩ => show win7_1.index t (0 : Fin 2) * 1000 + 1 * p.val = 1000 * t.val + p.val; omega
  | ⟨1, _⟩ => show win7_1.index t (1 : Fin 2) * 128 + 1 * k.val = k.val; omega

theorem tile7_2 (c : Dev nD) (t : Fin cfg7.N) (p : Fin 1000) (k : Fin 128) :
    (Hand.iblk7 V c 2 t : Vec Ideal S1000x128 .f32) (ix2 p k)
      = (V c main_v48_0 : S50000x128.Idx → EReal) (ix2 (nodeRow t.val (lt50 t) p) k) := by
  obtain ⟨-, -, ⟨e0, e1⟩, -⟩ := where7 t
  unfold Hand.iblk7
  rw [View.read_apply]
  show V c main_v48_0 (((cfg7.win 2).blk t).view.emb (ix2 p k)) = V c main_v48_0 (ix2 (nodeRow t.val (lt50 t) p) k)
  refine congrArg (V c main_v48_0) (funext fun a => Fin.ext ?_)
  match a with
  | ⟨0, _⟩ => show win7_2.index t (0 : Fin 2) * 1000 + 1 * p.val = 1000 * t.val + p.val; omega
  | ⟨1, _⟩ => show win7_2.index t (1 : Fin 2) * 128 + 1 * k.val = k.val; omega

theorem tile7_3 (c : Dev nD) (t : Fin cfg7.N) (p : Fin 1000) (k : Fin 128) :
    (Hand.iblk7 V c 3 t : Vec Ideal S1000x128 .f32) (ix2 p k)
      = (V c main_v69_0 : S50000x128.Idx → EReal) (ix2 (nodeRow t.val (lt50 t) p) k) := by
  obtain ⟨-, -, -, ⟨e0, e1⟩, -⟩ := where7 t
  unfold Hand.iblk7
  rw [View.read_apply]
  show V c main_v69_0 (((cfg7.win 3).blk t).view.emb (ix2 p k)) = V c main_v69_0 (ix2 (nodeRow t.val (lt50 t) p) k)
  refine congrArg (V c main_v69_0) (funext fun a => Fin.ext ?_)
  match a with
  | ⟨0, _⟩ => show win7_3.index t (0 : Fin 2) * 1000 + 1 * p.val = 1000 * t.val + p.val; omega
  | ⟨1, _⟩ => show win7_3.index t (1 : Fin 2) * 128 + 1 * k.val = k.val; omega

theorem tile7_4 (c : Dev nD) (t : Fin cfg7.N) (p : Fin 1000) (k : Fin 128) :
    (Hand.iblk7 V c 4 t : Vec Ideal S1000x128 .f32) (ix2 p k)
      = (V c main_v90_0 : S50000x128.Idx → EReal) (ix2 (nodeRow t.val (lt50 t) p) k) := by
  obtain ⟨-, -, -, -, ⟨e0, e1⟩, -⟩ := where7 t
  unfold Hand.iblk7
  rw [View.read_apply]
  show V c main_v90_0 (((cfg7.win 4).blk t).view.emb (ix2 p k)) = V c main_v90_0 (ix2 (nodeRow t.val (lt50 t) p) k)
  refine congrArg (V c main_v90_0) (funext fun a => Fin.ext ?_)
  match a with
  | ⟨0, _⟩ => show win7_4.index t (0 : Fin 2) * 1000 + 1 * p.val = 1000 * t.val + p.val; omega
  | ⟨1, _⟩ => show win7_4.index t (1 : Fin 2) * 128 + 1 * k.val = k.val; omega

theorem tile7_5 (c : Dev nD) (t : Fin cfg7.N) (p : Fin 1000) (k : Fin 128) :
    (Hand.iblk7 V c 5 t : Vec Ideal S1000x128 .f32) (ix2 p k)
      = (V c main_v111_0 : S50000x128.Idx → EReal) (ix2 (nodeRow t.val (lt50 t) p) k) := by
  obtain ⟨-, -, -, -, -, ⟨e0, e1⟩, -⟩ := where7 t
  unfold Hand.iblk7
  rw [View.read_apply]
  show V c main_v111_0 (((cfg7.win 5).blk t).view.emb (ix2 p k)) = V c main_v111_0 (ix2 (nodeRow t.val (lt50 t) p) k)
  refine congrArg (V c main_v111_0) (funext fun a => Fin.ext ?_)
  match a with
  | ⟨0, _⟩ => show win7_5.index t (0 : Fin 2) * 1000 + 1 * p.val = 1000 * t.val + p.val; omega
  | ⟨1, _⟩ => show win7_5.index t (1 : Fin 2) * 128 + 1 * k.val = k.val; omega

theorem tile7_6 (c : Dev nD) (t : Fin cfg7.N) (p : Fin 1000) (k : Fin 128) :
    (Hand.iblk7 V c 6 t : Vec Ideal S1000x128 .f32) (ix2 p k)
      = (V c main_v132_0 : S50000x128.Idx → EReal) (ix2 (nodeRow t.val (lt50 t) p) k) := by
  obtain ⟨-, -, -, -, -, -, ⟨e0, e1⟩, -⟩ := where7 t
  unfold Hand.iblk7
  rw [View.read_apply]
  show V c main_v132_0 (((cfg7.win 6).blk t).view.emb (ix2 p k)) = V c main_v132_0 (ix2 (nodeRow t.val (lt50 t) p) k)
  refine congrArg (V c main_v132_0) (funext fun a => Fin.ext ?_)
  match a with
  | ⟨0, _⟩ => show win7_6.index t (0 : Fin 2) * 1000 + 1 * p.val = 1000 * t.val + p.val; omega
  | ⟨1, _⟩ => show win7_6.index t (1 : Fin 2) * 128 + 1 * k.val = k.val; omega

theorem ids7 (c : Dev nD) (t : Fin cfg7.N) (p : Fin 1000) :
    (Hand.iblk7 V c 7 t : Vec Ideal S1000x1 .i32) (ix2 p (0 : Fin 1))
      = (V c main_v4 : S50000x1.Idx → BitVec 32) (ix2 (nodeRow t.val (lt50 t) p) (0 : Fin 1)) := by
  obtain ⟨-, -, -, -, -, -, -, ⟨e0, e1⟩, -⟩ := where7 t
  unfold Hand.iblk7
  rw [View.read_apply]
  show V c main_v4 (((cfg7.win 7).blk t).view.emb (ix2 p (0 : Fin 1))) = V c main_v4 (ix2 (nodeRow t.val (lt50 t) p) (0 : Fin 1))
  refine congrArg (V c main_v4) (funext fun a => Fin.ext ?_)
  match a with
  | ⟨0, _⟩ => show win7_7.index t (0 : Fin 2) * 1000 + 1 * p.val = 1000 * t.val + p.val; omega
  | ⟨1, _⟩ => show win7_7.index t (1 : Fin 2) * 1 + 1 * 0 = 0; omega

theorem side7 (c : Dev nD) (t : Fin cfg7.N) (p : Fin 1000) (q : Fin 896) :
    sideBySide (Hand.iblk7 V c 0 t : Vec Ideal S1000x128 .f32) (Hand.iblk7 V c 1 t : Vec Ideal S1000x128 .f32)
        (Hand.iblk7 V c 2 t : Vec Ideal S1000x128 .f32) (Hand.iblk7 V c 3 t : Vec Ideal S1000x128 .f32)
        (Hand.iblk7 V c 4 t : Vec Ideal S1000x128 .f32) (Hand.iblk7 V c 5 t : Vec Ideal S1000x128 .f32)
        (Hand.iblk7 V c 6 t : Vec Ideal S1000x128 .f32) p q
      = Cert.Spec.emb7 (V c main_v6) (V c main_v27_0) (V c main_v48_0) (V c main_v69_0) (V c main_v90_0) (V c main_v111_0)
          (V c main_v132_0) (ix2 (nodeRow t.val (lt50 t) p) q) := by
  rw [emb7_apply]
  exact sideBySide_congr _ _ _ _ _ _ _ _ _ _ _ _ _ _ p (nodeRow t.val (lt50 t) p) (tile7_0 V c t p) (tile7_1 V c t p)
    (tile7_2 V c t p) (tile7_3 V c t p) (tile7_4 V c t p) (tile7_5 V c t p) (tile7_6 V c t p) q

theorem tileSum7 (c : Dev nD) (t : Fin cfg7.N) (g : Fin 128) (q : Fin 896) :
    ∑ p ∈ Finset.univ.filter (fun p : Fin 1000 =>
        (Hand.iblk7 V c 7 t : Vec Ideal S1000x1 .i32) (ix2 p (0 : Fin 1)) = BitVec.ofNat 32 g.val),
      sideBySide (Hand.iblk7 V c 0 t : Vec Ideal S1000x128 .f32) (Hand.iblk7 V c 1 t : Vec Ideal S1000x128 .f32)
        (Hand.iblk7 V c 2 t : Vec Ideal S1000x128 .f32) (Hand.iblk7 V c 3 t : Vec Ideal S1000x128 .f32)
        (Hand.iblk7 V c 4 t : Vec Ideal S1000x128 .f32) (Hand.iblk7 V c 5 t : Vec Ideal S1000x128 .f32)
        (Hand.iblk7 V c 6 t : Vec Ideal S1000x128 .f32) p q
    = ∑ p ∈ Finset.univ.filter (fun p : Fin 1000 =>
        ((V c main_v4 : S50000x1.Idx → BitVec 32) (ix2 (nodeRow t.val (lt50 t) p) (0 : Fin 1))).toInt = (g.val : ℤ)),
      Cert.Spec.emb7 (V c main_v6) (V c main_v27_0) (V c main_v48_0) (V c main_v69_0) (V c main_v90_0) (V c main_v111_0)
        (V c main_v132_0) (ix2 (nodeRow t.val (lt50 t) p) q) := by
  refine Finset.sum_congr (Finset.filter_congr fun p _ => ?_) fun p _ => side7 V c t p q
  rw [ids7, word_eq_iff_toInt _ _ g.isLt]

theorem scratch7_eq (c : Dev nD) : ∀ (n : ℕ) (h : n < cfg7.N) (g : Fin 128) (q : Fin 896),
    Hand.scr7 (F := Ideal) V c n h (ix2 g q)
      = ∑ e ∈ Finset.univ.filter (fun e : Fin 50000 => e.val < 1000 * (n + 1)
            ∧ ((V c main_v4 : S50000x1.Idx → BitVec 32) (ix2 e (0 : Fin 1))).toInt = (g.val : ℤ)),
          Cert.Spec.emb7 (V c main_v6) (V c main_v27_0) (V c main_v48_0) (V c main_v69_0) (V c main_v90_0) (V c main_v111_0)
            (V c main_v132_0) (ix2 e q)
  | 0, h, g, q => by
    rw [Hand.scratch7_zero, pay3_apply_filter, pay2_apply, zero_add, tileSum7 V c ⟨0, h⟩ g q,
      sum_rows_tile 0 (by norm_num)
        (fun e : Fin 50000 => ((V c main_v4 : S50000x1.Idx → BitVec 32) (ix2 e (0 : Fin 1))).toInt = (g.val : ℤ))]
    have hempty : Finset.univ.filter (fun e : Fin 50000 => e.val < 1000 * 0
        ∧ ((V c main_v4 : S50000x1.Idx → BitVec 32) (ix2 e (0 : Fin 1))).toInt = (g.val : ℤ)) = ∅ :=
      Finset.filter_eq_empty_iff.mpr fun e _ he => by have := he.1; omega
    rw [hempty, Finset.sum_empty, zero_add]
  | n + 1, h, g, q => by
    rw [Hand.scratch7_succ, pay3_apply_filter, scratch7_eq c n (Nat.lt_of_succ_lt h) g q, tileSum7 V c ⟨n + 1, h⟩ g q,
      sum_rows_tile (n + 1) (lt50 ⟨n + 1, h⟩)
        (fun e : Fin 50000 => ((V c main_v4 : S50000x1.Idx → BitVec 32) (ix2 e (0 : Fin 1))).toInt = (g.val : ℤ))]

theorem pooled7 (c : Dev nD) :
    Hand.scr7 (F := Ideal) V c 49 Hand.pLast7.isLt
      = Cert.Spec.pool (V c main_v4) (Cert.Spec.emb7 (V c main_v6) (V c main_v27_0) (V c main_v48_0) (V c main_v69_0)
          (V c main_v90_0) (V c main_v111_0) (V c main_v132_0)) := by
  funext j
  obtain ⟨g, q, rfl⟩ : ∃ (g : Fin 128) (q : Fin 896), j = ix2 g q := ⟨j 0, j 1, eq_ix2 j⟩
  rw [scratch7_eq]
  unfold Cert.Spec.pool
  refine Finset.sum_congr (Finset.filter_congr fun e _ => ?_) fun _ _ => rfl
  exact ⟨fun h => h.2, fun h => ⟨by have := e.isLt; omega, h⟩⟩

theorem whole7_8 (c : Dev nD) (t : Fin cfg7.N) :
    (Hand.iblk7 V c 8 t : Vec Ideal S896x128 .f32) = (V c main_arg9 : S896x128.Idx → EReal) := by
  obtain ⟨-, -, -, -, -, -, -, -, ⟨e0, e1⟩, -⟩ := where7 t
  funext j
  obtain ⟨l, k, rfl⟩ : ∃ (l : Fin 896) (k : Fin 128), j = ix2 l k := ⟨j 0, j 1, eq_ix2 j⟩
  unfold Hand.iblk7
  rw [View.read_apply]
  show V c main_arg9 (((cfg7.win 8).blk t).view.emb (ix2 l k)) = V c main_arg9 (ix2 l k)
  refine congrArg (V c main_arg9) (funext fun a => Fin.ext ?_)
  match a with
  | ⟨0, _⟩ => show win7_8.index t (0 : Fin 2) * 896 + 1 * l.val = l.val; omega
  | ⟨1, _⟩ => show win7_8.index t (1 : Fin 2) * 128 + 1 * k.val = k.val; omega

theorem whole7_9 (c : Dev nD) (t : Fin cfg7.N) :
    (Hand.iblk7 V c 9 t : Vec Ideal S1x128 .f32) = (V c main_v133 : S1x128.Idx → EReal) := by
  obtain ⟨-, -, -, -, -, -, -, -, -, ⟨e0, e1⟩, -⟩ := where7 t
  funext j
  obtain ⟨l, k, rfl⟩ : ∃ (l : Fin 1) (k : Fin 128), j = ix2 l k := ⟨j 0, j 1, eq_ix2 j⟩
  unfold Hand.iblk7
  rw [View.read_apply]
  show V c main_v133 (((cfg7.win 9).blk t).view.emb (ix2 l k)) = V c main_v133 (ix2 l k)
  refine congrArg (V c main_v133) (funext fun a => Fin.ext ?_)
  match a with
  | ⟨0, _⟩ => show win7_9.index t (0 : Fin 2) * 1 + 1 * l.val = l.val; omega
  | ⟨1, _⟩ => show win7_9.index t (1 : Fin 2) * 128 + 1 * k.val = k.val; omega

theorem whole7_10 (c : Dev nD) (t : Fin cfg7.N) :
    (Hand.iblk7 V c 10 t : Vec Ideal S128x128 .f32) = (V c main_arg11 : S128x128.Idx → EReal) := by
  obtain ⟨-, -, -, -, -, -, -, -, -, -, ⟨e0, e1⟩, -⟩ := where7 t
  funext j
  obtain ⟨l, k, rfl⟩ : ∃ (l : Fin 128) (k : Fin 128), j = ix2 l k := ⟨j 0, j 1, eq_ix2 j⟩
  unfold Hand.iblk7
  rw [View.read_apply]
  show V c main_arg11 (((cfg7.win 10).blk t).view.emb (ix2 l k)) = V c main_arg11 (ix2 l k)
  refine congrArg (V c main_arg11) (funext fun a => Fin.ext ?_)
  match a with
  | ⟨0, _⟩ => show win7_10.index t (0 : Fin 2) * 128 + 1 * l.val = l.val; omega
  | ⟨1, _⟩ => show win7_10.index t (1 : Fin 2) * 128 + 1 * k.val = k.val; omega

theorem whole7_11 (c : Dev nD) (t : Fin cfg7.N) :
    (Hand.iblk7 V c 11 t : Vec Ideal S1x128 .f32) = (V c main_v134 : S1x128.Idx → EReal) := by
  obtain ⟨-, -, -, -, -, -, -, -, -, -, -, ⟨e0, e1⟩, -⟩ := where7 t
  funext j
  obtain ⟨l, k, rfl⟩ : ∃ (l : Fin 1) (k : Fin 128), j = ix2 l k := ⟨j 0, j 1, eq_ix2 j⟩
  unfold Hand.iblk7
  rw [View.read_apply]
  show V c main_v134 (((cfg7.win 11).blk t).view.emb (ix2 l k)) = V c main_v134 (ix2 l k)
  refine congrArg (V c main_v134) (funext fun a => Fin.ext ?_)
  match a with
  | ⟨0, _⟩ => show win7_11.index t (0 : Fin 2) * 1 + 1 * l.val = l.val; omega
  | ⟨1, _⟩ => show win7_11.index t (1 : Fin 2) * 128 + 1 * k.val = k.val; omega

def result7 (c : Dev nD) : Cert.Spec.Mat 128 128 :=
  Cert.Spec.post (Cert.Spec.pool (V c main_v4) (Cert.Spec.emb7 (V c main_v6) (V c main_v27_0) (V c main_v48_0) (V c main_v69_0)
    (V c main_v90_0) (V c main_v111_0) (V c main_v132_0))) (V c main_arg9) (V c main_v133) (V c main_arg11) (V c main_v134)

theorem stored7 (c : Dev nD) (t : Fin cfg7.N) : (Hand.dat7 (F := Ideal) V c).after 12 t = result7 V c := by
  rw [Hand.out7_last, pay1_eq_post, pooled7, whole7_8, whole7_9, whole7_10, whole7_11]
  rfl

theorem emb7_12 (t : Fin cfg7.N) (r k : Fin 128) :
    ((cfg7.win 12).blk t).view.emb (ix2 r k) = (ix2 r k : S128x128.Idx) := by
  obtain ⟨-, -, -, -, -, -, -, -, -, -, -, -, ⟨e0, e1⟩⟩ := where7 t
  funext a
  apply Fin.ext
  match a with
  | ⟨0, _⟩ => show win7_12.index t (0 : Fin 2) * 128 + 1 * r.val = r.val; omega
  | ⟨1, _⟩ => show win7_12.index t (1 : Fin 2) * 128 + 1 * k.val = k.val; omega

theorem wrote7 (c : Dev nD) (t : Fin cfg7.N) :
    (Hand.dat7 (F := Ideal) V c).flushed 12 t = ((cfg7.win 12).blk t).view.read (Elt Ideal) (result7 V c) := by
  show (cfg7.win 12).cut (grid7.coords t) ((Hand.dat7 (F := Ideal) V c).after 12 t) = _
  rw [stored7]
  funext j
  obtain ⟨r, k, rfl⟩ : ∃ (r : Fin 128) (k : Fin 128), j = ix2 r k := ⟨j 0, j 1, eq_ix2 j⟩
  rw [View.read_apply]
  show result7 V c (ix2 r k) = result7 V c (((cfg7.win 12).blk t).view.emb (ix2 r k))
  rw [emb7_12]

theorem all_out7 (i : S128x128.Idx) : ∃ t : Fin cfg7.N, (cfg7.win 12).flush t = true ∧ i ∈ ((cfg7.win 12).blk t).view.set := by
  have hi0 : (i 0).val < 128 := (i 0).isLt
  have hi1 : (i 1).val < 128 := (i 1).isLt
  obtain ⟨-, -, -, -, -, -, -, -, -, -, -, -, ⟨e0, e1⟩⟩ := where7 Hand.pLast7
  refine ⟨Hand.pLast7, (flush7_12 Hand.pLast7).mpr rfl, ?_⟩
  show i ∈ ((View.whole main_v135).slice (win7_12.rect Hand.pLast7)).set
  rw [View.set_slice_whole, Rect.mem_set_unit]
  intro a
  match a with
  | ⟨0, _⟩ => show win7_12.index Hand.pLast7 (0 : Fin 2) * 128 ≤ (i 0).val ∧ (i 0).val < win7_12.index Hand.pLast7 (0 : Fin 2) * 128 + 128; omega
  | ⟨1, _⟩ => show win7_12.index Hand.pLast7 (1 : Fin 2) * 128 ≤ (i 1).val ∧ (i 1).val < win7_12.index Hand.pLast7 (1 : Fin 2) * 128 + 128; omega

theorem final7 (c : Dev nD) :
    (Hand.dat7 (F := Ideal) V c).arrAt 12 cfg7.N
      = Cert.Spec.post (Cert.Spec.pool (V c main_v4) (Cert.Spec.emb7 (V c main_v6) (V c main_v27_0) (V c main_v48_0)
          (V c main_v69_0) (V c main_v90_0) (V c main_v111_0) (V c main_v132_0))) (V c main_arg9) (V c main_v133)
          (V c main_arg11) (V c main_v134) :=
  (Hand.dat7 (F := Ideal) V c).arrAt_eq_of_cover 12 (result7 V c) (fun t _ => wrote7 V c t) all_out7

end Cert.KernelIdeal.Val

end
-- ==== Proof.Val.Chain.lean ====
/-
  The program's result is the specification's network of its arguments: the regions' results chained from launch to return.
-/
import proofs.«431182_j60713657696761_1_alg».proof.Proof.Val.Layer6
import proofs.«431182_j60713657696761_1_alg».proof.Proof.Val.Reg7Val

set_option maxRecDepth 16384

noncomputable section

namespace Cert.KernelIdeal.Val

open Cert.KernelIdeal Cert.KernelIdeal.Gen
open Idealize.ShloMosaic Idealize.ShloMosaic.TcCoe Idealize.ShloMosaic.StableHlo

section Chain

variable (m : (ℓ : Loc nD τ sig) → Buf (Elt Ideal) ℓ) (c : Dev nD)

theorem result_eq :
    Hand.W16 (F := Ideal) m c (Proc.devRef .tc main_v135)
      = Cert.Spec.net (Cert.Spec.agg (m ((c.tc : Thread nD τ).loc main_arg1))) (m ((c.tc : Thread nD τ).loc main_arg0))
          (Cert.Spec.col (m ((c.tc : Thread nD τ).loc main_arg2))) (m ((c.tc : Thread nD τ).loc main_arg3))
          (Cert.Spec.row (m ((c.tc : Thread nD τ).loc main_arg4)))
          (Cert.Spec.W6 (m ((c.tc : Thread nD τ).loc main_arg5))) (Cert.Spec.W6 (m ((c.tc : Thread nD τ).loc main_arg7)))
          (Cert.Spec.B6 (m ((c.tc : Thread nD τ).loc main_arg6))) (Cert.Spec.B6 (m ((c.tc : Thread nD τ).loc main_arg8)))
          (m ((c.tc : Thread nD τ).loc main_arg9)) (Cert.Spec.row (m ((c.tc : Thread nD τ).loc main_arg10)))
          (m ((c.tc : Thread nD τ).loc main_arg11)) (Cert.Spec.row (m ((c.tc : Thread nD τ).loc main_arg12))) := by
  have g0 : Hand.W15 m c (Proc.devRef .tc main_v6) = h0 m c := by keep_back; exact out0 m c
  have g1 : Hand.W15 m c (Proc.devRef .tc main_v27_0) = h1 m c := by keep_back; exact (out1 m c).1
  have g2 : Hand.W15 m c (Proc.devRef .tc main_v48_0) = h2 m c := by keep_back; exact (out2 m c).1
  have g3 : Hand.W15 m c (Proc.devRef .tc main_v69_0) = h3 m c := by keep_back; exact (out3 m c).1
  have g4 : Hand.W15 m c (Proc.devRef .tc main_v90_0) = h4 m c := by keep_back; exact (out4 m c).1
  have g5 : Hand.W15 m c (Proc.devRef .tc main_v111_0) = h5 m c := by keep_back; exact (out5 m c).1
  have g6 : Hand.W15 m c (Proc.devRef .tc main_v132_0) = h6 m c := by keep_back; exact (out6 m c).1
  have gid : Hand.W15 m c (Proc.devRef .tc main_v4) = Spec.col (Hand.W0 m c (Proc.devRef .tc main_arg2)) := by
    keep_back; exact s0_ids (Hand.W0 m c)
  have gw1 : Hand.W15 m c (Proc.devRef .tc main_arg9) = Hand.W0 m c (Proc.devRef .tc main_arg9) := by keep_back
  have gw2 : Hand.W15 m c (Proc.devRef .tc main_arg11) = Hand.W0 m c (Proc.devRef .tc main_arg11) := by keep_back
  have gb1 : Hand.W15 m c (Proc.devRef .tc main_v133) = Spec.row (Hand.W0 m c (Proc.devRef .tc main_arg10)) :=
    (s7_bias1 (Hand.W14 m c)).trans (by keep_back)
  have gb2 : Hand.W15 m c (Proc.devRef .tc main_v134) = Spec.row (Hand.W0 m c (Proc.devRef .tc main_arg12)) :=
    (s7_bias2 (Hand.W14 m c)).trans (by keep_back)
  rw [Hand.W_out7, final7]
  beta_reduce
  rw [g0, g1, g2, g3, g4, g5, g6, gid, gw1, gw2, gb1, gb2]
  rfl

end Chain

end Cert.KernelIdeal.Val

end
-- ==== Proof.RefRead.lean ====
/-
  The reference program's host operations as functions of its thirteen arguments, one per buffer the result depends on,
  and the few of them the proof reads at an index (the affine maps' products, broadcasts and sums).
-/
import proofs.«431182_j60713657696761_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F))
  (x5 : (⟨S6x128x128, .f32⟩ : BufTy).Contents (Elt F)) (x6 : (⟨S6x128, .f32⟩ : BufTy).Contents (Elt F)) (x7 : (⟨S6x128x128, .f32⟩ : BufTy).Contents (Elt F)) (x8 : (⟨S6x128, .f32⟩ : BufTy).Contents (Elt F))
  (x9 : (⟨S896x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F))

def val_main_v0 : (⟨S1x800000, .i32⟩ : BufTy).Contents (Elt F) :=
  extractStridedSlice S1x800000 ![0, 0] (x1) slices_S2x800000_S1x800000_0_0
def val_main_v1 : (⟨S800000, .i32⟩ : BufTy).Contents (Elt F) :=
  shapeCast _ (val_main_v0 (F := F) x1) shapeCasts_S1x800000_S800000
def val_main_v2 : (⟨S1x800000, .i32⟩ : BufTy).Contents (Elt F) :=
  extractStridedSlice S1x800000 ![1, 0] (x1) slices_S2x800000_S1x800000_1_0
def val_main_v3 : (⟨S800000, .i32⟩ : BufTy).Contents (Elt F) :=
  shapeCast _ (val_main_v2 (F := F) x1) shapeCasts_S1x800000_S800000
def val_main_v4 : (⟨S50000x128, .f32⟩ : BufTy).Contents (Elt F) :=
  Host.dotGeneral dot_S50000x128_S128x128_S50000x128_1_0_0_1_n_n none (x0) (x3)
theorem lhs_main_v4_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_main_v4_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_main_v4_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_main_v4_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
abbrev lidx_main_v4 (i : S50000x128.Idx) (k : Fin 128) : S50000x128.Idx := fun a => match a with
  | ⟨0, _⟩ => ⟨(i 0).val, (i 0).isLt⟩
  | ⟨1, _⟩ => ⟨k.val, k.isLt⟩
abbrev ridx_main_v4 (i : S50000x128.Idx) (k : Fin 128) : S128x128.Idx := fun a => match a with
  | ⟨0, _⟩ => ⟨k.val, k.isLt⟩
  | ⟨1, _⟩ => ⟨(i 1).val, (i 1).isLt⟩
theorem val_main_v4_apply (x0 : (⟨S50000x128, .f32⟩ : BufTy).Contents (Elt Ideal)) (x3 : (⟨S128x128, .f32⟩ : BufTy).Contents (Elt Ideal)) (i : S50000x128.Idx) :
    val_main_v4 (F := Ideal) x0 x3 i = ∑ k : Fin 128, x0 (lidx_main_v4 i k) * x3 (ridx_main_v4 i k) := by
  unfold val_main_v4
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v4 i k := funext fun a => Fin.ext (by
    match a with
    | ⟨0, _⟩ => exact lhs_main_v4_0 _ _
    | ⟨1, _⟩ => exact (lhs_main_v4_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v4 i k := funext fun a => Fin.ext (by
    match a with
    | ⟨0, _⟩ => exact (rhs_main_v4_0 _ _).trans hk
    | ⟨1, _⟩ => exact rhs_main_v4_1 _ _)
  rw [el, er]
def val_main_v5 : (⟨S1x128, .f32⟩ : BufTy).Contents (Elt F) :=
  broadcastInDim S1x128 ![1] bcast_S128_S1x128_1 (x4)
abbrev idx_main_v5 (i : S1x128.Idx) : S128.Idx := fun a => match a with
  | ⟨0, _⟩ => ⟨(i 1).val, (i 1).isLt⟩
theorem val_main_v5_apply (i : S1x128.Idx) :
    val_main_v5 (F := F) x4 i = x4 (idx_main_v5 i) := by
  unfold val_main_v5
  exact broadcastInDim_apply _ bcast_S128_S1x128_1 x4 i (idx_main_v5 i) (fun a => match a with
    | ⟨0, _⟩ => by show (i 1).val = if (128 : Nat) = 1 then 0 else (i 1).val; rw [if_neg (by decide)])
def val_main_v6 : (⟨S50000x128, .f32⟩ : BufTy).Contents (Elt F) :=
  broadcastInDim S50000x128 ![0, 1] bcast_S1x128_S50000x128_0_1 (val_main_v5 (F := F) x4)
abbrev idx_main_v6 (i : S50000x128.Idx) : S1x128.Idx := fun a => match a with
  | ⟨0, _⟩ => ⟨0, Nat.one_pos⟩
  | ⟨1, _⟩ => ⟨(i 1).val, (i 1).isLt⟩
theorem val_main_v6_apply (i : S50000x128.Idx) :
    val_main_v6 (F := F) x4 i = val_main_v5 (F := F) x4 (idx_main_v6 i) := by
  unfold val_main_v6
  generalize val_main_v5 (F := F) x4 = y
  exact broadcastInDim_apply _ bcast_S1x128_S50000x128_0_1 y i (idx_main_v6 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v7 : (⟨S50000x128, .f32⟩ : BufTy).Contents (Elt F) :=
  addf (val_main_v4 (F := F) x0 x3) (val_main_v6 (F := F) x4)
theorem val_main_v7_apply (i : S50000x128.Idx) :
    val_main_v7 (F := F) x0 x3 x4 i = FloatOps.addf (val_main_v4 (F := F) x0 x3 i) (val_main_v6 (F := F) x4 i) := rfl
def val_main_c : (⟨S_, .i32⟩ : BufTy).Contents (Elt F) :=
  constantI S_ 32 0#32
def val_main_v8 : (⟨S800000, .i32⟩ : BufTy).Contents (Elt F) :=
  broadcastInDim S800000 ![] bcast_S_S800000 (val_main_c (F := F))
def val_main_v9 : (⟨S800000, .i1⟩ : BufTy).Contents (Elt F) :=
  cmpi .slt (val_main_v1 (F := F) x1) (val_main_v8 (F := F))
def val_main_c_0 : (⟨S_, .i32⟩ : BufTy).Contents (Elt F) :=
  constantI S_ 32 50000#32
def val_main_v10 : (⟨S800000, .i32⟩ : BufTy).Contents (Elt F) :=
  broadcastInDim S800000 ![] bcast_S_S800000 (val_main_c_0 (F := F))
def val_main_v11 : (⟨S800000, .i32⟩ : BufTy).Contents (Elt F) :=
  addi (val_main_v1 (F := F) x1) (val_main_v10 (F := F))
def val_main_v12 : (⟨S800000, .i32⟩ : BufTy).Contents (Elt F) :=
  select (val_main_v9 (F := F) x1) (val_main_v11 (F := F) x1) (val_main_v1 (F := F) x1)
def val_main_v13 : (⟨S800000x1, .i32⟩ : BufTy).Contents (Elt F) :=
  broadcastInDim S800000x1 ![0] bcast_S800000_S800000x1_0 (val_main_v12 (F := F) x1)
def val_main_v14 : (⟨S800000x128, .f32⟩ : BufTy).Contents (Elt F) :=
  Host.gather gather_S50000x128_S800000x1_S800000x128_1_0_n_n_0_1_1128 (val_main_v7 (F := F) x0 x3 x4) (val_main_v13 (F := F) x1)
def val_main_cst : (⟨S_, .f32⟩ : BufTy).Contents (Elt F) :=
  constant S_ .f32 0x00000000#32
theorem val_main_cst_apply (i : S_.Idx) :
    val_main_cst (F := F) i = FloatOps.ofBits .f32 0x00000000#32 := rfl
def val_main_v15 : (⟨S50000x128, .f32⟩ : BufTy).Contents (Elt F) :=
  broadcastInDim S50000x128 ![] bcast_S_S50000x128 (val_main_cst (F := F))
abbrev idx_main_v15 (i : S50000x128.Idx) : S_.Idx := fun a => a.elim0
theorem val_main_v15_apply (i : S50000x128.Idx) :
    val_main_v15 (F := F) i = val_main_cst (F := F) (idx_main_v15 i) := by
  unfold val_main_v15
  generalize val_main_cst (F := F) = y
  exact broadcastInDim_apply _ bcast_S_S50000x128 y i (idx_main_v15 i) (fun a => a.elim0)
def val_main_v16 : (⟨S800000x1, .i32⟩ : BufTy).Contents (Elt F) :=
  broadcastInDim S800000x1 ![0] bcast_S800000_S800000x1_0 (val_main_v3 (F := F) x1)
def val_main_v17 : (⟨S50000x128, .f32⟩ : BufTy).Contents (Elt F) :=
  Host.scatterAdd scatter_S50000x128_S800000x1_S800000x128_1_0_0_1 (val_main_v15 (F := F)) (val_main_v16 (F := F) x1) (val_main_v14 (F := F) x0 x1 x3 x4)
def val_main_v18 : (⟨S50000x128, .f32⟩ : BufTy).Contents (Elt F) :=
  addf (val_main_v7 (F := F) x0 x3 x4) (val_main_v17 (F := F) x0 x1 x3 x4)
def val_main_v19 : (⟨S1x128x128, .f32⟩ : BufTy).Contents (Elt F) :=
  extractStridedSlice S1x128x128 ![0, 0, 0] (x5) slices_S6x128x128_S1x128x128_0_0_0
def val_main_v20 : (⟨S128x128, .f32⟩ : BufTy).Contents (Elt F) :=
  shapeCast _ (val_main_v19 (F := F) x5) shapeCasts_S1x128x128_S128x128
def val_main_v21 : (⟨S50000x128, .f32⟩ : BufTy).Contents (Elt F) :=
  Host.dotGeneral dot_S50000x128_S128x128_S50000x128_1_0_0_1_n_n none (val_main_v18 (F := F) x0 x1 x3 x4) (val_main_v20 (F := F) x5)
def val_main_v22 : (⟨S1x128, .f32⟩ : BufTy).Contents (Elt F) :=
  extractStridedSlice S1x128 ![0, 0] (x6) slices_S6x128_S1x128_0_0
def val_main_v23 : (⟨S128, .f32⟩ : BufTy).Contents (Elt F) :=
  shapeCast _ (val_main_v22 (F := F) x6) shapeCasts_S1x128_S128
def val_main_v24 : (⟨S1x128, .f32⟩ : BufTy).Contents (Elt F) :=
  broadcastInDim S1x128 ![1] bcast_S128_S1x128_1 (val_main_v23 (F := F) x6)
def val_main_v25 : (⟨S50000x128, .f32⟩ : BufTy).Contents (Elt F) :=
  broadcastInDim S50000x128 ![0, 1] bcast_S1x128_S50000x128_0_1 (val_main_v24 (F := F) x6)
def val_main_v26 : (⟨S50000x128, .f32⟩ : BufTy).Contents (Elt F) :=
  addf (val_main_v21 (F := F) x0 x1 x3 x4 x5) (val_main_v25 (F := F) x6)
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl
def val_main_call0_v0 : (⟨S50000x128, .f32⟩ : BufTy).Contents (Elt F) :=
  broadcastInDim S50000x128 ![] bcast_S_S50000x128 (val_main_call0_cst (F := F))
abbrev idx_main_call0_v0 (i : S50000x128.Idx) : S_.Idx := fun a => a.elim0
theorem val_main_call0_v0_apply (i : S50000x128.Idx) :
    val_main_call0_v0 (F := F) i = val_main_call0_cst (F := F) (idx_main_call0_v0 i) := by
  unfold val_main_call0_v0
  generalize val_main_call0_cst (F := F) = y
  exact broadcastInDim_apply _ bcast_S_S50000x128 y i (idx_main_call0_v0 i) (fun a => a.elim0)
def val_main_v27 : (⟨S50000x128, .f32⟩ : BufTy).Contents (Elt F) :=
  maximumf (val_main_v26 (F := F) x0 x1 x3 x4 x5 x6) (val_main_call0_v0 (F := F))
def val_main_v28 : (⟨S1x128x128, .f32⟩ : BufTy).Contents (Elt F) :=
  extractStridedSlice S1x128x128 ![0, 0, 0] (x7) slices_S6x128x128_S1x128x128_0_0_0
def val_main_v29 : (⟨S128x128, .f32⟩ : BufTy).Contents (Elt F) :=
  shapeCast _ (val_main_v28 (F := F) x7) shapeCasts_S1x128x128_S128x128
def val_main_v30 : (⟨S50000x128, .f32⟩ : BufTy).Contents (Elt F) :=
  Host.dotGeneral dot_S50000x128_S128x128_S50000x128_1_0_0_1_n_n none (val_main_v27 (F := F) x0 x1 x3 x4 x5 x6) (val_main_v29 (F := F) x7)
def val_main_v31 : (⟨S1x128, .f32⟩ : BufTy).Contents (Elt F) :=
  extractStridedSlice S1x128 ![0, 0] (x8) slices_S6x128_S1x128_0_0
def val_main_v32 : (⟨S128, .f32⟩ : BufTy).Contents (Elt F) :=
  shapeCast _ (val_main_v31 (F := F) x8) shapeCasts_S1x128_S128
def val_main_v33 : (⟨S1x128, .f32⟩ : BufTy).Contents (Elt F) :=
  broadcastInDim S1x128 ![1] bcast_S128_S1x128_1 (val_main_v32 (F := F) x8)
def val_main_v34 : (⟨S50000x128, .f32⟩ : BufTy).Contents (Elt F) :=
  broadcastInDim S50000x128 ![0, 1] bcast_S1x128_S50000x128_0_1 (val_main_v33 (F := F) x8)
def val_main_v35 : (⟨S50000x128, .f32⟩ : BufTy).Contents (Elt F) :=
  addf (val_main_v30 (F := F) x0 x1 x3 x4 x5 x6 x7) (val_main_v34 (F := F) x8)
def val_main_call1_cst : (⟨S_, .f32⟩ : BufTy).Contents (Elt F) :=
  constant S_ .f32 0x00000000#32
def val_main_call1_v0 : (⟨S50000x128, .f32⟩ : BufTy).Contents (Elt F) :=
  broadcastInDim S50000x128 ![] bcast_S_S50000x128 (val_main_call1_cst (F := F))
def val_main_v36 : (⟨S50000x128, .f32⟩ : BufTy).Contents (Elt F) :=
  maximumf (val_main_v35 (F := F) x0 x1 x3 x4 x5 x6 x7 x8) (val_main_call1_v0 (F := F))
def val_main_c_1 : (⟨S_, .i32⟩ : BufTy).Contents (Elt F) :=
  constantI S_ 32 0#32
def val_main_v37 : (⟨S800000, .i32⟩ : BufTy).Contents (Elt F) :=
  broadcastInDim S800000 ![] bcast_S_S800000 (val_main_c_1 (F := F))
def val_main_v38 : (⟨S800000, .i1⟩ : BufTy).Contents (Elt F) :=
  cmpi .slt (val_main_v1 (F := F) x1) (val_main_v37 (F := F))
def val_main_c_2 : (⟨S_, .i32⟩ : BufTy).Contents (Elt F) :=
  constantI S_ 32 50000#32
def val_main_v39 : (⟨S800000, .i32⟩ : BufTy).Contents (Elt F) :=
  broadcastInDim S800000 ![] bcast_S_S800000 (val_main_c_2 (F := F))
def val_main_v40 : (⟨S800000, .i32⟩ : BufTy).Contents (Elt F) :=
  addi (val_main_v1 (F := F) x1) (val_main_v39 (F := F))
def val_main_v41 : (⟨S800000, .i32⟩ : BufTy).Contents (Elt F) :=
  select (val_main_v38 (F := F) x1) (val_main_v40 (F := F) x1) (val_main_v1 (F := F) x1)
def val_main_v42 : (⟨S800000x1, .i32⟩ : BufTy).Contents (Elt F) :=
  broadcastInDim S800000x1 ![0] bcast_S800000_S800000x1_0 (val_main_v41 (F := F) x1)
def val_main_v43 : (⟨S800000x128, .f32⟩ : BufTy).Contents (Elt F) :=
  Host.gather gather_S50000x128_S800000x1_S800000x128_1_0_n_n_0_1_1128 (val_main_v36 (F := F) x0 x1 x3 x4 x5 x6 x7 x8) (val_main_v42 (F := F) x1)
def val_main_cst_3 : (⟨S_, .f32⟩ : BufTy).Contents (Elt F) :=
  constant S_ .f32 0x00000000#32
def val_main_v44 : (⟨S50000x128, .f32⟩ : BufTy).Contents (Elt F) :=
  broadcastInDim S50000x128 ![] bcast_S_S50000x128 (val_main_cst_3 (F := F))
def val_main_v45 : (⟨S800000x1, .i32⟩ : BufTy).Contents (Elt F) :=
  broadcastInDim S800000x1 ![0] bcast_S800000_S800000x1_0 (val_main_v3 (F := F) x1)
def val_main_v46 : (⟨S50000x128, .f32⟩ : BufTy).Contents (Elt F) :=
  Host.scatterAdd scatter_S50000x128_S800000x1_S800000x128_1_0_0_1 (val_main_v44 (F := F)) (val_main_v45 (F := F) x1) (val_main_v43 (F := F) x0 x1 x3 x4 x5 x6 x7 x8)
def val_main_v47 : (⟨S50000x128, .f32⟩ : BufTy).Contents (Elt F) :=
  addf (val_main_v36 (F := F) x0 x1 x3 x4 x5 x6 x7 x8) (val_main_v46 (F := F) x0 x1 x3 x4 x5 x6 x7 x8)
def val_main_v48 : (⟨S1x128x128, .f32⟩ : BufTy).Contents (Elt F) :=
  extractStridedSlice S1x128x128 ![1, 0, 0] (x5) slices_S6x128x128_S1x128x128_1_0_0
def val_main_v49 : (⟨S128x128, .f32⟩ : BufTy).Contents (Elt F) :=
  shapeCast _ (val_main_v48 (F := F) x5) shapeCasts_S1x128x128_S128x128
def val_main_v50 : (⟨S50000x128, .f32⟩ : BufTy).Contents (Elt F) :=
  Host.dotGeneral dot_S50000x128_S128x128_S50000x128_1_0_0_1_n_n none (val_main_v47 (F := F) x0 x1 x3 x4 x5 x6 x7 x8) (val_main_v49 (F := F) x5)
def val_main_v51 : (⟨S1x128, .f32⟩ : BufTy).Contents (Elt F) :=
  extractStridedSlice S1x128 ![1, 0] (x6) slices_S6x128_S1x128_1_0
def val_main_v52 : (⟨S128, .f32⟩ : BufTy).Contents (Elt F) :=
  shapeCast _ (val_main_v51 (F := F) x6) shapeCasts_S1x128_S128
def val_main_v53 : (⟨S1x128, .f32⟩ : BufTy).Contents (Elt F) :=
  broadcastInDim S1x128 ![1] bcast_S128_S1x128_1 (val_main_v52 (F := F) x6)
def val_main_v54 : (⟨S50000x128, .f32⟩ : BufTy).Contents (Elt F) :=
  broadcastInDim S50000x128 ![0, 1] bcast_S1x128_S50000x128_0_1 (val_main_v53 (F := F) x6)
def val_main_v55 : (⟨S50000x128, .f32⟩ : BufTy).Contents (Elt F) :=
  addf (val_main_v50 (F := F) x0 x1 x3 x4 x5 x6 x7 x8) (val_main_v54 (F := F) x6)
def val_main_call2_cst : (⟨S_, .f32⟩ : BufTy).Contents (Elt F) :=
  constant S_ .f32 0x00000000#32
def val_main_call2_v0 : (⟨S50000x128, .f32⟩ : BufTy).Contents (Elt F) :=
  broadcastInDim S50000x128 ![] bcast_S_S50000x128 (val_main_call2_cst (F := F))
def val_main_v56 : (⟨S50000x128, .f32⟩ : BufTy).Contents (Elt F) :=
  maximumf (val_main_v55 (F := F) x0 x1 x3 x4 x5 x6 x7 x8) (val_main_call2_v0 (F := F))
def val_main_v57 : (⟨S1x128x128, .f32⟩ : BufTy).Contents (Elt F) :=
  extractStridedSlice S1x128x128 ![1, 0, 0] (x7) slices_S6x128x128_S1x128x128_1_0_0
def val_main_v58 : (⟨S128x128, .f32⟩ : BufTy).Contents (Elt F) :=
  shapeCast _ (val_main_v57 (F := F) x7) shapeCasts_S1x128x128_S128x128
def val_main_v59 : (⟨S50000x128, .f32⟩ : BufTy).Contents (Elt F) :=
  Host.dotGeneral dot_S50000x128_S128x128_S50000x128_1_0_0_1_n_n none (val_main_v56 (F := F) x0 x1 x3 x4 x5 x6 x7 x8) (val_main_v58 (F := F) x7)
def val_main_v60 : (⟨S1x128, .f32⟩ : BufTy).Contents (Elt F) :=
  extractStridedSlice S1x128 ![1, 0] (x8) slices_S6x128_S1x128_1_0
def val_main_v61 : (⟨S128, .f32⟩ : BufTy).Contents (Elt F) :=
  shapeCast _ (val_main_v60 (F := F) x8) shapeCasts_S1x128_S128
def val_main_v62 : (⟨S1x128, .f32⟩ : BufTy).Contents (Elt F) :=
  broadcastInDim S1x128 ![1] bcast_S128_S1x128_1 (val_main_v61 (F := F) x8)
def val_main_v63 : (⟨S50000x128, .f32⟩ : BufTy).Contents (Elt F) :=
  broadcastInDim S50000x128 ![0, 1] bcast_S1x128_S50000x128_0_1 (val_main_v62 (F := F) x8)
def val_main_v64 : (⟨S50000x128, .f32⟩ : BufTy).Contents (Elt F) :=
  addf (val_main_v59 (F := F) x0 x1 x3 x4 x5 x6 x7 x8) (val_main_v63 (F := F) x8)
def val_main_v65 : (⟨S50000x128, .f32⟩ : BufTy).Contents (Elt F) :=
  addf (val_main_v64 (F := F) x0 x1 x3 x4 x5 x6 x7 x8) (val_main_v7 (F := F) x0 x3 x4)
def val_main_call3_cst : (⟨S_, .f32⟩ : BufTy).Contents (Elt F) :=
  constant S_ .f32 0x00000000#32
def val_main_call3_v0 : (⟨S50000x128, .f32⟩ : BufTy).Contents (Elt F) :=
  broadcastInDim S50000x128 ![] bcast_S_S50000x128 (val_main_call3_cst (F := F))
def val_main_v66 : (⟨S50000x128, .f32⟩ : BufTy).Contents (Elt F) :=
  maximumf (val_main_v65 (F := F) x0 x1 x3 x4 x5 x6 x7 x8) (val_main_call3_v0 (F := F))
def val_main_c_4 : (⟨S_, .i32⟩ : BufTy).Contents (Elt F) :=
  constantI S_ 32 0#32
def val_main_v67 : (⟨S800000, .i32⟩ : BufTy).Contents (Elt F) :=
  broadcastInDim S800000 ![] bcast_S_S800000 (val_main_c_4 (F := F))
def val_main_v68 : (⟨S800000, .i1⟩ : BufTy).Contents (Elt F) :=
  cmpi .slt (val_main_v1 (F := F) x1) (val_main_v67 (F := F))
def val_main_c_5 : (⟨S_, .i32⟩ : BufTy).Contents (Elt F) :=
  constantI S_ 32 50000#32
def val_main_v69 : (⟨S800000, .i32⟩ : BufTy).Contents (Elt F) :=
  broadcastInDim S800000 ![] bcast_S_S800000 (val_main_c_5 (F := F))
def val_main_v70 : (⟨S800000, .i32⟩ : BufTy).Contents (Elt F) :=
  addi (val_main_v1 (F := F) x1) (val_main_v69 (F := F))
def val_main_v71 : (⟨S800000, .i32⟩ : BufTy).Contents (Elt F) :=
  select (val_main_v68 (F := F) x1) (val_main_v70 (F := F) x1) (val_main_v1 (F := F) x1)
def val_main_v72 : (⟨S800000x1, .i32⟩ : BufTy).Contents (Elt F) :=
  broadcastInDim S800000x1 ![0] bcast_S800000_S800000x1_0 (val_main_v71 (F := F) x1)
def val_main_v73 : (⟨S800000x128, .f32⟩ : BufTy).Contents (Elt F) :=
  Host.gather gather_S50000x128_S800000x1_S800000x128_1_0_n_n_0_1_1128 (val_main_v66 (F := F) x0 x1 x3 x4 x5 x6 x7 x8) (val_main_v72 (F := F) x1)
def val_main_cst_6 : (⟨S_, .f32⟩ : BufTy).Contents (Elt F) :=
  constant S_ .f32 0x00000000#32
def val_main_v74 : (⟨S50000x128, .f32⟩ : BufTy).Contents (Elt F) :=
  broadcastInDim S50000x128 ![] bcast_S_S50000x128 (val_main_cst_6 (F := F))
def val_main_v75 : (⟨S800000x1, .i32⟩ : BufTy).Contents (Elt F) :=
  broadcastInDim S800000x1 ![0] bcast_S800000_S800000x1_0 (val_main_v3 (F := F) x1)
def val_main_v76 : (⟨S50000x128, .f32⟩ : BufTy).Contents (Elt F) :=
  Host.scatterAdd scatter_S50000x128_S800000x1_S800000x128_1_0_0_1 (val_main_v74 (F := F)) (val_main_v75 (F := F) x1) (val_main_v73 (F := F) x0 x1 x3 x4 x5 x6 x7 x8)
def val_main_v77 : (⟨S50000x128, .f32⟩ : BufTy).Contents (Elt F) :=
  addf (val_main_v66 (F := F) x0 x1 x3 x4 x5 x6 x7 x8) (val_main_v76 (F := F) x0 x1 x3 x4 x5 x6 x7 x8)
def val_main_v78 : (⟨S1x128x128, .f32⟩ : BufTy).Contents (Elt F) :=
  extractStridedSlice S1x128x128 ![2, 0, 0] (x5) slices_S6x128x128_S1x128x128_2_0_0
def val_main_v79 : (⟨S128x128, .f32⟩ : BufTy).Contents (Elt F) :=
  shapeCast _ (val_main_v78 (F := F) x5) shapeCasts_S1x128x128_S128x128
def val_main_v80 : (⟨S50000x128, .f32⟩ : BufTy).Contents (Elt F) :=
  Host.dotGeneral dot_S50000x128_S128x128_S50000x128_1_0_0_1_n_n none (val_main_v77 (F := F) x0 x1 x3 x4 x5 x6 x7 x8) (val_main_v79 (F := F) x5)
def val_main_v81 : (⟨S1x128, .f32⟩ : BufTy).Contents (Elt F) :=
  extractStridedSlice S1x128 ![2, 0] (x6) slices_S6x128_S1x128_2_0
def val_main_v82 : (⟨S128, .f32⟩ : BufTy).Contents (Elt F) :=
  shapeCast _ (val_main_v81 (F := F) x6) shapeCasts_S1x128_S128
def val_main_v83 : (⟨S1x128, .f32⟩ : BufTy).Contents (Elt F) :=
  broadcastInDim S1x128 ![1] bcast_S128_S1x128_1 (val_main_v82 (F := F) x6)
def val_main_v84 : (⟨S50000x128, .f32⟩ : BufTy).Contents (Elt F) :=
  broadcastInDim S50000x128 ![0, 1] bcast_S1x128_S50000x128_0_1 (val_main_v83 (F := F) x6)
def val_main_v85 : (⟨S50000x128, .f32⟩ : BufTy).Contents (Elt F) :=
  addf (val_main_v80 (F := F) x0 x1 x3 x4 x5 x6 x7 x8) (val_main_v84 (F := F) x6)
def val_main_call4_cst : (⟨S_, .f32⟩ : BufTy).Contents (Elt F) :=
  constant S_ .f32 0x00000000#32
def val_main_call4_v0 : (⟨S50000x128, .f32⟩ : BufTy).Contents (Elt F) :=
  broadcastInDim S50000x128 ![] bcast_S_S50000x128 (val_main_call4_cst (F := F))
def val_main_v86 : (⟨S50000x128, .f32⟩ : BufTy).Contents (Elt F) :=
  maximumf (val_main_v85 (F := F) x0 x1 x3 x4 x5 x6 x7 x8) (val_main_call4_v0 (F := F))
def val_main_v87 : (⟨S1x128x128, .f32⟩ : BufTy).Contents (Elt F) :=
  extractStridedSlice S1x128x128 ![2, 0, 0] (x7) slices_S6x128x128_S1x128x128_2_0_0
def val_main_v88 : (⟨S128x128, .f32⟩ : BufTy).Contents (Elt F) :=
  shapeCast _ (val_main_v87 (F := F) x7) shapeCasts_S1x128x128_S128x128
def val_main_v89 : (⟨S50000x128, .f32⟩ : BufTy).Contents (Elt F) :=
  Host.dotGeneral dot_S50000x128_S128x128_S50000x128_1_0_0_1_n_n none (val_main_v86 (F := F) x0 x1 x3 x4 x5 x6 x7 x8) (val_main_v88 (F := F) x7)
def val_main_v90 : (⟨S1x128, .f32⟩ : BufTy).Contents (Elt F) :=
  extractStridedSlice S1x128 ![2, 0] (x8) slices_S6x128_S1x128_2_0
def val_main_v91 : (⟨S128, .f32⟩ : BufTy).Contents (Elt F) :=
  shapeCast _ (val_main_v90 (F := F) x8) shapeCasts_S1x128_S128
def val_main_v92 : (⟨S1x128, .f32⟩ : BufTy).Contents (Elt F) :=
  broadcastInDim S1x128 ![1] bcast_S128_S1x128_1 (val_main_v91 (F := F) x8)
def val_main_v93 : (⟨S50000x128, .f32⟩ : BufTy).Contents (Elt F) :=
  broadcastInDim S50000x128 ![0, 1] bcast_S1x128_S50000x128_0_1 (val_main_v92 (F := F) x8)
def val_main_v94 : (⟨S50000x128, .f32⟩ : BufTy).Contents (Elt F) :=
  addf (val_main_v89 (F := F) x0 x1 x3 x4 x5 x6 x7 x8) (val_main_v93 (F := F) x8)
def val_main_call5_cst : (⟨S_, .f32⟩ : BufTy).Contents (Elt F) :=
  constant S_ .f32 0x00000000#32
def val_main_call5_v0 : (⟨S50000x128, .f32⟩ : BufTy).Contents (Elt F) :=
  broadcastInDim S50000x128 ![] bcast_S_S50000x128 (val_main_call5_cst (F := F))
def val_main_v95 : (⟨S50000x128, .f32⟩ : BufTy).Contents (Elt F) :=
  maximumf (val_main_v94 (F := F) x0 x1 x3 x4 x5 x6 x7 x8) (val_main_call5_v0 (F := F))
def val_main_c_7 : (⟨S_, .i32⟩ : BufTy).Contents (Elt F) :=
  constantI S_ 32 0#32
def val_main_v96 : (⟨S800000, .i32⟩ : BufTy).Contents (Elt F) :=
  broadcastInDim S800000 ![] bcast_S_S800000 (val_main_c_7 (F := F))
def val_main_v97 : (⟨S800000, .i1⟩ : BufTy).Contents (Elt F) :=
  cmpi .slt (val_main_v1 (F := F) x1) (val_main_v96 (F := F))
def val_main_c_8 : (⟨S_, .i32⟩ : BufTy).Contents (Elt F) :=
  constantI S_ 32 50000#32
def val_main_v98 : (⟨S800000, .i32⟩ : BufTy).Contents (Elt F) :=
  broadcastInDim S800000 ![] bcast_S_S800000 (val_main_c_8 (F := F))
def val_main_v99 : (⟨S800000, .i32⟩ : BufTy).Contents (Elt F) :=
  addi (val_main_v1 (F := F) x1) (val_main_v98 (F := F))
def val_main_v100 : (⟨S800000, .i32⟩ : BufTy).Contents (Elt F) :=
  select (val_main_v97 (F := F) x1) (val_main_v99 (F := F) x1) (val_main_v1 (F := F) x1)
def val_main_v101 : (⟨S800000x1, .i32⟩ : BufTy).Contents (Elt F) :=
  broadcastInDim S800000x1 ![0] bcast_S800000_S800000x1_0 (val_main_v100 (F := F) x1)
def val_main_v102 : (⟨S800000x128, .f32⟩ : BufTy).Contents (Elt F) :=
  Host.gather gather_S50000x128_S800000x1_S800000x128_1_0_n_n_0_1_1128 (val_main_v95 (F := F) x0 x1 x3 x4 x5 x6 x7 x8) (val_main_v101 (F := F) x1)
def val_main_cst_9 : (⟨S_, .f32⟩ : BufTy).Contents (Elt F) :=
  constant S_ .f32 0x00000000#32
def val_main_v103 : (⟨S50000x128, .f32⟩ : BufTy).Contents (Elt F) :=
  broadcastInDim S50000x128 ![] bcast_S_S50000x128 (val_main_cst_9 (F := F))
def val_main_v104 : (⟨S800000x1, .i32⟩ : BufTy).Contents (Elt F) :=
  broadcastInDim S800000x1 ![0] bcast_S800000_S800000x1_0 (val_main_v3 (F := F) x1)
def val_main_v105 : (⟨S50000x128, .f32⟩ : BufTy).Contents (Elt F) :=
  Host.scatterAdd scatter_S50000x128_S800000x1_S800000x128_1_0_0_1 (val_main_v103 (F := F)) (val_main_v104 (F := F) x1) (val_main_v102 (F := F) x0 x1 x3 x4 x5 x6 x7 x8)
def val_main_v106 : (⟨S50000x128, .f32⟩ : BufTy).Contents (Elt F) :=
  addf (val_main_v95 (F := F) x0 x1 x3 x4 x5 x6 x7 x8) (val_main_v105 (F := F) x0 x1 x3 x4 x5 x6 x7 x8)
def val_main_v107 : (⟨S1x128x128, .f32⟩ : BufTy).Contents (Elt F) :=
  extractStridedSlice S1x128x128 ![3, 0, 0] (x5) slices_S6x128x128_S1x128x128_3_0_0
def val_main_v108 : (⟨S128x128, .f32⟩ : BufTy).Contents (Elt F) :=
  shapeCast _ (val_main_v107 (F := F) x5) shapeCasts_S1x128x128_S128x128
def val_main_v109 : (⟨S50000x128, .f32⟩ : BufTy).Contents (Elt F) :=
  Host.dotGeneral dot_S50000x128_S128x128_S50000x128_1_0_0_1_n_n none (val_main_v106 (F := F) x0 x1 x3 x4 x5 x6 x7 x8) (val_main_v108 (F := F) x5)
def val_main_v110 : (⟨S1x128, .f32⟩ : BufTy).Contents (Elt F) :=
  extractStridedSlice S1x128 ![3, 0] (x6) slices_S6x128_S1x128_3_0
def val_main_v111 : (⟨S128, .f32⟩ : BufTy).Contents (Elt F) :=
  shapeCast _ (val_main_v110 (F := F) x6) shapeCasts_S1x128_S128
def val_main_v112 : (⟨S1x128, .f32⟩ : BufTy).Contents (Elt F) :=
  broadcastInDim S1x128 ![1] bcast_S128_S1x128_1 (val_main_v111 (F := F) x6)
def val_main_v113 : (⟨S50000x128, .f32⟩ : BufTy).Contents (Elt F) :=
  broadcastInDim S50000x128 ![0, 1] bcast_S1x128_S50000x128_0_1 (val_main_v112 (F := F) x6)
def val_main_v114 : (⟨S50000x128, .f32⟩ : BufTy).Contents (Elt F) :=
  addf (val_main_v109 (F := F) x0 x1 x3 x4 x5 x6 x7 x8) (val_main_v113 (F := F) x6)
def val_main_call6_cst : (⟨S_, .f32⟩ : BufTy).Contents (Elt F) :=
  constant S_ .f32 0x00000000#32
def val_main_call6_v0 : (⟨S50000x128, .f32⟩ : BufTy).Contents (Elt F) :=
  broadcastInDim S50000x128 ![] bcast_S_S50000x128 (val_main_call6_cst (F := F))
def val_main_v115 : (⟨S50000x128, .f32⟩ : BufTy).Contents (Elt F) :=
  maximumf (val_main_v114 (F := F) x0 x1 x3 x4 x5 x6 x7 x8) (val_main_call6_v0 (F := F))
def val_main_v116 : (⟨S1x128x128, .f32⟩ : BufTy).Contents (Elt F) :=
  extractStridedSlice S1x128x128 ![3, 0, 0] (x7) slices_S6x128x128_S1x128x128_3_0_0
def val_main_v117 : (⟨S128x128, .f32⟩ : BufTy).Contents (Elt F) :=
  shapeCast _ (val_main_v116 (F := F) x7) shapeCasts_S1x128x128_S128x128
def val_main_v118 : (⟨S50000x128, .f32⟩ : BufTy).Contents (Elt F) :=
  Host.dotGeneral dot_S50000x128_S128x128_S50000x128_1_0_0_1_n_n none (val_main_v115 (F := F) x0 x1 x3 x4 x5 x6 x7 x8) (val_main_v117 (F := F) x7)
def val_main_v119 : (⟨S1x128, .f32⟩ : BufTy).Contents (Elt F) :=
  extractStridedSlice S1x128 ![3, 0] (x8) slices_S6x128_S1x128_3_0
def val_main_v120 : (⟨S128, .f32⟩ : BufTy).Contents (Elt F) :=
  shapeCast _ (val_main_v119 (F := F) x8) shapeCasts_S1x128_S128
def val_main_v121 : (⟨S1x128, .f32⟩ : BufTy).Contents (Elt F) :=
  broadcastInDim S1x128 ![1] bcast_S128_S1x128_1 (val_main_v120 (F := F) x8)
def val_main_v122 : (⟨S50000x128, .f32⟩ : BufTy).Contents (Elt F) :=
  broadcastInDim S50000x128 ![0, 1] bcast_S1x128_S50000x128_0_1 (val_main_v121 (F := F) x8)
def val_main_v123 : (⟨S50000x128, .f32⟩ : BufTy).Contents (Elt F) :=
  addf (val_main_v118 (F := F) x0 x1 x3 x4 x5 x6 x7 x8) (val_main_v122 (F := F) x8)
def val_main_v124 : (⟨S50000x128, .f32⟩ : BufTy).Contents (Elt F) :=
  addf (val_main_v123 (F := F) x0 x1 x3 x4 x5 x6 x7 x8) (val_main_v65 (F := F) x0 x1 x3 x4 x5 x6 x7 x8)
def val_main_call7_cst : (⟨S_, .f32⟩ : BufTy).Contents (Elt F) :=
  constant S_ .f32 0x00000000#32
def val_main_call7_v0 : (⟨S50000x128, .f32⟩ : BufTy).Contents (Elt F) :=
  broadcastInDim S50000x128 ![] bcast_S_S50000x128 (val_main_call7_cst (F := F))
def val_main_v125 : (⟨S50000x128, .f32⟩ : BufTy).Contents (Elt F) :=
  maximumf (val_main_v124 (F := F) x0 x1 x3 x4 x5 x6 x7 x8) (val_main_call7_v0 (F := F))
def val_main_c_10 : (⟨S_, .i32⟩ : BufTy).Contents (Elt F) :=
  constantI S_ 32 0#32
def val_main_v126 : (⟨S800000, .i32⟩ : BufTy).Contents (Elt F) :=
  broadcastInDim S800000 ![] bcast_S_S800000 (val_main_c_10 (F := F))
def val_main_v127 : (⟨S800000, .i1⟩ : BufTy).Contents (Elt F) :=
  cmpi .slt (val_main_v1 (F := F) x1) (val_main_v126 (F := F))
def val_main_c_11 : (⟨S_, .i32⟩ : BufTy).Contents (Elt F) :=
  constantI S_ 32 50000#32
def val_main_v128 : (⟨S800000, .i32⟩ : BufTy).Contents (Elt F) :=
  broadcastInDim S800000 ![] bcast_S_S800000 (val_main_c_11 (F := F))
def val_main_v129 : (⟨S800000, .i32⟩ : BufTy).Contents (Elt F) :=
  addi (val_main_v1 (F := F) x1) (val_main_v128 (F := F))
def val_main_v130 : (⟨S800000, .i32⟩ : BufTy).Contents (Elt F) :=
  select (val_main_v127 (F := F) x1) (val_main_v129 (F := F) x1) (val_main_v1 (F := F) x1)
def val_main_v131 : (⟨S800000x1, .i32⟩ : BufTy).Contents (Elt F) :=
  broadcastInDim S800000x1 ![0] bcast_S800000_S800000x1_0 (val_main_v130 (F := F) x1)
def val_main_v132 : (⟨S800000x128, .f32⟩ : BufTy).Contents (Elt F) :=
  Host.gather gather_S50000x128_S800000x1_S800000x128_1_0_n_n_0_1_1128 (val_main_v125 (F := F) x0 x1 x3 x4 x5 x6 x7 x8) (val_main_v131 (F := F) x1)
def val_main_cst_12 : (⟨S_, .f32⟩ : BufTy).Contents (Elt F) :=
  constant S_ .f32 0x00000000#32
def val_main_v133 : (⟨S50000x128, .f32⟩ : BufTy).Contents (Elt F) :=
  broadcastInDim S50000x128 ![] bcast_S_S50000x128 (val_main_cst_12 (F := F))
def val_main_v134 : (⟨S800000x1, .i32⟩ : BufTy).Contents (Elt F) :=
  broadcastInDim S800000x1 ![0] bcast_S800000_S800000x1_0 (val_main_v3 (F := F) x1)
def val_main_v135 : (⟨S50000x128, .f32⟩ : BufTy).Contents (Elt F) :=
  Host.scatterAdd scatter_S50000x128_S800000x1_S800000x128_1_0_0_1 (val_main_v133 (F := F)) (val_main_v134 (F := F) x1) (val_main_v132 (F := F) x0 x1 x3 x4 x5 x6 x7 x8)
def val_main_v136 : (⟨S50000x128, .f32⟩ : BufTy).Contents (Elt F) :=
  addf (val_main_v125 (F := F) x0 x1 x3 x4 x5 x6 x7 x8) (val_main_v135 (F := F) x0 x1 x3 x4 x5 x6 x7 x8)
def val_main_v137 : (⟨S1x128x128, .f32⟩ : BufTy).Contents (Elt F) :=
  extractStridedSlice S1x128x128 ![4, 0, 0] (x5) slices_S6x128x128_S1x128x128_4_0_0
def val_main_v138 : (⟨S128x128, .f32⟩ : BufTy).Contents (Elt F) :=
  shapeCast _ (val_main_v137 (F := F) x5) shapeCasts_S1x128x128_S128x128
def val_main_v139 : (⟨S50000x128, .f32⟩ : BufTy).Contents (Elt F) :=
  Host.dotGeneral dot_S50000x128_S128x128_S50000x128_1_0_0_1_n_n none (val_main_v136 (F := F) x0 x1 x3 x4 x5 x6 x7 x8) (val_main_v138 (F := F) x5)
def val_main_v140 : (⟨S1x128, .f32⟩ : BufTy).Contents (Elt F) :=
  extractStridedSlice S1x128 ![4, 0] (x6) slices_S6x128_S1x128_4_0
def val_main_v141 : (⟨S128, .f32⟩ : BufTy).Contents (Elt F) :=
  shapeCast _ (val_main_v140 (F := F) x6) shapeCasts_S1x128_S128
def val_main_v142 : (⟨S1x128, .f32⟩ : BufTy).Contents (Elt F) :=
  broadcastInDim S1x128 ![1] bcast_S128_S1x128_1 (val_main_v141 (F := F) x6)
def val_main_v143 : (⟨S50000x128, .f32⟩ : BufTy).Contents (Elt F) :=
  broadcastInDim S50000x128 ![0, 1] bcast_S1x128_S50000x128_0_1 (val_main_v142 (F := F) x6)
def val_main_v144 : (⟨S50000x128, .f32⟩ : BufTy).Contents (Elt F) :=
  addf (val_main_v139 (F := F) x0 x1 x3 x4 x5 x6 x7 x8) (val_main_v143 (F := F) x6)
def val_main_call8_cst : (⟨S_, .f32⟩ : BufTy).Contents (Elt F) :=
  constant S_ .f32 0x00000000#32
def val_main_call8_v0 : (⟨S50000x128, .f32⟩ : BufTy).Contents (Elt F) :=
  broadcastInDim S50000x128 ![] bcast_S_S50000x128 (val_main_call8_cst (F := F))
def val_main_v145 : (⟨S50000x128, .f32⟩ : BufTy).Contents (Elt F) :=
  maximumf (val_main_v144 (F := F) x0 x1 x3 x4 x5 x6 x7 x8) (val_main_call8_v0 (F := F))
def val_main_v146 : (⟨S1x128x128, .f32⟩ : BufTy).Contents (Elt F) :=
  extractStridedSlice S1x128x128 ![4, 0, 0] (x7) slices_S6x128x128_S1x128x128_4_0_0
def val_main_v147 : (⟨S128x128, .f32⟩ : BufTy).Contents (Elt F) :=
  shapeCast _ (val_main_v146 (F := F) x7) shapeCasts_S1x128x128_S128x128
def val_main_v148 : (⟨S50000x128, .f32⟩ : BufTy).Contents (Elt F) :=
  Host.dotGeneral dot_S50000x128_S128x128_S50000x128_1_0_0_1_n_n none (val_main_v145 (F := F) x0 x1 x3 x4 x5 x6 x7 x8) (val_main_v147 (F := F) x7)
def val_main_v149 : (⟨S1x128, .f32⟩ : BufTy).Contents (Elt F) :=
  extractStridedSlice S1x128 ![4, 0] (x8) slices_S6x128_S1x128_4_0
def val_main_v150 : (⟨S128, .f32⟩ : BufTy).Contents (Elt F) :=
  shapeCast _ (val_main_v149 (F := F) x8) shapeCasts_S1x128_S128
def val_main_v151 : (⟨S1x128, .f32⟩ : BufTy).Contents (Elt F) :=
  broadcastInDim S1x128 ![1] bcast_S128_S1x128_1 (val_main_v150 (F := F) x8)
def val_main_v152 : (⟨S50000x128, .f32⟩ : BufTy).Contents (Elt F) :=
  broadcastInDim S50000x128 ![0, 1] bcast_S1x128_S50000x128_0_1 (val_main_v151 (F := F) x8)
def val_main_v153 : (⟨S50000x128, .f32⟩ : BufTy).Contents (Elt F) :=
  addf (val_main_v148 (F := F) x0 x1 x3 x4 x5 x6 x7 x8) (val_main_v152 (F := F) x8)
def val_main_call9_cst : (⟨S_, .f32⟩ : BufTy).Contents (Elt F) :=
  constant S_ .f32 0x00000000#32
def val_main_call9_v0 : (⟨S50000x128, .f32⟩ : BufTy).Contents (Elt F) :=
  broadcastInDim S50000x128 ![] bcast_S_S50000x128 (val_main_call9_cst (F := F))
def val_main_v154 : (⟨S50000x128, .f32⟩ : BufTy).Contents (Elt F) :=
  maximumf (val_main_v153 (F := F) x0 x1 x3 x4 x5 x6 x7 x8) (val_main_call9_v0 (F := F))
def val_main_c_13 : (⟨S_, .i32⟩ : BufTy).Contents (Elt F) :=
  constantI S_ 32 0#32
def val_main_v155 : (⟨S800000, .i32⟩ : BufTy).Contents (Elt F) :=
  broadcastInDim S800000 ![] bcast_S_S800000 (val_main_c_13 (F := F))
def val_main_v156 : (⟨S800000, .i1⟩ : BufTy).Contents (Elt F) :=
  cmpi .slt (val_main_v1 (F := F) x1) (val_main_v155 (F := F))
def val_main_c_14 : (⟨S_, .i32⟩ : BufTy).Contents (Elt F) :=
  constantI S_ 32 50000#32
def val_main_v157 : (⟨S800000, .i32⟩ : BufTy).Contents (Elt F) :=
  broadcastInDim S800000 ![] bcast_S_S800000 (val_main_c_14 (F := F))
def val_main_v158 : (⟨S800000, .i32⟩ : BufTy).Contents (Elt F) :=
  addi (val_main_v1 (F := F) x1) (val_main_v157 (F := F))
def val_main_v159 : (⟨S800000, .i32⟩ : BufTy).Contents (Elt F) :=
  select (val_main_v156 (F := F) x1) (val_main_v158 (F := F) x1) (val_main_v1 (F := F) x1)
def val_main_v160 : (⟨S800000x1, .i32⟩ : BufTy).Contents (Elt F) :=
  broadcastInDim S800000x1 ![0] bcast_S800000_S800000x1_0 (val_main_v159 (F := F) x1)
def val_main_v161 : (⟨S800000x128, .f32⟩ : BufTy).Contents (Elt F) :=
  Host.gather gather_S50000x128_S800000x1_S800000x128_1_0_n_n_0_1_1128 (val_main_v154 (F := F) x0 x1 x3 x4 x5 x6 x7 x8) (val_main_v160 (F := F) x1)
def val_main_cst_15 : (⟨S_, .f32⟩ : BufTy).Contents (Elt F) :=
  constant S_ .f32 0x00000000#32
def val_main_v162 : (⟨S50000x128, .f32⟩ : BufTy).Contents (Elt F) :=
  broadcastInDim S50000x128 ![] bcast_S_S50000x128 (val_main_cst_15 (F := F))
def val_main_v163 : (⟨S800000x1, .i32⟩ : BufTy).Contents (Elt F) :=
  broadcastInDim S800000x1 ![0] bcast_S800000_S800000x1_0 (val_main_v3 (F := F) x1)
def val_main_v164 : (⟨S50000x128, .f32⟩ : BufTy).Contents (Elt F) :=
  Host.scatterAdd scatter_S50000x128_S800000x1_S800000x128_1_0_0_1 (val_main_v162 (F := F)) (val_main_v163 (F := F) x1) (val_main_v161 (F := F) x0 x1 x3 x4 x5 x6 x7 x8)
def val_main_v165 : (⟨S50000x128, .f32⟩ : BufTy).Contents (Elt F) :=
  addf (val_main_v154 (F := F) x0 x1 x3 x4 x5 x6 x7 x8) (val_main_v164 (F := F) x0 x1 x3 x4 x5 x6 x7 x8)
def val_main_v166 : (⟨S1x128x128, .f32⟩ : BufTy).Contents (Elt F) :=
  extractStridedSlice S1x128x128 ![5, 0, 0] (x5) slices_S6x128x128_S1x128x128_5_0_0
def val_main_v167 : (⟨S128x128, .f32⟩ : BufTy).Contents (Elt F) :=
  shapeCast _ (val_main_v166 (F := F) x5) shapeCasts_S1x128x128_S128x128
def val_main_v168 : (⟨S50000x128, .f32⟩ : BufTy).Contents (Elt F) :=
  Host.dotGeneral dot_S50000x128_S128x128_S50000x128_1_0_0_1_n_n none (val_main_v165 (F := F) x0 x1 x3 x4 x5 x6 x7 x8) (val_main_v167 (F := F) x5)
def val_main_v169 : (⟨S1x128, .f32⟩ : BufTy).Contents (Elt F) :=
  extractStridedSlice S1x128 ![5, 0] (x6) slices_S6x128_S1x128_5_0
def val_main_v170 : (⟨S128, .f32⟩ : BufTy).Contents (Elt F) :=
  shapeCast _ (val_main_v169 (F := F) x6) shapeCasts_S1x128_S128
def val_main_v171 : (⟨S1x128, .f32⟩ : BufTy).Contents (Elt F) :=
  broadcastInDim S1x128 ![1] bcast_S128_S1x128_1 (val_main_v170 (F := F) x6)
def val_main_v172 : (⟨S50000x128, .f32⟩ : BufTy).Contents (Elt F) :=
  broadcastInDim S50000x128 ![0, 1] bcast_S1x128_S50000x128_0_1 (val_main_v171 (F := F) x6)
def val_main_v173 : (⟨S50000x128, .f32⟩ : BufTy).Contents (Elt F) :=
  addf (val_main_v168 (F := F) x0 x1 x3 x4 x5 x6 x7 x8) (val_main_v172 (F := F) x6)
def val_main_call10_cst : (⟨S_, .f32⟩ : BufTy).Contents (Elt F) :=
  constant S_ .f32 0x00000000#32
def val_main_call10_v0 : (⟨S50000x128, .f32⟩ : BufTy).Contents (Elt F) :=
  broadcastInDim S50000x128 ![] bcast_S_S50000x128 (val_main_call10_cst (F := F))
def val_main_v174 : (⟨S50000x128, .f32⟩ : BufTy).Contents (Elt F) :=
  maximumf (val_main_v173 (F := F) x0 x1 x3 x4 x5 x6 x7 x8) (val_main_call10_v0 (F := F))
def val_main_v175 : (⟨S1x128x128, .f32⟩ : BufTy).Contents (Elt F) :=
  extractStridedSlice S1x128x128 ![5, 0, 0] (x7) slices_S6x128x128_S1x128x128_5_0_0
def val_main_v176 : (⟨S128x128, .f32⟩ : BufTy).Contents (Elt F) :=
  shapeCast _ (val_main_v175 (F := F) x7) shapeCasts_S1x128x128_S128x128
def val_main_v177 : (⟨S50000x128, .f32⟩ : BufTy).Contents (Elt F) :=
  Host.dotGeneral dot_S50000x128_S128x128_S50000x128_1_0_0_1_n_n none (val_main_v174 (F := F) x0 x1 x3 x4 x5 x6 x7 x8) (val_main_v176 (F := F) x7)
def val_main_v178 : (⟨S1x128, .f32⟩ : BufTy).Contents (Elt F) :=
  extractStridedSlice S1x128 ![5, 0] (x8) slices_S6x128_S1x128_5_0
def val_main_v179 : (⟨S128, .f32⟩ : BufTy).Contents (Elt F) :=
  shapeCast _ (val_main_v178 (F := F) x8) shapeCasts_S1x128_S128
def val_main_v180 : (⟨S1x128, .f32⟩ : BufTy).Contents (Elt F) :=
  broadcastInDim S1x128 ![1] bcast_S128_S1x128_1 (val_main_v179 (F := F) x8)
def val_main_v181 : (⟨S50000x128, .f32⟩ : BufTy).Contents (Elt F) :=
  broadcastInDim S50000x128 ![0, 1] bcast_S1x128_S50000x128_0_1 (val_main_v180 (F := F) x8)
def val_main_v182 : (⟨S50000x128, .f32⟩ : BufTy).Contents (Elt F) :=
  addf (val_main_v177 (F := F) x0 x1 x3 x4 x5 x6 x7 x8) (val_main_v181 (F := F) x8)
def val_main_v183 : (⟨S50000x128, .f32⟩ : BufTy).Contents (Elt F) :=
  addf (val_main_v182 (F := F) x0 x1 x3 x4 x5 x6 x7 x8) (val_main_v124 (F := F) x0 x1 x3 x4 x5 x6 x7 x8)
def val_main_call11_cst : (⟨S_, .f32⟩ : BufTy).Contents (Elt F) :=
  constant S_ .f32 0x00000000#32
def val_main_call11_v0 : (⟨S50000x128, .f32⟩ : BufTy).Contents (Elt F) :=
  broadcastInDim S50000x128 ![] bcast_S_S50000x128 (val_main_call11_cst (F := F))
def val_main_v184 : (⟨S50000x128, .f32⟩ : BufTy).Contents (Elt F) :=
  maximumf (val_main_v183 (F := F) x0 x1 x3 x4 x5 x6 x7 x8) (val_main_call11_v0 (F := F))
def val_main_v185 : (⟨S50000x896, .f32⟩ : BufTy).Contents (Elt F) :=
  concatenate S50000x896 1 [⟨S50000x128, (val_main_v7 (F := F) x0 x3 x4)⟩, ⟨S50000x128, (val_main_v36 (F := F) x0 x1 x3 x4 x5 x6 x7 x8)⟩, ⟨S50000x128, (val_main_v66 (F := F) x0 x1 x3 x4 x5 x6 x7 x8)⟩, ⟨S50000x128, (val_main_v95 (F := F) x0 x1 x3 x4 x5 x6 x7 x8)⟩, ⟨S50000x128, (val_main_v125 (F := F) x0 x1 x3 x4 x5 x6 x7 x8)⟩, ⟨S50000x128, (val_main_v154 (F := F) x0 x1 x3 x4 x5 x6 x7 x8)⟩, ⟨S50000x128, (val_main_v184 (F := F) x0 x1 x3 x4 x5 x6 x7 x8)⟩] concatenates_S50000x128_S50000x128_S50000x128_S50000x128_S50000x128_S50000x128_S50000x128_S50000x896_d1
def val_main_cst_16 : (⟨S_, .f32⟩ : BufTy).Contents (Elt F) :=
  constant S_ .f32 0x00000000#32
theorem val_main_cst_16_apply (i : S_.Idx) :
    val_main_cst_16 (F := F) i = FloatOps.ofBits .f32 0x00000000#32 := rfl
def val_main_v186 : (⟨S128x896, .f32⟩ : BufTy).Contents (Elt F) :=
  broadcastInDim S128x896 ![] bcast_S_S128x896 (val_main_cst_16 (F := F))
abbrev idx_main_v186 (i : S128x896.Idx) : S_.Idx := fun a => a.elim0
theorem val_main_v186_apply (i : S128x896.Idx) :
    val_main_v186 (F := F) i = val_main_cst_16 (F := F) (idx_main_v186 i) := by
  unfold val_main_v186
  generalize val_main_cst_16 (F := F) = y
  exact broadcastInDim_apply _ bcast_S_S128x896 y i (idx_main_v186 i) (fun a => a.elim0)
def val_main_v187 : (⟨S50000x1, .i32⟩ : BufTy).Contents (Elt F) :=
  broadcastInDim S50000x1 ![0] bcast_S50000_S50000x1_0 (x2)
def val_main_v188 : (⟨S128x896, .f32⟩ : BufTy).Contents (Elt F) :=
  Host.scatterAdd scatter_S128x896_S50000x1_S50000x896_1_0_0_1 (val_main_v186 (F := F)) (val_main_v187 (F := F) x2) (val_main_v185 (F := F) x0 x1 x3 x4 x5 x6 x7 x8)
def val_main_v189 : (⟨S128x128, .f32⟩ : BufTy).Contents (Elt F) :=
  Host.dotGeneral dot_S128x896_S896x128_S128x128_1_0_0_1_n_n none (val_main_v188 (F := F) x0 x1 x2 x3 x4 x5 x6 x7 x8) (x9)
theorem lhs_main_v189_0 (i : S128x128.Idx) (q : dot_S128x896_S896x128_S128x128_1_0_0_1_n_n.contr.Idx) :
    (dot_S128x896_S896x128_S128x128_1_0_0_1_n_n.lhsIdx i q 0).val = (i 0).val := by
  unfold DotDims.lhsIdx
  rw [dif_neg (show ¬(0 : Fin S128x896.rank) ∈ dot_S128x896_S896x128_S128x128_1_0_0_1_n_n.lhsBatch by decide), dif_pos (show (0 : Fin S128x896.rank) ∈ dot_S128x896_S896x128_S128x128_1_0_0_1_n_n.lhsNonContracting by decide)]
  rfl
theorem lhs_main_v189_1 (i : S128x128.Idx) (q : dot_S128x896_S896x128_S128x128_1_0_0_1_n_n.contr.Idx) :
    (dot_S128x896_S896x128_S128x128_1_0_0_1_n_n.lhsIdx i q 1).val = (q ⟨0, by decide⟩).val :=
  dot_S128x896_S896x128_S128x128_1_0_0_1_n_n.lhsIdx_val_of_single rfl i q
theorem rhs_main_v189_0 (i : S128x128.Idx) (q : dot_S128x896_S896x128_S128x128_1_0_0_1_n_n.contr.Idx) :
    (dot_S128x896_S896x128_S128x128_1_0_0_1_n_n.rhsIdx i q 0).val = (q ⟨0, by decide⟩).val :=
  dot_S128x896_S896x128_S128x128_1_0_0_1_n_n.rhsIdx_val_of_single rfl i q
theorem rhs_main_v189_1 (i : S128x128.Idx) (q : dot_S128x896_S896x128_S128x128_1_0_0_1_n_n.contr.Idx) :
    (dot_S128x896_S896x128_S128x128_1_0_0_1_n_n.rhsIdx i q 1).val = (i 1).val := by
  unfold DotDims.rhsIdx
  rw [dif_neg (show ¬(1 : Fin S896x128.rank) ∈ dot_S128x896_S896x128_S128x128_1_0_0_1_n_n.rhsBatch by decide), dif_pos (show (1 : Fin S896x128.rank) ∈ dot_S128x896_S896x128_S128x128_1_0_0_1_n_n.rhsNonContracting by decide)]
  rfl
abbrev lidx_main_v189 (i : S128x128.Idx) (k : Fin 896) : S128x896.Idx := fun a => match a with
  | ⟨0, _⟩ => ⟨(i 0).val, (i 0).isLt⟩
  | ⟨1, _⟩ => ⟨k.val, k.isLt⟩
abbrev ridx_main_v189 (i : S128x128.Idx) (k : Fin 896) : S896x128.Idx := fun a => match a with
  | ⟨0, _⟩ => ⟨k.val, k.isLt⟩
  | ⟨1, _⟩ => ⟨(i 1).val, (i 1).isLt⟩
theorem val_main_v189_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S6x128x128, .f32⟩ : BufTy).Contents (Elt Ideal)) (x6 : (⟨S6x128, .f32⟩ : BufTy).Contents (Elt Ideal)) (x7 : (⟨S6x128x128, .f32⟩ : BufTy).Contents (Elt Ideal)) (x8 : (⟨S6x128, .f32⟩ : BufTy).Contents (Elt Ideal)) (x9 : (⟨S896x128, .f32⟩ : BufTy).Contents (Elt Ideal)) (i : S128x128.Idx) :
    val_main_v189 (F := Ideal) x0 x1 x2 x3 x4 x5 x6 x7 x8 x9 i = ∑ k : Fin 896, (val_main_v188 (F := Ideal) x0 x1 x2 x3 x4 x5 x6 x7 x8) (lidx_main_v189 i k) * x9 (ridx_main_v189 i k) := by
  unfold val_main_v189
  generalize val_main_v188 (F := Ideal) x0 x1 x2 x3 x4 x5 x6 x7 x8 = y0
  simp only [Host.dotGeneral]
  rw [Ideal.dotGeneral_apply, ← Equiv.sum_comp (ValueIdx.contrEquiv1 dot_S128x896_S896x128_S128x128_1_0_0_1_n_n 896 rfl rfl).symm]
  refine Finset.sum_congr rfl fun k _ => ?_
  have hk := ValueIdx.contrEquiv1_symm_val dot_S128x896_S896x128_S128x128_1_0_0_1_n_n 896 rfl rfl k
  have el : dot_S128x896_S896x128_S128x128_1_0_0_1_n_n.lhsIdx i ((ValueIdx.contrEquiv1 dot_S128x896_S896x128_S128x128_1_0_0_1_n_n 896 rfl rfl).symm k) = lidx_main_v189 i k := funext fun a => Fin.ext (by
    match a with
    | ⟨0, _⟩ => exact lhs_main_v189_0 _ _
    | ⟨1, _⟩ => exact (lhs_main_v189_1 _ _).trans hk)
  have er : dot_S128x896_S896x128_S128x128_1_0_0_1_n_n.rhsIdx i ((ValueIdx.contrEquiv1 dot_S128x896_S896x128_S128x128_1_0_0_1_n_n 896 rfl rfl).symm k) = ridx_main_v189 i k := funext fun a => Fin.ext (by
    match a with
    | ⟨0, _⟩ => exact (rhs_main_v189_0 _ _).trans hk
    | ⟨1, _⟩ => exact rhs_main_v189_1 _ _)
  rw [el, er]
def val_main_v190 : (⟨S1x128, .f32⟩ : BufTy).Contents (Elt F) :=
  broadcastInDim S1x128 ![1] bcast_S128_S1x128_1 (x10)
abbrev idx_main_v190 (i : S1x128.Idx) : S128.Idx := fun a => match a with
  | ⟨0, _⟩ => ⟨(i 1).val, (i 1).isLt⟩
theorem val_main_v190_apply (i : S1x128.Idx) :
    val_main_v190 (F := F) x10 i = x10 (idx_main_v190 i) := by
  unfold val_main_v190
  exact broadcastInDim_apply _ bcast_S128_S1x128_1 x10 i (idx_main_v190 i) (fun a => match a with
    | ⟨0, _⟩ => by show (i 1).val = if (128 : Nat) = 1 then 0 else (i 1).val; rw [if_neg (by decide)])
def val_main_v191 : (⟨S128x128, .f32⟩ : BufTy).Contents (Elt F) :=
  broadcastInDim S128x128 ![0, 1] bcast_S1x128_S128x128_0_1 (val_main_v190 (F := F) x10)
abbrev idx_main_v191 (i : S128x128.Idx) : S1x128.Idx := fun a => match a with
  | ⟨0, _⟩ => ⟨0, Nat.one_pos⟩
  | ⟨1, _⟩ => ⟨(i 1).val, (i 1).isLt⟩
theorem val_main_v191_apply (i : S128x128.Idx) :
    val_main_v191 (F := F) x10 i = val_main_v190 (F := F) x10 (idx_main_v191 i) := by
  unfold val_main_v191
  generalize val_main_v190 (F := F) x10 = y
  exact broadcastInDim_apply _ bcast_S1x128_S128x128_0_1 y i (idx_main_v191 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v192 : (⟨S128x128, .f32⟩ : BufTy).Contents (Elt F) :=
  addf (val_main_v189 (F := F) x0 x1 x2 x3 x4 x5 x6 x7 x8 x9) (val_main_v191 (F := F) x10)
theorem val_main_v192_apply (i : S128x128.Idx) :
    val_main_v192 (F := F) x0 x1 x2 x3 x4 x5 x6 x7 x8 x9 x10 i = FloatOps.addf (val_main_v189 (F := F) x0 x1 x2 x3 x4 x5 x6 x7 x8 x9 i) (val_main_v191 (F := F) x10 i) := rfl
def val_main_call12_cst : (⟨S_, .f32⟩ : BufTy).Contents (Elt F) :=
  constant S_ .f32 0x00000000#32
theorem val_main_call12_cst_apply (i : S_.Idx) :
    val_main_call12_cst (F := F) i = FloatOps.ofBits .f32 0x00000000#32 := rfl
def val_main_call12_v0 : (⟨S128x128, .f32⟩ : BufTy).Contents (Elt F) :=
  broadcastInDim S128x128 ![] bcast_S_S128x128 (val_main_call12_cst (F := F))
abbrev idx_main_call12_v0 (i : S128x128.Idx) : S_.Idx := fun a => a.elim0
theorem val_main_call12_v0_apply (i : S128x128.Idx) :
    val_main_call12_v0 (F := F) i = val_main_call12_cst (F := F) (idx_main_call12_v0 i) := by
  unfold val_main_call12_v0
  generalize val_main_call12_cst (F := F) = y
  exact broadcastInDim_apply _ bcast_S_S128x128 y i (idx_main_call12_v0 i) (fun a => a.elim0)
def val_main_v193 : (⟨S128x128, .f32⟩ : BufTy).Contents (Elt F) :=
  maximumf (val_main_v192 (F := F) x0 x1 x2 x3 x4 x5 x6 x7 x8 x9 x10) (val_main_call12_v0 (F := F))
theorem val_main_v193_apply (i : S128x128.Idx) :
    val_main_v193 (F := F) x0 x1 x2 x3 x4 x5 x6 x7 x8 x9 x10 i = FloatOps.maximumf (val_main_v192 (F := F) x0 x1 x2 x3 x4 x5 x6 x7 x8 x9 x10 i) (val_main_call12_v0 (F := F) i) := rfl
def val_main_v194 : (⟨S128x128, .f32⟩ : BufTy).Contents (Elt F) :=
  Host.dotGeneral dot_S128x128_S128x128_S128x128_1_0_0_1_n_n none (val_main_v193 (F := F) x0 x1 x2 x3 x4 x5 x6 x7 x8 x9 x10) (x11)
theorem lhs_main_v194_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_main_v194_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhs_main_v194_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhs_main_v194_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl
abbrev lidx_main_v194 (i : S128x128.Idx) (k : Fin 128) : S128x128.Idx := fun a => match a with
  | ⟨0, _⟩ => ⟨(i 0).val, (i 0).isLt⟩
  | ⟨1, _⟩ => ⟨k.val, k.isLt⟩
abbrev ridx_main_v194 (i : S128x128.Idx) (k : Fin 128) : S128x128.Idx := fun a => match a with
  | ⟨0, _⟩ => ⟨k.val, k.isLt⟩
  | ⟨1, _⟩ => ⟨(i 1).val, (i 1).isLt⟩
theorem val_main_v194_apply (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S6x128x128, .f32⟩ : BufTy).Contents (Elt Ideal)) (x6 : (⟨S6x128, .f32⟩ : BufTy).Contents (Elt Ideal)) (x7 : (⟨S6x128x128, .f32⟩ : BufTy).Contents (Elt Ideal)) (x8 : (⟨S6x128, .f32⟩ : BufTy).Contents (Elt Ideal)) (x9 : (⟨S896x128, .f32⟩ : BufTy).Contents (Elt Ideal)) (x10 : (⟨S128, .f32⟩ : BufTy).Contents (Elt Ideal)) (x11 : (⟨S128x128, .f32⟩ : BufTy).Contents (Elt Ideal)) (i : S128x128.Idx) :
    val_main_v194 (F := Ideal) x0 x1 x2 x3 x4 x5 x6 x7 x8 x9 x10 x11 i = ∑ k : Fin 128, (val_main_v193 (F := Ideal) x0 x1 x2 x3 x4 x5 x6 x7 x8 x9 x10) (lidx_main_v194 i k) * x11 (ridx_main_v194 i k) := by
  unfold val_main_v194
  generalize val_main_v193 (F := Ideal) x0 x1 x2 x3 x4 x5 x6 x7 x8 x9 x10 = y0
  simp only [Host.dotGeneral]
  rw [Ideal.dotGeneral_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx i ((ValueIdx.contrEquiv1 dot_S128x128_S128x128_S128x128_1_0_0_1_n_n 128 rfl rfl).symm k) = lidx_main_v194 i k := funext fun a => Fin.ext (by
    match a with
    | ⟨0, _⟩ => exact lhs_main_v194_0 _ _
    | ⟨1, _⟩ => exact (lhs_main_v194_1 _ _).trans hk)
  have er : dot_S128x128_S128x128_S128x128_1_0_0_1_n_n.rhsIdx i ((ValueIdx.contrEquiv1 dot_S128x128_S128x128_S128x128_1_0_0_1_n_n 128 rfl rfl).symm k) = ridx_main_v194 i k := funext fun a => Fin.ext (by
    match a with
    | ⟨0, _⟩ => exact (rhs_main_v194_0 _ _).trans hk
    | ⟨1, _⟩ => exact rhs_main_v194_1 _ _)
  rw [el, er]
def val_main_v195 : (⟨S1x128, .f32⟩ : BufTy).Contents (Elt F) :=
  broadcastInDim S1x128 ![1] bcast_S128_S1x128_1 (x12)
abbrev idx_main_v195 (i : S1x128.Idx) : S128.Idx := fun a => match a with
  | ⟨0, _⟩ => ⟨(i 1).val, (i 1).isLt⟩
theorem val_main_v195_apply (i : S1x128.Idx) :
    val_main_v195 (F := F) x12 i = x12 (idx_main_v195 i) := by
  unfold val_main_v195
  exact broadcastInDim_apply _ bcast_S128_S1x128_1 x12 i (idx_main_v195 i) (fun a => match a with
    | ⟨0, _⟩ => by show (i 1).val = if (128 : Nat) = 1 then 0 else (i 1).val; rw [if_neg (by decide)])
def val_main_v196 : (⟨S128x128, .f32⟩ : BufTy).Contents (Elt F) :=
  broadcastInDim S128x128 ![0, 1] bcast_S1x128_S128x128_0_1 (val_main_v195 (F := F) x12)
abbrev idx_main_v196 (i : S128x128.Idx) : S1x128.Idx := fun a => match a with
  | ⟨0, _⟩ => ⟨0, Nat.one_pos⟩
  | ⟨1, _⟩ => ⟨(i 1).val, (i 1).isLt⟩
theorem val_main_v196_apply (i : S128x128.Idx) :
    val_main_v196 (F := F) x12 i = val_main_v195 (F := F) x12 (idx_main_v196 i) := by
  unfold val_main_v196
  generalize val_main_v195 (F := F) x12 = y
  exact broadcastInDim_apply _ bcast_S1x128_S128x128_0_1 y i (idx_main_v196 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])
def val_main_v197 : (⟨S128x128, .f32⟩ : BufTy).Contents (Elt F) :=
  addf (val_main_v194 (F := F) x0 x1 x2 x3 x4 x5 x6 x7 x8 x9 x10 x11) (val_main_v196 (F := F) x12)
theorem val_main_v197_apply (i : S128x128.Idx) :
    val_main_v197 (F := F) x0 x1 x2 x3 x4 x5 x6 x7 x8 x9 x10 x11 x12 i = FloatOps.addf (val_main_v194 (F := F) x0 x1 x2 x3 x4 x5 x6 x7 x8 x9 x10 x11 i) (val_main_v196 (F := F) x12 i) := rfl
end Cert.ReferenceIdeal.ReadP

end
-- ==== Proof.RefRunS.lean ====
/-
  The reference program's run: its host operations in eight stretches (the first affine map, one per layer, the
  read-out), each carrying the arguments and the buffers later stretches read from one valuation to the next.
-/
import proofs.«431182_j60713657696761_1_alg».proof.Proof.Gen.ReferenceIdeal
import Idealize.ShloMosaic.Lib.StableHlo.Run
import Idealize.ShloMosaic.Lib.Pipeline.Frame
import proofs.«431182_j60713657696761_1_alg».proof.Proof.RefRead

noncomputable section

namespace Cert.ReferenceIdeal.RunS

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

macro "stretch_simp" "[" hs:Lean.Parser.Tactic.simpLemma,* "]" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', $hs,*])

abbrev ops0 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    binary main_arg0 main_arg3 main_v4 (fun l r => Host.dotGeneral dot_S50000x128_S128x128_S50000x128_1_0_0_1_n_n none l r),
    unary main_arg4 main_v5 (broadcastInDim S1x128 ![1] bcast_S128_S1x128_1),
    unary main_v5 main_v6 (broadcastInDim S50000x128 ![0, 1] bcast_S1x128_S50000x128_0_1),
    binary main_v4 main_v6 main_v7 addf ]
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub ..⟩
theorem ops0_fresh : ∀ op ∈ (ops0 : List (HloOp τ sig (Elt F))), op.fresh = ∅ := by
  intro _ h; (repeat (cases h with | head => rfl | tail _ h => ?_)); exact nomatch h

abbrev ops1 : List (HloOp τ sig (Elt F)) :=
  [ nullary main_c (constantI S_ 32 0#32),
    unary main_c main_v8 (broadcastInDim S800000 ![] bcast_S_S800000),
    binary main_v1 main_v8 main_v9 (cmpi .slt),
    nullary main_c_0 (constantI S_ 32 50000#32),
    unary main_c_0 main_v10 (broadcastInDim S800000 ![] bcast_S_S800000),
    binary main_v1 main_v10 main_v11 addi,
    ternary main_v9 main_v11 main_v1 main_v12 select,
    unary main_v12 main_v13 (broadcastInDim S800000x1 ![0] bcast_S800000_S800000x1_0),
    binary main_v7 main_v13 main_v14 (fun x i => Host.gather gather_S50000x128_S800000x1_S800000x128_1_0_n_n_0_1_1128 x i),
    nullary main_cst (constant S_ .f32 0x00000000#32),
    unary main_cst main_v15 (broadcastInDim S50000x128 ![] bcast_S_S50000x128),
    unary main_v3 main_v16 (broadcastInDim S800000x1 ![0] bcast_S800000_S800000x1_0),
    ternary main_v15 main_v16 main_v14 main_v17 (fun x i u => Host.scatterAdd scatter_S50000x128_S800000x1_S800000x128_1_0_0_1 x i u),
    binary main_v7 main_v17 main_v18 addf,
    unary main_arg5 main_v19 (extractStridedSlice S1x128x128 ![0, 0, 0] · slices_S6x128x128_S1x128x128_0_0_0),
    reshape main_v19 main_v20 rfl shapeCasts_S1x128x128_S128x128,
    binary main_v18 main_v20 main_v21 (fun l r => Host.dotGeneral dot_S50000x128_S128x128_S50000x128_1_0_0_1_n_n none l r),
    unary main_arg6 main_v22 (extractStridedSlice S1x128 ![0, 0] · slices_S6x128_S1x128_0_0),
    reshape main_v22 main_v23 rfl shapeCasts_S1x128_S128,
    unary main_v23 main_v24 (broadcastInDim S1x128 ![1] bcast_S128_S1x128_1),
    unary main_v24 main_v25 (broadcastInDim S50000x128 ![0, 1] bcast_S1x128_S50000x128_0_1),
    binary main_v21 main_v25 main_v26 addf,
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v26) (TRef.of (T := ⟨S50000x128, .f32⟩) main_call0_v0) (TRef.of (T := ⟨S50000x128, .f32⟩) main_v27) maximumf,
    unary main_arg7 main_v28 (extractStridedSlice S1x128x128 ![0, 0, 0] · slices_S6x128x128_S1x128x128_0_0_0),
    reshape main_v28 main_v29 rfl shapeCasts_S1x128x128_S128x128,
    binary main_v27 main_v29 main_v30 (fun l r => Host.dotGeneral dot_S50000x128_S128x128_S50000x128_1_0_0_1_n_n none l r),
    unary main_arg8 main_v31 (extractStridedSlice S1x128 ![0, 0] · slices_S6x128_S1x128_0_0),
    reshape main_v31 main_v32 rfl shapeCasts_S1x128_S128,
    unary main_v32 main_v33 (broadcastInDim S1x128 ![1] bcast_S128_S1x128_1),
    unary main_v33 main_v34 (broadcastInDim S50000x128 ![0, 1] bcast_S1x128_S50000x128_0_1),
    binary main_v30 main_v34 main_v35 addf,
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v35) (TRef.of (T := ⟨S50000x128, .f32⟩) main_call1_v0) (TRef.of (T := ⟨S50000x128, .f32⟩) main_v36) maximumf ]
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem ops1_fresh : ∀ op ∈ (ops1 : List (HloOp τ sig (Elt F))), op.fresh = ∅ := by
  intro _ h; (repeat (cases h with | head => rfl | tail _ h => ?_)); exact nomatch h

abbrev ops2 : List (HloOp τ sig (Elt F)) :=
  [ nullary main_c_1 (constantI S_ 32 0#32),
    unary main_c_1 main_v37 (broadcastInDim S800000 ![] bcast_S_S800000),
    binary main_v1 main_v37 main_v38 (cmpi .slt),
    nullary main_c_2 (constantI S_ 32 50000#32),
    unary main_c_2 main_v39 (broadcastInDim S800000 ![] bcast_S_S800000),
    binary main_v1 main_v39 main_v40 addi,
    ternary main_v38 main_v40 main_v1 main_v41 select,
    unary main_v41 main_v42 (broadcastInDim S800000x1 ![0] bcast_S800000_S800000x1_0),
    binary main_v36 main_v42 main_v43 (fun x i => Host.gather gather_S50000x128_S800000x1_S800000x128_1_0_n_n_0_1_1128 x i),
    nullary main_cst_3 (constant S_ .f32 0x00000000#32),
    unary main_cst_3 main_v44 (broadcastInDim S50000x128 ![] bcast_S_S50000x128),
    unary main_v3 main_v45 (broadcastInDim S800000x1 ![0] bcast_S800000_S800000x1_0),
    ternary main_v44 main_v45 main_v43 main_v46 (fun x i u => Host.scatterAdd scatter_S50000x128_S800000x1_S800000x128_1_0_0_1 x i u),
    binary main_v36 main_v46 main_v47 addf,
    unary main_arg5 main_v48 (extractStridedSlice S1x128x128 ![1, 0, 0] · slices_S6x128x128_S1x128x128_1_0_0),
    reshape main_v48 main_v49 rfl shapeCasts_S1x128x128_S128x128,
    binary main_v47 main_v49 main_v50 (fun l r => Host.dotGeneral dot_S50000x128_S128x128_S50000x128_1_0_0_1_n_n none l r),
    unary main_arg6 main_v51 (extractStridedSlice S1x128 ![1, 0] · slices_S6x128_S1x128_1_0),
    reshape main_v51 main_v52 rfl shapeCasts_S1x128_S128,
    unary main_v52 main_v53 (broadcastInDim S1x128 ![1] bcast_S128_S1x128_1),
    unary main_v53 main_v54 (broadcastInDim S50000x128 ![0, 1] bcast_S1x128_S50000x128_0_1),
    binary main_v50 main_v54 main_v55 addf,
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v55) (TRef.of (T := ⟨S50000x128, .f32⟩) main_call2_v0) (TRef.of (T := ⟨S50000x128, .f32⟩) main_v56) maximumf,
    unary main_arg7 main_v57 (extractStridedSlice S1x128x128 ![1, 0, 0] · slices_S6x128x128_S1x128x128_1_0_0),
    reshape main_v57 main_v58 rfl shapeCasts_S1x128x128_S128x128,
    binary main_v56 main_v58 main_v59 (fun l r => Host.dotGeneral dot_S50000x128_S128x128_S50000x128_1_0_0_1_n_n none l r),
    unary main_arg8 main_v60 (extractStridedSlice S1x128 ![1, 0] · slices_S6x128_S1x128_1_0),
    reshape main_v60 main_v61 rfl shapeCasts_S1x128_S128,
    unary main_v61 main_v62 (broadcastInDim S1x128 ![1] bcast_S128_S1x128_1),
    unary main_v62 main_v63 (broadcastInDim S50000x128 ![0, 1] bcast_S1x128_S50000x128_0_1),
    binary main_v59 main_v63 main_v64 addf,
    binary main_v64 main_v7 main_v65 addf,
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v65) (TRef.of (T := ⟨S50000x128, .f32⟩) main_call3_v0) (TRef.of (T := ⟨S50000x128, .f32⟩) main_v66) maximumf ]
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
theorem ops2_fresh : ∀ op ∈ (ops2 : List (HloOp τ sig (Elt F))), op.fresh = ∅ := by
  intro _ h; (repeat (cases h with | head => rfl | tail _ h => ?_)); exact nomatch h

abbrev ops3 : List (HloOp τ sig (Elt F)) :=
  [ nullary main_c_4 (constantI S_ 32 0#32),
    unary main_c_4 main_v67 (broadcastInDim S800000 ![] bcast_S_S800000),
    binary main_v1 main_v67 main_v68 (cmpi .slt),
    nullary main_c_5 (constantI S_ 32 50000#32),
    unary main_c_5 main_v69 (broadcastInDim S800000 ![] bcast_S_S800000),
    binary main_v1 main_v69 main_v70 addi,
    ternary main_v68 main_v70 main_v1 main_v71 select,
    unary main_v71 main_v72 (broadcastInDim S800000x1 ![0] bcast_S800000_S800000x1_0),
    binary main_v66 main_v72 main_v73 (fun x i => Host.gather gather_S50000x128_S800000x1_S800000x128_1_0_n_n_0_1_1128 x i),
    nullary main_cst_6 (constant S_ .f32 0x00000000#32),
    unary main_cst_6 main_v74 (broadcastInDim S50000x128 ![] bcast_S_S50000x128),
    unary main_v3 main_v75 (broadcastInDim S800000x1 ![0] bcast_S800000_S800000x1_0),
    ternary main_v74 main_v75 main_v73 main_v76 (fun x i u => Host.scatterAdd scatter_S50000x128_S800000x1_S800000x128_1_0_0_1 x i u),
    binary main_v66 main_v76 main_v77 addf,
    unary main_arg5 main_v78 (extractStridedSlice S1x128x128 ![2, 0, 0] · slices_S6x128x128_S1x128x128_2_0_0),
    reshape main_v78 main_v79 rfl shapeCasts_S1x128x128_S128x128,
    binary main_v77 main_v79 main_v80 (fun l r => Host.dotGeneral dot_S50000x128_S128x128_S50000x128_1_0_0_1_n_n none l r),
    unary main_arg6 main_v81 (extractStridedSlice S1x128 ![2, 0] · slices_S6x128_S1x128_2_0),
    reshape main_v81 main_v82 rfl shapeCasts_S1x128_S128,
    unary main_v82 main_v83 (broadcastInDim S1x128 ![1] bcast_S128_S1x128_1),
    unary main_v83 main_v84 (broadcastInDim S50000x128 ![0, 1] bcast_S1x128_S50000x128_0_1),
    binary main_v80 main_v84 main_v85 addf,
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v85) (TRef.of (T := ⟨S50000x128, .f32⟩) main_call4_v0) (TRef.of (T := ⟨S50000x128, .f32⟩) main_v86) maximumf,
    unary main_arg7 main_v87 (extractStridedSlice S1x128x128 ![2, 0, 0] · slices_S6x128x128_S1x128x128_2_0_0),
    reshape main_v87 main_v88 rfl shapeCasts_S1x128x128_S128x128,
    binary main_v86 main_v88 main_v89 (fun l r => Host.dotGeneral dot_S50000x128_S128x128_S50000x128_1_0_0_1_n_n none l r),
    unary main_arg8 main_v90 (extractStridedSlice S1x128 ![2, 0] · slices_S6x128_S1x128_2_0),
    reshape main_v90 main_v91 rfl shapeCasts_S1x128_S128,
    unary main_v91 main_v92 (broadcastInDim S1x128 ![1] bcast_S128_S1x128_1),
    unary main_v92 main_v93 (broadcastInDim S50000x128 ![0, 1] bcast_S1x128_S50000x128_0_1),
    binary main_v89 main_v93 main_v94 addf,
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v94) (TRef.of (T := ⟨S50000x128, .f32⟩) main_call5_v0) (TRef.of (T := ⟨S50000x128, .f32⟩) main_v95) maximumf ]
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem ops3_fresh : ∀ op ∈ (ops3 : List (HloOp τ sig (Elt F))), op.fresh = ∅ := by
  intro _ h; (repeat (cases h with | head => rfl | tail _ h => ?_)); exact nomatch h

abbrev ops4 : List (HloOp τ sig (Elt F)) :=
  [ nullary main_c_7 (constantI S_ 32 0#32),
    unary main_c_7 main_v96 (broadcastInDim S800000 ![] bcast_S_S800000),
    binary main_v1 main_v96 main_v97 (cmpi .slt),
    nullary main_c_8 (constantI S_ 32 50000#32),
    unary main_c_8 main_v98 (broadcastInDim S800000 ![] bcast_S_S800000),
    binary main_v1 main_v98 main_v99 addi,
    ternary main_v97 main_v99 main_v1 main_v100 select,
    unary main_v100 main_v101 (broadcastInDim S800000x1 ![0] bcast_S800000_S800000x1_0),
    binary main_v95 main_v101 main_v102 (fun x i => Host.gather gather_S50000x128_S800000x1_S800000x128_1_0_n_n_0_1_1128 x i),
    nullary main_cst_9 (constant S_ .f32 0x00000000#32),
    unary main_cst_9 main_v103 (broadcastInDim S50000x128 ![] bcast_S_S50000x128),
    unary main_v3 main_v104 (broadcastInDim S800000x1 ![0] bcast_S800000_S800000x1_0),
    ternary main_v103 main_v104 main_v102 main_v105 (fun x i u => Host.scatterAdd scatter_S50000x128_S800000x1_S800000x128_1_0_0_1 x i u),
    binary main_v95 main_v105 main_v106 addf,
    unary main_arg5 main_v107 (extractStridedSlice S1x128x128 ![3, 0, 0] · slices_S6x128x128_S1x128x128_3_0_0),
    reshape main_v107 main_v108 rfl shapeCasts_S1x128x128_S128x128,
    binary main_v106 main_v108 main_v109 (fun l r => Host.dotGeneral dot_S50000x128_S128x128_S50000x128_1_0_0_1_n_n none l r),
    unary main_arg6 main_v110 (extractStridedSlice S1x128 ![3, 0] · slices_S6x128_S1x128_3_0),
    reshape main_v110 main_v111 rfl shapeCasts_S1x128_S128,
    unary main_v111 main_v112 (broadcastInDim S1x128 ![1] bcast_S128_S1x128_1),
    unary main_v112 main_v113 (broadcastInDim S50000x128 ![0, 1] bcast_S1x128_S50000x128_0_1),
    binary main_v109 main_v113 main_v114 addf,
    TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v114) (TRef.of (T := ⟨S50000x128, .f32⟩) main_call6_v0) (TRef.of (T := ⟨S50000x128, .f32⟩) main_v115) maximumf,
    unary main_arg7 main_v116 (extractStridedSlice S1x128x128 ![3, 0, 0] · slices_S6x128x128_S1x128x128_3_0_0),
    reshape main_v116 main_v117 rfl shapeCasts_S1x128x128_S128x128,
    binary main_v115 main_v117 main_v118 (fun l r => Host.dotGeneral dot_S50000x128_S128x128_S50000x128_1_0_0_1_n_n none l r),
    unary main_arg8 main_v119 (extractStridedSlice S1x128 ![3, 0] · slices_S6x128_S1x128_3_0),
    reshape main_v119 main_v120 rfl shapeCasts_S1x128_S128,
    unary main_v120 main_v121 (broadcastInDim S1x128 ![1] bcast_S128_S1x128_1),
    unary main_v121 main_v122 (broadcastInDim S50000x128 ![0, 1] bcast_S1x128_S50000x128_0_1),
    binary main_v118 main_v122 main_v123 addf,
    binary main_v123 main_v65 main_v124 addf,
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v124) (TRef.of (T := ⟨S50000x128, .f32⟩) main_call7_v0) (TRef.of (T := ⟨S50000x128, .f32⟩) main_v125) maximumf ]
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
theorem ops4_fresh : ∀ op ∈ (ops4 : List (HloOp τ sig (Elt F))), op.fresh = ∅ := by
  intro _ h; (repeat (cases h with | head => rfl | tail _ h => ?_)); exact nomatch h

abbrev ops5 : List (HloOp τ sig (Elt F)) :=
  [ nullary main_c_10 (constantI S_ 32 0#32),
    unary main_c_10 main_v126 (broadcastInDim S800000 ![] bcast_S_S800000),
    binary main_v1 main_v126 main_v127 (cmpi .slt),
    nullary main_c_11 (constantI S_ 32 50000#32),
    unary main_c_11 main_v128 (broadcastInDim S800000 ![] bcast_S_S800000),
    binary main_v1 main_v128 main_v129 addi,
    ternary main_v127 main_v129 main_v1 main_v130 select,
    unary main_v130 main_v131 (broadcastInDim S800000x1 ![0] bcast_S800000_S800000x1_0),
    binary main_v125 main_v131 main_v132 (fun x i => Host.gather gather_S50000x128_S800000x1_S800000x128_1_0_n_n_0_1_1128 x i),
    nullary main_cst_12 (constant S_ .f32 0x00000000#32),
    unary main_cst_12 main_v133 (broadcastInDim S50000x128 ![] bcast_S_S50000x128),
    unary main_v3 main_v134 (broadcastInDim S800000x1 ![0] bcast_S800000_S800000x1_0),
    ternary main_v133 main_v134 main_v132 main_v135 (fun x i u => Host.scatterAdd scatter_S50000x128_S800000x1_S800000x128_1_0_0_1 x i u),
    binary main_v125 main_v135 main_v136 addf,
    unary main_arg5 main_v137 (extractStridedSlice S1x128x128 ![4, 0, 0] · slices_S6x128x128_S1x128x128_4_0_0),
    reshape main_v137 main_v138 rfl shapeCasts_S1x128x128_S128x128,
    binary main_v136 main_v138 main_v139 (fun l r => Host.dotGeneral dot_S50000x128_S128x128_S50000x128_1_0_0_1_n_n none l r),
    unary main_arg6 main_v140 (extractStridedSlice S1x128 ![4, 0] · slices_S6x128_S1x128_4_0),
    reshape main_v140 main_v141 rfl shapeCasts_S1x128_S128,
    unary main_v141 main_v142 (broadcastInDim S1x128 ![1] bcast_S128_S1x128_1),
    unary main_v142 main_v143 (broadcastInDim S50000x128 ![0, 1] bcast_S1x128_S50000x128_0_1),
    binary main_v139 main_v143 main_v144 addf,
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v144) (TRef.of (T := ⟨S50000x128, .f32⟩) main_call8_v0) (TRef.of (T := ⟨S50000x128, .f32⟩) main_v145) maximumf,
    unary main_arg7 main_v146 (extractStridedSlice S1x128x128 ![4, 0, 0] · slices_S6x128x128_S1x128x128_4_0_0),
    reshape main_v146 main_v147 rfl shapeCasts_S1x128x128_S128x128,
    binary main_v145 main_v147 main_v148 (fun l r => Host.dotGeneral dot_S50000x128_S128x128_S50000x128_1_0_0_1_n_n none l r),
    unary main_arg8 main_v149 (extractStridedSlice S1x128 ![4, 0] · slices_S6x128_S1x128_4_0),
    reshape main_v149 main_v150 rfl shapeCasts_S1x128_S128,
    unary main_v150 main_v151 (broadcastInDim S1x128 ![1] bcast_S128_S1x128_1),
    unary main_v151 main_v152 (broadcastInDim S50000x128 ![0, 1] bcast_S1x128_S50000x128_0_1),
    binary main_v148 main_v152 main_v153 addf,
    TRef.nullary (TRef.of (T := ⟨S_, .f32⟩) main_call9_cst) (constant S_ .f32 0x00000000#32),
    TRef.unary (TRef.of (T := ⟨S_, .f32⟩) main_call9_cst) (TRef.of (T := ⟨S50000x128, .f32⟩) main_call9_v0) (broadcastInDim S50000x128 ![] bcast_S_S50000x128),
    TRef.binary (TRef.of (T := ⟨S50000x128, .f32⟩) main_v153) (TRef.of (T := ⟨S50000x128, .f32⟩) main_call9_v0) (TRef.of (T := ⟨S50000x128, .f32⟩) main_v154) maximumf ]
theorem ops5_sub : (ops5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩
theorem ops5_fresh : ∀ op ∈ (ops5 : List (HloOp τ sig (Elt F))), op.fresh = ∅ := by
  intro _ h; (repeat (cases h with | head => rfl | tail _ h => ?_)); exact nomatch h

abbrev ops6 : List (HloOp τ sig (Elt F)) :=
  [ nullary main_c_13 (constantI S_ 32 0#32),
    unary main_c_13 main_v155 (broadcastInDim S800000 ![] bcast_S_S800000),
    binary main_v1 main_v155 main_v156 (cmpi .slt),
    nullary main_c_14 (constantI S_ 32 50000#32),
    unary main_c_14 main_v157 (broadcastInDim S800000 ![] bcast_S_S800000),
    binary main_v1 main_v157 main_v158 addi,
    ternary main_v156 main_v158 main_v1 main_v159 select,
    unary main_v159 main_v160 (broadcastInDim S800000x1 ![0] bcast_S800000_S800000x1_0),
    binary main_v154 main_v160 main_v161 (fun x i => Host.gather gather_S50000x128_S800000x1_S800000x128_1_0_n_n_0_1_1128 x i),
    nullary main_cst_15 (constant S_ .f32 0x00000000#32),
    unary main_cst_15 main_v162 (broadcastInDim S50000x128 ![] bcast_S_S50000x128),
    unary main_v3 main_v163 (broadcastInDim S800000x1 ![0] bcast_S800000_S800000x1_0),
    ternary main_v162 main_v163 main_v161 main_v164 (fun x i u => Host.scatterAdd scatter_S50000x128_S800000x1_S800000x128_1_0_0_1 x i u),
    binary main_v154 main_v164 main_v165 addf,
    unary main_arg5 main_v166 (extractStridedSlice S1x128x128 ![5, 0, 0] · slices_S6x128x128_S1x128x128_5_0_0),
    reshape main_v166 main_v167 rfl shapeCasts_S1x128x128_S128x128,
    binary main_v165 main_v167 main_v168 (fun l r => Host.dotGeneral dot_S50000x128_S128x128_S50000x128_1_0_0_1_n_n none l r),
    unary main_arg6 main_v169 (extractStridedSlice S1x128 ![5, 0] · slices_S6x128_S1x128_5_0),
    reshape main_v169 main_v170 rfl shapeCasts_S1x128_S128,
    unary main_v170 main_v171 (broadcastInDim S1x128 ![1] bcast_S128_S1x128_1),
    unary main_v171 main_v172 (broadcastInDim S50000x128 ![0, 1] bcast_S1x128_S50000x128_0_1),
    binary main_v168 main_v172 main_v173 addf,
    TRef.nullary (TRef.of (T := ⟨S_, .f32⟩) main_call10_cst) (constant S_ .f32 0x00000000#32),
    TRef.unary (TRef.of (T := ⟨S_, .f32⟩) main_call10_cst) (TRef.of (T := ⟨S50000x128, .f32⟩) main_call10_v0) (broadcastInDim S50000x128 ![] bcast_S_S50000x128),
    TRef.binary (TRef.of (T := ⟨S50000x128, .f32⟩) main_v173) (TRef.of (T := ⟨S50000x128, .f32⟩) main_call10_v0) (TRef.of (T := ⟨S50000x128, .f32⟩) main_v174) maximumf,
    unary main_arg7 main_v175 (extractStridedSlice S1x128x128 ![5, 0, 0] · slices_S6x128x128_S1x128x128_5_0_0),
    reshape main_v175 main_v176 rfl shapeCasts_S1x128x128_S128x128,
    binary main_v174 main_v176 main_v177 (fun l r => Host.dotGeneral dot_S50000x128_S128x128_S50000x128_1_0_0_1_n_n none l r),
    unary main_arg8 main_v178 (extractStridedSlice S1x128 ![5, 0] · slices_S6x128_S1x128_5_0),
    reshape main_v178 main_v179 rfl shapeCasts_S1x128_S128,
    unary main_v179 main_v180 (broadcastInDim S1x128 ![1] bcast_S128_S1x128_1),
    unary main_v180 main_v181 (broadcastInDim S50000x128 ![0, 1] bcast_S1x128_S50000x128_0_1),
    binary main_v177 main_v181 main_v182 addf,
    binary main_v182 main_v124 main_v183 addf,
    TRef.nullary (TRef.of (T := ⟨S_, .f32⟩) main_call11_cst) (constant S_ .f32 0x00000000#32),
    TRef.unary (TRef.of (T := ⟨S_, .f32⟩) main_call11_cst) (TRef.of (T := ⟨S50000x128, .f32⟩) main_call11_v0) (broadcastInDim S50000x128 ![] bcast_S_S50000x128),
    TRef.binary (TRef.of (T := ⟨S50000x128, .f32⟩) main_v183) (TRef.of (T := ⟨S50000x128, .f32⟩) main_call11_v0) (TRef.of (T := ⟨S50000x128, .f32⟩) main_v184) maximumf ]
theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., nullary_bufs_sub .., unary_bufs_sub .., binary_bufs_sub ..⟩
theorem ops6_fresh : ∀ op ∈ (ops6 : List (HloOp τ sig (Elt F))), op.fresh = ∅ := by
  intro _ h; (repeat (cases h with | head => rfl | tail _ h => ?_)); exact nomatch h

abbrev ops7 : List (HloOp τ sig (Elt F)) :=
  [ nary ![main_v7, main_v36, main_v66, main_v95, main_v125, main_v154, main_v184] main_v185 (fun u => concatenate S50000x896 1 [⟨S50000x128, u 0⟩, ⟨S50000x128, u 1⟩, ⟨S50000x128, u 2⟩, ⟨S50000x128, u 3⟩, ⟨S50000x128, u 4⟩, ⟨S50000x128, u 5⟩, ⟨S50000x128, u 6⟩] concatenates_S50000x128_S50000x128_S50000x128_S50000x128_S50000x128_S50000x128_S50000x128_S50000x896_d1),
    nullary main_cst_16 (constant S_ .f32 0x00000000#32),
    unary main_cst_16 main_v186 (broadcastInDim S128x896 ![] bcast_S_S128x896),
    unary main_arg2 main_v187 (broadcastInDim S50000x1 ![0] bcast_S50000_S50000x1_0),
    ternary main_v186 main_v187 main_v185 main_v188 (fun x i u => Host.scatterAdd scatter_S128x896_S50000x1_S50000x896_1_0_0_1 x i u),
    binary main_v188 main_arg9 main_v189 (fun l r => Host.dotGeneral dot_S128x896_S896x128_S128x128_1_0_0_1_n_n none l r),
    unary main_arg10 main_v190 (broadcastInDim S1x128 ![1] bcast_S128_S1x128_1),
    unary main_v190 main_v191 (broadcastInDim S128x128 ![0, 1] bcast_S1x128_S128x128_0_1),
    binary main_v189 main_v191 main_v192 addf,
    TRef.nullary (TRef.of (T := ⟨S_, .f32⟩) main_call12_cst) (constant S_ .f32 0x00000000#32),
    TRef.unary (TRef.of (T := ⟨S_, .f32⟩) main_call12_cst) (TRef.of (T := ⟨S128x128, .f32⟩) main_call12_v0) (broadcastInDim S128x128 ![] bcast_S_S128x128),
    TRef.binary (TRef.of (T := ⟨S128x128, .f32⟩) main_v192) (TRef.of (T := ⟨S128x128, .f32⟩) main_call12_v0) (TRef.of (T := ⟨S128x128, .f32⟩) main_v193) maximumf,
    binary main_v193 main_arg11 main_v194 (fun l r => Host.dotGeneral dot_S128x128_S128x128_S128x128_1_0_0_1_n_n none l r),
    unary main_arg12 main_v195 (broadcastInDim S1x128 ![1] bcast_S128_S1x128_1),
    unary main_v195 main_v196 (broadcastInDim S128x128 ![0, 1] bcast_S1x128_S128x128_0_1),
    binary main_v194 main_v196 main_v197 addf ]
theorem ops7_sub : (ops7 : List (HloOp τ sig (Elt F))).Forall fun op => op.bufs ⊆ tcRefs τ sig :=
  ⟨nary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops7_fresh : ∀ op ∈ (ops7 : List (HloOp τ sig (Elt F))), op.fresh = ∅ := by
  intro _ h; (repeat (cases h with | head => rfl | tail _ h => ?_)); exact nomatch h

abbrev ops : List (HloOp τ sig (Elt F)) := ops0 ++ (ops1 ++ (ops2 ++ (ops3 ++ (ops4 ++ (ops5 ++ (ops6 ++ ops7))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun a ha => (List.mem_append.mp ha).elim
    (List.forall_iff_forall_mem.mp h₁ a) (List.forall_iff_forall_mem.mp h₂ a)

theorem mem_append_all {α : Type} {p : α → Prop} {l₁ l₂ : List α} (h₁ : ∀ a ∈ l₁, p a) (h₂ : ∀ a ∈ l₂, p a) : ∀ a ∈ l₁ ++ l₂, p a :=
  fun a ha => (List.mem_append.mp ha).elim (h₁ a) (h₂ a)

theorem ops_sub : (ops : List (HloOp τ sig (Elt F))).Forall fun op => op.bufs ⊆ tcRefs τ sig :=
  forall_append ops0_sub (forall_append ops1_sub (forall_append ops2_sub (forall_append ops3_sub (forall_append ops4_sub
    (forall_append ops5_sub (forall_append ops6_sub ops7_sub))))))

theorem ops_fresh : ∀ op ∈ (ops : List (HloOp τ sig (Elt F))), op.fresh = ∅ :=
  mem_append_all ops0_fresh (mem_append_all ops1_fresh (mem_append_all ops2_fresh (mem_append_all ops3_fresh (mem_append_all ops4_fresh
    (mem_append_all ops5_fresh (mem_append_all ops6_fresh ops7_fresh))))))

section Stretches

variable (V : Valuation τ sig (Elt F))
  (x0 : (⟨S50000x128, .f32⟩ : BufTy).Contents (Elt F)) (x1 : (⟨S2x800000, .i32⟩ : BufTy).Contents (Elt F)) (x2 : (⟨S50000, .i32⟩ : BufTy).Contents (Elt F)) (x3 : (⟨S128x128, .f32⟩ : BufTy).Contents (Elt F)) (x4 : (⟨S128, .f32⟩ : BufTy).Contents (Elt F))
  (x5 : (⟨S6x128x128, .f32⟩ : BufTy).Contents (Elt F)) (x6 : (⟨S6x128, .f32⟩ : BufTy).Contents (Elt F)) (x7 : (⟨S6x128x128, .f32⟩ : BufTy).Contents (Elt F)) (x8 : (⟨S6x128, .f32⟩ : BufTy).Contents (Elt F))
  (x9 : (⟨S896x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F))

/-- The arguments hold their launch contents. -/
structure Args : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5
  arg6 : V (Proc.devRef .tc main_arg6) = x6
  arg7 : V (Proc.devRef .tc main_arg7) = x7
  arg8 : V (Proc.devRef .tc main_arg8) = x8
  arg9 : V (Proc.devRef .tc main_arg9) = x9
  arg10 : V (Proc.devRef .tc main_arg10) = x10
  arg11 : V (Proc.devRef .tc main_arg11) = x11
  arg12 : V (Proc.devRef .tc main_arg12) = x12

/-- After the first affine map: the edge lists and the first feature array. -/
structure At1 : Prop extends Args V x0 x1 x2 x3 x4 x5 x6 x7 x8 x9 x10 x11 x12 where
  v1 : V (Proc.devRef .tc main_v1) = val_main_v1 (F := F) x1
  v3 : V (Proc.devRef .tc main_v3) = val_main_v3 (F := F) x1
  v7 : V (Proc.devRef .tc main_v7) = val_main_v7 (F := F) x0 x3 x4

/-- After each layer: what the earlier stretches left, and the layer's feature array (with the carried array, where the layer renews it). -/
structure At2 : Prop extends At1 V x0 x1 x2 x3 x4 x5 x6 x7 x8 x9 x10 x11 x12 where
  v36 : V (Proc.devRef .tc main_v36) = val_main_v36 (F := F) x0 x1 x3 x4 x5 x6 x7 x8
structure At3 : Prop extends At2 V x0 x1 x2 x3 x4 x5 x6 x7 x8 x9 x10 x11 x12 where
  v65 : V (Proc.devRef .tc main_v65) = val_main_v65 (F := F) x0 x1 x3 x4 x5 x6 x7 x8
  v66 : V (Proc.devRef .tc main_v66) = val_main_v66 (F := F) x0 x1 x3 x4 x5 x6 x7 x8
structure At4 : Prop extends At3 V x0 x1 x2 x3 x4 x5 x6 x7 x8 x9 x10 x11 x12 where
  v95 : V (Proc.devRef .tc main_v95) = val_main_v95 (F := F) x0 x1 x3 x4 x5 x6 x7 x8
structure At5 : Prop extends At4 V x0 x1 x2 x3 x4 x5 x6 x7 x8 x9 x10 x11 x12 where
  v124 : V (Proc.devRef .tc main_v124) = val_main_v124 (F := F) x0 x1 x3 x4 x5 x6 x7 x8
  v125 : V (Proc.devRef .tc main_v125) = val_main_v125 (F := F) x0 x1 x3 x4 x5 x6 x7 x8
structure At6 : Prop extends At5 V x0 x1 x2 x3 x4 x5 x6 x7 x8 x9 x10 x11 x12 where
  v154 : V (Proc.devRef .tc main_v154) = val_main_v154 (F := F) x0 x1 x3 x4 x5 x6 x7 x8

/-- Before the read-out: the seven feature arrays. -/
structure At7 : Prop extends Args V x0 x1 x2 x3 x4 x5 x6 x7 x8 x9 x10 x11 x12 where
  v7 : V (Proc.devRef .tc main_v7) = val_main_v7 (F := F) x0 x3 x4
  v36 : V (Proc.devRef .tc main_v36) = val_main_v36 (F := F) x0 x1 x3 x4 x5 x6 x7 x8
  v66 : V (Proc.devRef .tc main_v66) = val_main_v66 (F := F) x0 x1 x3 x4 x5 x6 x7 x8
  v95 : V (Proc.devRef .tc main_v95) = val_main_v95 (F := F) x0 x1 x3 x4 x5 x6 x7 x8
  v125 : V (Proc.devRef .tc main_v125) = val_main_v125 (F := F) x0 x1 x3 x4 x5 x6 x7 x8
  v154 : V (Proc.devRef .tc main_v154) = val_main_v154 (F := F) x0 x1 x3 x4 x5 x6 x7 x8
  v184 : V (Proc.devRef .tc main_v184) = val_main_v184 (F := F) x0 x1 x3 x4 x5 x6 x7 x8

structure At8 : Prop extends Args V x0 x1 x2 x3 x4 x5 x6 x7 x8 x9 x10 x11 x12 where
  v197 : V (Proc.devRef .tc main_v197) = val_main_v197 (F := F) x0 x1 x2 x3 x4 x5 x6 x7 x8 x9 x10 x11 x12

set_option maxHeartbeats 4000000 in
theorem step0 (I : Args V x0 x1 x2 x3 x4 x5 x6 x7 x8 x9 x10 x11 x12) : At1 (after ops0 V) x0 x1 x2 x3 x4 x5 x6 x7 x8 x9 x10 x11 x12 := by
  refine ⟨⟨?_, ?_, ?_, ?_, ?_, ?_, ?_, ?_, ?_, ?_, ?_, ?_, ?_⟩, ?_, ?_, ?_⟩ <;>
    stretch_simp [I.arg0, I.arg1, I.arg2, I.arg3, I.arg4, I.arg5, I.arg6, I.arg7, I.arg8, I.arg9, I.arg10, I.arg11, I.arg12] <;> rfl

set_option maxHeartbeats 4000000 in
theorem step1 (I : At1 V x0 x1 x2 x3 x4 x5 x6 x7 x8 x9 x10 x11 x12) : At2 (after ops1 V) x0 x1 x2 x3 x4 x5 x6 x7 x8 x9 x10 x11 x12 := by
  refine ⟨⟨⟨?_, ?_, ?_, ?_, ?_, ?_, ?_, ?_, ?_, ?_, ?_, ?_, ?_⟩, ?_, ?_, ?_⟩, ?_⟩ <;>
    stretch_simp [I.arg0, I.arg1, I.arg2, I.arg3, I.arg4, I.arg5, I.arg6, I.arg7, I.arg8, I.arg9, I.arg10, I.arg11, I.arg12, I.v1, I.v3, I.v7] <;> rfl

set_option maxHeartbeats 4000000 in
theorem step2 (I : At2 V x0 x1 x2 x3 x4 x5 x6 x7 x8 x9 x10 x11 x12) : At3 (after ops2 V) x0 x1 x2 x3 x4 x5 x6 x7 x8 x9 x10 x11 x12 := by
  refine ⟨⟨⟨⟨?_, ?_, ?_, ?_, ?_, ?_, ?_, ?_, ?_, ?_, ?_, ?_, ?_⟩, ?_, ?_, ?_⟩, ?_⟩, ?_, ?_⟩ <;>
    stretch_simp [I.arg0, I.arg1, I.arg2, I.arg3, I.arg4, I.arg5, I.arg6, I.arg7, I.arg8, I.arg9, I.arg10, I.arg11, I.arg12, I.v1, I.v3, I.v7, I.v36] <;> rfl

set_option maxHeartbeats 4000000 in
theorem step3 (I : At3 V x0 x1 x2 x3 x4 x5 x6 x7 x8 x9 x10 x11 x12) : At4 (after ops3 V) x0 x1 x2 x3 x4 x5 x6 x7 x8 x9 x10 x11 x12 := by
  refine ⟨⟨⟨⟨⟨?_, ?_, ?_, ?_, ?_, ?_, ?_, ?_, ?_, ?_, ?_, ?_, ?_⟩, ?_, ?_, ?_⟩, ?_⟩, ?_, ?_⟩, ?_⟩ <;>
    stretch_simp [I.arg0, I.arg1, I.arg2, I.arg3, I.arg4, I.arg5, I.arg6, I.arg7, I.arg8, I.arg9, I.arg10, I.arg11, I.arg12, I.v1, I.v3, I.v7, I.v36, I.v65, I.v66] <;> rfl

set_option maxHeartbeats 4000000 in
theorem step4 (I : At4 V x0 x1 x2 x3 x4 x5 x6 x7 x8 x9 x10 x11 x12) : At5 (after ops4 V) x0 x1 x2 x3 x4 x5 x6 x7 x8 x9 x10 x11 x12 := by
  refine ⟨⟨⟨⟨⟨⟨?_, ?_, ?_, ?_, ?_, ?_, ?_, ?_, ?_, ?_, ?_, ?_, ?_⟩, ?_, ?_, ?_⟩, ?_⟩, ?_, ?_⟩, ?_⟩, ?_, ?_⟩ <;>
    stretch_simp [I.arg0, I.arg1, I.arg2, I.arg3, I.arg4, I.arg5, I.arg6, I.arg7, I.arg8, I.arg9, I.arg10, I.arg11, I.arg12, I.v1, I.v3, I.v7, I.v36, I.v65, I.v66, I.v95] <;> rfl

set_option maxHeartbeats 4000000 in
theorem step5 (I : At5 V x0 x1 x2 x3 x4 x5 x6 x7 x8 x9 x10 x11 x12) : At6 (after ops5 V) x0 x1 x2 x3 x4 x5 x6 x7 x8 x9 x10 x11 x12 := by
  refine ⟨⟨⟨⟨⟨⟨⟨?_, ?_, ?_, ?_, ?_, ?_, ?_, ?_, ?_, ?_, ?_, ?_, ?_⟩, ?_, ?_, ?_⟩, ?_⟩, ?_, ?_⟩, ?_⟩, ?_, ?_⟩, ?_⟩ <;>
    stretch_simp [I.arg0, I.arg1, I.arg2, I.arg3, I.arg4, I.arg5, I.arg6, I.arg7, I.arg8, I.arg9, I.arg10, I.arg11, I.arg12, I.v1, I.v3, I.v7, I.v36, I.v65, I.v66, I.v95, I.v124, I.v125] <;> rfl

set_option maxHeartbeats 4000000 in
theorem step6 (I : At6 V x0 x1 x2 x3 x4 x5 x6 x7 x8 x9 x10 x11 x12) : At7 (after ops6 V) x0 x1 x2 x3 x4 x5 x6 x7 x8 x9 x10 x11 x12 := by
  refine ⟨⟨?_, ?_, ?_, ?_, ?_, ?_, ?_, ?_, ?_, ?_, ?_, ?_, ?_⟩, ?_, ?_, ?_, ?_, ?_, ?_, ?_⟩ <;>
    stretch_simp [I.arg0, I.arg1, I.arg2, I.arg3, I.arg4, I.arg5, I.arg6, I.arg7, I.arg8, I.arg9, I.arg10, I.arg11, I.arg12, I.v1, I.v3, I.v7, I.v36, I.v65, I.v66, I.v95, I.v124, I.v125, I.v154] <;> rfl

set_option maxHeartbeats 4000000 in
theorem step7 (I : At7 V x0 x1 x2 x3 x4 x5 x6 x7 x8 x9 x10 x11 x12) : At8 (after ops7 V) x0 x1 x2 x3 x4 x5 x6 x7 x8 x9 x10 x11 x12 := by
  refine ⟨⟨?_, ?_, ?_, ?_, ?_, ?_, ?_, ?_, ?_, ?_, ?_, ?_, ?_⟩, ?_⟩ <;>
    stretch_simp [I.arg0, I.arg1, I.arg2, I.arg3, I.arg4, I.arg5, I.arg6, I.arg7, I.arg8, I.arg9, I.arg10, I.arg11, I.arg12, I.v7, I.v36, I.v66, I.v95, I.v125, I.v154, I.v184]
  have e0 : V (Proc.devRef .tc ((![main_v7, main_v36, main_v66, main_v95, main_v125, main_v154, main_v184] : Fin 7 → Ref sig .tc) 0)) = _ := I.v7
  have e1 : V (Proc.devRef .tc ((![main_v7, main_v36, main_v66, main_v95, main_v125, main_v154, main_v184] : Fin 7 → Ref sig .tc) 1)) = _ := I.v36
  have e2 : V (Proc.devRef .tc ((![main_v7, main_v36, main_v66, main_v95, main_v125, main_v154, main_v184] : Fin 7 → Ref sig .tc) 2)) = _ := I.v66
  have e3 : V (Proc.devRef .tc ((![main_v7, main_v36, main_v66, main_v95, main_v125, main_v154, main_v184] : Fin 7 → Ref sig .tc) 3)) = _ := I.v95
  have e4 : V (Proc.devRef .tc ((![main_v7, main_v36, main_v66, main_v95, main_v125, main_v154, main_v184] : Fin 7 → Ref sig .tc) 4)) = _ := I.v125
  have e5 : V (Proc.devRef .tc ((![main_v7, main_v36, main_v66, main_v95, main_v125, main_v154, main_v184] : Fin 7 → Ref sig .tc) 5)) = _ := I.v154
  have e6 : V (Proc.devRef .tc ((![main_v7, main_v36, main_v66, main_v95, main_v125, main_v154, main_v184] : Fin 7 → Ref sig .tc) 6)) = _ := I.v184
  rw [e0, e1, e2, e3, e4, e5, e6]
  rfl

end Stretches

theorem after_ops (V : Valuation τ sig (Elt F)) :
    after ops V = after ops7 (after ops6 (after ops5 (after ops4 (after ops3 (after ops2 (after ops1 (after ops0 V))))))) := by
  simp only [ops, StableHlo.after_append]

/-- From launch, the stretches one after the other. -/
theorem at_end (m : (ℓ : Loc nD τ sig) → Buf (Elt F) ℓ) (c : Dev nD) :
    At8 (after ops (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_ops]
  exact step7 _ _ _ _ _ _ _ _ _ _ _ _ _ _ (step6 _ _ _ _ _ _ _ _ _ _ _ _ _ _ (step5 _ _ _ _ _ _ _ _ _ _ _ _ _ _ (step4 _ _ _ _ _ _ _ _ _ _ _ _ _ _
    (step3 _ _ _ _ _ _ _ _ _ _ _ _ _ _ (step2 _ _ _ _ _ _ _ _ _ _ _ _ _ _ (step1 _ _ _ _ _ _ _ _ _ _ _ _ _ _ (step0 _ _ _ _ _ _ _ _ _ _ _ _ _ _
      ⟨rfl, rfl, rfl, rfl, rfl, rfl, rfl, rfl, rfl, rfl, rfl, rfl, rfl⟩)))))))

/-- Every weakly fair execution of @main ends with the result buffer at the last stage of the arguments' launch
    contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v197) = val_main_v197 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => have E := at_end m c
    ⟨(h c main_v197).trans E.v197, (h c main_arg0).trans E.arg0, (h c main_arg1).trans E.arg1, (h c main_arg2).trans E.arg2, (h c main_arg3).trans E.arg3, (h c main_arg4).trans E.arg4, (h c main_arg5).trans E.arg5, (h c main_arg6).trans E.arg6, (h c main_arg7).trans E.arg7, (h c main_arg8).trans E.arg8, (h c main_arg9).trans E.arg9, (h c main_arg10).trans E.arg10, (h c main_arg11).trans E.arg11, (h c main_arg12).trans E.arg12⟩)
    (run_seq scopedRefs_eq scopedSems_eq defs main (fun _ => ops) main_eq (fun _ => ops_sub) m ρ (fun _ => ops_fresh))

end Cert.ReferenceIdeal.RunS

end
-- ==== Proof.RefSide.lean ====
/-
  The reference program's result is the specification's network of its arguments: each group of host operations (the
  affine map, the rectifier, the neighbourhood sum, one layer's two-layer map) is the specification's function for any
  operands, and every later stage unfolds to one of these groups applied to earlier stages.
-/
import proofs.«431182_j60713657696761_1_alg».proof.Proof.RefRead
import proofs.«431182_j60713657696761_1_alg».proof.Proof.RefLemmas
import proofs.«431182_j60713657696761_1_alg».proof.Proof.Spec
import proofs.«431182_j60713657696761_1_alg».proof.Proof.LibRows
import Idealize.ShloMosaic.Lib.ValueIdx
import Idealize.ShloMosaic.Lib.Pipeline.Value
import Idealize.ShloMosaic.PureOps.Ideal.Laws

noncomputable section

open scoped BigOperators

namespace Cert.RefSide

open Cert.ReferenceIdeal Cert.ReferenceIdeal.Gen Cert.ReferenceIdeal.ReadP Idealize.ShloMosaic Idealize.ShloMosaic.ValueIdx

abbrev Nodes (F : FTy → Type) : Type := (⟨S50000x128, .f32⟩ : BufTy).Contents (Elt F)
abbrev Wt (F : FTy → Type) : Type := (⟨S128x128, .f32⟩ : BufTy).Contents (Elt F)
abbrev Bv (F : FTy → Type) : Type := (⟨S128, .f32⟩ : BufTy).Contents (Elt F)
abbrev Edges (F : FTy → Type) : Type := (⟨S2x800000, .i32⟩ : BufTy).Contents (Elt F)
abbrev WStack (F : FTy → Type) : Type := (⟨S6x128x128, .f32⟩ : BufTy).Contents (Elt F)
abbrev BStack (F : FTy → Type) : Type := (⟨S6x128, .f32⟩ : BufTy).Contents (Elt F)

section Stages
variable {F : FTy → Type} [FloatOps F]
  (x0 : Nodes F) (x1 : Edges F) (x3 : Wt F) (x4 : Bv F) (x5 : WStack F) (x6 : BStack F) (x7 : WStack F) (x8 : BStack F)

def reluRef (A : Nodes F) : Nodes F := maximumf A (val_main_call0_v0 (F := F))

def aggRef (ei : Edges F) (h : Nodes F) : Nodes F :=
  Host.scatterAdd scatter_S50000x128_S800000x1_S800000x128_1_0_0_1 (val_main_v15 (F := F)) (val_main_v16 (F := F) ei)
    (Host.gather gather_S50000x128_S800000x1_S800000x128_1_0_n_n_0_1_1128 h (val_main_v13 (F := F) ei))

def layerRef (ei : Edges F) (h : Nodes F) (W1 : Wt F) (b1 : Bv F) (W2 : Wt F) (b2 : Bv F) : Nodes F :=
  val_main_v7 (F := F) (reluRef (val_main_v7 (F := F) (addf h (aggRef ei h)) W1 b1)) W2 b2

theorem z0_def :
    val_main_v35 (F := F) x0 x1 x3 x4 x5 x6 x7 x8 = layerRef x1 (val_main_v7 (F := F) x0 x3 x4) (val_main_v20 (F := F) x5) (val_main_v23 (F := F) x6) (val_main_v29 (F := F) x7) (val_main_v32 (F := F) x8) := rfl
theorem z1_def :
    val_main_v64 (F := F) x0 x1 x3 x4 x5 x6 x7 x8 = layerRef x1 (val_main_v36 (F := F) x0 x1 x3 x4 x5 x6 x7 x8) (val_main_v49 (F := F) x5) (val_main_v52 (F := F) x6) (val_main_v58 (F := F) x7) (val_main_v61 (F := F) x8) := rfl
theorem z2_def :
    val_main_v94 (F := F) x0 x1 x3 x4 x5 x6 x7 x8 = layerRef x1 (val_main_v66 (F := F) x0 x1 x3 x4 x5 x6 x7 x8) (val_main_v79 (F := F) x5) (val_main_v82 (F := F) x6) (val_main_v88 (F := F) x7) (val_main_v91 (F := F) x8) := rfl
theorem z3_def :
    val_main_v123 (F := F) x0 x1 x3 x4 x5 x6 x7 x8 = layerRef x1 (val_main_v95 (F := F) x0 x1 x3 x4 x5 x6 x7 x8) (val_main_v108 (F := F) x5) (val_main_v111 (F := F) x6) (val_main_v117 (F := F) x7) (val_main_v120 (F := F) x8) := rfl
theorem z4_def :
    val_main_v153 (F := F) x0 x1 x3 x4 x5 x6 x7 x8 = layerRef x1 (val_main_v125 (F := F) x0 x1 x3 x4 x5 x6 x7 x8) (val_main_v138 (F := F) x5) (val_main_v141 (F := F) x6) (val_main_v147 (F := F) x7) (val_main_v150 (F := F) x8) := rfl
theorem z5_def :
    val_main_v182 (F := F) x0 x1 x3 x4 x5 x6 x7 x8 = layerRef x1 (val_main_v154 (F := F) x0 x1 x3 x4 x5 x6 x7 x8) (val_main_v167 (F := F) x5) (val_main_v170 (F := F) x6) (val_main_v176 (F := F) x7) (val_main_v179 (F := F) x8) := rfl
theorem h1_def :
    val_main_v36 (F := F) x0 x1 x3 x4 x5 x6 x7 x8 = reluRef (val_main_v35 (F := F) x0 x1 x3 x4 x5 x6 x7 x8) := rfl
theorem r1_def :
    val_main_v65 (F := F) x0 x1 x3 x4 x5 x6 x7 x8 = addf (val_main_v64 (F := F) x0 x1 x3 x4 x5 x6 x7 x8) (val_main_v7 (F := F) x0 x3 x4) := rfl
theorem h2_def :
    val_main_v66 (F := F) x0 x1 x3 x4 x5 x6 x7 x8 = reluRef (val_main_v65 (F := F) x0 x1 x3 x4 x5 x6 x7 x8) := rfl
theorem h3_def :
    val_main_v95 (F := F) x0 x1 x3 x4 x5 x6 x7 x8 = reluRef (val_main_v94 (F := F) x0 x1 x3 x4 x5 x6 x7 x8) := rfl
theorem r3_def :
    val_main_v124 (F := F) x0 x1 x3 x4 x5 x6 x7 x8 = addf (val_main_v123 (F := F) x0 x1 x3 x4 x5 x6 x7 x8) (val_main_v65 (F := F) x0 x1 x3 x4 x5 x6 x7 x8) := rfl
theorem h4_def :
    val_main_v125 (F := F) x0 x1 x3 x4 x5 x6 x7 x8 = reluRef (val_main_v124 (F := F) x0 x1 x3 x4 x5 x6 x7 x8) := rfl
theorem h5_def :
    val_main_v154 (F := F) x0 x1 x3 x4 x5 x6 x7 x8 = reluRef (val_main_v153 (F := F) x0 x1 x3 x4 x5 x6 x7 x8) := rfl
theorem r5_def :
    val_main_v183 (F := F) x0 x1 x3 x4 x5 x6 x7 x8 = addf (val_main_v182 (F := F) x0 x1 x3 x4 x5 x6 x7 x8) (val_main_v124 (F := F) x0 x1 x3 x4 x5 x6 x7 x8) := rfl
theorem h6_def :
    val_main_v184 (F := F) x0 x1 x3 x4 x5 x6 x7 x8 = reluRef (val_main_v183 (F := F) x0 x1 x3 x4 x5 x6 x7 x8) := rfl

theorem src_eq (ei : Edges F) : val_main_v13 (F := F) ei = RefLemmas.srcCol ei :=
  RefLemmas.srcCol_chain ei _ _ _ _ _

theorem dst_eq (ei : Edges F) : val_main_v16 (F := F) ei = RefLemmas.dstCol ei :=
  RefLemmas.dstCol_chain ei _ _ _

end Stages

variable (x0 : Nodes Ideal) (x1 : Edges Ideal) (x2 : (⟨S50000, .i32⟩ : BufTy).Contents (Elt Ideal)) (x3 : Wt Ideal) (x4 : Bv Ideal) (x5 : WStack Ideal) (x6 : BStack Ideal) (x7 : WStack Ideal) (x8 : BStack Ideal)
  (x9 : (⟨S896x128, .f32⟩ : BufTy).Contents (Elt Ideal)) (x10 : Bv Ideal) (x11 : Wt Ideal) (x12 : Bv Ideal)

theorem lidx4_eq (i : S50000x128.Idx) (k : Fin 128) : lidx_main_v4 i k = ix2 (i 0) k :=
  funext fun a => Fin.ext (by match a with | ⟨0, _⟩ => rfl | ⟨1, _⟩ => rfl)
theorem ridx4_eq (i : S50000x128.Idx) (k : Fin 128) : ridx_main_v4 i k = ix2 k (i 1) :=
  funext fun a => Fin.ext (by match a with | ⟨0, _⟩ => rfl | ⟨1, _⟩ => rfl)
theorem bidx6_eq (i : S50000x128.Idx) : idx_main_v5 (idx_main_v6 i) = ix1 (i 1) :=
  funext fun a => Fin.ext (by match a with | ⟨0, _⟩ => rfl)

theorem aff_eq (A : Nodes Ideal) (W : Wt Ideal) (b : Bv Ideal) :
    val_main_v7 (F := Ideal) A W b = Spec.affineN A W (Spec.row b) := by
  funext i
  rw [val_main_v7_apply, val_main_v4_apply, val_main_v6_apply, val_main_v5_apply]
  simp only [lidx4_eq, ridx4_eq, bidx6_eq]
  rfl

theorem reluRef_eq (A : Nodes Ideal) : reluRef (F := Ideal) A = Spec.relu A := by
  funext i
  show max (A i) (val_main_call0_v0 (F := Ideal) i) = max (A i) 0
  rw [val_main_call0_v0_apply, val_main_call0_cst_apply, Ideal.ofBits_def, Ideal.ofBits_zero_f32]

theorem zeros15 (j : S50000x128.Idx) : val_main_v15 (F := Ideal) j = 0 := by
  rw [val_main_v15_apply, val_main_cst_apply, Ideal.ofBits_def, Ideal.ofBits_zero_f32]

theorem aggRef_eq (ei : Edges Ideal) (h : Nodes Ideal) : aggRef (F := Ideal) ei h = Spec.agg ei h := by
  unfold aggRef
  rw [src_eq, dst_eq]
  exact RefLemmas.agg_rows _ rfl rfl rfl rfl rfl _ rfl rfl rfl rfl ei h _ zeros15

theorem layerRef_eq (ei : Edges Ideal) (h : Nodes Ideal) (W1 : Wt Ideal) (b1 : Bv Ideal) (W2 : Wt Ideal) (b2 : Bv Ideal) :
    layerRef (F := Ideal) ei h W1 b1 W2 b2 = Spec.layerZ h (Spec.agg ei h) W1 (Spec.row b1) W2 (Spec.row b2) := by
  unfold layerRef
  rw [aff_eq, reluRef_eq, aff_eq, aggRef_eq]
  rfl

theorem w1_0 : val_main_v20 (F := Ideal) x5 = Spec.W6 x5 0 :=
  RefLemmas.weight_slice 0 (by norm_num) x5 _ _
theorem b1_0 : Spec.row (val_main_v23 (F := Ideal) x6) = Spec.B6 x6 0 :=
  congrArg Spec.row (RefLemmas.bias_slice 0 (by norm_num) x6 _ _)
theorem w2_0 : val_main_v29 (F := Ideal) x7 = Spec.W6 x7 0 :=
  RefLemmas.weight_slice 0 (by norm_num) x7 _ _
theorem b2_0 : Spec.row (val_main_v32 (F := Ideal) x8) = Spec.B6 x8 0 :=
  congrArg Spec.row (RefLemmas.bias_slice 0 (by norm_num) x8 _ _)
theorem w1_1 : val_main_v49 (F := Ideal) x5 = Spec.W6 x5 1 :=
  RefLemmas.weight_slice 1 (by norm_num) x5 _ _
theorem b1_1 : Spec.row (val_main_v52 (F := Ideal) x6) = Spec.B6 x6 1 :=
  congrArg Spec.row (RefLemmas.bias_slice 1 (by norm_num) x6 _ _)
theorem w2_1 : val_main_v58 (F := Ideal) x7 = Spec.W6 x7 1 :=
  RefLemmas.weight_slice 1 (by norm_num) x7 _ _
theorem b2_1 : Spec.row (val_main_v61 (F := Ideal) x8) = Spec.B6 x8 1 :=
  congrArg Spec.row (RefLemmas.bias_slice 1 (by norm_num) x8 _ _)
theorem w1_2 : val_main_v79 (F := Ideal) x5 = Spec.W6 x5 2 :=
  RefLemmas.weight_slice 2 (by norm_num) x5 _ _
theorem b1_2 : Spec.row (val_main_v82 (F := Ideal) x6) = Spec.B6 x6 2 :=
  congrArg Spec.row (RefLemmas.bias_slice 2 (by norm_num) x6 _ _)
theorem w2_2 : val_main_v88 (F := Ideal) x7 = Spec.W6 x7 2 :=
  RefLemmas.weight_slice 2 (by norm_num) x7 _ _
theorem b2_2 : Spec.row (val_main_v91 (F := Ideal) x8) = Spec.B6 x8 2 :=
  congrArg Spec.row (RefLemmas.bias_slice 2 (by norm_num) x8 _ _)
theorem w1_3 : val_main_v108 (F := Ideal) x5 = Spec.W6 x5 3 :=
  RefLemmas.weight_slice 3 (by norm_num) x5 _ _
theorem b1_3 : Spec.row (val_main_v111 (F := Ideal) x6) = Spec.B6 x6 3 :=
  congrArg Spec.row (RefLemmas.bias_slice 3 (by norm_num) x6 _ _)
theorem w2_3 : val_main_v117 (F := Ideal) x7 = Spec.W6 x7 3 :=
  RefLemmas.weight_slice 3 (by norm_num) x7 _ _
theorem b2_3 : Spec.row (val_main_v120 (F := Ideal) x8) = Spec.B6 x8 3 :=
  congrArg Spec.row (RefLemmas.bias_slice 3 (by norm_num) x8 _ _)
theorem w1_4 : val_main_v138 (F := Ideal) x5 = Spec.W6 x5 4 :=
  RefLemmas.weight_slice 4 (by norm_num) x5 _ _
theorem b1_4 : Spec.row (val_main_v141 (F := Ideal) x6) = Spec.B6 x6 4 :=
  congrArg Spec.row (RefLemmas.bias_slice 4 (by norm_num) x6 _ _)
theorem w2_4 : val_main_v147 (F := Ideal) x7 = Spec.W6 x7 4 :=
  RefLemmas.weight_slice 4 (by norm_num) x7 _ _
theorem b2_4 : Spec.row (val_main_v150 (F := Ideal) x8) = Spec.B6 x8 4 :=
  congrArg Spec.row (RefLemmas.bias_slice 4 (by norm_num) x8 _ _)
theorem w1_5 : val_main_v167 (F := Ideal) x5 = Spec.W6 x5 5 :=
  RefLemmas.weight_slice 5 (by norm_num) x5 _ _
theorem b1_5 : Spec.row (val_main_v170 (F := Ideal) x6) = Spec.B6 x6 5 :=
  congrArg Spec.row (RefLemmas.bias_slice 5 (by norm_num) x6 _ _)
theorem w2_5 : val_main_v176 (F := Ideal) x7 = Spec.W6 x7 5 :=
  RefLemmas.weight_slice 5 (by norm_num) x7 _ _
theorem b2_5 : Spec.row (val_main_v179 (F := Ideal) x8) = Spec.B6 x8 5 :=
  congrArg Spec.row (RefLemmas.bias_slice 5 (by norm_num) x8 _ _)

theorem h1_eq :
    val_main_v36 (F := Ideal) x0 x1 x3 x4 x5 x6 x7 x8 = Spec.relu (Spec.layerZ (val_main_v7 (F := Ideal) x0 x3 x4) (Spec.agg x1 (val_main_v7 (F := Ideal) x0 x3 x4)) (Spec.W6 x5 0) (Spec.B6 x6 0) (Spec.W6 x7 0) (Spec.B6 x8 0)) := by
  rw [h1_def, reluRef_eq, z0_def, layerRef_eq, w1_0, b1_0, w2_0, b2_0]

theorem r1_eq :
    val_main_v65 (F := Ideal) x0 x1 x3 x4 x5 x6 x7 x8 = Spec.addN (Spec.layerZ (val_main_v36 (F := Ideal) x0 x1 x3 x4 x5 x6 x7 x8) (Spec.agg x1 (val_main_v36 (F := Ideal) x0 x1 x3 x4 x5 x6 x7 x8)) (Spec.W6 x5 1) (Spec.B6 x6 1) (Spec.W6 x7 1) (Spec.B6 x8 1)) (val_main_v7 (F := Ideal) x0 x3 x4) := by
  rw [r1_def, z1_def, layerRef_eq, w1_1, b1_1, w2_1, b2_1]
  rfl

theorem h2_eq :
    val_main_v66 (F := Ideal) x0 x1 x3 x4 x5 x6 x7 x8 = Spec.relu (val_main_v65 (F := Ideal) x0 x1 x3 x4 x5 x6 x7 x8) := by
  rw [h2_def, reluRef_eq]

theorem h3_eq :
    val_main_v95 (F := Ideal) x0 x1 x3 x4 x5 x6 x7 x8 = Spec.relu (Spec.layerZ (val_main_v66 (F := Ideal) x0 x1 x3 x4 x5 x6 x7 x8) (Spec.agg x1 (val_main_v66 (F := Ideal) x0 x1 x3 x4 x5 x6 x7 x8)) (Spec.W6 x5 2) (Spec.B6 x6 2) (Spec.W6 x7 2) (Spec.B6 x8 2)) := by
  rw [h3_def, reluRef_eq, z2_def, layerRef_eq, w1_2, b1_2, w2_2, b2_2]

theorem r3_eq :
    val_main_v124 (F := Ideal) x0 x1 x3 x4 x5 x6 x7 x8 = Spec.addN (Spec.layerZ (val_main_v95 (F := Ideal) x0 x1 x3 x4 x5 x6 x7 x8) (Spec.agg x1 (val_main_v95 (F := Ideal) x0 x1 x3 x4 x5 x6 x7 x8)) (Spec.W6 x5 3) (Spec.B6 x6 3) (Spec.W6 x7 3) (Spec.B6 x8 3)) (val_main_v65 (F := Ideal) x0 x1 x3 x4 x5 x6 x7 x8) := by
  rw [r3_def, z3_def, layerRef_eq, w1_3, b1_3, w2_3, b2_3]
  rfl

theorem h4_eq :
    val_main_v125 (F := Ideal) x0 x1 x3 x4 x5 x6 x7 x8 = Spec.relu (val_main_v124 (F := Ideal) x0 x1 x3 x4 x5 x6 x7 x8) := by
  rw [h4_def, reluRef_eq]

theorem h5_eq :
    val_main_v154 (F := Ideal) x0 x1 x3 x4 x5 x6 x7 x8 = Spec.relu (Spec.layerZ (val_main_v125 (F := Ideal) x0 x1 x3 x4 x5 x6 x7 x8) (Spec.agg x1 (val_main_v125 (F := Ideal) x0 x1 x3 x4 x5 x6 x7 x8)) (Spec.W6 x5 4) (Spec.B6 x6 4) (Spec.W6 x7 4) (Spec.B6 x8 4)) := by
  rw [h5_def, reluRef_eq, z4_def, layerRef_eq, w1_4, b1_4, w2_4, b2_4]

theorem r5_eq :
    val_main_v183 (F := Ideal) x0 x1 x3 x4 x5 x6 x7 x8 = Spec.addN (Spec.layerZ (val_main_v154 (F := Ideal) x0 x1 x3 x4 x5 x6 x7 x8) (Spec.agg x1 (val_main_v154 (F := Ideal) x0 x1 x3 x4 x5 x6 x7 x8)) (Spec.W6 x5 5) (Spec.B6 x6 5) (Spec.W6 x7 5) (Spec.B6 x8 5)) (val_main_v124 (F := Ideal) x0 x1 x3 x4 x5 x6 x7 x8) := by
  rw [r5_def, z5_def, layerRef_eq, w1_5, b1_5, w2_5, b2_5]
  rfl

theorem h6_eq :
    val_main_v184 (F := Ideal) x0 x1 x3 x4 x5 x6 x7 x8 = Spec.relu (val_main_v183 (F := Ideal) x0 x1 x3 x4 x5 x6 x7 x8) := by
  rw [h6_def, reluRef_eq]

theorem emb_eq :
    val_main_v185 (F := Ideal) x0 x1 x3 x4 x5 x6 x7 x8 = Spec.emb7 (val_main_v7 (F := Ideal) x0 x3 x4) (val_main_v36 (F := Ideal) x0 x1 x3 x4 x5 x6 x7 x8) (val_main_v66 (F := Ideal) x0 x1 x3 x4 x5 x6 x7 x8) (val_main_v95 (F := Ideal) x0 x1 x3 x4 x5 x6 x7 x8) (val_main_v125 (F := Ideal) x0 x1 x3 x4 x5 x6 x7 x8) (val_main_v154 (F := Ideal) x0 x1 x3 x4 x5 x6 x7 x8) (val_main_v184 (F := Ideal) x0 x1 x3 x4 x5 x6 x7 x8) :=
  RefLemmas.concat7 _ _ _ _ _ _ _ _

theorem zeros186 (j : S128x896.Idx) : val_main_v186 (F := Ideal) j = 0 := by
  rw [val_main_v186_apply, val_main_cst_16_apply, Ideal.ofBits_def, Ideal.ofBits_zero_f32]

theorem pool_eq :
    val_main_v188 (F := Ideal) x0 x1 x2 x3 x4 x5 x6 x7 x8 = Spec.pool (Spec.col x2) (val_main_v185 (F := Ideal) x0 x1 x3 x4 x5 x6 x7 x8) := by
  unfold val_main_v188
  rw [show val_main_v187 (F := Ideal) x2 = Spec.col x2 from RefLemmas.col_bcast x2 _]
  exact RefLemmas.pool_rows _ rfl rfl rfl rfl _ zeros186 _ _

theorem lidx189_eq (i : S128x128.Idx) (k : Fin 128) (l : Fin 896) : lidx_main_v189 (lidx_main_v194 i k) l = ix2 (i 0) l :=
  funext fun a => Fin.ext (by match a with | ⟨0, _⟩ => rfl | ⟨1, _⟩ => rfl)
theorem ridx189_eq (i : S128x128.Idx) (k : Fin 128) (l : Fin 896) : ridx_main_v189 (lidx_main_v194 i k) l = ix2 l k :=
  funext fun a => Fin.ext (by match a with | ⟨0, _⟩ => rfl | ⟨1, _⟩ => rfl)
theorem bidx191_eq (i : S128x128.Idx) (k : Fin 128) : idx_main_v190 (idx_main_v191 (lidx_main_v194 i k)) = ix1 k :=
  funext fun a => Fin.ext (by match a with | ⟨0, _⟩ => rfl)
theorem ridx194_eq (i : S128x128.Idx) (k : Fin 128) : ridx_main_v194 i k = ix2 k (i 1) :=
  funext fun a => Fin.ext (by match a with | ⟨0, _⟩ => rfl | ⟨1, _⟩ => rfl)
theorem bidx196_eq (i : S128x128.Idx) : idx_main_v195 (idx_main_v196 i) = ix1 (i 1) :=
  funext fun a => Fin.ext (by match a with | ⟨0, _⟩ => rfl)

theorem post_eq :
    val_main_v197 (F := Ideal) x0 x1 x2 x3 x4 x5 x6 x7 x8 x9 x10 x11 x12
      = Spec.post (val_main_v188 (F := Ideal) x0 x1 x2 x3 x4 x5 x6 x7 x8) x9 (Spec.row x10) x11 (Spec.row x12) := by
  funext i
  rw [val_main_v197_apply, val_main_v194_apply, val_main_v196_apply, val_main_v195_apply]
  simp only [val_main_v193_apply, val_main_v192_apply, val_main_v189_apply, val_main_v191_apply, val_main_v190_apply,
    val_main_call12_v0_apply, val_main_call12_cst_apply, Ideal.ofBits_def, Ideal.ofBits_zero_f32,
    lidx189_eq, ridx189_eq, bidx191_eq, ridx194_eq, bidx196_eq]
  rfl

theorem result_eq (x : FVec Ideal S50000x128 .f32) (ei : IVec S2x800000 32) (batch : IVec S50000 32)
    (preW : FVec Ideal S128x128 .f32) (preB : FVec Ideal S128 .f32)
    (cw1 : FVec Ideal S6x128x128 .f32) (cb1 : FVec Ideal S6x128 .f32)
    (cw2 : FVec Ideal S6x128x128 .f32) (cb2 : FVec Ideal S6x128 .f32)
    (qw1 : FVec Ideal S896x128 .f32) (qb1 : FVec Ideal S128 .f32)
    (qw2 : FVec Ideal S128x128 .f32) (qb2 : FVec Ideal S128 .f32) :
    Cert.ReferenceIdeal.ReadP.val_main_v197 (F := Ideal) x ei batch preW preB cw1 cb1 cw2 cb2 qw1 qb1 qw2 qb2
      = Cert.Spec.net (Cert.Spec.agg ei) x (Cert.Spec.col batch) preW (Cert.Spec.row preB) (Cert.Spec.W6 cw1)
          (Cert.Spec.W6 cw2) (Cert.Spec.B6 cb1) (Cert.Spec.B6 cb2) qw1 (Cert.Spec.row qb1) qw2 (Cert.Spec.row qb2) := by
  rw [post_eq, pool_eq, emb_eq, h6_eq, r5_eq, h5_eq, h4_eq, r3_eq, h3_eq, h2_eq, r1_eq, h1_eq, aff_eq]
  rfl

end Cert.RefSide

end
-- ==== Proof.lean ====
/-
  The three programs run to the end without a fault and leave their arguments as launched; no idealization rewrite was
  applied, so nothing is owed for it; and the idealized kernel and the idealized reference, from memories agreeing on
  the thirteen arguments, both end at the specification's network of the arguments.
-/
import proofs.«431182_j60713657696761_1_alg».proof.Defs
import proofs.«431182_j60713657696761_1_alg».proof.Proof.Gen.Kernel
import proofs.«431182_j60713657696761_1_alg».proof.Proof.Gen.KernelIdeal
import proofs.«431182_j60713657696761_1_alg».proof.Proof.Gen.ReferenceIdeal
import proofs.«431182_j60713657696761_1_alg».proof.Proof.Gen.Pre_finite_inputs
import proofs.«431182_j60713657696761_1_alg».proof.Proof.K.Run
import proofs.«431182_j60713657696761_1_alg».proof.Proof.KI.Run
import proofs.«431182_j60713657696761_1_alg».proof.Proof.Val.Chain
import proofs.«431182_j60713657696761_1_alg».proof.Proof.RefRunS
import proofs.«431182_j60713657696761_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_all m ρ

theorem frame_ki : Cert.frame_KernelIdeal := fun m ρ _ => Cert.KernelIdeal.Hand.frame_all m ρ

theorem frame_ri : Cert.frame_ReferenceIdeal := fun m ρ _ =>
  (θ_run Cert.ReferenceIdeal.defs _ _).mono (fun _ h c => (h c).2) (Cert.ReferenceIdeal.RunS.run (F := Ideal) m ρ)

theorem algebraic : Cert.algebraic_KernelIdeal_ReferenceIdeal := by
  intro m ρ m' ρ' _ hagree
  refine ⟨fun c => Cert.KernelIdeal.Hand.W16 (F := Ideal) m c (Proc.devRef .tc Cert.KernelIdeal.main_v135), Cert.KernelIdeal.Hand.result_all (F := Ideal) m ρ, ?_⟩
  refine (θ_run Cert.ReferenceIdeal.defs _ _).mono (fun _ h c => ⟨(h c).1.trans ?_, (h c).2⟩)
    (Cert.ReferenceIdeal.RunS.run (F := Ideal) m' ρ')
  show _ = Cert.KernelIdeal.Hand.W16 (F := Ideal) m c (Proc.devRef .tc Cert.KernelIdeal.main_v135)
  rw [Cert.KernelIdeal.Val.result_eq m c, Cert.RefSide.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
